-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_
  natLt_1_32 : 1 < 32

variable [Facts]

def fn_part2 {F : FTy → Type} [FloatOps F] (main_arg1 : FVec F S10000x10000 .f32) (main_v28 : IVec S_ 1) (main_v33 : IVec S10000x10000 1) : IVec S_ 1 :=
  let main_c_12 : IVec S_ 1 := constantI S_ 1 1#1
  let main_v34 : IVec S_ 1 := (fun x v => Host.reduce IntOp.andi x v reducesTo_S10000x10000_S_d0_1 h_S_) main_v33 main_c_12
  let main_v35 : IVec S_ 1 := andi main_v28 main_v34
  let main_cst_13 : FVec F S_ .f32 := constant S_ .f32 0x00000000#32
  let main_v36 : FVec F S10000x10000 .f32 := broadcastInDim S10000x10000 ![] bcast_S_S10000x10000 main_cst_13
  let main_v37 : IVec S10000x10000 1 := cmpf .une main_arg1 main_v36
  let main_v38 : IVec S10000x10000 32 := (extui 32 · natLt_1_32) main_v37
  let main_c_14 : IVec S_ 32 := constantI S_ 32 0#32
  let main_v39 : IVec S_ 32 := (fun x v => Host.reduce IntOp.addi x v reducesTo_S10000x10000_S_d0_1 h_S_) main_v38 main_c_14
  let main_c_15 : IVec S_ 32 := constantI S_ 32 320000#32
  let main_v40 : IVec S_ 1 := cmpi .sle main_v39 main_c_15
  let main_v41 : IVec S_ 1 := andi main_v35 main_v40
  main_v41

def fn_part1 {F : FTy → Type} [FloatOps F] (main_arg1 : FVec F S10000x10000 .f32) (main_arg4 : FVec F S16x40 .f32) (main_arg5 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg4
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_cst_10 : FVec F S_ .f32 := constant S_ .f32 0x00000000#32
  let main_v29 : FVec F S10000x10000 .f32 := broadcastInDim S10000x10000 ![] bcast_S_S10000x10000 main_cst_10
  let main_v30 : IVec S10000x10000 1 := cmpf .oeq main_arg1 main_v29
  let main_cst_11 : FVec F S_ .f32 := constant S_ .f32 0x3F800000#32
  let main_v31 : FVec F S10000x10000 .f32 := broadcastInDim S10000x10000 ![] bcast_S_S10000x10000 main_cst_11
  let main_v32 : IVec S10000x10000 1 := cmpf .oeq main_arg1 main_v31
  let main_v33 : IVec S10000x10000 1 := ori main_v30 main_v32
  fn_part2 (F := F) main_arg1 main_v28 main_v33

def fn {F : FTy → Type} [FloatOps F] (main_arg0 : FVec F S10000x128 .f32) (main_arg1 : FVec F S10000x10000 .f32) (main_arg2 : FVec F S128x16 .f32) (main_arg3 : FVec F S16 .f32) (main_arg4 : FVec F S16x40 .f32) (main_arg5 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg4 main_arg5 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S1x10000 : Shape := ⟨2, ![1, 10000]⟩
abbrev S200x10000 : Shape := ⟨2, ![200, 10000]⟩
abbrev S10000 : Shape := ⟨1, ![10000]⟩
abbrev S10000x1 : Shape := ⟨2, ![10000, 1]⟩
abbrev S1x16 : Shape := ⟨2, ![1, 16]⟩
abbrev S10000x40 : Shape := ⟨2, ![10000, 40]⟩
abbrev S200x128 : Shape := ⟨2, ![200, 128]⟩
abbrev S200x1 : Shape := ⟨2, ![200, 1]⟩
abbrev S10000x16 : Shape := ⟨2, ![10000, 16]⟩
abbrev S200x16 : Shape := ⟨2, ![200, 16]⟩
abbrev S1x40 : Shape := ⟨2, ![1, 40]⟩
abbrev S200x40 : Shape := ⟨2, ![200, 40]⟩

abbrev nBuf : Space → Nat
  | .hbm => 12
  | .vmem => 23
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x10000, .f32⟩
  | .hbm, ⟨7, _⟩ => ⟨S10000x1, .f32⟩
  | .hbm, ⟨8, _⟩ => ⟨S1x16, .f32⟩
  | .hbm, ⟨9, _⟩ => ⟨S10000x40, .f32⟩
  | .hbm, ⟨10, _⟩ => ⟨S1x40, .f32⟩
  | .hbm, ⟨11, _⟩ => ⟨S10000x40, .f32⟩
  | .local _ .vmem, ⟨0, _⟩ => ⟨S200x10000, .f32⟩
  | .local _ .vmem, ⟨1, _⟩ => ⟨S200x10000, .f32⟩
  | .local _ .vmem, ⟨2, _⟩ => ⟨S1x10000, .f32⟩
  | .local _ .vmem, ⟨3, _⟩ => ⟨S200x10000, .f32⟩
  | .local _ .vmem, ⟨4, _⟩ => ⟨S200x10000, .f32⟩
  | .local _ .vmem, ⟨5, _⟩ => ⟨S200x128, .f32⟩
  | .local _ .vmem, ⟨6, _⟩ => ⟨S200x128, .f32⟩
  | .local _ .vmem, ⟨7, _⟩ => ⟨S128x16, .f32⟩
  | .local _ .vmem, ⟨8, _⟩ => ⟨S1x16, .f32⟩
  | .local _ .vmem, ⟨9, _⟩ => ⟨S16x40, .f32⟩
  | .local _ .vmem, ⟨10, _⟩ => ⟨S200x1, .f32⟩
  | .local _ .vmem, ⟨11, _⟩ => ⟨S200x1, .f32⟩
  | .local _ .vmem, ⟨12, _⟩ => ⟨S10000x1, .f32⟩
  | .local _ .vmem, ⟨13, _⟩ => ⟨S10000x40, .f32⟩
  | .local _ .vmem, ⟨14, _⟩ => ⟨S10000x16, .f32⟩
  | .local _ .vmem, ⟨15, _⟩ => ⟨S200x10000, .f32⟩
  | .local _ .vmem, ⟨16, _⟩ => ⟨S200x10000, .f32⟩
  | .local _ .vmem, ⟨17, _⟩ => ⟨S200x40, .f32⟩
  | .local _ .vmem, ⟨18, _⟩ => ⟨S200x40, .f32⟩
  | .local _ .vmem, ⟨19, _⟩ => ⟨S1x40, .f32⟩
  | .local _ .vmem, ⟨20, _⟩ => ⟨S10000x1, .f32⟩
  | .local _ .vmem, ⟨21, _⟩ => ⟨S10000x40, .f32⟩
  | .local _ .vmem, ⟨22, _⟩ => ⟨S10000x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg7_0 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc1_sem6_0 : DmaSem sig := 12
abbrev cc1_sem7_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![50], ![false]⟩

def k1_off1 (i : grid1.Coords) : Fin 2 → Nat :=
  let arg0 : BitVec 32 := BitVec.ofNat 32 (i 0).val
  let c200_i32 : BitVec 32 := 200#32
  let v17 : BitVec 32 := Scalar.muli arg0 c200_i32
  let v18 : Index := Scalar.indexCast v17
  let c0_13 : Index := 0#32
  ![v18.toNat, 0]
def k1_cond2 (i : grid1.Coords) : BitVec 1 :=
  let arg0 : BitVec 32 := BitVec.ofNat 32 (i 0).val
  let c49_i32 : BitVec 32 := 49#32
  let v25 : BitVec 1 := Scalar.cmpi .eq arg0 c49_i32
  let v26 : BitVec 32 := Scalar.extui v25
  let c0_i32_15 : BitVec 32 := 0#32
  let v27 : BitVec 1 := Scalar.cmpi .ne v26 c0_i32_15
  v27

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S10000x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S10000x40 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![50], ![false]⟩

def k2_off1 (i : grid2.Coords) : Fin 2 → Nat :=
  let arg0 : BitVec 32 := BitVec.ofNat 32 (i 0).val
  let c200_i32 : BitVec 32 := 200#32
  let v12 : BitVec 32 := Scalar.muli arg0 c200_i32
  let v13 : Index := Scalar.indexCast v12
  let c0_8 : Index := 0#32
  ![v13.toNat, 0]
def k2_cond2 (i : grid2.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_10 : BitVec 32 := 0#32
  let v22 : BitVec 1 := Scalar.cmpi .ne v21 c0_i32_10
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10000x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S10000x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  inb_S200x10000_S200x10000_0_0 : ∀ a, (![0, 0] : Fin 2 → Nat) a + S200x10000.size a ≤ S200x10000.size a
  h_S200x10000 : 0 < S200x10000.numel
  reduces_S200x10000_S10000 : S200x10000.Reduces [0] S10000
  shapeCasts_S10000_S1x10000 : S10000.ShapeCasts S1x10000
  shapeCasts_S1x10000_S10000x1 : S1x10000.ShapeCasts S10000x1
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S200x128_S200x128_0_0 : ∀ a, (![0, 0] : Fin 2 → Nat) a + S200x128.size a ≤ S200x128.size a
  h_S200x128 : 0 < S200x128.numel
  inb_S128x16_S128x16_0_0 : ∀ a, (![0, 0] : Fin 2 → Nat) a + S128x16.size a ≤ S128x16.size a
  h_S128x16 : 0 < S128x16.numel
  inb_S200x1_S200x1_0_0 : ∀ a, (![0, 0] : Fin 2 → Nat) a + S200x1.size a ≤ S200x1.size a
  h_S200x1 : 0 < S200x1.numel
  shapeCasts_S200x1_S200x1 : S200x1.ShapeCasts S200x1
  broadcasts_S200x1_S200x16 : S200x1.Broadcasts S200x16
  h_S200x16 : 0 < S200x16.numel
  shapeCasts_S200x16_S200x16 : S200x16.ShapeCasts S200x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x40_S16x40_0_0 : ∀ a, (![0, 0] : Fin 2 → Nat) a + S16x40.size a ≤ S16x40.size a
  h_S16x40 : 0 < S16x40.numel
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  shapeCasts_S40_S1x40 : S40.ShapeCasts S1x40
  shapeCasts_S10000x40_S10000x40 : S10000x40.ShapeCasts S10000x40
  inb_S200x40_S200x40_0_0 : ∀ a, (![0, 0] : Fin 2 → Nat) a + S200x40.size a ≤ S200x40.size a
  h_S200x40 : 0 < S200x40.numel
  shapeCasts_S200x40_S200x40 : S200x40.ShapeCasts S200x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  dot_S200x128_S128x16_S200x16_1_0_0_1_n_n_wf : DotDims.WF S200x128 S128x16 S200x16 [1] [0] [0] [1] [] []
  dot_S200x10000_S200x16_S10000x16_0_0_1_1_n_n_wf : DotDims.WF S200x10000 S200x16 S10000x16 [0] [0] [1] [1] [] []
  dot_S10000x16_S16x40_S10000x40_1_0_0_1_n_n_wf : DotDims.WF S10000x16 S16x40 S10000x40 [1] [0] [0] [1] [] []
  dot_S200x10000_S200x40_S10000x40_0_0_1_1_n_n_wf : DotDims.WF S200x10000 S200x40 S10000x40 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10000.size a ≤ S1x10000.size a
  hwx0_1 : ∀ i : grid0.Coords, EltTy.bits .f32 = 32 ∨ (Rect.block (s := S1x10000) S1x10000.size (cc0_transform_1 i) (hinb0_1 i)).WholeWords (EltTy.packing .f32)
  hrank1 : 0 < grid1.rank
  k1_off1_inb : ∀ i : grid1.Coords, ∀ a, (k1_off1 i) a + S200x16.size a ≤ S10000x16.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x128.size a ≤ S10000x128.size a
  hwx1_1 : ∀ i : grid1.Coords, EltTy.bits .f32 = 32 ∨ (Rect.block (s := S10000x128) S200x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .f32 = 32 ∨ (Rect.block (s := S128x16) S128x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x40.size a ≤ S16x40.size a
  hwx1_4 : ∀ i : grid1.Coords, EltTy.bits .f32 = 32 ∨ (Rect.block (s := S16x40) S16x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x1.size a ≤ S10000x1.size a
  hwx1_5 : ∀ i : grid1.Coords, EltTy.bits .f32 = 32 ∨ (Rect.block (s := S10000x1) S200x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S10000x1.size a ≤ S10000x1.size a
  hwx1_6 : ∀ i : grid1.Coords, EltTy.bits .f32 = 32 ∨ (Rect.block (s := S10000x1) S10000x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S10000x40.size a ≤ S10000x40.size a
  hwx1_7 : ∀ i : grid1.Coords, EltTy.bits .f32 = 32 ∨ (Rect.block (s := S10000x40) S10000x40.size (cc1_transform_7 i) (hinb1_7 i)).WholeWords (EltTy.packing .f32)
  hrank2 : 0 < grid2.rank
  k2_off1_inb : ∀ i : grid2.Coords, ∀ a, (k2_off1 i) a + S200x40.size a ≤ S10000x40.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x40.size a ≤ S10000x40.size a
  hwx2_1 : ∀ i : grid2.Coords, EltTy.bits .f32 = 32 ∨ (Rect.block (s := S10000x40) S200x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S10000x1.size a
  hwx2_3 : ∀ i : grid2.Coords, EltTy.bits .f32 = 32 ∨ (Rect.block (s := S10000x1) S10000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S10000x40.size a ≤ S10000x40.size a
  hwx2_4 : ∀ i : grid2.Coords, EltTy.bits .f32 = 32 ∨ (Rect.block (s := S10000x40) S10000x40.size (cc2_transform_4 i) (hinb2_4 i)).WholeWords (EltTy.packing .f32)

variable [Facts₀]

def dot_S200x128_S128x16_S200x16_1_0_0_1_n_n : DotDims S200x128 S128x16 S200x16 where
  lhsContracting := [1]
  rhsContracting := [0]
  lhsNonContracting := [0]
  rhsNonContracting := [1]
  lhsBatch := []
  rhsBatch := []
  wf := dot_S200x128_S128x16_S200x16_1_0_0_1_n_n_wf
def dot_S200x10000_S200x16_S10000x16_0_0_1_1_n_n : DotDims S200x10000 S200x16 S10000x16 where
  lhsContracting := [0]
  rhsContracting := [0]
  lhsNonContracting := [1]
  rhsNonContracting := [1]
  lhsBatch := []
  rhsBatch := []
  wf := dot_S200x10000_S200x16_S10000x16_0_0_1_1_n_n_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def dot_S200x10000_S200x40_S10000x40_0_0_1_1_n_n : DotDims S200x10000 S200x40 S10000x40 where
  lhsContracting := [0]
  rhsContracting := [0]
  lhsNonContracting := [1]
  rhsNonContracting := [1]
  lhsBatch := []
  rhsBatch := []
  wf := dot_S200x10000_S200x40_S10000x40_0_0_1_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x10000.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S200x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1) S10000x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S10000x40.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S200x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S10000x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S10000x40.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩
abbrev S100000000 : Shape := ⟨1, ![100000000]⟩
abbrev S320000 : Shape := ⟨1, ![320000]⟩
abbrev S100000000x1 : Shape := ⟨2, ![100000000, 1]⟩
abbrev S10000 : Shape := ⟨1, ![10000]⟩
abbrev S330000 : Shape := ⟨1, ![330000]⟩
abbrev S10000x16 : Shape := ⟨2, ![10000, 16]⟩
abbrev S330000x1 : Shape := ⟨2, ![330000, 1]⟩
abbrev S330000x16 : Shape := ⟨2, ![330000, 16]⟩
abbrev S1x16 : Shape := ⟨2, ![1, 16]⟩
abbrev S10000x40 : Shape := ⟨2, ![10000, 40]⟩
abbrev S330000x40 : Shape := ⟨2, ![330000, 40]⟩
abbrev S1x40 : Shape := ⟨2, ![1, 40]⟩
abbrev S10000x1 : Shape := ⟨2, ![10000, 1]⟩

abbrev nBuf : Space → Nat
  | .hbm => 259
  | .vmem => 0
  | .smem => 0
  | _ => 0

abbrev hbmTy0_0 (i : Nat) : BufTy := match i % 128 with
  | 0 => ⟨S10000x128, .f32⟩
  | 1 => ⟨S10000x10000, .f32⟩
  | 2 => ⟨S128x16, .f32⟩
  | 3 => ⟨S16, .f32⟩
  | 4 => ⟨S16x40, .f32⟩
  | 5 => ⟨S40, .f32⟩
  | 6 => ⟨S_, .f32⟩
  | 7 => ⟨S10000x10000, .f32⟩
  | 8 => ⟨S10000x10000, .i1⟩
  | 9 => ⟨S100000000, .i1⟩
  | 10 => ⟨S100000000, .i32⟩
  | 11 => ⟨S_, .i32⟩
  | 12 => ⟨S_, .i32⟩
  | 13 => ⟨S100000000, .i32⟩
  | 14 => ⟨S_, .i32⟩
  | 15 => ⟨S320000, .i32⟩
  | 16 => ⟨S_, .i32⟩
  | 17 => ⟨S_, .i32⟩
  | 18 => ⟨S100000000, .i32⟩
  | 19 => ⟨S100000000, .i32⟩
  | 20 => ⟨S_, .i32⟩
  | 21 => ⟨S100000000, .i32⟩
  | 22 => ⟨S100000000, .i1⟩
  | 23 => ⟨S_, .i32⟩
  | 24 => ⟨S100000000, .i32⟩
  | 25 => ⟨S100000000, .i32⟩
  | 26 => ⟨S100000000, .i32⟩
  | 27 => ⟨S100000000x1, .i32⟩
  | 28 => ⟨S_, .i32⟩
  | 29 => ⟨S100000000, .i32⟩
  | 30 => ⟨S320000, .i32⟩
  | 31 => ⟨S_, .i32⟩
  | 32 => ⟨S_, .i32⟩
  | 33 => ⟨S320000, .i32⟩
  | 34 => ⟨S_, .i32⟩
  | 35 => ⟨S320000, .i32⟩
  | 36 => ⟨S320000, .i32⟩
  | 37 => ⟨S320000, .i32⟩
  | 38 => ⟨S_, .i32⟩
  | 39 => ⟨S320000, .i32⟩
  | 40 => ⟨S320000, .i1⟩
  | 41 => ⟨S320000, .i32⟩
  | 42 => ⟨S320000, .i32⟩
  | 43 => ⟨S_, .i32⟩
  | 44 => ⟨S320000, .i32⟩
  | 45 => ⟨S320000, .i1⟩
  | 46 => ⟨S320000, .i1⟩
  | 47 => ⟨S_, .i32⟩
  | 48 => ⟨S320000, .i32⟩
  | 49 => ⟨S320000, .i32⟩
  | 50 => ⟨S320000, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S320000, .i32⟩
  | 58 => ⟨S320000, .i32⟩
  | 59 => ⟨S_, .i32⟩
  | 60 => ⟨S320000, .i32⟩
  | 61 => ⟨S320000, .i1⟩
  | 62 => ⟨S_, .i32⟩
  | 63 => ⟨S320000, .i32⟩
  | 64 => ⟨S320000, .i1⟩
  | 65 => ⟨S_, .i32⟩
  | 66 => ⟨S_, .i1⟩
  | 67 => ⟨S320000, .i1⟩
  | 68 => ⟨S320000, .i1⟩
  | 69 => ⟨S320000, .i1⟩
  | 70 => ⟨S320000, .i32⟩
  | 71 => ⟨S320000, .i32⟩
  | 72 => ⟨S320000, .i32⟩
  | 73 => ⟨S_, .i32⟩
  | 74 => ⟨S320000, .i32⟩
  | 75 => ⟨S320000, .i32⟩
  | 76 => ⟨S320000, .i32⟩
  | 77 => ⟨S_, .i32⟩
  | 78 => ⟨S320000, .i32⟩
  | 79 => ⟨S320000, .i1⟩
  | 80 => ⟨S320000, .i32⟩
  | 81 => ⟨S320000, .i32⟩
  | 82 => ⟨S_, .i32⟩
  | 83 => ⟨S320000, .i32⟩
  | 84 => ⟨S320000, .i1⟩
  | 85 => ⟨S320000, .i1⟩
  | 86 => ⟨S_, .i32⟩
  | 87 => ⟨S320000, .i32⟩
  | 88 => ⟨S320000, .i32⟩
  | 89 => ⟨S320000, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S320000, .i32⟩
  | 97 => ⟨S320000, .i32⟩
  | 98 => ⟨S_, .i32⟩
  | 99 => ⟨S320000, .i32⟩
  | 100 => ⟨S320000, .i1⟩
  | 101 => ⟨S_, .i32⟩
  | 102 => ⟨S320000, .i32⟩
  | 103 => ⟨S320000, .i1⟩
  | 104 => ⟨S_, .i32⟩
  | 105 => ⟨S_, .i1⟩
  | 106 => ⟨S320000, .i1⟩
  | 107 => ⟨S320000, .i1⟩
  | 108 => ⟨S320000, .i1⟩
  | 109 => ⟨S320000, .i32⟩
  | 110 => ⟨S320000, .i32⟩
  | 111 => ⟨S320000, .i32⟩
  | 112 => ⟨S320000, .i32⟩
  | 113 => ⟨S10000x10000, .i32⟩
  | 114 => ⟨S_, .i32⟩
  | 115 => ⟨S_, .i32⟩
  | 116 => ⟨S320000, .i32⟩
  | 117 => ⟨S320000, .i1⟩
  | 118 => ⟨S_, .i32⟩
  | 119 => ⟨S_, .i32⟩
  | 120 => ⟨S320000, .i32⟩
  | 121 => ⟨S320000, .i32⟩
  | 122 => ⟨S_, .i32⟩
  | 123 => ⟨S_, .i32⟩
  | 124 => ⟨S320000, .i32⟩
  | 125 => ⟨S320000, .i32⟩
  | 126 => ⟨S10000, .i32⟩
  | 127 => ⟨S330000, .i32⟩
  | _ => ⟨S10000x128, .f32⟩

abbrev hbmTy0_1 (i : Nat) : BufTy := match i % 128 with
  | 0 => ⟨S330000, .i32⟩
  | 1 => ⟨S10000x16, .f32⟩
  | 2 => ⟨S_, .f32⟩
  | 3 => ⟨S330000, .f32⟩
  | 4 => ⟨S_, .f32⟩
  | 5 => ⟨S10000, .f32⟩
  | 6 => ⟨S330000x1, .i32⟩
  | 7 => ⟨S10000, .f32⟩
  | 8 => ⟨S_, .f32⟩
  | 9 => ⟨S10000, .f32⟩
  | 10 => ⟨S10000, .i1⟩
  | 11 => ⟨S10000, .f32⟩
  | 12 => ⟨S_, .f32⟩
  | 13 => ⟨S10000, .f32⟩
  | 14 => ⟨S10000, .f32⟩
  | 15 => ⟨S_, .f32⟩
  | 16 => ⟨S_, .f32⟩
  | 17 => ⟨S10000, .f32⟩
  | 18 => ⟨S10000, .f32⟩
  | 19 => ⟨S_, .i32⟩
  | 20 => ⟨S330000, .i32⟩
  | 21 => ⟨S330000, .i1⟩
  | 22 => ⟨S_, .i32⟩
  | 23 => ⟨S330000, .i32⟩
  | 24 => ⟨S330000, .i32⟩
  | 25 => ⟨S330000, .i32⟩
  | 26 => ⟨S330000x1, .i32⟩
  | 27 => ⟨S330000, .f32⟩
  | 28 => ⟨S_, .i32⟩
  | 29 => ⟨S330000, .i32⟩
  | 30 => ⟨S330000, .i1⟩
  | 31 => ⟨S_, .i32⟩
  | 32 => ⟨S330000, .i32⟩
  | 33 => ⟨S330000, .i32⟩
  | 34 => ⟨S330000, .i32⟩
  | 35 => ⟨S330000x1, .i32⟩
  | 36 => ⟨S330000, .f32⟩
  | 37 => ⟨S330000, .f32⟩
  | 38 => ⟨S_, .i32⟩
  | 39 => ⟨S330000, .i32⟩
  | 40 => ⟨S330000, .i1⟩
  | 41 => ⟨S_, .i32⟩
  | 42 => ⟨S330000, .i32⟩
  | 43 => ⟨S330000, .i32⟩
  | 44 => ⟨S330000, .i32⟩
  | 45 => ⟨S330000x1, .i32⟩
  | 46 => ⟨S330000x16, .f32⟩
  | 47 => ⟨S330000x1, .f32⟩
  | 48 => ⟨S330000x16, .f32⟩
  | 49 => ⟨S330000x16, .f32⟩
  | 50 => ⟨S_, .f32⟩
  | 51 => ⟨S10000x16, .f32⟩
  | 52 => ⟨S330000x1, .i32⟩
  | 53 => ⟨S10000x16, .f32⟩
  | 54 => ⟨S1x16, .f32⟩
  | 55 => ⟨S10000x16, .f32⟩
  | 56 => ⟨S10000x16, .f32⟩
  | 57 => ⟨S_, .f32⟩
  | 58 => ⟨S10000x16, .f32⟩
  | 59 => ⟨S10000x16, .f32⟩
  | 60 => ⟨S10000x40, .f32⟩
  | 61 => ⟨S_, .f32⟩
  | 62 => ⟨S330000, .f32⟩
  | 63 => ⟨S_, .f32⟩
  | 64 => ⟨S10000, .f32⟩
  | 65 => ⟨S330000x1, .i32⟩
  | 66 => ⟨S10000, .f32⟩
  | 67 => ⟨S_, .f32⟩
  | 68 => ⟨S10000, .f32⟩
  | 69 => ⟨S10000, .i1⟩
  | 70 => ⟨S10000, .f32⟩
  | 71 => ⟨S_, .f32⟩
  | 72 => ⟨S10000, .f32⟩
  | 73 => ⟨S10000, .f32⟩
  | 74 => ⟨S_, .f32⟩
  | 75 => ⟨S_, .f32⟩
  | 76 => ⟨S10000, .f32⟩
  | 77 => ⟨S10000, .f32⟩
  | 78 => ⟨S_, .i32⟩
  | 79 => ⟨S330000, .i32⟩
  | 80 => ⟨S330000, .i1⟩
  | 81 => ⟨S_, .i32⟩
  | 82 => ⟨S330000, .i32⟩
  | 83 => ⟨S330000, .i32⟩
  | 84 => ⟨S330000, .i32⟩
  | 85 => ⟨S330000x1, .i32⟩
  | 86 => ⟨S330000, .f32⟩
  | 87 => ⟨S_, .i32⟩
  | 88 => ⟨S330000, .i32⟩
  | 89 => ⟨S330000, .i1⟩
  | 90 => ⟨S_, .i32⟩
  | 91 => ⟨S330000, .i32⟩
  | 92 => ⟨S330000, .i32⟩
  | 93 => ⟨S330000, .i32⟩
  | 94 => ⟨S330000x1, .i32⟩
  | 95 => ⟨S330000, .f32⟩
  | 96 => ⟨S330000, .f32⟩
  | 97 => ⟨S_, .i32⟩
  | 98 => ⟨S330000, .i32⟩
  | 99 => ⟨S330000, .i1⟩
  | 100 => ⟨S_, .i32⟩
  | 101 => ⟨S330000, .i32⟩
  | 102 => ⟨S330000, .i32⟩
  | 103 => ⟨S330000, .i32⟩
  | 104 => ⟨S330000x1, .i32⟩
  | 105 => ⟨S330000x40, .f32⟩
  | 106 => ⟨S330000x1, .f32⟩
  | 107 => ⟨S330000x40, .f32⟩
  | 108 => ⟨S330000x40, .f32⟩
  | 109 => ⟨S_, .f32⟩
  | 110 => ⟨S10000x40, .f32⟩
  | 111 => ⟨S330000x1, .i32⟩
  | 112 => ⟨S10000x40, .f32⟩
  | 113 => ⟨S1x40, .f32⟩
  | 114 => ⟨S10000x40, .f32⟩
  | 115 => ⟨S10000x40, .f32⟩
  | 116 => ⟨S_, .f32⟩
  | 117 => ⟨S10000, .f32⟩
  | 118 => ⟨S_, .f32⟩
  | 119 => ⟨S10000, .f32⟩
  | 120 => ⟨S10000, .f32⟩
  | 121 => ⟨S10000x1, .f32⟩
  | 122 => ⟨S10000x40, .f32⟩
  | 123 => ⟨S10000x40, .f32⟩
  | 124 => ⟨S10000x40, .f32⟩
  | 125 => ⟨S_, .f32⟩
  | 126 => ⟨S10000, .f32⟩
  | 127 => ⟨S10000x1, .f32⟩
  | _ => ⟨S10000x128, .f32⟩

abbrev hbmTy0_2 (i : Nat) : BufTy := match i % 128 with
  | 0 => ⟨S10000x1, .f32⟩
  | 1 => ⟨S10000x40, .f32⟩
  | 2 => ⟨S10000x40, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_call0_c : Ref sig .tc := ⟨.hbm, 11, rfl⟩
abbrev main_call0_call0_v0 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_call2_call0_c : Ref sig .tc := ⟨.hbm, 31, rfl⟩
abbrev main_call2_call0_v0 : Ref sig .tc := ⟨.hbm, 32, rfl⟩
abbrev main_v13 : Ref sig .tc := ⟨.hbm, 33, rfl⟩
abbrev main_c_4 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_v6 : Ref sig .tc := ⟨.hbm, 41, rfl⟩
abbrev main_call3_v7 : Ref sig .tc := ⟨.hbm, 42, rfl⟩
abbrev main_call3_c : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_c_0 : Ref sig .tc := ⟨.hbm, 47, rfl⟩
abbrev main_call3_v11 : Ref sig .tc := ⟨.hbm, 48, rfl⟩
abbrev main_call3_v12 : Ref sig .tc := ⟨.hbm, 49, rfl⟩
abbrev main_v14 : Ref sig .tc := ⟨.hbm, 50, rfl⟩
abbrev main_c_5 : Ref sig .tc := ⟨.hbm, 51, rfl⟩
abbrev main_call4_v0 : Ref sig .tc := ⟨.hbm, 52, rfl⟩
abbrev main_call4_c : Ref sig .tc := ⟨.hbm, 53, rfl⟩
abbrev main_call4_v1 : Ref sig .tc := ⟨.hbm, 54, rfl⟩
abbrev main_call4_c_0 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_c_1 : Ref sig .tc := ⟨.hbm, 59, rfl⟩
abbrev main_call4_v5 : Ref sig .tc := ⟨.hbm, 60, rfl⟩
abbrev main_call4_v6 : Ref sig .tc := ⟨.hbm, 61, rfl⟩
abbrev main_call4_c_2 : Ref sig .tc := ⟨.hbm, 62, rfl⟩
abbrev main_call4_v7 : Ref sig .tc := ⟨.hbm, 63, rfl⟩
abbrev main_call4_v8 : Ref sig .tc := ⟨.hbm, 64, rfl⟩
abbrev main_call4_c_3 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_v12 : Ref sig .tc := ⟨.hbm, 69, rfl⟩
abbrev main_call4_v13 : Ref sig .tc := ⟨.hbm, 70, rfl⟩
abbrev main_call4_v14 : Ref sig .tc := ⟨.hbm, 71, rfl⟩
abbrev main_v15 : Ref sig .tc := ⟨.hbm, 72, rfl⟩
abbrev main_c_6 : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_v6 : Ref sig .tc := ⟨.hbm, 80, rfl⟩
abbrev main_call5_v7 : Ref sig .tc := ⟨.hbm, 81, rfl⟩
abbrev main_call5_c : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_c_0 : Ref sig .tc := ⟨.hbm, 86, rfl⟩
abbrev main_call5_v11 : Ref sig .tc := ⟨.hbm, 87, rfl⟩
abbrev main_call5_v12 : Ref sig .tc := ⟨.hbm, 88, rfl⟩
abbrev main_v16 : Ref sig .tc := ⟨.hbm, 89, rfl⟩
abbrev main_c_7 : Ref sig .tc := ⟨.hbm, 90, rfl⟩
abbrev main_call6_v0 : Ref sig .tc := ⟨.hbm, 91, rfl⟩
abbrev main_call6_c : Ref sig .tc := ⟨.hbm, 92, rfl⟩
abbrev main_call6_v1 : Ref sig .tc := ⟨.hbm, 93, rfl⟩
abbrev main_call6_c_0 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_call6_c_1 : Ref sig .tc := ⟨.hbm, 98, rfl⟩
abbrev main_call6_v5 : Ref sig .tc := ⟨.hbm, 99, rfl⟩
abbrev main_call6_v6 : Ref sig .tc := ⟨.hbm, 100, rfl⟩
abbrev main_call6_c_2 : Ref sig .tc := ⟨.hbm, 101, rfl⟩
abbrev main_call6_v7 : Ref sig .tc := ⟨.hbm, 102, rfl⟩
abbrev main_call6_v8 : Ref sig .tc := ⟨.hbm, 103, rfl⟩
abbrev main_call6_c_3 : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_v12 : Ref sig .tc := ⟨.hbm, 108, rfl⟩
abbrev main_call6_v13 : Ref sig .tc := ⟨.hbm, 109, rfl⟩
abbrev main_call6_v14 : Ref sig .tc := ⟨.hbm, 110, rfl⟩
abbrev main_v17 : Ref sig .tc := ⟨.hbm, 111, rfl⟩
abbrev main_v18 : Ref sig .tc := ⟨.hbm, 112, rfl⟩
abbrev main_v19 : Ref sig .tc := ⟨.hbm, 113, rfl⟩
abbrev main_c_8 : Ref sig .tc := ⟨.hbm, 114, rfl⟩
abbrev main_v20 : Ref sig .tc := ⟨.hbm, 115, rfl⟩
abbrev main_v21 : Ref sig .tc := ⟨.hbm, 116, rfl⟩
abbrev main_v22 : Ref sig .tc := ⟨.hbm, 117, rfl⟩
abbrev main_c_9 : Ref sig .tc := ⟨.hbm, 118, rfl⟩
abbrev main_call7_v0 : Ref sig .tc := ⟨.hbm, 119, rfl⟩
abbrev main_call7_v1 : Ref sig .tc := ⟨.hbm, 120, rfl⟩
abbrev main_v23 : Ref sig .tc := ⟨.hbm, 121, rfl⟩
abbrev main_c_10 : Ref sig .tc := ⟨.hbm, 122, rfl⟩
abbrev main_call8_v0 : Ref sig .tc := ⟨.hbm, 123, rfl⟩
abbrev main_call8_v1 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_v28 : Ref sig .tc := ⟨.hbm, 129, rfl⟩
abbrev main_cst_11 : Ref sig .tc := ⟨.hbm, 130, rfl⟩
abbrev main_v29 : Ref sig .tc := ⟨.hbm, 131, rfl⟩
abbrev main_cst_12 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_cst_13 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_cst_14 : Ref sig .tc := ⟨.hbm, 140, rfl⟩
abbrev main_v36 : Ref sig .tc := ⟨.hbm, 141, rfl⟩
abbrev main_v37 : Ref sig .tc := ⟨.hbm, 142, rfl⟩
abbrev main_cst_15 : Ref sig .tc := ⟨.hbm, 143, rfl⟩
abbrev main_call9_v0 : Ref sig .tc := ⟨.hbm, 144, rfl⟩
abbrev main_call9_v1 : Ref sig .tc := ⟨.hbm, 145, rfl⟩
abbrev main_v38 : Ref sig .tc := ⟨.hbm, 146, rfl⟩
abbrev main_c_16 : Ref sig .tc := ⟨.hbm, 147, rfl⟩
abbrev main_v39 : Ref sig .tc := ⟨.hbm, 148, rfl⟩
abbrev main_v40 : Ref sig .tc := ⟨.hbm, 149, rfl⟩
abbrev main_c_17 : Ref sig .tc := ⟨.hbm, 150, rfl⟩
abbrev main_v41 : Ref sig .tc := ⟨.hbm, 151, rfl⟩
abbrev main_v42 : Ref sig .tc := ⟨.hbm, 152, rfl⟩
abbrev main_v43 : Ref sig .tc := ⟨.hbm, 153, rfl⟩
abbrev main_v44 : Ref sig .tc := ⟨.hbm, 154, rfl⟩
abbrev main_v45 : Ref sig .tc := ⟨.hbm, 155, rfl⟩
abbrev main_c_18 : Ref sig .tc := ⟨.hbm, 156, rfl⟩
abbrev main_v46 : Ref sig .tc := ⟨.hbm, 157, rfl⟩
abbrev main_v47 : Ref sig .tc := ⟨.hbm, 158, rfl⟩
abbrev main_c_19 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_v51 : Ref sig .tc := ⟨.hbm, 163, rfl⟩
abbrev main_v52 : Ref sig .tc := ⟨.hbm, 164, rfl⟩
abbrev main_v53 : Ref sig .tc := ⟨.hbm, 165, rfl⟩
abbrev main_c_20 : Ref sig .tc := ⟨.hbm, 166, rfl⟩
abbrev main_v54 : Ref sig .tc := ⟨.hbm, 167, rfl⟩
abbrev main_v55 : Ref sig .tc := ⟨.hbm, 168, rfl⟩
abbrev main_c_21 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_v59 : Ref sig .tc := ⟨.hbm, 173, rfl⟩
abbrev main_v60 : Ref sig .tc := ⟨.hbm, 174, rfl⟩
abbrev main_v61 : Ref sig .tc := ⟨.hbm, 175, rfl⟩
abbrev main_v62 : Ref sig .tc := ⟨.hbm, 176, rfl⟩
abbrev main_v63 : Ref sig .tc := ⟨.hbm, 177, rfl⟩
abbrev main_cst_22 : Ref sig .tc := ⟨.hbm, 178, rfl⟩
abbrev main_v64 : Ref sig .tc := ⟨.hbm, 179, rfl⟩
abbrev main_v65 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_call10_cst : Ref sig .tc := ⟨.hbm, 185, rfl⟩
abbrev main_call10_v0 : Ref sig .tc := ⟨.hbm, 186, rfl⟩
abbrev main_v70 : Ref sig .tc := ⟨.hbm, 187, rfl⟩
abbrev main_v71 : Ref sig .tc := ⟨.hbm, 188, rfl⟩
abbrev main_cst_23 : Ref sig .tc := ⟨.hbm, 189, rfl⟩
abbrev main_v72 : Ref sig .tc := ⟨.hbm, 190, rfl⟩
abbrev main_cst_24 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_cst_25 : Ref sig .tc := ⟨.hbm, 195, rfl⟩
abbrev main_v76 : Ref sig .tc := ⟨.hbm, 196, rfl⟩
abbrev main_v77 : Ref sig .tc := ⟨.hbm, 197, rfl⟩
abbrev main_v78 : Ref sig .tc := ⟨.hbm, 198, rfl⟩
abbrev main_cst_26 : Ref sig .tc := ⟨.hbm, 199, rfl⟩
abbrev main_v79 : Ref sig .tc := ⟨.hbm, 200, rfl⟩
abbrev main_v80 : Ref sig .tc := ⟨.hbm, 201, rfl⟩
abbrev main_cst_27 : Ref sig .tc := ⟨.hbm, 202, rfl⟩
abbrev main_call11_v0 : Ref sig .tc := ⟨.hbm, 203, rfl⟩
abbrev main_call11_v1 : Ref sig .tc := ⟨.hbm, 204, rfl⟩
abbrev main_v81 : Ref sig .tc := ⟨.hbm, 205, rfl⟩
abbrev main_c_28 : Ref sig .tc := ⟨.hbm, 206, rfl⟩
abbrev main_v82 : Ref sig .tc := ⟨.hbm, 207, rfl⟩
abbrev main_v83 : Ref sig .tc := ⟨.hbm, 208, rfl⟩
abbrev main_c_29 : Ref sig .tc := ⟨.hbm, 209, rfl⟩
abbrev main_v84 : Ref sig .tc := ⟨.hbm, 210, rfl⟩
abbrev main_v85 : Ref sig .tc := ⟨.hbm, 211, rfl⟩
abbrev main_v86 : Ref sig .tc := ⟨.hbm, 212, rfl⟩
abbrev main_v87 : Ref sig .tc := ⟨.hbm, 213, rfl⟩
abbrev main_v88 : Ref sig .tc := ⟨.hbm, 214, rfl⟩
abbrev main_c_30 : Ref sig .tc := ⟨.hbm, 215, rfl⟩
abbrev main_v89 : Ref sig .tc := ⟨.hbm, 216, rfl⟩
abbrev main_v90 : Ref sig .tc := ⟨.hbm, 217, rfl⟩
abbrev main_c_31 : Ref sig .tc := ⟨.hbm, 218, rfl⟩
abbrev main_v91 : Ref sig .tc := ⟨.hbm, 219, rfl⟩
abbrev main_v92 : Ref sig .tc := ⟨.hbm, 220, rfl⟩
abbrev main_v93 : Ref sig .tc := ⟨.hbm, 221, rfl⟩
abbrev main_v94 : Ref sig .tc := ⟨.hbm, 222, rfl⟩
abbrev main_v95 : Ref sig .tc := ⟨.hbm, 223, rfl⟩
abbrev main_v96 : Ref sig .tc := ⟨.hbm, 224, rfl⟩
abbrev main_c_32 : Ref sig .tc := ⟨.hbm, 225, rfl⟩
abbrev main_v97 : Ref sig .tc := ⟨.hbm, 226, rfl⟩
abbrev main_v98 : Ref sig .tc := ⟨.hbm, 227, rfl⟩
abbrev main_c_33 : Ref sig .tc := ⟨.hbm, 228, rfl⟩
abbrev main_v99 : Ref sig .tc := ⟨.hbm, 229, rfl⟩
abbrev main_v100 : Ref sig .tc := ⟨.hbm, 230, rfl⟩
abbrev main_v101 : Ref sig .tc := ⟨.hbm, 231, rfl⟩
abbrev main_v102 : Ref sig .tc := ⟨.hbm, 232, rfl⟩
abbrev main_v103 : Ref sig .tc := ⟨.hbm, 233, rfl⟩
abbrev main_v104 : Ref sig .tc := ⟨.hbm, 234, rfl⟩
abbrev main_v105 : Ref sig .tc := ⟨.hbm, 235, rfl⟩
abbrev main_v106 : Ref sig .tc := ⟨.hbm, 236, rfl⟩
abbrev main_cst_34 : Ref sig .tc := ⟨.hbm, 237, rfl⟩
abbrev main_v107 : Ref sig .tc := ⟨.hbm, 238, rfl⟩
abbrev main_v108 : Ref sig .tc := ⟨.hbm, 239, rfl⟩
abbrev main_v109 : Ref sig .tc := ⟨.hbm, 240, rfl⟩
abbrev main_v110 : Ref sig .tc := ⟨.hbm, 241, rfl⟩
abbrev main_v111 : Ref sig .tc := ⟨.hbm, 242, rfl⟩
abbrev main_v112 : Ref sig .tc := ⟨.hbm, 243, rfl⟩
abbrev main_call12_cst : Ref sig .tc := ⟨.hbm, 244, rfl⟩
abbrev main_call12_v0 : Ref sig .tc := ⟨.hbm, 245, rfl⟩
abbrev main_call12_cst_0 : Ref sig .tc := ⟨.hbm, 246, rfl⟩
abbrev main_call12_v1 : Ref sig .tc := ⟨.hbm, 247, rfl⟩
abbrev main_call12_v2 : Ref sig .tc := ⟨.hbm, 248, rfl⟩
abbrev main_call12_v3 : Ref sig .tc := ⟨.hbm, 249, rfl⟩
abbrev main_call12_v4 : Ref sig .tc := ⟨.hbm, 250, rfl⟩
abbrev main_call12_v5 : Ref sig .tc := ⟨.hbm, 251, rfl⟩
abbrev main_call12_v6 : Ref sig .tc := ⟨.hbm, 252, rfl⟩
abbrev main_call12_cst_1 : Ref sig .tc := ⟨.hbm, 253, rfl⟩
abbrev main_call12_v7 : Ref sig .tc := ⟨.hbm, 254, rfl⟩
abbrev main_call12_v8 : Ref sig .tc := ⟨.hbm, 255, rfl⟩
abbrev main_call12_v9 : Ref sig .tc := ⟨.hbm, 256, rfl⟩
abbrev main_call12_v10 : Ref sig .tc := ⟨.hbm, 257, rfl⟩
abbrev main_v113 : Ref sig .tc := ⟨.hbm, 258, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  shapeCasts_S10000x10000_S100000000 : S10000x10000.ShapeCasts S100000000
  natLt_1_32 : 1 < 32
  bcast_S_S_ : S_.BroadcastsInDim S_ (![] : Fin 0 → Fin S_.rank)
  reduceWindows_S100000000_S100000000_w100000000s1p99999999_0 : S100000000.ReduceWindows (![100000000] : Fin 1 → Nat) ![1] ![99999999] ![0] S100000000
  h_S_ : 0 < S_.numel
  bcast_S_S320000 : S_.BroadcastsInDim S320000 (![] : Fin 0 → Fin S320000.rank)
  bcast_S_S100000000 : S_.BroadcastsInDim S100000000 (![] : Fin 0 → Fin S100000000.rank)
  bcast_S100000000_S100000000x1_0 : S100000000.BroadcastsInDim S100000000x1 (![0] : Fin 1 → Fin S100000000x1.rank)
  reduceWindows_S320000_S320000_w320000s1p319999_0 : S320000.ReduceWindows (![320000] : Fin 1 → Nat) ![1] ![319999] ![0] S320000
  reducesTo_S10000x10000_S_d0_1 : S10000x10000.ReducesTo [0, 1] S_
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x16_0_1 : S330000x1.BroadcastsInDim S330000x16 (![0, 1] : Fin 2 → Fin S330000x16.rank)
  bcast_S_S10000x16 : S_.BroadcastsInDim S10000x16 (![] : Fin 0 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S330000x1_S330000x40_0_1 : S330000x1.BroadcastsInDim S330000x40 (![0, 1] : Fin 2 → Fin S330000x40.rank)
  bcast_S_S10000x40 : S_.BroadcastsInDim S10000x40 (![] : Fin 0 → Fin S10000x40.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  scatter_S320000_S100000000x1_S100000000_n_0_0_1_wf : ScatterDims.WF S320000 S100000000x1 S100000000 [] [0] [0] 1
  dot_S10000x128_S128x16_S10000x16_1_0_0_1_n_n_wf : DotDims.WF S10000x128 S128x16 S10000x16 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x16_S330000x1_S330000x16_1_0_n_n_0_1_116_wf : GatherDims.WF S10000x16 S330000x1 S330000x16 [1] [0] [] [0] [] 1 ![1, 16]
  scatter_S10000x16_S330000x1_S330000x16_1_0_0_1_wf : ScatterDims.WF S10000x16 S330000x1 S330000x16 [1] [0] [0] 1
  dot_S10000x16_S16x40_S10000x40_1_0_0_1_n_n_wf : DotDims.WF S10000x16 S16x40 S10000x40 [1] [0] [0] [1] [] []
  gather_S10000x40_S330000x1_S330000x40_1_0_n_n_0_1_140_wf : GatherDims.WF S10000x40 S330000x1 S330000x40 [1] [0] [] [0] [] 1 ![1, 40]
  scatter_S10000x40_S330000x1_S330000x40_1_0_0_1_wf : ScatterDims.WF S10000x40 S330000x1 S330000x40 [1] [0] [0] 1

variable [Facts₀]

def scatter_S320000_S100000000x1_S100000000_n_0_0_1 : ScatterDims S320000 S100000000x1 S100000000 where
  updateWindowDims := []
  insertedWindowDims := [0]
  scatterDimsToOperandDims := [0]
  indexVectorDim := 1
  wf := scatter_S320000_S100000000x1_S100000000_n_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x16_S330000x1_S330000x16_1_0_n_n_0_1_116 : GatherDims S10000x16 S330000x1 S330000x16 where
  offsetDims := [1]
  collapsedSliceDims := [0]
  operandBatchingDims := []
  startIndicesBatchingDims := []
  startIndexMap := [0]
  indexVectorDim := 1
  sliceSizes := ![1, 16]
  wf := gather_S10000x16_S330000x1_S330000x16_1_0_n_n_0_1_116_wf
def scatter_S10000x16_S330000x1_S330000x16_1_0_0_1 : ScatterDims S10000x16 S330000x1 S330000x16 where
  updateWindowDims := [1]
  insertedWindowDims := [0]
  scatterDimsToOperandDims := [0]
  indexVectorDim := 1
  wf := scatter_S10000x16_S330000x1_S330000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S10000x40_S330000x1_S330000x40_1_0_n_n_0_1_140 : GatherDims S10000x40 S330000x1 S330000x40 where
  offsetDims := [1]
  collapsedSliceDims := [0]
  operandBatchingDims := []
  startIndicesBatchingDims := []
  startIndexMap := [0]
  indexVectorDim := 1
  sliceSizes := ![1, 40]
  wf := gather_S10000x40_S330000x1_S330000x40_1_0_n_n_0_1_140_wf
def scatter_S10000x40_S330000x1_S330000x40_1_0_0_1 : ScatterDims S10000x40 S330000x1 S330000x40 where
  updateWindowDims := [1]
  insertedWindowDims := [0]
  scatterDimsToOperandDims := [0]
  indexVectorDim := 1
  wf := scatter_S10000x40_S330000x1_S330000x40_1_0_0_1_wf

class Facts : Prop extends Facts₀ where

variable [Facts]
-- ==== Proof.Dat0.lean ====
import proofs.«109387_g55946243997874_fold_wed_m_672_4_alg».proof.Proof.Gen.KernelIdeal.Launch
import proofs.«109387_g55946243997874_fold_wed_m_672_4_alg».proof.Proof.Gen.KernelIdeal.Skeleton
import proofs.«109387_g55946243997874_fold_wed_m_672_4_alg».proof.Proof.Gen.KernelIdeal.Points
import Idealize.ShloMosaic.Lib.Pipeline.Frame
import Idealize.ShloMosaic.Lib.Pipeline.FrameBody

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

def sum0 (c : Dev nD) : (n : ℕ) → n < cfg0.N → Vec F S1x10000 .f32
  | 0, hn => k0_pay2 (k0_pay1 (F := F)) (iblk0 V c 0 ⟨0, hn⟩)
  | n + 1, hn => k0_pay2 (sum0 c n (Nat.lt_of_succ_lt hn)) (iblk0 V c 0 ⟨n + 1, hn⟩)

def out0 (c : Dev nD) (t : Fin cfg0.N) : Vec F S1x10000 .f32 :=
  if t.val = 49 then k0_pay3 (sum0 V c t.val t.isLt) else sum0 V c t.val t.isLt

theorem sum0_zero (c : Dev nD) (hn : 0 < cfg0.N) :
    sum0 V c 0 hn = k0_pay2 (k0_pay1 (F := F)) (iblk0 V c 0 ⟨0, hn⟩) := rfl

theorem sum0_succ (c : Dev nD) (n : ℕ) (hn : n + 1 < cfg0.N) :
    sum0 V c (n + 1) hn = k0_pay2 (sum0 V c n (Nat.lt_of_succ_lt hn)) (iblk0 V c 0 ⟨n + 1, hn⟩) := rfl

theorem out0_of_ne (c : Dev nD) (t : Fin cfg0.N) (h : t.val ≠ 49) : out0 V c t = sum0 V c t.val t.isLt := by
  unfold out0; rw [if_neg h]

theorem out0_last (c : Dev nD) (t : Fin cfg0.N) (h : t.val = 49) : out0 V c t = k0_pay3 (sum0 V c t.val t.isLt) := by
  unfold out0; rw [if_pos h]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0 V c t := by dsimp only [dat0]

theorem before0_0 (c : Dev nD) (t : Fin cfg0.N) (d) : (dat0 V c).before 0 t d = iblk0 V c 0 t := by
  rw [Dat.before_fetched _ 0 t (fetch0_0 t) d]
  unfold Dat.fetched Dat.blockOf iblk0
  rw [A_eq0]
  rfl

theorem before0_1_later (c : Dev nD) (t : Fin cfg0.N) (h0 : t.val ≠ 0) (d) :
    (dat0 V c).before 1 t d = out0 V c ⟨t.val - 1, Nat.lt_of_le_of_lt (Nat.sub_le _ _) t.isLt⟩ := by
  have hN : t.val < 50 := lt_of_lt_of_eq t.isLt (show cfg0.N = 50 from N_0)
  rw [Dat.before_out_kept _ 1 rfl t h0 (Bool.eq_false_iff.mpr fun h => by have := (flush0_1 _).mp h; dsimp only at this; omega)
    (fun _ => rfl) (fun _ _ => rfl)]
  dsimp only [dat0]

end Cert.KernelIdeal.Hand

end
-- ==== Proof.Dat1.lean ====
import proofs.«109387_g55946243997874_fold_wed_m_672_4_alg».proof.Proof.Gen.KernelIdeal.Launch
import proofs.«109387_g55946243997874_fold_wed_m_672_4_alg».proof.Proof.Gen.KernelIdeal.Points
import proofs.«109387_g55946243997874_fold_wed_m_672_4_alg».proof.Proof.Gen.KernelIdeal.Skeleton
import Idealize.ShloMosaic.Lib.Pipeline.Frame
import Idealize.ShloMosaic.Lib.Pipeline.FrameBody

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

abbrev rI1 (i : grid1.Coords) : Rect S10000x16 := Rect.unit (s := S10000x16) (k1_off1 i) S200x16.size (k1_off1_inb i)

abbrev rW1 : Rect S10000x16 := Rect.unit (s := S10000x16) ![0, 0] S10000x16.size inb_S10000x16_S10000x16_0_0

def accNext1 (i : grid1.Coords) (x1 : Vec F S200x10000 .f32) (x2 : Vec F S200x128 .f32) (x3 : Vec F S128x16 .f32) (x6 : Vec F S200x1 .f32)
    (s : Vec F S10000x16 .f32) : Vec F S10000x16 .f32 :=
  View.canon [⟨rI1 i, k1_pay4 x2 x3 x6 (View.ld (k1_pay3 x2 x3 x6 s x1) (rI1 i))⟩, ⟨rW1, k1_pay3 x2 x3 x6 s x1⟩]

section Data

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

theorem N1_pos : 0 < cfg1.N := by decide

def ptOf1 (n : ℕ) : Fin cfg1.N := ⟨n % cfg1.N, Nat.mod_lt _ N1_pos⟩

theorem ptOf1_val (t : Fin cfg1.N) : ptOf1 t.val = t := Fin.ext (Nat.mod_eq_of_lt t.isLt)

def accAt1 : ℕ → Vec F S10000x16 .f32
  | 0 => accNext1 (grid1.coords (ptOf1 0)) (iblk1 V c 0 (ptOf1 0)) (iblk1 V c 1 (ptOf1 0)) (iblk1 V c 2 (ptOf1 0)) (iblk1 V c 5 (ptOf1 0)) k1_pay1
  | n + 1 => accNext1 (grid1.coords (ptOf1 (n + 1))) (iblk1 V c 0 (ptOf1 (n + 1))) (iblk1 V c 1 (ptOf1 (n + 1))) (iblk1 V c 2 (ptOf1 (n + 1)))
      (iblk1 V c 5 (ptOf1 (n + 1))) (accAt1 n)

def out1 (t : Fin cfg1.N) : Vec F S10000x40 .f32 :=
  k1_pay5 (accAt1 V c t.val) (iblk1 V c 6 t) (iblk1 V c 3 t) (iblk1 V c 4 t) (iblk1 V c 6 t)

abbrev scM1 : Memref sig .tc .vmem S10000x16 .f32 := Memref.whole cc1_scratch0

abbrev anyBuf1 (b : Ref sig .tc) : sProp 𝕄 :=
  iprop(∃ f : Buf (Elt F) ((c : Thread nD τ).loc b), ((c : Thread nD τ).loc b) ↦{fullShare} f)

def PhiS1 (P : sProp 𝕄) : sProp 𝕄 :=
  iprop(anyBuf1 (F := F) c cc0_stg0_0 ∗ anyBuf1 (F := F) c cc0_stg0_1 ∗ anyBuf1 (F := F) c cc0_stg1_0 ∗ P ∗ anyBuf1 (F := F) c cc2_stg0_0 ∗ anyBuf1 (F := F) c cc2_stg0_1
    ∗ anyBuf1 (F := F) c cc2_stg1_0 ∗ anyBuf1 (F := F) c cc2_stg1_1 ∗ anyBuf1 (F := F) c cc2_stg2_0 ∗ anyBuf1 (F := F) c cc2_stg3_0 ∗ anyBuf1 (F := F) c cc2_stg4_0 ∗ anyBuf1 (F := F) c cc2_scratch0)

def Phi1 (t : Fin (cfg1.N + 1)) : sProp 𝕄 :=
  PhiS1 c (if t.val = 0 then anyBuf1 (F := F) c cc1_scratch0 else owns (c : Thread nD τ) scM1 fullShare (accAt1 V c (t.val - 1)))

def dat1 (V : (c : Dev nD) → (b : Ref sig .tc) → Buf (Elt F) ((c : Thread nD τ).loc b)) (c : Dev nD) :
    Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := Phi1 V c t
  q w := match w with
    | ⟨0, _⟩ => fullShare
    | ⟨1, _⟩ => fullShare
    | ⟨2, _⟩ => fullShare
    | ⟨3, _⟩ => fullShare
    | ⟨4, _⟩ => fullShare
    | ⟨5, _⟩ => fullShare.left
    | ⟨6, _⟩ => fullShare.right
    | ⟨7, _⟩ => fullShare
  owed _ := 0

theorem A_eq1 (w : Fin cfg1.W) : (dat1 V c).A w = V c (Pipeline.arrRef spec1 w) := by
  dsimp only [dat1]

theorem after1_0 (t : Fin cfg1.N) : (dat1 V c).after 0 t = iblk1 V c 0 t := by dsimp only [dat1]
theorem after1_1 (t : Fin cfg1.N) : (dat1 V c).after 1 t = iblk1 V c 1 t := by dsimp only [dat1]
theorem after1_2 (t : Fin cfg1.N) : (dat1 V c).after 2 t = iblk1 V c 2 t := by dsimp only [dat1]
theorem after1_3 (t : Fin cfg1.N) : (dat1 V c).after 3 t = iblk1 V c 3 t := by dsimp only [dat1]
theorem after1_4 (t : Fin cfg1.N) : (dat1 V c).after 4 t = iblk1 V c 4 t := by dsimp only [dat1]
theorem after1_5 (t : Fin cfg1.N) : (dat1 V c).after 5 t = iblk1 V c 5 t := by dsimp only [dat1]
theorem after1_6 (t : Fin cfg1.N) : (dat1 V c).after 6 t = iblk1 V c 6 t := by dsimp only [dat1]
theorem after1_7 (t : Fin cfg1.N) : (dat1 V c).after 7 t = out1 V c t := by dsimp only [dat1]

theorem Phi_eq1 (t : Fin (cfg1.N + 1)) : (dat1 V c).Φ t = Phi1 V c t := by dsimp only [dat1]

end Data

end Cert.KernelIdeal.Hand

end
-- ==== Proof.Dat2.lean ====
import proofs.«109387_g55946243997874_fold_wed_m_672_4_alg».proof.Proof.Gen.KernelIdeal.Launch
import proofs.«109387_g55946243997874_fold_wed_m_672_4_alg».proof.Proof.Gen.KernelIdeal.Points
import proofs.«109387_g55946243997874_fold_wed_m_672_4_alg».proof.Proof.Gen.KernelIdeal.Skeleton
import Idealize.ShloMosaic.Lib.Pipeline.Frame
import Idealize.ShloMosaic.Lib.Pipeline.FrameBody

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1

abbrev cond2_1 (i : grid2.Coords) : Prop := k2_cond2 i = 1#1

theorem hcond2_0 : ∀ t : Fin cfg2.N, cond2_0 (grid2.coords t) ↔ t.val % 50 = 0 :=
  (by decide +kernel : ∀ t : Fin grid2.N, cond2_0 (grid2.coords t) ↔ t.val % 50 = 0)

theorem hcond2_1 : ∀ t : Fin cfg2.N, cond2_1 (grid2.coords t) ↔ t.val % 50 = 49 :=
  (by decide +kernel : ∀ t : Fin grid2.N, cond2_1 (grid2.coords t) ↔ t.val % 50 = 49)

abbrev rowRect2 (i : grid2.Coords) : Rect S10000x40 := Rect.unit (s := S10000x40) (k2_off1 i) S200x40.size (k2_off1_inb i)

abbrev wholeRect2 : Rect S10000x40 := Rect.unit (s := S10000x40) ![0, 0] S10000x40.size inb_S10000x40_S10000x40_0_0

def step2 (i : grid2.Coords) (xs : Vec F S10000x40 .f32) (x0 : Vec F S200x10000 .f32) (x1 : Vec F S200x40 .f32) : Vec F S10000x40 .f32 :=
  View.canon [(⟨rowRect2 i, k2_pay4 x1 (View.ld (k2_pay3 x1 xs x0) (rowRect2 i))⟩ : View.Piece (Elt F) S10000x40 .f32),
    ⟨wholeRect2, k2_pay3 x1 xs x0⟩]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S10000x40 .f32
  | 0, hn => step2 (grid2.coords ⟨0, hn⟩) (k2_pay1 (F := F)) (iblk2 V c 0 ⟨0, hn⟩) (iblk2 V c 1 ⟨0, hn⟩)
  | n + 1, hn => step2 (grid2.coords ⟨n + 1, hn⟩) (acc2 c n (Nat.lt_of_succ_lt hn)) (iblk2 V c 0 ⟨n + 1, hn⟩) (iblk2 V c 1 ⟨n + 1, hn⟩)

theorem acc2_zero (c : Dev nD) (hn : 0 < cfg2.N) :
    acc2 V c 0 hn = step2 (grid2.coords ⟨0, hn⟩) (k2_pay1 (F := F)) (iblk2 V c 0 ⟨0, hn⟩) (iblk2 V c 1 ⟨0, hn⟩) := rfl

theorem acc2_succ (c : Dev nD) (n : ℕ) (hn : n + 1 < cfg2.N) :
    acc2 V c (n + 1) hn = step2 (grid2.coords ⟨n + 1, hn⟩) (acc2 V c n (Nat.lt_of_succ_lt hn)) (iblk2 V c 0 ⟨n + 1, hn⟩) (iblk2 V c 1 ⟨n + 1, hn⟩) := rfl

theorem acc2_pos (c : Dev nD) (t : Fin cfg2.N) (ht : t.val ≠ 0) :
    acc2 V c t.val t.isLt = step2 (grid2.coords t) (acc2 V c (t.val - 1) (Nat.lt_of_le_of_lt (Nat.sub_le _ _) t.isLt)) (iblk2 V c 0 t) (iblk2 V c 1 t) := by
  obtain ⟨n, hn⟩ := t
  cases n with
  | zero => exact absurd rfl ht
  | succ n => rfl

def out2 (c : Dev nD) (t : Fin cfg2.N) : Vec F S10000x40 .f32 :=
  k2_pay5 (acc2 V c t.val t.isLt) (iblk2 V c 3 t) (iblk2 V c 2 t)

abbrev scM2_0 : Memref sig .tc .vmem S10000x40 .f32 := Memref.whole cc2_scratch0

def scoped2 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f) ∗ S)

theorem scoped2_mono (c : Dev nD) {S S' : sProp 𝕄} (h : S ⊢ S') : scoped2 (F := F) c S ⊢ scoped2 (F := F) c S' := by
  unfold scoped2
  exact sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (h)))))))))))))))

theorem PhiA2_eq (c : Dev nD) :
    (Pipeline.ΦA spec2 c : sProp 𝕄)
      = iprop(scoped2 (F := F) c (iprop(∃ d, owns (c : Thread nD τ) scM2_0 fullShare d)) ∗ (∃ r, prngReg c r)) := by
  unfold Pipeline.ΦA scoped2; rw [scopedRest2_eq]; simp only [scM2_0, owns_whole]; try rfl

def PhiS2 (c : Dev nD) : (n : ℕ) → n ≤ cfg2.N → sProp 𝕄
  | 0, _ => Pipeline.ΦA spec2 c
  | n + 1, hn => iprop(scoped2 (F := F) c (owns (c : Thread nD τ) scM2_0 fullShare (acc2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(scoped2 (F := F) c (owns (c : Thread nD τ) scM2_0 fullShare (acc2 V c n hn)) ∗ (∃ r, prngReg c r)) := rfl

theorem PhiS2_pos (c : Dev nD) (n : ℕ) (h : n ≤ cfg2.N) (hz : n ≠ 0) :
    PhiS2 V c n h = iprop(scoped2 (F := F) c (owns (c : Thread nD τ) scM2_0 fullShare (acc2 V c (n - 1) (by omega))) ∗ (∃ r, prngReg c r)) := by
  cases n with
  | zero => exact absurd rfl hz
  | succ n => rfl

def dat2 (V : (c : Dev nD) → (b : Ref sig .tc) → Buf (Elt F) ((c : Thread nD τ).loc b)) (c : Dev nD) :
    Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 V c t := by dsimp only [dat2]

end Cert.KernelIdeal.Hand

end
-- ==== Proof.KShared.lean ====
import proofs.«109387_g55946243997874_fold_wed_m_672_4_alg».proof.Proof.Gen.KernelIdeal.Regions
import proofs.«109387_g55946243997874_fold_wed_m_672_4_alg».proof.Proof.Dat0
import proofs.«109387_g55946243997874_fold_wed_m_672_4_alg».proof.Proof.Dat1
import proofs.«109387_g55946243997874_fold_wed_m_672_4_alg».proof.Proof.Dat2

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal

variable {F : FTy → Type} [FloatOps F]

local notation "𝕄" => MT nD τ sig Unit (Elt F) ℕ (UR sig nD τ) ℕ

abbrev 𝒱₀ : Variants := Variants.none

abbrev L : GSem nD τ sig → Finset Unit := fun _ => ∅
abbrev lv : GSem nD τ sig → Unit → ℕ := fun _ _ => 0

abbrev Rest (c : Dev nD) : sProp 𝕄 :=
  iprop((∃ r, prngReg c r) ∗ ∃ W, owes (c : Thread nD τ) (0 : CellTallies nD τ sig Unit) W)

abbrev E : Fin 4 → Dev nD → sProp 𝕄 := fun _ c => Rest c

variable (m : (ℓ : Loc nD τ sig) → Buf (Elt F) ℓ) (outs : Gen.Outs (F := F))

abbrev entry0 : (c : Dev nD) → (b : Ref sig .tc) → Buf (Elt F) ((c : Thread nD τ).loc b) := fun c b => Gen.V0 m c b

abbrev entry1 : (c : Dev nD) → (b : Ref sig .tc) → Buf (Elt F) ((c : Thread nD τ).loc b) := fun c b => Gen.V2 m outs c b

abbrev entry2 : (c : Dev nD) → (b : Ref sig .tc) → Buf (Elt F) ((c : Thread nD τ).loc b) := fun c b => Gen.V4 m outs c b

def pdats : (p : Fin 3) → (c : Dev nD) → Dat τ (Elt F) Unit ℕ (UR sig nD τ) ℕ (cfgs p) c
  | ⟨0, _⟩ => fun c => dat0 (entry0 m) c
  | ⟨1, _⟩ => fun c => dat1 (entry1 m outs) c
  | ⟨2, _⟩ => fun c => dat2 (entry2 m outs) c

def Out0 : Prop := ∀ c : Dev nD, outs 1 main_v0 c = (dat0 (entry0 m) c).arrAt 1 cfg0.N

def Out1 : Prop := ∀ c : Dev nD, outs 3 main_v3 c = (dat1 (entry1 m outs) c).arrAt 7 cfg1.N

def Out2 : Prop := ∀ c : Dev nD, outs 5 main_v5 c = (dat2 (entry2 m outs) c).arrAt 4 cfg2.N

end Cert.KernelIdeal.Hand

end
-- ==== Proof.Body0.lean ====
import proofs.«109387_g55946243997874_fold_wed_m_672_4_alg».proof.Proof.Gen.KernelIdeal.Launch
import proofs.«109387_g55946243997874_fold_wed_m_672_4_alg».proof.Proof.Gen.KernelIdeal.Skeleton
import proofs.«109387_g55946243997874_fold_wed_m_672_4_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] {U : Type} [URA U] {Lvl : Type} [Preorder Lvl]

local notation "𝕄" => MT nD τ sig Ix (Elt F) ℕ U Lvl

abbrev condFirst0 (i : grid0.Coords) : Prop :=
  (Scalar.cmpi .ne (Scalar.extui (Scalar.cmpi .eq (BitVec.ofNat 32 (i 0).val) 0#32)) 0#32) = 1#1

abbrev condLast0 (i : grid0.Coords) : Prop :=
  (Scalar.cmpi .ne (Scalar.extui (Scalar.cmpi .eq (BitVec.ofNat 32 (i 0).val) 49#32)) 0#32) = 1#1

theorem hcondFirst0 : ∀ t : Fin cfg0.N, condFirst0 (grid0.coords t) ↔ t.val = 0 :=
  (by decide +kernel : ∀ t : Fin grid0.N, condFirst0 (grid0.coords t) ↔ t.val = 0)

theorem hcondLast0 : ∀ t : Fin cfg0.N, condLast0 (grid0.coords t) ↔ t.val = 49 :=
  (by decide +kernel : ∀ t : Fin grid0.N, condLast0 (grid0.coords t) ↔ t.val = 49)

theorem zeros2_0 : (![0, 0] : Fin 2 → ℕ) = fun _ => 0 := by
  funext a; fin_cases a <;> rfl

theorem readAt_whole_unread0 {sp : Space} {S : Shape} {e : EltTy} {Val : EltTy → Type}
    {m : Memref sig .tc sp S e} (h : m.IsWhole) {off : Fin S.rank → ℕ} (hz : off = fun _ => 0)
    (inb : ∀ a, off a + S.size a ≤ S.size a) (X : S.Idx → Val e) :
    View.readAt Val m.view (Rect.unit off S.size inb).toLoadRect (h.unread X) = X := by
  rw [View.readAt_eq_ld, h.read_unread]; exact View.ld_unit_zero hz inb X

theorem read_writes_whole_unit0 {κ : Kind} {sp : Space} {S : Shape} {e : EltTy} {Val : EltTy → Type}
    (v : View sig κ sp S e) (f : v.ty.Contents Val) {off : Fin S.rank → ℕ} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst hz; funext y
  have h := View.read_writes_cons_emb v f (Rect.whole S) w L y
  rwa [Rect.emb_whole_apply] at h

set_option maxHeartbeats 1000000 in

theorem body0_mid (𝒱₀ : Variants) (c : Dev nD) (i : grid0.Coords)
    (arg1 : Memref sig .tc .vmem S200x10000 .f32) (harg1 : arg1.IsWhole)
    (arg2 : Memref sig .tc .vmem S1x10000 .f32) (harg2 : arg2.IsWhole)
    (hF : ¬condFirst0 i) (hL : ¬condLast0 i)
    (x : Vec F S200x10000 .f32) (y : Vec F S1x10000 .f32) (E : Set ℕ) (K : PUnit → sProp 𝕄) :
    iprop(owns (c : Thread nD τ) arg1 fullShare x ∗ owns (c : Thread nD τ) arg2 fullShare y
        ∗ (iprop(owns (c : Thread nD τ) arg1 fullShare x ∗ owns (c : Thread nD τ) arg2 fullShare (k0_pay2 y x)) -∗ K ⟨⟩))
      ⊢ wp frame (wpE (defs₀ (F := F)) 𝒱₀ c none) E (cc0__colsum_body i arg1 harg1 arg2 harg2) K := by
  simp only [cc0__colsum_body_eq_skeleton]; unfold cc0__colsum_body_skel
  unfold owns
  iintro ⟨⟨%f0, %hf0, H0⟩, ⟨%f1, %hf1, H1⟩, Hk⟩
  obtain rfl := harg1.eq_unread hf0
  obtain rfl := harg2.eq_unread hf1
  sl_exec (disch := first | exact hF | exact hL)
  sl_step
  iapply Hk
  isplitl [H0]
  · iexists _; isplitr; · ipureintro; exact hf0
    iexact H0
  iexists _; isplitr
  swap; · iexact H1
  ipureintro
  rw [readAt_whole_unread0 harg2 zeros2_0 _ y, readAt_whole_unread0 harg1 zeros2_0 _ x]
  exact read_writes_whole_unit0 _ _ zeros2_0 _ _ _

set_option maxHeartbeats 1000000 in

theorem body0_first (𝒱₀ : Variants) (c : Dev nD) (i : grid0.Coords)
    (arg1 : Memref sig .tc .vmem S200x10000 .f32) (harg1 : arg1.IsWhole)
    (arg2 : Memref sig .tc .vmem S1x10000 .f32) (harg2 : arg2.IsWhole)
    (hF : condFirst0 i) (hL : ¬condLast0 i)
    (x : Vec F S200x10000 .f32) (y : Vec F S1x10000 .f32) (E : Set ℕ) (K : PUnit → sProp 𝕄) :
    iprop(owns (c : Thread nD τ) arg1 fullShare x ∗ owns (c : Thread nD τ) arg2 fullShare y
        ∗ (iprop(owns (c : Thread nD τ) arg1 fullShare x ∗ owns (c : Thread nD τ) arg2 fullShare (k0_pay2 (k0_pay1 (F := F)) x)) -∗ K ⟨⟩))
      ⊢ wp frame (wpE (defs₀ (F := F)) 𝒱₀ c none) E (cc0__colsum_body i arg1 harg1 arg2 harg2) K := by
  simp only [cc0__colsum_body_eq_skeleton]; unfold cc0__colsum_body_skel
  unfold owns
  iintro ⟨⟨%f0, %hf0, H0⟩, ⟨%f1, %hf1, H1⟩, Hk⟩
  obtain rfl := harg1.eq_unread hf0
  obtain rfl := harg2.eq_unread hf1
  sl_exec (disch := first | exact hF | exact hL)
  sl_step
  iapply Hk
  isplitl [H0]
  · iexists _; isplitr; · ipureintro; exact hf0
    iexact H0
  iexists _; isplitr
  swap; · iexact H1
  ipureintro
  sl_unfold_run_names
  rw [View.readCov_unit_zero _ zeros2_0, readAt_whole_unread0 harg1 zeros2_0 _ x]
  exact read_writes_whole_unit0 _ _ zeros2_0 _ _ _

set_option maxHeartbeats 1000000 in

theorem body0_last (𝒱₀ : Variants) (c : Dev nD) (i : grid0.Coords)
    (arg1 : Memref sig .tc .vmem S200x10000 .f32) (harg1 : arg1.IsWhole)
    (arg2 : Memref sig .tc .vmem S1x10000 .f32) (harg2 : arg2.IsWhole)
    (hF : ¬condFirst0 i) (hL : condLast0 i)
    (x : Vec F S200x10000 .f32) (y : Vec F S1x10000 .f32) (E : Set ℕ) (K : PUnit → sProp 𝕄) :
    iprop(owns (c : Thread nD τ) arg1 fullShare x ∗ owns (c : Thread nD τ) arg2 fullShare y
        ∗ (iprop(owns (c : Thread nD τ) arg1 fullShare x ∗ owns (c : Thread nD τ) arg2 fullShare (k0_pay3 (k0_pay2 y x))) -∗ K ⟨⟩))
      ⊢ wp frame (wpE (defs₀ (F := F)) 𝒱₀ c none) E (cc0__colsum_body i arg1 harg1 arg2 harg2) K := by
  simp only [cc0__colsum_body_eq_skeleton]; unfold cc0__colsum_body_skel
  unfold owns
  iintro ⟨⟨%f0, %hf0, H0⟩, ⟨%f1, %hf1, H1⟩, Hk⟩
  obtain rfl := harg1.eq_unread hf0
  obtain rfl := harg2.eq_unread hf1
  sl_exec (disch := first | exact hF | exact hL)
  sl_step
  iapply Hk
  isplitl [H0]
  · iexists _; isplitr; · ipureintro; exact hf0
    iexact H0
  iexists _; isplitr
  swap; · iexact H1
  ipureintro
  sl_unfold_run_names
  rw [readAt_whole_unread0 harg2 zeros2_0 _ y, readAt_whole_unread0 harg1 zeros2_0 _ x, View.readCov_unit_zero _ zeros2_0]
  exact read_writes_whole_unit0 _ _ zeros2_0 _ _ _

end Cert.KernelIdeal.Hand

end
-- ==== Proof.Oblig0.lean ====
import proofs.«109387_g55946243997874_fold_wed_m_672_4_alg».proof.Proof.Dat0
import proofs.«109387_g55946243997874_fold_wed_m_672_4_alg».proof.Proof.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sum0_first (c : Dev nD) (t : Fin cfg0.N) (h0 : t.val = 0) :
    sum0 V c t.val t.isLt = k0_pay2 (k0_pay1 (F := F)) (iblk0 V c 0 t) := by
  obtain ⟨n, hn⟩ := t
  cases n with
  | zero => rfl
  | succ n => exact absurd h0 (Nat.succ_ne_zero n)

theorem sum0_later (c : Dev nD) (t : Fin cfg0.N) (h0 : t.val ≠ 0) :
    sum0 V c t.val t.isLt
      = k0_pay2 (sum0 V c (t.val - 1) (Nat.lt_of_le_of_lt (Nat.sub_le _ _) t.isLt)) (iblk0 V c 0 t) := by
  obtain ⟨n, hn⟩ := t
  cases n with
  | zero => exact absurd rfl h0
  | succ n => rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 50 := lt_of_lt_of_eq t.isLt (show cfg0.N = 50 from N_0)
  by_cases h0 : t.val = 0
  ·
    have hF : condFirst0 (grid0.coords t) := (hcondFirst0 t).mpr h0
    have hL : ¬condLast0 (grid0.coords t) := fun h => by have := (hcondLast0 t).mp h; omega
    rw [out0_of_ne V c t (by omega), sum0_first V c t h0]
    iintro ⟨HΦ, Ho, ⟨%d0, H0⟩, ⟨%d1, H1⟩⟩
    iapply (body0_first Variants.none c (grid0.coords t) _ _ _ _ hF hL (iblk0 V c 0 t) ((dat0 V c).before 1 t d1) Set.univ _)
    isplitl [H0]; · iexact H0
    isplitl [H1]; · iexact H1
    iintro ⟨H0, H1⟩
    isplitl [HΦ]; · iexact HΦ
    isplitl [Ho]; · iexact Ho
    isplitl [H0]; · iexact H0
    iexact H1
  · have hF : ¬condFirst0 (grid0.coords t) := fun h => h0 ((hcondFirst0 t).mp h)
    simp only [before0_1_later V c t h0]
    rw [out0_of_ne V c ⟨t.val - 1, Nat.lt_of_le_of_lt (Nat.sub_le _ _) t.isLt⟩ (by dsimp only; omega)]
    by_cases h49 : t.val = 49
    ·
      have hL : condLast0 (grid0.coords t) := (hcondLast0 t).mpr h49
      rw [out0_last V c t h49, sum0_later V c t h0]
      iintro ⟨HΦ, Ho, ⟨%d0, H0⟩, ⟨%d1, H1⟩⟩
      iapply (body0_last Variants.none c (grid0.coords t) _ _ _ _ hF hL (iblk0 V c 0 t) _ Set.univ _)
      isplitl [H0]; · iexact H0
      isplitl [H1]; · iexact H1
      iintro ⟨H0, H1⟩
      isplitl [HΦ]; · iexact HΦ
      isplitl [Ho]; · iexact Ho
      isplitl [H0]; · iexact H0
      iexact H1
    ·
      have hL : ¬condLast0 (grid0.coords t) := fun h => h49 ((hcondLast0 t).mp h)
      rw [out0_of_ne V c t h49, sum0_later V c t h0]
      iintro ⟨HΦ, Ho, ⟨%d0, H0⟩, ⟨%d1, H1⟩⟩
      iapply (body0_mid Variants.none c (grid0.coords t) _ _ _ _ hF hL (iblk0 V c 0 t) _ Set.univ _)
      isplitl [H0]; · iexact H0
      isplitl [H1]; · iexact H1
      iintro ⟨H0, H1⟩
      isplitl [HΦ]; · iexact HΦ
      isplitl [Ho]; · iexact Ho
      isplitl [H0]; · iexact H0
      iexact H1

theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.Region0.lean ====
import proofs.«109387_g55946243997874_fold_wed_m_672_4_alg».proof.Proof.KShared
import proofs.«109387_g55946243997874_fold_wed_m_672_4_alg».proof.Proof.Oblig0
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal

variable {F : FTy → Type} [FloatOps F]

local notation "𝕄" => MT nD τ sig Unit (Elt F) ℕ (UR sig nD τ) ℕ

variable (m : (ℓ : Loc nD τ sig) → Buf (Elt F) ℓ) (outs : Gen.Outs (F := F))

abbrev exit0 : (c : Dev nD) → (b : Ref sig .tc) → Buf (Elt F) ((c : Thread nD τ).loc b) := fun c b => Gen.V1 m outs c b

theorem hF0 (h : Out0 m outs) (c : Dev nD) (w : Fin cfg0.W) :
    (pdats m outs 0 c).arrAt w cfg0.N = exit0 m outs c (Pipeline.arrRef spec0 w) :=
  match w with
  | ⟨0, _⟩ => ((dat0 (entry0 m) c).arrAt_in 0 rfl _).trans (Gen.V1_of m outs c main_arg1 (by decide)).symm
  | ⟨1, _⟩ => (h c).symm.trans (by simp only [exit0, Gen.V1, Function.update_self])

theorem hrest0 (c : Dev nD) : ∀ b, b ∉ Finset.univ.image (Pipeline.arrRef spec0) → exit0 m outs c b = entry0 m c b :=
  fun b hb => Gen.V1_of m outs c b fun hmem => by
    rw [List.mem_singleton] at hmem
    subst hmem
    exact hb (Finset.mem_image.mpr ⟨1, Finset.mem_univ _, rfl⟩)

set_option backward.isDefEq.respectTransparency.types false in

def R0 (h : Out0 m outs) : RegionSeg (pcfgs (F := F)) Gen.adm (pdats m outs) () defs₀ 𝒱₀ L lv 0 where
  win := Gen.launch0.win.to₀
  block_pos := Gen.launch0.block_pos
  stage_whole := Gen.launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (Gen.V0 m c) ∗ E 0 c)
  post c := iprop(StableHlo.held (c : Thread nD τ) (Pipeline.ucRefs τ sig) (Gen.V1 m outs c) ∗ E 1 c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) Gen.adm (pdats m outs) Gen.launch0.win Gen.launch0.arr_whole c
      ((pdats m outs 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m outs) ((pdats m outs 0 c).share_full fun _ => rfl)
      (entry0 m c) (exit0 m outs c) ((pdats m outs 0 c).arrAt · cfg0.N) (hF0 m outs h c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Body1.lean ====
import proofs.«109387_g55946243997874_fold_wed_m_672_4_alg».proof.Proof.Dat1
import Idealize.ShloMosaic.Lib.Tactic
import Idealize.ShloMosaic.Lib.WholeRead

set_option maxRecDepth 16384
set_option pp.maxSteps 20000
set_option pp.deepTerms false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1

abbrev cond1_1 (i : grid1.Coords) : Prop := k1_cond2 i = 1#1

theorem hcond1_0 : ∀ t : Fin cfg1.N, cond1_0 (grid1.coords t) ↔ t.val % 50 = 0 :=
  (by decide +kernel : ∀ t : Fin grid1.N, cond1_0 (grid1.coords t) ↔ t.val % 50 = 0)

theorem hcond1_1 : ∀ t : Fin cfg1.N, cond1_1 (grid1.coords t) ↔ t.val % 50 = 49 :=
  (by decide +kernel : ∀ t : Fin grid1.N, cond1_1 (grid1.coords t) ↔ t.val % 50 = 49)

theorem zero2_1 : (![0, 0] : Fin 2 → Nat) = fun _ => 0 := by funext a; fin_cases a <;> rfl

theorem readAt_all_unread1 {κ : Kind} {sp : Space} {s : Shape} {e : EltTy} {m : Memref sig κ sp s e} (h : m.IsWhole) (X : s.Idx → Elt F e)
    {off : Fin s.rank → Nat} (ho : off = fun _ => 0) (inb : ∀ a, off a + s.size a ≤ s.size a) :
    View.readAt (Elt F) m.view (Rect.unit (s := s) off s.size inb).toLoadRect (h.unread X) = X := by
  subst ho
  funext x
  rw [h.readAt_unread]
  exact congrArg X (Rect.emb_whole_apply _ x)

theorem canon_acc1 (i : grid1.Coords) (x1 : Vec F S200x10000 .f32) (x2 : Vec F S200x128 .f32) (x3 : Vec F S128x16 .f32) (x6 : Vec F S200x1 .f32)
    (s : Vec F S10000x16 .f32) (v : View sig .tc .vmem S10000x16 .f32) :
    View.canon [⟨rI1 i, k1_pay4 x2 x3 x6 (v.readAt (Elt F) (rI1 i).toLoadRect (v.writes (Elt F) v.junk [⟨rW1, k1_pay3 x2 x3 x6 s x1⟩]))⟩,
        ⟨rW1, k1_pay3 x2 x3 x6 s x1⟩]
      = accNext1 i x1 x2 x3 x6 s := by
  rw [View.readAt_writes_junk_eq_canon, View.canon_unit_zero zero2_1]
  rfl

theorem canon_acc_first1 (i : grid1.Coords) (x1 : Vec F S200x10000 .f32) (x2 : Vec F S200x128 .f32) (x3 : Vec F S128x16 .f32) (x6 : Vec F S200x1 .f32)
    (v : View sig .tc .vmem S10000x16 .f32) :
    View.canon [⟨rI1 i, k1_pay4 x2 x3 x6 (v.readAt (Elt F) (rI1 i).toLoadRect (v.writes (Elt F) v.junk
          [⟨rW1, k1_pay3 x2 x3 x6 (k1_pay1 (F := F)) x1⟩, ⟨rW1, k1_pay1 (F := F)⟩]))⟩,
        ⟨rW1, k1_pay3 x2 x3 x6 (k1_pay1 (F := F)) x1⟩, ⟨rW1, k1_pay1 (F := F)⟩]
      = accNext1 i x1 x2 x3 x6 (k1_pay1 (F := F)) := by
  rw [View.readAt_writes_junk_eq_canon, View.canon_cons_unit_zero zero2_1, View.canon_cons (⟨rI1 i, _⟩ : View.Piece (Elt F) S10000x16 .f32),
    View.canon_cons_unit_zero zero2_1]
  unfold accNext1
  rw [View.canon_cons (⟨rI1 i, _⟩ : View.Piece (Elt F) S10000x16 .f32), View.canon_unit_zero zero2_1]

section Runs

variable (𝒱₀ : Variants) (c : Dev nD) (i : grid1.Coords) (arg1 : Memref sig .tc .vmem S200x10000 .f32) (harg1 : arg1.IsWhole) (arg2 : Memref sig .tc .vmem S200x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x40 .f32) (harg5 : arg5.IsWhole) (arg6 : Memref sig .tc .vmem S200x1 .f32) (harg6 : arg6.IsWhole) (arg7 : Memref sig .tc .vmem S10000x1 .f32) (harg7 : arg7.IsWhole) (arg8 : Memref sig .tc .vmem S10000x40 .f32) (harg8 : arg8.IsWhole) (arg9 : Memref sig .tc .vmem S10000x16 .f32) (harg9 : arg9.IsWhole)
  (x1 : Vec F S200x10000 .f32) (x2 : Vec F S200x128 .f32) (x3 : Vec F S128x16 .f32) (x4 : Vec F S1x16 .f32) (x5 : Vec F S16x40 .f32) (x6 : Vec F S200x1 .f32) (x7 : Vec F S10000x1 .f32) (x8 : Vec F S10000x40 .f32) (s : Vec F S10000x16 .f32) (E : Set ℕ)

set_option maxHeartbeats 1000000 in

theorem run1_mid (K : PUnit → sProp 𝕄) (hc0 : ¬cond1_0 i) (hc1 : ¬cond1_1 i) :
    iprop(iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare s) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (accNext1 i x1 x2 x3 x6 s)) -∗ K ⟨⟩))
      ⊢ wp frame (wpE (defs₀ (F := F)) 𝒱₀ c none) E (cc1__agg1_body i arg1 harg1 arg2 harg2 arg3 harg3 arg4 harg4 arg5 harg5 arg6 harg6 arg7 harg7 arg8 harg8 arg9 harg9) K := by
  simp only [cc1__agg1_body_eq_skeleton]; unfold cc1__agg1_body_skel
  unfold owns
  iintro ⟨⟨⟨%f1, %hf1, H1⟩, ⟨%f2, %hf2, H2⟩, ⟨%f3, %hf3, H3⟩, H4, H5, ⟨%f6, %hf6, H6⟩, H7, H8, ⟨%f9, %hf9, H9⟩⟩, Hk⟩
  obtain rfl := harg1.eq_unread hf1; obtain rfl := harg2.eq_unread hf2; obtain rfl := harg3.eq_unread hf3; obtain rfl := harg6.eq_unread hf6
  obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]; · iexact H4
  isplitl [H5]; · iexact H5
  isplitl [H6]
  · iexists _; isplitr; · ipureintro; exact harg6.read_unread _
    iexact H6
  isplitl [H7]; · iexact H7
  isplitl [H8]; · iexact H8
  iexists _; isplitr
  swap; · iexact H9
  ipureintro
  rw [View.read_writes_junk_eq_canon]
  sl_unfold_run_names
  rw [readAt_all_unread1 harg1 x1 zero2_1, readAt_all_unread1 harg2 x2 zero2_1, readAt_all_unread1 harg3 x3 zero2_1, readAt_all_unread1 harg6 x6 zero2_1, readAt_all_unread1 harg9 s zero2_1]
  exact canon_acc1 i x1 x2 x3 x6 s _

set_option maxHeartbeats 1000000 in

theorem run1_first (K : PUnit → sProp 𝕄) (hc0 : cond1_0 i) (hc1 : ¬cond1_1 i) :
    iprop(iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (accNext1 i x1 x2 x3 x6 k1_pay1)) -∗ K ⟨⟩))
      ⊢ wp frame (wpE (defs₀ (F := F)) 𝒱₀ c none) E (cc1__agg1_body i arg1 harg1 arg2 harg2 arg3 harg3 arg4 harg4 arg5 harg5 arg6 harg6 arg7 harg7 arg8 harg8 arg9 harg9) K := by
  simp only [cc1__agg1_body_eq_skeleton]; unfold cc1__agg1_body_skel
  unfold owns
  iintro ⟨⟨⟨%f1, %hf1, H1⟩, ⟨%f2, %hf2, H2⟩, ⟨%f3, %hf3, H3⟩, H4, H5, ⟨%f6, %hf6, H6⟩, H7, H8, ⟨%d9, %f9, -, H9⟩⟩, Hk⟩
  obtain rfl := harg1.eq_unread hf1; obtain rfl := harg2.eq_unread hf2; obtain rfl := harg3.eq_unread hf3; obtain rfl := harg6.eq_unread hf6
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]; · iexact H4
  isplitl [H5]; · iexact H5
  isplitl [H6]
  · iexists _; isplitr; · ipureintro; exact harg6.read_unread _
    iexact H6
  isplitl [H7]; · iexact H7
  isplitl [H8]; · iexact H8
  iexists _; isplitr
  swap; · iexact H9
  ipureintro
  rw [View.read_writes_junk_eq_canon]
  sl_unfold_run_names
  rw [readAt_all_unread1 harg1 x1 zero2_1, readAt_all_unread1 harg2 x2 zero2_1, readAt_all_unread1 harg3 x3 zero2_1, readAt_all_unread1 harg6 x6 zero2_1,
    View.readCov_unit_zero _ zero2_1]
  exact canon_acc_first1 i x1 x2 x3 x6 _

set_option maxHeartbeats 1000000 in

theorem run1_last (K : PUnit → sProp 𝕄) (hc0 : ¬cond1_0 i) (hc1 : cond1_1 i) :
    iprop(iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare s) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k1_pay5 (accNext1 i x1 x2 x3 x6 s) x7 x4 x5 x7) ∗ owns (c : Thread nD τ) arg9 fullShare (accNext1 i x1 x2 x3 x6 s)) -∗ K ⟨⟩))
      ⊢ wp frame (wpE (defs₀ (F := F)) 𝒱₀ c none) E (cc1__agg1_body i arg1 harg1 arg2 harg2 arg3 harg3 arg4 harg4 arg5 harg5 arg6 harg6 arg7 harg7 arg8 harg8 arg9 harg9) K := by
  simp only [cc1__agg1_body_eq_skeleton]; unfold cc1__agg1_body_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩⟩, Hk⟩
  obtain rfl := harg1.eq_unread hf1; obtain rfl := harg2.eq_unread hf2; obtain rfl := harg3.eq_unread hf3; obtain rfl := harg6.eq_unread hf6
  obtain rfl := harg4.eq_unread hf4; obtain rfl := harg5.eq_unread hf5; obtain rfl := harg7.eq_unread hf7
  obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [View.read_writes_eq_canon _ _ _ (fun y => ⟨_, List.mem_singleton_self _, View.mem_set_unit_zero zero2_1 inb_S10000x40_S10000x40_0_0 y⟩), View.canon_unit_zero zero2_1]
    sl_unfold_run_names
    rw [readAt_all_unread1 harg1 x1 zero2_1, readAt_all_unread1 harg2 x2 zero2_1, readAt_all_unread1 harg3 x3 zero2_1, readAt_all_unread1 harg6 x6 zero2_1, readAt_all_unread1 harg9 s zero2_1,
      readAt_all_unread1 harg4 x4 zero2_1, readAt_all_unread1 harg5 x5 zero2_1, readAt_all_unread1 harg7 x7 zero2_1,
      View.readCov_eq_canon']
    exact congrArg (fun a => k1_pay5 a x7 x4 x5 x7) ((View.ld_unit_zero zero2_1 inb_S10000x16_S10000x16_0_0 _).trans (canon_acc1 i x1 x2 x3 x6 s _))
  iexists _; isplitr
  swap; · iexact H9
  ipureintro
  rw [View.read_writes_junk_eq_canon]
  sl_unfold_run_names
  rw [readAt_all_unread1 harg1 x1 zero2_1, readAt_all_unread1 harg2 x2 zero2_1, readAt_all_unread1 harg3 x3 zero2_1, readAt_all_unread1 harg6 x6 zero2_1, readAt_all_unread1 harg9 s zero2_1]
  exact canon_acc1 i x1 x2 x3 x6 s _

end Runs

section Acc

variable (V : (c : Dev nD) → (b : Ref sig .tc) → Buf (Elt F) ((c : Thread nD τ).loc b)) (c : Dev nD)

theorem accAt1_first (t : Fin cfg1.N) (h : t.val = 0) :
    accAt1 V c t.val = accNext1 (grid1.coords t) (iblk1 V c 0 t) (iblk1 V c 1 t) (iblk1 V c 2 t) (iblk1 V c 5 t) (k1_pay1 (F := F)) := by
  have e := ptOf1_val t
  rw [h] at e ⊢
  show accNext1 (grid1.coords (ptOf1 0)) (iblk1 V c 0 (ptOf1 0)) (iblk1 V c 1 (ptOf1 0)) (iblk1 V c 2 (ptOf1 0)) (iblk1 V c 5 (ptOf1 0)) (k1_pay1 (F := F)) = _
  rw [e]

theorem accAt1_later (t : Fin cfg1.N) (h : t.val ≠ 0) :
    accAt1 V c t.val = accNext1 (grid1.coords t) (iblk1 V c 0 t) (iblk1 V c 1 t) (iblk1 V c 2 t) (iblk1 V c 5 t) (accAt1 V c (t.val - 1)) := by
  obtain ⟨n, hn⟩ := t
  cases n with
  | zero => exact absurd rfl h
  | succ n =>
    have e := ptOf1_val (⟨n + 1, hn⟩ : Fin cfg1.N)
    show accNext1 (grid1.coords (ptOf1 (n + 1))) (iblk1 V c 0 (ptOf1 (n + 1))) (iblk1 V c 1 (ptOf1 (n + 1))) (iblk1 V c 2 (ptOf1 (n + 1)))
      (iblk1 V c 5 (ptOf1 (n + 1))) (accAt1 V c n) = _
    rw [e]
    rfl

end Acc

end Cert.KernelIdeal.Hand
end
-- ==== Proof.Oblig1.lean ====
import proofs.«109387_g55946243997874_fold_wed_m_672_4_alg».proof.Proof.Body1

set_option maxRecDepth 16384
set_option pp.maxSteps 20000
set_option pp.deepTerms false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel

theorem liveAt1_7 : ∀ t : Fin cfg1.N, cond1_1 (grid1.coords t) → cfg1.idle 7 (grid1.coords t) = false := by decide +kernel

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl

abbrev ms1_0 (t : Fin cfg1.N) : Memref sig .tc .vmem S200x10000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S200x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16x40 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S200x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S10000x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S10000x40 .f32 := win1_7.stage (cfg1.slots t 7)
abbrev hs1_7 (t : Fin cfg1.N) : (ms1_7 t).IsWhole := hstage1_7 ((cfg1.slots t 7).cast nbuf1_7)

section Obligation

variable (V : (c : Dev nD) → (b : Ref sig .tc) → Buf (Elt F) ((c : Thread nD τ).loc b)) (c : Dev nD)

theorem before1_0 (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

def bodyPre1 (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem Phi1_castSucc (t : Fin cfg1.N) :
    Phi1 V c t.castSucc = PhiS1 c (if t.val = 0 then anyBuf1 (F := F) c cc1_scratch0 else owns (c : Thread nD τ) scM1 fullShare (accAt1 V c (t.val - 1))) := rfl
theorem Phi1_succ (t : Fin cfg1.N) : Phi1 V c t.succ = PhiS1 c (owns (c : Thread nD τ) scM1 fullShare (accAt1 V c t.val)) := by
  show PhiS1 c (if t.val + 1 = 0 then _ else owns (c : Thread nD τ) scM1 fullShare (accAt1 V c (t.val + 1 - 1))) = _
  rw [if_neg (Nat.succ_ne_zero _), Nat.add_sub_cancel]

theorem anyScratch1 : (anyBuf1 (F := F) c cc1_scratch0 : sProp 𝕄) = iprop(∃ d, owns (c : Thread nD τ) scM1 fullShare d) := by
  simp only [owns_whole]
  rfl

set_option maxHeartbeats 1600000 in

theorem sound_body1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V c, before1_1 V c, before1_2 V c, before1_3 V c, before1_4 V c, before1_5 V c, before1_6 V c]
  rw [show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [Phi_eq1, Phi_eq1, Phi1_castSucc, Phi1_succ]
  unfold PhiS1
  have hN : t.val < 50 := lt_of_lt_of_eq t.isLt (show cfg1.N = 50 from N_1)
  by_cases h0 : t.val % 50 = 0
  ·
    have hz : t.val = 0 := by omega
    have h1 : ¬t.val % 50 = 49 := by omega
    have hc0 : cond1_0 (grid1.coords t) := (hcond1_0 t).mpr h0
    have hc1 : ¬cond1_1 (grid1.coords t) := fun h => h1 ((hcond1_1 t).mp h)
    rw [if_pos hz, Dat.leavesExact_idle (dat1 V c) 7 t (idleAt1_7 t hc1) (noFlush1_7 t hc1), accAt1_first V c t hz, anyScratch1]
    iintro ⟨⟨R0, R1, R2, HS, R4, R5, R6, R7, R8, R9, R10, R11⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_first (𝒱₀ := Variants.none) (c := c) (i := grid1.coords t) (arg1 := ms1_0 t) (harg1 := hs1_0 t) (arg2 := ms1_1 t) (harg2 := hs1_1 t) (arg3 := ms1_2 t) (harg3 := hs1_2 t) (arg4 := ms1_3 t) (harg4 := hs1_3 t) (arg5 := ms1_4 t) (harg5 := hs1_4 t) (arg6 := ms1_5 t) (harg6 := hs1_5 t) (arg7 := ms1_6 t) (harg7 := hs1_6 t) (arg8 := ms1_7 t) (harg8 := hs1_7 t) (arg9 := scM1) (harg9 := Memref.isWhole_whole _) (x1 := iblk1 V c 0 t) (x2 := iblk1 V c 1 t) (x3 := iblk1 V c 2 t) (x4 := iblk1 V c 3 t) (x5 := iblk1 V c 4 t) (x6 := iblk1 V c 5 t) (x7 := iblk1 V c 6 t) (x8 := (dat1 V c).before 7 t d7) (E := Set.univ) (K := _) hc0 hc1)
    isplitl [H0 H1 H2 H3 H4 H5 H6 H7 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact HS
    iintro ⟨H0, H1, H2, H3, H4, H5, H6, H7, HS⟩
    isplitl [R0 R1 R2 HS R4 R5 R6 R7 R8 R9 R10 R11]
    · isplitl [R0]; · iexact R0
      isplitl [R1]; · iexact R1
      isplitl [R2]; · iexact R2
      isplitl [HS]; · iexact HS
      isplitl [R4]; · iexact R4
      isplitl [R5]; · iexact R5
      isplitl [R6]; · iexact R6
      isplitl [R7]; · iexact R7
      isplitl [R8]; · iexact R8
      isplitl [R9]; · iexact R9
      isplitl [R10]; · iexact R10
      iexact R11
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · by_cases h1 : t.val % 50 = 49
    ·
      have hz : t.val ≠ 0 := by omega
      have hc0 : ¬cond1_0 (grid1.coords t) := fun h => h0 ((hcond1_0 t).mp h)
      have hc1 : cond1_1 (grid1.coords t) := (hcond1_1 t).mpr h1
      rw [if_neg hz, show (dat1 V c).leavesExact 7 t = owns (c : Thread nD τ) (ms1_7 t) fullShare ((dat1 V c).after 7 t) from by
        unfold Dat.leavesExact; rw [liveAt1_7 t hc1], after1_7]
      unfold out1
      rw [accAt1_later V c t hz]
      iintro ⟨⟨R0, R1, R2, HS, R4, R5, R6, R7, R8, R9, R10, R11⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_last (𝒱₀ := Variants.none) (c := c) (i := grid1.coords t) (arg1 := ms1_0 t) (harg1 := hs1_0 t) (arg2 := ms1_1 t) (harg2 := hs1_1 t) (arg3 := ms1_2 t) (harg3 := hs1_2 t) (arg4 := ms1_3 t) (harg4 := hs1_3 t) (arg5 := ms1_4 t) (harg5 := hs1_4 t) (arg6 := ms1_5 t) (harg6 := hs1_5 t) (arg7 := ms1_6 t) (harg7 := hs1_6 t) (arg8 := ms1_7 t) (harg8 := hs1_7 t) (arg9 := scM1) (harg9 := Memref.isWhole_whole _) (x1 := iblk1 V c 0 t) (x2 := iblk1 V c 1 t) (x3 := iblk1 V c 2 t) (x4 := iblk1 V c 3 t) (x5 := iblk1 V c 4 t) (x6 := iblk1 V c 5 t) (x7 := iblk1 V c 6 t) (s := accAt1 V c (t.val - 1)) (E := Set.univ) (K := _) hc0 hc1)
      isplitl [H0 H1 H2 H3 H4 H5 H6 H7 HS]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iexact HS
      iintro ⟨H0, H1, H2, H3, H4, H5, H6, H7, HS⟩
      isplitl [R0 R1 R2 HS R4 R5 R6 R7 R8 R9 R10 R11]
      · isplitl [R0]; · iexact R0
        isplitl [R1]; · iexact R1
        isplitl [R2]; · iexact R2
        isplitl [HS]; · iexact HS
        isplitl [R4]; · iexact R4
        isplitl [R5]; · iexact R5
        isplitl [R6]; · iexact R6
        isplitl [R7]; · iexact R7
        isplitl [R8]; · iexact R8
        isplitl [R9]; · iexact R9
        isplitl [R10]; · iexact R10
        iexact R11
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    ·
      have hz : t.val ≠ 0 := by omega
      have hc0 : ¬cond1_0 (grid1.coords t) := fun h => h0 ((hcond1_0 t).mp h)
      have hc1 : ¬cond1_1 (grid1.coords t) := fun h => h1 ((hcond1_1 t).mp h)
      rw [if_neg hz, Dat.leavesExact_idle (dat1 V c) 7 t (idleAt1_7 t hc1) (noFlush1_7 t hc1), accAt1_later V c t hz]
      iintro ⟨⟨R0, R1, R2, HS, R4, R5, R6, R7, R8, R9, R10, R11⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_mid (𝒱₀ := Variants.none) (c := c) (i := grid1.coords t) (arg1 := ms1_0 t) (harg1 := hs1_0 t) (arg2 := ms1_1 t) (harg2 := hs1_1 t) (arg3 := ms1_2 t) (harg3 := hs1_2 t) (arg4 := ms1_3 t) (harg4 := hs1_3 t) (arg5 := ms1_4 t) (harg5 := hs1_4 t) (arg6 := ms1_5 t) (harg6 := hs1_5 t) (arg7 := ms1_6 t) (harg7 := hs1_6 t) (arg8 := ms1_7 t) (harg8 := hs1_7 t) (arg9 := scM1) (harg9 := Memref.isWhole_whole _) (x1 := iblk1 V c 0 t) (x2 := iblk1 V c 1 t) (x3 := iblk1 V c 2 t) (x4 := iblk1 V c 3 t) (x5 := iblk1 V c 4 t) (x6 := iblk1 V c 5 t) (x7 := iblk1 V c 6 t) (x8 := (dat1 V c).before 7 t d7) (s := accAt1 V c (t.val - 1)) (E := Set.univ) (K := _) hc0 hc1)
      isplitl [H0 H1 H2 H3 H4 H5 H6 H7 HS]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact HS
      iintro ⟨H0, H1, H2, H3, H4, H5, H6, H7, HS⟩
      isplitl [R0 R1 R2 HS R4 R5 R6 R7 R8 R9 R10 R11]
      · isplitl [R0]; · iexact R0
        isplitl [R1]; · iexact R1
        isplitl [R2]; · iexact R2
        isplitl [HS]; · iexact HS
        isplitl [R4]; · iexact R4
        isplitl [R5]; · iexact R5
        isplitl [R6]; · iexact R6
        isplitl [R7]; · iexact R7
        isplitl [R8]; · iexact R8
        isplitl [R9]; · iexact R9
        isplitl [R10]; · iexact R10
        iexact R11
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists d7; iexact H7

theorem body_obligation1 : BodyObligation (dat1 (F := F) V c) (defs₀ (F := F)) Variants.none () Set.univ := fun t => by
  rw [bigSep_W1, bigSep_W1]
  exact sound_body1 V c t

theorem Phi1_in : (Pipeline.scopedRest (Ix := Unit) (Name := ℕ) (U := UR sig nD τ) (Lvl := ℕ) (Val := Elt F) spec1 c : sProp 𝕄) ⊢ (dat1 V c).Φ 0 := by
  rw [Phi_eq1, scopedRest1_eq]
  unfold Phi1 PhiS1
  rw [if_pos (show ((0 : Fin (cfg1.N + 1)) : ℕ) = 0 from rfl)]

theorem Phi1_out : (dat1 V c).Φ (Fin.last cfg1.N) ⊢ (Pipeline.scopedRest (Ix := Unit) (Name := ℕ) (U := UR sig nD τ) (Lvl := ℕ) (Val := Elt F) spec1 c : sProp 𝕄) := by
  rw [Phi_eq1, scopedRest1_eq]
  unfold Phi1 PhiS1
  rw [if_neg (show ¬((Fin.last cfg1.N : Fin (cfg1.N + 1)) : ℕ) = 0 from by decide), owns_whole]
  iintro ⟨R0, R1, R2, HS, R4, R5, R6, R7, R8, R9, R10, R11⟩
  isplitl [R0]; · iexact R0
  isplitl [R1]; · iexact R1
  isplitl [R2]; · iexact R2
  isplitl [HS]
  · iexists _; iexact HS
  isplitl [R4]; · iexact R4
  isplitl [R5]; · iexact R5
  isplitl [R6]; · iexact R6
  isplitl [R7]; · iexact R7
  isplitl [R8]; · iexact R8
  isplitl [R9]; · iexact R9
  isplitl [R10]; · iexact R10
  iexact R11

end Obligation

end Cert.KernelIdeal.Hand

end
-- ==== Proof.Arrays1.lean ====
import proofs.«109387_g55946243997874_fold_wed_m_672_4_alg».proof.Proof.Dat1
import Idealize.ShloMosaic.Lib.Pipeline.Launch
import Idealize.ShloMosaic.Lib.Pipeline.Kit

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

theorem arrBufs1_eq (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1) ∗ (((c : Thread nD τ).loc main_arg0) ↦{fullShare} W main_arg0)
          ∗ (((c : Thread nD τ).loc main_arg2) ↦{fullShare} W main_arg2) ∗ (((c : Thread nD τ).loc main_v2) ↦{fullShare} W main_v2)
          ∗ (((c : Thread nD τ).loc main_arg4) ↦{fullShare} W main_arg4) ∗ (((c : Thread nD τ).loc main_v1) ↦{fullShare} W main_v1)
          ∗ (((c : Thread nD τ).loc main_v3) ↦{fullShare} W main_v3)) := by
  unfold Pipeline.arrBufs
  exact bigSep_eq_bigSepL_of_eq [main_arg1, main_arg0, main_arg2, main_v2, main_arg4, main_v1, main_v3] (by decide) (by decide) _

theorem arrays1_eq (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_arg0) ↦{fullShare} G 1)
          ∗ (((c : Thread nD τ).loc main_arg2) ↦{fullShare} G 2) ∗ (((c : Thread nD τ).loc main_v2) ↦{fullShare} G 3)
          ∗ (((c : Thread nD τ).loc main_arg4) ↦{fullShare} G 4) ∗ (((c : Thread nD τ).loc main_v1) ↦{fullShare.left} G 5)
          ∗ (((c : Thread nD τ).loc main_v1) ↦{fullShare.right} G 6) ∗ (((c : Thread nD τ).loc main_v3) ↦{fullShare} G 7)) := by
  unfold Dat.arrays
  rw [Gen.bigSep_W1, (Gen.arr_whole1 0).set_eq_univ, (Gen.arr_whole1 1).set_eq_univ, (Gen.arr_whole1 2).set_eq_univ,
    (Gen.arr_whole1 3).set_eq_univ, (Gen.arr_whole1 4).set_eq_univ, (Gen.arr_whole1 5).set_eq_univ,
    (Gen.arr_whole1 7).set_eq_univ]
  rfl

theorem arrays1_of_bufs (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  rw [arrBufs1_eq, arrays1_eq, hG 0, hG 1, hG 2, hG 3, hG 4, hG 5, hG 6, hG 7]
  iintro ⟨H0, H1, H2, H3, H4, H5, H7⟩
  ihave H5 := (pointsTo_share (PosShare.mem_left_op_right fullShare)).1 $$ H5
  icases H5 with ⟨H5, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem bufs_of_arrays1 (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    ((dat1 V c).arrays G : sProp 𝕄) ⊢ Pipeline.arrBufs (Ix := Unit) (Name := ℕ) (U := UR sig nD τ) (Lvl := ℕ) spec1 c W := by
  rw [arrBufs1_eq, arrays1_eq, hG 0, hG 1, hG 2, hG 3, hG 4, hG 5, hG 6, hG 7]
  iintro ⟨H0, H1, H2, H3, H4, H5, H6, H7⟩
  ihave H5 := (pointsTo_share (PosShare.mem_left_op_right fullShare)).2 $$ [H5 H6]
  · isplitl [H5] <;> iassumption
  isplitl [H0]; · iexact H0
  isplitl [H1]; · iexact H1
  isplitl [H2]; · iexact H2
  isplitl [H3]; · iexact H3
  isplitl [H4]; · iexact H4
  isplitl [H5]; · iexact H5
  iexact H7

end Cert.KernelIdeal.Hand

end
-- ==== Proof.Region1.lean ====
import proofs.«109387_g55946243997874_fold_wed_m_672_4_alg».proof.Proof.KShared
import proofs.«109387_g55946243997874_fold_wed_m_672_4_alg».proof.Proof.Oblig1
import proofs.«109387_g55946243997874_fold_wed_m_672_4_alg».proof.Proof.Arrays1
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal

variable {F : FTy → Type} [FloatOps F]

local notation "𝕄" => MT nD τ sig Unit (Elt F) ℕ (UR sig nD τ) ℕ

variable (m : (ℓ : Loc nD τ sig) → Buf (Elt F) ℓ) (outs : Gen.Outs (F := F))

abbrev exit1 : (c : Dev nD) → (b : Ref sig .tc) → Buf (Elt F) ((c : Thread nD τ).loc b) := fun c b => Gen.V3 m outs c b

theorem hA1 (c : Dev nD) (w : Fin cfg1.W) :
    (pdats m outs 1 c).arrAt w 0 = entry1 m outs c (Pipeline.arrRef spec1 w) := A_eq1 (entry1 m outs) c w

theorem hF1 (h : Out1 m outs) (c : Dev nD) (w : Fin cfg1.W) :
    (pdats m outs 1 c).arrAt w cfg1.N = exit1 m outs c (Pipeline.arrRef spec1 w) :=
  match w with
  | ⟨0, _⟩ => ((dat1 (entry1 m outs) c).arrAt_in 0 rfl _).trans (Gen.V3_of m outs c main_arg1 (by decide)).symm
  | ⟨1, _⟩ => ((dat1 (entry1 m outs) c).arrAt_in 1 rfl _).trans (Gen.V3_of m outs c main_arg0 (by decide)).symm
  | ⟨2, _⟩ => ((dat1 (entry1 m outs) c).arrAt_in 2 rfl _).trans (Gen.V3_of m outs c main_arg2 (by decide)).symm
  | ⟨3, _⟩ => ((dat1 (entry1 m outs) c).arrAt_in 3 rfl _).trans (Gen.V3_of m outs c main_v2 (by decide)).symm
  | ⟨4, _⟩ => ((dat1 (entry1 m outs) c).arrAt_in 4 rfl _).trans (Gen.V3_of m outs c main_arg4 (by decide)).symm
  | ⟨5, _⟩ => ((dat1 (entry1 m outs) c).arrAt_in 5 rfl _).trans (Gen.V3_of m outs c main_v1 (by decide)).symm
  | ⟨6, _⟩ => ((dat1 (entry1 m outs) c).arrAt_in 6 rfl _).trans (Gen.V3_of m outs c main_v1 (by decide)).symm
  | ⟨7, _⟩ => (h c).symm.trans (by simp only [exit1, Gen.V3, Function.update_self])

theorem hrest1 (c : Dev nD) : ∀ b, b ∉ Finset.univ.image (Pipeline.arrRef spec1) → exit1 m outs c b = entry1 m outs c b :=
  fun b hb => Gen.V3_of m outs c b fun hmem => by
    rw [List.mem_singleton] at hmem
    subst hmem
    exact hb (Finset.mem_image.mpr ⟨7, Finset.mem_univ _, rfl⟩)

theorem held_entry1 (c : Dev nD) :
    (StableHlo.held (c : Thread nD τ) (Pipeline.ucRefs τ sig) (Gen.V2 m outs c) : sProp 𝕄)
      = iprop(Pipeline.arrBufs (Ix := Unit) (Name := ℕ) (U := UR sig nD τ) (Lvl := ℕ) spec1 c (entry1 m outs c)
          ∗ Pipeline.unscopedRest (Ix := Unit) (Name := ℕ) (U := UR sig nD τ) (Lvl := ℕ) spec1 c (entry1 m outs c)) := by
  rw [← Pipeline.unscopedBufs_held (Ix := Unit) (Name := ℕ) (U := UR sig nD τ) (Lvl := ℕ) c (Gen.V2 m outs c)]
  exact Pipeline.unscopedBufs_split₀ (Ix := Unit) (Name := ℕ) (U := UR sig nD τ) (Lvl := ℕ) cfgs 1 Gen.winFacts₀1.arr_unscoped c (entry1 m outs c)

theorem held_exit1 (c : Dev nD) :
    (StableHlo.held (c : Thread nD τ) (Pipeline.ucRefs τ sig) (Gen.V3 m outs c) : sProp 𝕄)
      = iprop(Pipeline.arrBufs (Ix := Unit) (Name := ℕ) (U := UR sig nD τ) (Lvl := ℕ) spec1 c (exit1 m outs c)
          ∗ Pipeline.unscopedRest (Ix := Unit) (Name := ℕ) (U := UR sig nD τ) (Lvl := ℕ) spec1 c (exit1 m outs c)) := by
  rw [← Pipeline.unscopedBufs_held (Ix := Unit) (Name := ℕ) (U := UR sig nD τ) (Lvl := ℕ) c (Gen.V3 m outs c)]
  exact Pipeline.unscopedBufs_split₀ (Ix := Unit) (Name := ℕ) (U := UR sig nD τ) (Lvl := ℕ) cfgs 1 Gen.winFacts₀1.arr_unscoped c (exit1 m outs c)

theorem rest_exit1 (c : Dev nD) :
    (Pipeline.unscopedRest (Ix := Unit) (Name := ℕ) (U := UR sig nD τ) (Lvl := ℕ) spec1 c (entry1 m outs c) : sProp 𝕄)
      = Pipeline.unscopedRest (Ix := Unit) (Name := ℕ) (U := UR sig nD τ) (Lvl := ℕ) spec1 c (exit1 m outs c) := by
  unfold Pipeline.unscopedRest
  exact bigSep_congr fun b hb => by rw [hrest1 m outs c b (Finset.mem_sdiff.mp hb).2]

set_option backward.isDefEq.respectTransparency.types false in

def R1 (h : Out1 m outs) : RegionSeg (pcfgs (F := F)) Gen.adm (pdats m outs) () defs₀ 𝒱₀ L lv 1 where
  win := Gen.winFacts₀1
  block_pos := Gen.block_pos1
  stage_whole := Gen.stage_whole1
  K := PEmpty
  osem k := k.elim
  ho := Pipeline.OwnSemFacts.none _
  hbody c := (body_obligation1 (entry1 m outs) c).loose
  hwaits := Pipeline.hwaits_of_owed_zero _ _ _ _ L lv 1 fun _ _ => rfl
  pre c := iprop(StableHlo.held (c : Thread nD τ) (Pipeline.ucRefs τ sig) (Gen.V2 m outs c) ∗ E 1 c)
  post c := iprop(StableHlo.held (c : Thread nD τ) (Pipeline.ucRefs τ sig) (Gen.V3 m outs c) ∗ E 2 c)
  X c := iprop(emp)
  Y c := iprop(emp)
  Z c := iprop(Pipeline.unscopedRest (Ix := Unit) (Name := ℕ) (U := UR sig nD τ) (Lvl := ℕ) spec1 c (entry1 m outs c) ∗ ∃ r, prngReg c r)
  hentry c := by
    rw [Pipeline.ownSems0_none, held_entry1 m outs c]
    have hdeal : (Pipeline.arrBufs (Ix := Unit) (Name := ℕ) (U := UR sig nD τ) (Lvl := ℕ) spec1 c (entry1 m outs c) : sProp 𝕄)
        ⊢ (pdats m outs 1 c).arrays ((pdats m outs 1 c).arrAt · 0) :=
      arrays1_of_bufs (entry1 m outs) c (entry1 m outs c) ((pdats m outs 1 c).arrAt · 0) (hA1 m outs c)
    iintro ⟨⟨⟨Hb, Hrest⟩, Hp, HO⟩, -, -⟩
    ihave Ha := hdeal $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    refine BIBase.Entails.trans ?_ (Phi1_in (entry1 m outs) c)
    iintro ⟨-, -, Hr⟩
    iexact Hr
  hout c := by
    rw [Pipeline.ownSems0_none]
    refine BIBase.Entails.trans (Phi1_out (entry1 m outs) c) ?_
    iintro Hr
    isplitr; · iempintro
    isplitr; · iempintro
    iexact Hr
  hexit c := by
    rw [held_exit1 m outs c, ← rest_exit1 m outs c]
    have hjoin : ((pdats m outs 1 c).arrays ((pdats m outs 1 c).arrAt · (Pipeline.pin (pcfgs (F := F)) Gen.adm 1).N) : sProp 𝕄)
        ⊢ Pipeline.arrBufs (Ix := Unit) (Name := ℕ) (U := UR sig nD τ) (Lvl := ℕ) spec1 c (exit1 m outs c) :=
      bufs_of_arrays1 (entry1 m outs) c (exit1 m outs c) ((pdats m outs 1 c).arrAt · cfg1.N) (hF1 m outs h c)
    iintro ⟨Ha, HO, -, Hrest, Hp⟩
    ihave Hb := hjoin $$ Ha
    imodintro
    isplitl [Hb Hrest]
    · isplitl [Hb]; · iexact Hb
      iexact Hrest
    isplitl [Hp]; · iexact Hp
    unfold Pipeline.Dat.owesAt Pipeline.owesWithin
    icases HO with ⟨%W, -, HO⟩; iexists W; iexact HO

end Cert.KernelIdeal.Hand

end
-- ==== Proof.Run2.lean ====
import proofs.«109387_g55946243997874_fold_wed_m_672_4_alg».proof.Proof.Dat2
import Idealize.ShloMosaic.Lib.Ring
import Idealize.ShloMosaic.Lib.Tactic
import Idealize.ShloMosaic.Lib.Pipeline.Kit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem canon_head_congr2 {S : Shape} {e : EltTy} (p : View.Piece (Elt F) S e) {L L' : List (View.Piece (Elt F) S e)}
    (h : View.canon L = View.canon L') : View.canon (p :: L) = View.canon (p :: L') := by
  rw [View.canon_cons, View.canon_cons, h]

set_option maxHeartbeats 1000000 in

theorem run2_A (c : Dev nD) (i : grid2.Coords)
    (arg1 : Memref sig .tc .vmem S200x10000 .f32) (harg1 : arg1.IsWhole) (arg2 : Memref sig .tc .vmem S200x40 .f32) (harg2 : arg2.IsWhole)
    (arg3 : Memref sig .tc .vmem S1x40 .f32) (harg3 : arg3.IsWhole) (arg4 : Memref sig .tc .vmem S10000x1 .f32) (harg4 : arg4.IsWhole)
    (arg5 : Memref sig .tc .vmem S10000x40 .f32) (harg5 : arg5.IsWhole) (arg6 : Memref sig .tc .vmem S10000x40 .f32) (harg6 : arg6.IsWhole)
    (hc0 : cond2_0 i) (hc1 : ¬cond2_1 i)
    (x0 : Vec F S200x10000 .f32) (x1 : Vec F S200x40 .f32) (x2 : Vec F S1x40 .f32) (x3 : Vec F S10000x1 .f32) (xi4 : Vec F S10000x40 .f32) (xs : Vec F S10000x40 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4 ∗ owns (c : Thread nD τ) arg6 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4 ∗ owns (c : Thread nD τ) arg6 fullShare (step2 i (k2_pay1 (F := F)) x0 x1)) -∗ K ⟨⟩))
      ⊢ wp frame (wpE (defs₀ (F := F)) Variants.none c none) E (cc2__agg2_body i arg1 harg1 arg2 harg2 arg3 harg3 arg4 harg4 arg5 harg5 arg6 harg6) K := by
  simp only [cc2__agg2_body_eq_skeleton]; unfold cc2__agg2_body_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  sl_unfold_run_names
  have hz : (![0, 0] : Fin 2 → ℕ) = fun _ => 0 := by funext a; fin_cases a <;> rfl
  have e0 : View.readAt (Elt F) arg1.view (Rect.unit (s := S200x10000) ![0, 0] S200x10000.size inb_S200x10000_S200x10000_0_0).toLoadRect (harg1.unread x0) = x0 := by
    rw [View.readAt_eq_ld, hf0]; exact View.ld_unit_zero hz _ _
  have e1 : View.readAt (Elt F) arg2.view (Rect.unit (s := S200x40) ![0, 0] S200x40.size inb_S200x40_S200x40_0_0).toLoadRect (harg2.unread x1) = x1 := by
    rw [View.readAt_eq_ld, hf1]; exact View.ld_unit_zero hz _ _
  rw [View.read_writes_junk_eq_canon, e0, e1, View.readCov_unit_zero _ hz, View.readAt_writes_junk_eq_canon]
  simp only [View.canon_cons_unit_zero (S := S10000x40) hz]
  unfold step2
  refine canon_head_congr2 _ ?_
  simp only [View.canon_cons_unit_zero (S := S10000x40) hz]

set_option maxHeartbeats 1000000 in

theorem run2_B (c : Dev nD) (i : grid2.Coords)
    (arg1 : Memref sig .tc .vmem S200x10000 .f32) (harg1 : arg1.IsWhole) (arg2 : Memref sig .tc .vmem S200x40 .f32) (harg2 : arg2.IsWhole)
    (arg3 : Memref sig .tc .vmem S1x40 .f32) (harg3 : arg3.IsWhole) (arg4 : Memref sig .tc .vmem S10000x1 .f32) (harg4 : arg4.IsWhole)
    (arg5 : Memref sig .tc .vmem S10000x40 .f32) (harg5 : arg5.IsWhole) (arg6 : Memref sig .tc .vmem S10000x40 .f32) (harg6 : arg6.IsWhole)
    (hc0 : ¬cond2_0 i) (hc1 : ¬cond2_1 i)
    (x0 : Vec F S200x10000 .f32) (x1 : Vec F S200x40 .f32) (x2 : Vec F S1x40 .f32) (x3 : Vec F S10000x1 .f32) (xi4 : Vec F S10000x40 .f32) (xs : Vec F S10000x40 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4 ∗ owns (c : Thread nD τ) arg6 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4 ∗ owns (c : Thread nD τ) arg6 fullShare (step2 i xs x0 x1)) -∗ K ⟨⟩))
      ⊢ wp frame (wpE (defs₀ (F := F)) Variants.none c none) E (cc2__agg2_body i arg1 harg1 arg2 harg2 arg3 harg3 arg4 harg4 arg5 harg5 arg6 harg6) K := by
  simp only [cc2__agg2_body_eq_skeleton]; unfold cc2__agg2_body_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  sl_unfold_run_names
  have hz : (![0, 0] : Fin 2 → ℕ) = fun _ => 0 := by funext a; fin_cases a <;> rfl
  have e0 : View.readAt (Elt F) arg1.view (Rect.unit (s := S200x10000) ![0, 0] S200x10000.size inb_S200x10000_S200x10000_0_0).toLoadRect (harg1.unread x0) = x0 := by
    rw [View.readAt_eq_ld, hf0]; exact View.ld_unit_zero hz _ _
  have e1 : View.readAt (Elt F) arg2.view (Rect.unit (s := S200x40) ![0, 0] S200x40.size inb_S200x40_S200x40_0_0).toLoadRect (harg2.unread x1) = x1 := by
    rw [View.readAt_eq_ld, hf1]; exact View.ld_unit_zero hz _ _
  have es : View.readAt (Elt F) arg6.view (Rect.unit (s := S10000x40) ![0, 0] S10000x40.size inb_S10000x40_S10000x40_0_0).toLoadRect (harg6.unread xs) = xs := by
    rw [View.readAt_eq_ld, hfs]; exact View.ld_unit_zero hz _ _
  rw [View.read_writes_junk_eq_canon, e0, e1, es, View.readAt_writes_junk_eq_canon]
  simp only [View.canon_unit_zero (S := S10000x40) hz]
  unfold step2
  with_reducible rfl

set_option maxHeartbeats 1000000 in

theorem run2_C (c : Dev nD) (i : grid2.Coords)
    (arg1 : Memref sig .tc .vmem S200x10000 .f32) (harg1 : arg1.IsWhole) (arg2 : Memref sig .tc .vmem S200x40 .f32) (harg2 : arg2.IsWhole)
    (arg3 : Memref sig .tc .vmem S1x40 .f32) (harg3 : arg3.IsWhole) (arg4 : Memref sig .tc .vmem S10000x1 .f32) (harg4 : arg4.IsWhole)
    (arg5 : Memref sig .tc .vmem S10000x40 .f32) (harg5 : arg5.IsWhole) (arg6 : Memref sig .tc .vmem S10000x40 .f32) (harg6 : arg6.IsWhole)
    (hc0 : ¬cond2_0 i) (hc1 : cond2_1 i)
    (x0 : Vec F S200x10000 .f32) (x1 : Vec F S200x40 .f32) (x2 : Vec F S1x40 .f32) (x3 : Vec F S10000x1 .f32) (xi4 : Vec F S10000x40 .f32) (xs : Vec F S10000x40 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4 ∗ owns (c : Thread nD τ) arg6 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k2_pay5 (step2 i xs x0 x1) x3 x2) ∗ owns (c : Thread nD τ) arg6 fullShare (step2 i xs x0 x1)) -∗ K ⟨⟩))
      ⊢ wp frame (wpE (defs₀ (F := F)) Variants.none c none) E (cc2__agg2_body i arg1 harg1 arg2 harg2 arg3 harg3 arg4 harg4 arg5 harg5 arg6 harg6) K := by
  simp only [cc2__agg2_body_eq_skeleton]; unfold cc2__agg2_body_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    have hz : (![0, 0] : Fin 2 → ℕ) = fun _ => 0 := by funext a; fin_cases a <;> rfl
    have e0 : View.readAt (Elt F) arg1.view (Rect.unit (s := S200x10000) ![0, 0] S200x10000.size inb_S200x10000_S200x10000_0_0).toLoadRect (harg1.unread x0) = x0 := by
      rw [View.readAt_eq_ld, hf0]; exact View.ld_unit_zero hz _ _
    have e1 : View.readAt (Elt F) arg2.view (Rect.unit (s := S200x40) ![0, 0] S200x40.size inb_S200x40_S200x40_0_0).toLoadRect (harg2.unread x1) = x1 := by
      rw [View.readAt_eq_ld, hf1]; exact View.ld_unit_zero hz _ _
    have e2 : View.readAt (Elt F) arg3.view (Rect.unit (s := S1x40) ![0, 0] S1x40.size inb_S1x40_S1x40_0_0).toLoadRect (harg3.unread x2) = x2 := by
      rw [View.readAt_eq_ld, hf2]; exact View.ld_unit_zero hz _ _
    have e3 : View.readAt (Elt F) arg4.view (Rect.unit (s := S10000x1) ![0, 0] S10000x1.size inb_S10000x1_S10000x1_0_0).toLoadRect (harg4.unread x3) = x3 := by
      rw [View.readAt_eq_ld, hf3]; exact View.ld_unit_zero hz _ _
    have es : View.readAt (Elt F) arg6.view (Rect.unit (s := S10000x40) ![0, 0] S10000x40.size inb_S10000x40_S10000x40_0_0).toLoadRect (harg6.unread xs) = xs := by
      rw [View.readAt_eq_ld, hfs]; exact View.ld_unit_zero hz _ _
    have ew : ∀ L : List (View.Piece (Elt F) S10000x40 .f32),
        arg6.view.readCov L (Rect.unit (s := S10000x40) ![0, 0] S10000x40.size inb_S10000x40_S10000x40_0_0).toLoadRect = View.canon L := fun L => by
      rw [View.readCov, View.readAt_eq_ld, View.read_writes_junk_eq_canon]; exact View.ld_unit_zero hz _ _
    refine (View.read_writes_eq_canon _ _ _ ?_).trans ?_
    · intro y; exact ⟨_, List.mem_singleton_self _, View.mem_set_unit_zero hz inb_S10000x40_S10000x40_0_0 y⟩
    rw [View.canon_unit_zero hz, e0, e1, e2, e3, es, ew, View.readAt_writes_junk_eq_canon]
    simp only [View.canon_unit_zero (S := S10000x40) hz]
    unfold step2
    with_reducible rfl
  iexists _; isplitr
  swap; · iexact HS
  ipureintro
  sl_unfold_run_names
  have hz : (![0, 0] : Fin 2 → ℕ) = fun _ => 0 := by funext a; fin_cases a <;> rfl
  have e0 : View.readAt (Elt F) arg1.view (Rect.unit (s := S200x10000) ![0, 0] S200x10000.size inb_S200x10000_S200x10000_0_0).toLoadRect (harg1.unread x0) = x0 := by
    rw [View.readAt_eq_ld, hf0]; exact View.ld_unit_zero hz _ _
  have e1 : View.readAt (Elt F) arg2.view (Rect.unit (s := S200x40) ![0, 0] S200x40.size inb_S200x40_S200x40_0_0).toLoadRect (harg2.unread x1) = x1 := by
    rw [View.readAt_eq_ld, hf1]; exact View.ld_unit_zero hz _ _
  have es : View.readAt (Elt F) arg6.view (Rect.unit (s := S10000x40) ![0, 0] S10000x40.size inb_S10000x40_S10000x40_0_0).toLoadRect (harg6.unread xs) = xs := by
    rw [View.readAt_eq_ld, hfs]; exact View.ld_unit_zero hz _ _
  rw [View.read_writes_junk_eq_canon, e0, e1, es, View.readAt_writes_junk_eq_canon]
  simp only [View.canon_unit_zero (S := S10000x40) hz]
  unfold step2
  with_reducible rfl

end Cert.KernelIdeal.Hand
end
-- ==== Proof.Oblig2.lean ====
import proofs.«109387_g55946243997874_fold_wed_m_672_4_alg».proof.Proof.Run2
import Idealize.ShloMosaic.Lib.Ring
import Idealize.ShloMosaic.Lib.Tactic
import Idealize.ShloMosaic.Lib.Pipeline.Kit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms2_0 (t : Fin cfg2.N) : Memref sig .tc .vmem S200x10000 .f32 := win2_0.stage (cfg2.slots t 0)
abbrev ms2_1 (t : Fin cfg2.N) : Memref sig .tc .vmem S200x40 .f32 := win2_1.stage (cfg2.slots t 1)
abbrev ms2_2 (t : Fin cfg2.N) : Memref sig .tc .vmem S1x40 .f32 := win2_2.stage (cfg2.slots t 2)
abbrev ms2_3 (t : Fin cfg2.N) : Memref sig .tc .vmem S10000x1 .f32 := win2_3.stage (cfg2.slots t 3)
abbrev ms2_4 (t : Fin cfg2.N) : Memref sig .tc .vmem S10000x40 .f32 := win2_4.stage (cfg2.slots t 4)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

theorem idleAt2_4 : ∀ t : Fin cfg2.N, ¬cond2_1 (grid2.coords t) → cfg2.idle 4 (grid2.coords t) = true := by decide +kernel

theorem noFlush2_4 : ∀ t : Fin cfg2.N, ¬cond2_1 (grid2.coords t) → (cfg2.win 4).flush t = false := by decide +kernel

theorem liveAt2_4 : ∀ t : Fin cfg2.N, cond2_1 (grid2.coords t) → cfg2.idle 4 (grid2.coords t) = false := by decide +kernel

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

theorem acc2_first (c : Dev nD) (t : Fin cfg2.N) (hz : t.val = 0) :
    acc2 V c t.val t.isLt = step2 (grid2.coords t) (k2_pay1 (F := F)) (iblk2 V c 0 t) (iblk2 V c 1 t) := by
  obtain ⟨n, hn⟩ := t
  cases n with
  | zero => rfl
  | succ n => exact absurd hz (Nat.succ_ne_zero n)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 50 = 0
  · have h1 : ¬t.val % 50 = 49 := by omega
    have hz : t.val = 0 := by omega
    rw [Dat.leavesExact_idle (dat2 V c) 4 t (idleAt2_4 t (fun h => h1 ((hcond2_1 t).mp h))) (noFlush2_4 t (fun h => h1 ((hcond2_1 t).mp h)))]
    rw [PhiS2_castSucc V c t, PhiS2_zero V c _ _ hz, PhiA2_eq, acc2_first V c t hz]
    unfold scoped2
    iintro ⟨⟨⟨R1, R2, R3, R4, R5, R6, R7, R8, R9, R10, R11, R12, R13, R14, R15, ⟨%ds, HS⟩⟩, Hg⟩, Ho, ⟨%d0, H0⟩, ⟨%d1, H1⟩, ⟨%d2, H2⟩, ⟨%d3, H3⟩, ⟨%d4, H4⟩⟩
    iapply (run2_A c (grid2.coords t) _ _ _ _ _ _ _ _ _ _ _ _ ((hcond2_0 t).mpr h0) (fun h => h1 ((hcond2_1 t).mp h))
      (iblk2 V c 0 t) (iblk2 V c 1 t) (iblk2 V c 2 t) (iblk2 V c 3 t) _ ds Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [R1 R2 R3 R4 R5 R6 R7 R8 R9 R10 R11 R12 R13 R14 R15 HS Hg]
    · isplitl [R1 R2 R3 R4 R5 R6 R7 R8 R9 R10 R11 R12 R13 R14 R15 HS]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [R15]; · iexact R15
        iexact HS
      iexact Hg
    isplitl [Ho]; · iexact Ho
    isplitl [H0]; · iexact H0
    isplitl [H1]; · iexact H1
    isplitl [H2]; · iexact H2
    isplitl [H3]; · iexact H3
    iexists _; iexact H4
  · by_cases h1 : t.val % 50 = 49
    · have hz : t.val ≠ 0 := by omega
      rw [show (dat2 V c).leavesExact 4 t = owns (c : Thread nD τ) (ms2_4 t) fullShare ((dat2 V c).after 4 t) from by
        unfold Dat.leavesExact; rw [liveAt2_4 t ((hcond2_1 t).mpr h1)], after2_4]
      unfold out2
      rw [PhiS2_castSucc V c t, PhiS2_pos V c _ _ hz, acc2_pos V c t hz]
      unfold scoped2
      iintro ⟨⟨⟨R1, R2, R3, R4, R5, R6, R7, R8, R9, R10, R11, R12, R13, R14, R15, HS⟩, Hg⟩, Ho, ⟨%d0, H0⟩, ⟨%d1, H1⟩, ⟨%d2, H2⟩, ⟨%d3, H3⟩, ⟨%d4, H4⟩⟩
      iapply (run2_C c (grid2.coords t) _ _ _ _ _ _ _ _ _ _ _ _ (fun h => h0 ((hcond2_0 t).mp h)) ((hcond2_1 t).mpr h1)
        (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [R1 R2 R3 R4 R5 R6 R7 R8 R9 R10 R11 R12 R13 R14 R15 HS Hg]
      · isplitl [R1 R2 R3 R4 R5 R6 R7 R8 R9 R10 R11 R12 R13 R14 R15 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [R15]; · iexact R15
          iexact HS
        iexact Hg
      isplitl [Ho]; · iexact Ho
      isplitl [H0]; · iexact H0
      isplitl [H1]; · iexact H1
      isplitl [H2]; · iexact H2
      isplitl [H3]; · iexact H3
      iexact H4
    · have hz : t.val ≠ 0 := by omega
      rw [Dat.leavesExact_idle (dat2 V c) 4 t (idleAt2_4 t (fun h => h1 ((hcond2_1 t).mp h))) (noFlush2_4 t (fun h => h1 ((hcond2_1 t).mp h)))]
      rw [PhiS2_castSucc V c t, PhiS2_pos V c _ _ hz, acc2_pos V c t hz]
      unfold scoped2
      iintro ⟨⟨⟨R1, R2, R3, R4, R5, R6, R7, R8, R9, R10, R11, R12, R13, R14, R15, HS⟩, Hg⟩, Ho, ⟨%d0, H0⟩, ⟨%d1, H1⟩, ⟨%d2, H2⟩, ⟨%d3, H3⟩, ⟨%d4, H4⟩⟩
      iapply (run2_B c (grid2.coords t) _ _ _ _ _ _ _ _ _ _ _ _ (fun h => h0 ((hcond2_0 t).mp h)) (fun h => h1 ((hcond2_1 t).mp h))
        (iblk2 V c 0 t) (iblk2 V c 1 t) (iblk2 V c 2 t) (iblk2 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [R1 R2 R3 R4 R5 R6 R7 R8 R9 R10 R11 R12 R13 R14 R15 HS Hg]
      · isplitl [R1 R2 R3 R4 R5 R6 R7 R8 R9 R10 R11 R12 R13 R14 R15 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          isplitl [R12]; · iexact R12
          isplitl [R13]; · iexact R13
          isplitl [R14]; · iexact R14
          isplitl [R15]; · iexact R15
          iexact HS
        iexact Hg
      isplitl [Ho]; · iexact Ho
      isplitl [H0]; · iexact H0
      isplitl [H1]; · iexact H1
      isplitl [H2]; · iexact H2
      isplitl [H3]; · iexact H3
      iexists _; iexact H4

theorem body_obligation2 (c : Dev nD) : BodyObligation (dat2 (F := F) V c) (defs₀ (F := F)) Variants.none () Set.univ := fun t => by
  rw [bigSep_W2, bigSep_W2]
  exact sound_body2 V c t

end Cert.KernelIdeal.Hand
end
-- ==== Proof.Region2.lean ====
import proofs.«109387_g55946243997874_fold_wed_m_672_4_alg».proof.Proof.KShared
import proofs.«109387_g55946243997874_fold_wed_m_672_4_alg».proof.Proof.Oblig2
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal

variable {F : FTy → Type} [FloatOps F]

local notation "𝕄" => MT nD τ sig Unit (Elt F) ℕ (UR sig nD τ) ℕ

variable (m : (ℓ : Loc nD τ sig) → Buf (Elt F) ℓ) (outs : Gen.Outs (F := F))

abbrev exit2 : (c : Dev nD) → (b : Ref sig .tc) → Buf (Elt F) ((c : Thread nD τ).loc b) := fun c b => Gen.V5 m outs c b

theorem hF2 (h : Out2 m outs) (c : Dev nD) (w : Fin cfg2.W) :
    (pdats m outs 2 c).arrAt w cfg2.N = exit2 m outs c (Pipeline.arrRef spec2 w) :=
  match w with
  | ⟨0, _⟩ => ((dat2 (entry2 m outs) c).arrAt_in 0 rfl _).trans (Gen.V5_of m outs c main_arg1 (by decide)).symm
  | ⟨1, _⟩ => ((dat2 (entry2 m outs) c).arrAt_in 1 rfl _).trans (Gen.V5_of m outs c main_v3 (by decide)).symm
  | ⟨2, _⟩ => ((dat2 (entry2 m outs) c).arrAt_in 2 rfl _).trans (Gen.V5_of m outs c main_v4 (by decide)).symm
  | ⟨3, _⟩ => ((dat2 (entry2 m outs) c).arrAt_in 3 rfl _).trans (Gen.V5_of m outs c main_v1 (by decide)).symm
  | ⟨4, _⟩ => (h c).symm.trans (by simp only [exit2, Gen.V5, Function.update_self])

theorem hrest2 (c : Dev nD) : ∀ b, b ∉ Finset.univ.image (Pipeline.arrRef spec2) → exit2 m outs c b = entry2 m outs c b :=
  fun b hb => Gen.V5_of m outs c b fun hmem => by
    rw [List.mem_singleton] at hmem
    subst hmem
    exact hb (Finset.mem_image.mpr ⟨4, Finset.mem_univ _, rfl⟩)

theorem Phi2_last (c : Dev nD) : (pdats m outs 2 c).Φ (Fin.last cfg2.N) ⊢ (Pipeline.ΦA spec2 c : sProp 𝕄) := by
  rw [PhiA2_eq, show (pdats m outs 2 c).Φ (Fin.last cfg2.N)
    = PhiS2 (entry2 m outs) c (Fin.last cfg2.N).val (Nat.le_of_lt_succ (Fin.last cfg2.N).isLt) from rfl,
    PhiS2_pos (entry2 m outs) c _ _ (by decide)]
  exact sep_mono (scoped2_mono c (by iintro H; iexists _; iexact H)) .rfl

set_option backward.isDefEq.respectTransparency.types false in

def R2 (h : Out2 m outs) : RegionSeg (pcfgs (F := F)) Gen.adm (pdats m outs) () defs₀ 𝒱₀ L lv 2 where
  win := Gen.launch2.win.to₀
  block_pos := Gen.launch2.block_pos
  stage_whole := Gen.launch2.stage_whole
  K := PEmpty
  osem k := k.elim
  ho := Pipeline.OwnSemFacts.none _
  hbody c := (body_obligation2 (entry2 m outs) c).loose
  hwaits := Pipeline.hwaits_of_owed_zero _ _ _ _ L lv 2 fun _ _ => rfl
  pre c := iprop(StableHlo.held (c : Thread nD τ) (Pipeline.ucRefs τ sig) (Gen.V4 m outs c) ∗ E 2 c)
  post c := iprop(StableHlo.held (c : Thread nD τ) (Pipeline.ucRefs τ sig) (Gen.V5 m outs c) ∗ E 3 c)
  X c := iprop(∃ r, prngReg c r)
  Y c := iprop(∃ r, prngReg c r)
  Z c := Pipeline.unscopedRest (Ix := Unit) (Name := ℕ) (U := UR sig nD τ) (Lvl := ℕ) spec2 c (entry2 m outs c)
  hentry c := by
    rw [Pipeline.ownSems0_none]
    have hsplit := Pipeline.arrays_of_unscopedBufs (p := 2) (pcfgs (F := F)) Gen.adm (pdats m outs) Gen.launch2.win Gen.launch2.arr_whole c
      ((pdats m outs 2 c).share_full fun _ => rfl) (entry2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (Phi2_last m outs c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      Gen.launch2.win Gen.launch2.arr_whole c (pdats m outs) ((pdats m outs 2 c).share_full fun _ => rfl)
      (entry2 m outs c) (exit2 m outs c) ((pdats m outs 2 c).arrAt · cfg2.N) (hF2 m outs h c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KAssemble.lean ====
import proofs.«109387_g55946243997874_fold_wed_m_672_4_alg».proof.Proof.Region0
import proofs.«109387_g55946243997874_fold_wed_m_672_4_alg».proof.Proof.Region1
import proofs.«109387_g55946243997874_fold_wed_m_672_4_alg».proof.Proof.Region2

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal

variable {F : FTy → Type} [FloatOps F]

local notation "𝕄" => MT nD τ sig Unit (Elt F) ℕ (UR sig nD τ) ℕ

variable (m : (ℓ : Loc nD τ sig) → Buf (Elt F) ℓ)

abbrev launchAt (c : Dev nD) : (r : Ref sig .tc) → Buf (Elt F) ((c : Thread nD τ).loc r) := fun r => m ((c : Thread nD τ).loc r)

def outsA : Gen.Outs (F := F) := fun _ r c =>
  Function.update (launchAt m c) main_v0 ((dat0 (entry0 m) c).arrAt 1 cfg0.N) r

def outsB : Gen.Outs (F := F) := fun J r c =>
  if J = 1 then outsA m J r c
  else Function.update (launchAt m c) main_v3 ((dat1 (entry1 m (outsA m)) c).arrAt 7 cfg1.N) r

def outsC : Gen.Outs (F := F) := fun J r c =>
  if J = 1 then outsA m J r c
  else if J = 3 then outsB m J r c
  else Function.update (launchAt m c) main_v5 ((dat2 (entry2 m (outsB m)) c).arrAt 4 cfg2.N) r

theorem V2_congr (o o' : Gen.Outs (F := F)) (h : ∀ c, o 1 main_v0 c = o' 1 main_v0 c) (c : Dev nD) :
    Gen.V2 m o c = Gen.V2 m o' c := by
  simp only [Gen.V2, Gen.V1, h]

theorem V4_congr (o o' : Gen.Outs (F := F)) (h1 : ∀ c, o 1 main_v0 c = o' 1 main_v0 c) (h3 : ∀ c, o 3 main_v3 c = o' 3 main_v3 c)
    (c : Dev nD) : Gen.V4 m o c = Gen.V4 m o' c := by
  simp only [Gen.V4, Gen.V3, Gen.V2, Gen.V1, h1, h3]

theorem outsC_one (c : Dev nD) : outsC m 1 main_v0 c = (dat0 (entry0 m) c).arrAt 1 cfg0.N := by
  simp only [outsC, outsA, if_true, Function.update_self]

theorem outsB_one (c : Dev nD) : outsB m 1 main_v0 c = outsA m 1 main_v0 c := by
  simp only [outsB, if_true]

theorem outsC_one' (c : Dev nD) : outsC m 1 main_v0 c = outsA m 1 main_v0 c := by
  simp only [outsC, if_true]

theorem outsC_three (c : Dev nD) : outsC m 3 main_v3 c = outsB m 3 main_v3 c := by
  simp only [outsC, show ¬ ((3 : ℕ) = 1) from by decide, if_false, if_true]

theorem entry1_outsC : entry1 m (outsC m) = entry1 m (outsA m) := by
  funext c b; exact congrFun (V2_congr m _ _ (outsC_one' m) c) _

theorem entry2_outsC : entry2 m (outsC m) = entry2 m (outsB m) := by
  funext c b
  exact congrFun (V4_congr m _ _ (fun c => (outsC_one' m c).trans (outsB_one m c).symm) (outsC_three m) c) _

theorem outsC_ok0 : Out0 m (outsC m) := fun c => outsC_one m c

theorem outsC_ok1 : Out1 m (outsC m) := fun c => by
  rw [entry1_outsC]
  simp only [outsC, outsB, show ¬ ((3 : ℕ) = 1) from by decide, if_false, if_true, Function.update_self]

theorem outsC_ok2 : Out2 m (outsC m) := fun c => by
  rw [entry2_outsC]
  simp only [outsC, show ¬ ((5 : ℕ) = 1) from by decide, show ¬ ((5 : ℕ) = 3) from by decide, if_false, Function.update_self]

theorem hu₀ :
    (ownU (initOf (Pipeline.cells cfgs Gen.cellOf_inj) (Pipeline.launchToks cfgs Gen.cellOf_inj)) : sProp 𝕄)
      ⊢ |={Set.univ}=> iprop(BI.own ((emb₁ (A := UR sig nD τ)) (initOf (Pipeline.cells cfgs Gen.cellOf_inj) (Pipeline.launchToks cfgs Gen.cellOf_inj)))
          ∗ bigSep Finset.univ fun _ : Dev nD => (BI.emp : sProp 𝕄)) := by
  iintro Hu; imodintro
  isplitl [Hu]
  · iapply (show (ownU (initOf (Pipeline.cells cfgs Gen.cellOf_inj) (Pipeline.launchToks cfgs Gen.cellOf_inj)) : sProp 𝕄)
        ⊢ BI.own (emb₁ (initOf (Pipeline.cells cfgs Gen.cellOf_inj) (Pipeline.launchToks cfgs Gen.cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) :
    E (F := F) 3 c ⊢ (iprop(∃ W, owes (c : Thread nD τ) (0 : CellTallies nD τ sig Unit) W) : sProp 𝕄) := by
  iintro ⟨-, H⟩; iexact H

/-- The three passes in order, each entered at what the one before left: every execution ends with the argument arrays as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m (emb₁ (A := UR sig nD τ)) () 𝒱₀ L lv (fun _ _ => rfl) ρ (outsC m) (pdats m (outsC m))
    (O₀ := 0) (G := fun _ => iprop(emp))
    (u₀ := initOf (Pipeline.cells cfgs Gen.cellOf_inj) (Pipeline.launchToks cfgs Gen.cellOf_inj))
    (hu₀ := hu₀) (E := E) (hE0 := hE0 ρ) (hE3 := hE3)
    (R0 m (outsC m) (outsC_ok0 m)) (fun _ => .rfl) (fun _ => .rfl)
    (R1 m (outsC m) (outsC_ok1 m)) (fun _ => .rfl) (fun _ => .rfl)
    (R2 m (outsC m) (outsC_ok2 m)) (fun _ => .rfl) (fun _ => .rfl)

end Cert.KernelIdeal.Hand

end
-- ==== Proof.Spec.lean ====
import Idealize.ShloMosaic.PureOps.Ideal
import Idealize.ShloMosaic.Lib.ValueIdx

noncomputable section

namespace Cert.Gcn

open Idealize.ShloMosaic Idealize.ShloMosaic.ValueIdx

abbrev SX : Shape := ⟨2, ![10000, 128]⟩
abbrev SA : Shape := ⟨2, ![10000, 10000]⟩
abbrev SW1 : Shape := ⟨2, ![128, 16]⟩
abbrev SB1 : Shape := ⟨1, ![16]⟩
abbrev SW2 : Shape := ⟨2, ![16, 40]⟩
abbrev SB2 : Shape := ⟨1, ![40]⟩
abbrev SO : Shape := ⟨2, ![10000, 40]⟩

variable (x : SX.Idx → EReal) (a : SA.Idx → EReal) (W1 : SW1.Idx → EReal) (b1 : SB1.Idx → EReal)
  (W2 : SW2.Idx → EReal) (b2 : SB2.Idx → EReal)

def deg (j : Fin 10000) : EReal := (∑ i : Fin 10000, a (ix2 i j)) + 1

def dinv (j : Fin 10000) : EReal := Ideal.rsqrt (deg a j)

def u1 (i : Fin 10000) (k : Fin 16) : EReal := (∑ d : Fin 128, x (ix2 i d) * W1 (ix2 d k)) * dinv a i

def agg1 (j : Fin 10000) (k : Fin 16) : EReal := (∑ i : Fin 10000, a (ix2 i j) * u1 x a W1 i k) + u1 x a W1 j k

def o1 (j : Fin 10000) (k : Fin 16) : EReal := max (agg1 x a W1 j k * dinv a j + b1 (ix1 k)) 0

def u2 (j : Fin 10000) (c : Fin 40) : EReal := (∑ k : Fin 16, o1 x a W1 b1 j k * W2 (ix2 k c)) * dinv a j

def agg2 (j : Fin 10000) (c : Fin 40) : EReal := (∑ i : Fin 10000, a (ix2 i j) * u2 x a W1 b1 W2 i c) + u2 x a W1 b1 W2 j c

def logits (j : Fin 10000) (c : Fin 40) : EReal := agg2 x a W1 b1 W2 j c * dinv a j + b2 (ix1 c)

def rowMax (l : Fin 40 → EReal) : EReal := Finset.univ.sup l

def logSoftmaxRow (l : Fin 40 → EReal) (c : Fin 40) : EReal :=
  (l c - rowMax l) - Ideal.log (∑ c' : Fin 40, Ideal.exp (l c' - rowMax l))

def out : SO.Idx → EReal := fun idx => logSoftmaxRow (logits x a W1 b1 W2 b2 (idx 0)) (idx 1)

end Cert.Gcn

end
-- ==== Proof.KSpec.lean ====
import proofs.«109387_g55946243997874_fold_wed_m_672_4_alg».proof.Proof.Spec

noncomputable section

namespace Cert.Gcn

open Idealize.ShloMosaic Idealize.ShloMosaic.ValueIdx

def agg {n : Nat} (a : SA.Idx → EReal) (u : Fin 10000 → Fin n → EReal) (j : Fin 10000) (k : Fin n) : EReal :=
  (∑ i : Fin 10000, a (ix2 i j) * u i k) + u j k

def u1g (x : SX.Idx → EReal) (W1 : SW1.Idx → EReal) (d : Fin 10000 → EReal) (i : Fin 10000) (k : Fin 16) : EReal :=
  (∑ e : Fin 128, x (ix2 i e) * W1 (ix2 e k)) * d i

def o1g (x : SX.Idx → EReal) (a : SA.Idx → EReal) (W1 : SW1.Idx → EReal) (b1 : Fin 16 → EReal) (d : Fin 10000 → EReal)
    (j : Fin 10000) (k : Fin 16) : EReal :=
  max (agg a (u1g x W1 d) j k * d j + b1 k) 0

def u2g (x : SX.Idx → EReal) (a : SA.Idx → EReal) (W1 : SW1.Idx → EReal) (b1 : Fin 16 → EReal) (W2 : SW2.Idx → EReal)
    (d : Fin 10000 → EReal) (j : Fin 10000) (c : Fin 40) : EReal :=
  (∑ k : Fin 16, o1g x a W1 b1 d j k * W2 (ix2 k c)) * d j

def logitsg (a : SA.Idx → EReal) (u : Fin 10000 → Fin 40 → EReal) (d : Fin 10000 → EReal) (b2 : Fin 40 → EReal)
    (j : Fin 10000) (c : Fin 40) : EReal :=
  agg a u j c * d j + b2 c

def outg (a : SA.Idx → EReal) (u : Fin 10000 → Fin 40 → EReal) (d : Fin 10000 → EReal) (b2 : Fin 40 → EReal) : SO.Idx → EReal :=
  fun idx => logSoftmaxRow (logitsg a u d b2 (idx 0)) (idx 1)

theorem out_eq_outg (x : SX.Idx → EReal) (a : SA.Idx → EReal) (W1 : SW1.Idx → EReal) (b1 : SB1.Idx → EReal)
    (W2 : SW2.Idx → EReal) (b2 : SB2.Idx → EReal) :
    out x a W1 b1 W2 b2
      = outg a (u2g x a W1 (fun k => b1 (ix1 k)) W2 (dinv a)) (dinv a) (fun c => b2 (ix1 c)) := rfl

end Cert.Gcn

end
-- ==== Proof.KOpsIdx.lean ====
import proofs.«109387_g55946243997874_fold_wed_m_672_4_alg».proof.KernelIdeal
import Idealize.ShloMosaic.PureOps.Ideal.Laws
import Idealize.ShloMosaic.Lib.ValueIdx
import Idealize.ShloMosaic.Lib.ValueLayout
import Idealize.ShloMosaic.Lib.Pipeline.Value

namespace Cert.KernelIdeal.Hand

open Idealize.ShloMosaic Idealize.ShloMosaic.ValueIdx Cert.KernelIdeal
open Cert.KernelIdeal.Facts₀

variable [Facts₀]

theorem shapeCast_id_apply {α : Type} {S : Shape} (v : S.Idx → α) (h : S.ShapeCasts S) (i : S.Idx) :
    shapeCast S v h i = v i :=
  congrFun (shapeCast_self v h) i

theorem broadcast_zero_apply {S : Shape} (i : S.Idx) :
    broadcast S (Scalar.ofBits (F := Ideal) .f32 0x00000000#32) i = 0 :=
  Ideal.ofBits_zero_f32

theorem ofBits_one : Scalar.ofBits (F := Ideal) .f32 0x3F800000#32 = 1 := by
  show Ideal.ofBits .f32 0x3F800000#32 = 1
  simp [Ideal.ofBits, Ideal.ieee, -EReal.coe_mul]
  norm_num

theorem broadcast_one_apply {S : Shape} (i : S.Idx) :
    broadcast S (Scalar.ofBits (F := Ideal) .f32 0x3F800000#32) i = 1 :=
  ofBits_one

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>

    show p.val = if a = 1 then 0 else p.val
    split
    · have := p.isLt; omega
    · rfl
  | ⟨1, _⟩ => rfl

theorem bcast_S200x1_S200x16_apply (v : FVec Ideal S200x1 .f32) (p : Fin 200) (k : Fin 16) :
    broadcastTo S200x16 v broadcasts_S200x1_S200x16 (ix2 p k) = v (ix2 p (0 : Fin 1)) :=
  broadcastTo_a1_ab_apply v _ p k

theorem bcast_S10000x1_S10000x16_apply (v : FVec Ideal S10000x1 .f32) (j : Fin 10000) (k : Fin 16) :
    broadcastTo S10000x16 v broadcasts_S10000x1_S10000x16 (ix2 j k) = v (ix2 j (0 : Fin 1)) :=
  broadcastTo_a1_ab_apply v _ j k

theorem bcast_S10000x1_S10000x40_apply (v : FVec Ideal S10000x1 .f32) (j : Fin 10000) (c : Fin 40) :
    broadcastTo S10000x40 v broadcasts_S10000x1_S10000x40 (ix2 j c) = v (ix2 j (0 : Fin 1)) :=
  broadcastTo_a1_ab_apply v _ j c

theorem bcast_S1x16_S10000x16_apply (v : FVec Ideal S1x16 .f32) (j : Fin 10000) (k : Fin 16) :
    broadcastTo S10000x16 v broadcasts_S1x16_S10000x16 (ix2 j k) = v (ix2 (0 : Fin 1) k) :=
  broadcastTo_1b_ab_apply v _ j k

theorem bcast_S1x40_S10000x40_apply (v : FVec Ideal S1x40 .f32) (j : Fin 10000) (c : Fin 40) :
    broadcastTo S10000x40 v broadcasts_S1x40_S10000x40 (ix2 j c) = v (ix2 (0 : Fin 1) c) :=
  broadcastTo_1b_ab_apply v _ j c

theorem shapeCast_S10000_S1x10000_apply (w : FVec Ideal S10000 .f32) (u : Fin 1) (j : Fin 10000) :
    shapeCast S1x10000 w shapeCasts_S10000_S1x10000 (ix2 u j) = w (ix1 j) :=
  shapeCast_a_1a_apply w _ u j

theorem colsum_apply (v : FVec Ideal S200x10000 .f32) (j : Fin 10000) :
    multiReduction (F := Ideal) .add [0] S10000 v 0x00000000#32 reduces_S200x10000_S10000 (.inl rfl) rfl (ix1 j)
      = ∑ r : Fin 200, v (ix2 r j) := by
  refine (Ideal.multiReduction_add_single v 0x00000000#32 reduces_S200x10000_S10000 (.inl rfl) rfl (ix1 j)).trans ?_

  show ∑ r : Fin 200, v (reduces_S200x10000_S10000.lift (ix1 j) r) = ∑ r : Fin 200, v (ix2 r j)
  refine Finset.sum_congr rfl fun r _ => congrArg v (funext fun a => ?_)
  match a with
  | ⟨0, _⟩ => rfl
  | ⟨1, _⟩ => rfl

theorem colsum_row_apply (v : FVec Ideal S200x10000 .f32) (u : Fin 1) (j : Fin 10000) :
    shapeCast S1x10000 (multiReduction (F := Ideal) .add [0] S10000 v 0x00000000#32 reduces_S200x10000_S10000 (.inl rfl) rfl)
        shapeCasts_S10000_S1x10000 (ix2 u j)
      = ∑ r : Fin 200, v (ix2 r j) := by
  rw [shapeCast_S10000_S1x10000_apply, colsum_apply]

section Dots

variable (A B C : ℕ)

abbrev dotRows (wf : DotDims.WF ⟨2, ![A, B]⟩ ⟨2, ![B, C]⟩ ⟨2, ![A, C]⟩ [1] [0] [0] [1] [] []) :
    DotDims ⟨2, ![A, B]⟩ ⟨2, ![B, C]⟩ ⟨2, ![A, C]⟩ :=
  { lhsContracting := [1], rhsContracting := [0], lhsNonContracting := [0], rhsNonContracting := [1],
    lhsBatch := [], rhsBatch := [], wf := wf }

abbrev dotCols (wf : DotDims.WF ⟨2, ![A, B]⟩ ⟨2, ![A, C]⟩ ⟨2, ![B, C]⟩ [0] [0] [1] [1] [] []) :
    DotDims ⟨2, ![A, B]⟩ ⟨2, ![A, C]⟩ ⟨2, ![B, C]⟩ :=
  { lhsContracting := [0], rhsContracting := [0], lhsNonContracting := [1], rhsNonContracting := [1],
    lhsBatch := [], rhsBatch := [], wf := wf }

variable {A B C}

theorem lhs_rows_0 (wf) (i : (⟨2, ![A, C]⟩ : Shape).Idx) (q : (dotRows A B C wf).contr.Idx) :
    ((dotRows A B C wf).lhsIdx i q 0).val = (i 0).val := by
  unfold DotDims.lhsIdx
  rw [dif_neg (show ¬(0 : Fin (⟨2, ![A, B]⟩ : Shape).rank) ∈ (dotRows A B C wf).lhsBatch from List.not_mem_nil),
    dif_pos (show (0 : Fin (⟨2, ![A, B]⟩ : Shape).rank) ∈ (dotRows A B C wf).lhsNonContracting from List.mem_singleton.2 rfl)]
  rfl

theorem lhs_rows_1 (wf) (i : (⟨2, ![A, C]⟩ : Shape).Idx) (q : (dotRows A B C wf).contr.Idx) :
    ((dotRows A B C wf).lhsIdx i q 1).val = (q ⟨0, Nat.one_pos⟩).val :=
  (dotRows A B C wf).lhsIdx_val_of_single rfl i q

theorem rhs_rows_0 (wf) (i : (⟨2, ![A, C]⟩ : Shape).Idx) (q : (dotRows A B C wf).contr.Idx) :
    ((dotRows A B C wf).rhsIdx i q 0).val = (q ⟨0, Nat.one_pos⟩).val :=
  (dotRows A B C wf).rhsIdx_val_of_single rfl i q

theorem rhs_rows_1 (wf) (i : (⟨2, ![A, C]⟩ : Shape).Idx) (q : (dotRows A B C wf).contr.Idx) :
    ((dotRows A B C wf).rhsIdx i q 1).val = (i 1).val := by
  unfold DotDims.rhsIdx
  rw [dif_neg (show ¬(1 : Fin (⟨2, ![B, C]⟩ : Shape).rank) ∈ (dotRows A B C wf).rhsBatch from List.not_mem_nil),
    dif_pos (show (1 : Fin (⟨2, ![B, C]⟩ : Shape).rank) ∈ (dotRows A B C wf).rhsNonContracting from List.mem_singleton.2 rfl)]
  rfl

/-- A product of an `A×B` by a `B×C` matrix into a zero accumulator, at an entry: the sum over the shared axis. -/
theorem matmul_rows_apply (wf) (l : FVec Ideal ⟨2, ![A, B]⟩ .f32) (r : FVec Ideal ⟨2, ![B, C]⟩ .f32) (p : Fin A) (k : Fin C) :
    matmul (F := Ideal) (dotRows A B C wf) none l r (constant (F := Ideal) ⟨2, ![A, C]⟩ .f32 0x00000000#32) (ix2 p k)
      = ∑ d : Fin B, l (ix2 p d) * r (ix2 d k) := by
  simp only [matmul]
  rw [Ideal.matmul_constant_zero_apply, ← Equiv.sum_comp (contrEquiv1 (dotRows A B C wf) B rfl rfl).symm]
  refine Finset.sum_congr rfl fun d _ => ?_
  have hk := contrEquiv1_symm_val (dotRows A B C wf) B rfl rfl d
  have el : (dotRows A B C wf).lhsIdx (ix2 p k) ((contrEquiv1 (dotRows A B C wf) B rfl rfl).symm d) = ix2 p d :=
    funext fun a => Fin.ext (by
      match a with
      | ⟨0, _⟩ => exact lhs_rows_0 _ _ _
      | ⟨1, _⟩ => exact (lhs_rows_1 _ _ _).trans hk)
  have er : (dotRows A B C wf).rhsIdx (ix2 p k) ((contrEquiv1 (dotRows A B C wf) B rfl rfl).symm d) = ix2 d k :=
    funext fun a => Fin.ext (by
      match a with
      | ⟨0, _⟩ => exact (rhs_rows_0 _ _ _).trans hk
      | ⟨1, _⟩ => exact rhs_rows_1 _ _ _)
  rw [el, er]

theorem lhs_cols_0 (wf) (i : (⟨2, ![B, C]⟩ : Shape).Idx) (q : (dotCols A B C wf).contr.Idx) :
    ((dotCols A B C wf).lhsIdx i q 0).val = (q ⟨0, Nat.one_pos⟩).val :=
  (dotCols A B C wf).lhsIdx_val_of_single rfl i q

theorem lhs_cols_1 (wf) (i : (⟨2, ![B, C]⟩ : Shape).Idx) (q : (dotCols A B C wf).contr.Idx) :
    ((dotCols A B C wf).lhsIdx i q 1).val = (i 0).val := by
  unfold DotDims.lhsIdx
  rw [dif_neg (show ¬(1 : Fin (⟨2, ![A, B]⟩ : Shape).rank) ∈ (dotCols A B C wf).lhsBatch from List.not_mem_nil),
    dif_pos (show (1 : Fin (⟨2, ![A, B]⟩ : Shape).rank) ∈ (dotCols A B C wf).lhsNonContracting from List.mem_singleton.2 rfl)]
  rfl

theorem rhs_cols_0 (wf) (i : (⟨2, ![B, C]⟩ : Shape).Idx) (q : (dotCols A B C wf).contr.Idx) :
    ((dotCols A B C wf).rhsIdx i q 0).val = (q ⟨0, Nat.one_pos⟩).val :=
  (dotCols A B C wf).rhsIdx_val_of_single rfl i q

theorem rhs_cols_1 (wf) (i : (⟨2, ![B, C]⟩ : Shape).Idx) (q : (dotCols A B C wf).contr.Idx) :
    ((dotCols A B C wf).rhsIdx i q 1).val = (i 1).val := by
  unfold DotDims.rhsIdx
  rw [dif_neg (show ¬(1 : Fin (⟨2, ![A, C]⟩ : Shape).rank) ∈ (dotCols A B C wf).rhsBatch from List.not_mem_nil),
    dif_pos (show (1 : Fin (⟨2, ![A, C]⟩ : Shape).rank) ∈ (dotCols A B C wf).rhsNonContracting from List.mem_singleton.2 rfl)]
  rfl

/-- A product contracted over the ROWS of both factors (`A×B` and `A×C`) into a zero accumulator, at an entry. -/
theorem matmul_cols_apply (wf) (l : FVec Ideal ⟨2, ![A, B]⟩ .f32) (r : FVec Ideal ⟨2, ![A, C]⟩ .f32) (j : Fin B) (k : Fin C) :
    matmul (F := Ideal) (dotCols A B C wf) none l r (constant (F := Ideal) ⟨2, ![B, C]⟩ .f32 0x00000000#32) (ix2 j k)
      = ∑ p : Fin A, l (ix2 p j) * r (ix2 p k) := by
  simp only [matmul]
  rw [Ideal.matmul_constant_zero_apply, ← Equiv.sum_comp (contrEquiv1 (dotCols A B C wf) A rfl rfl).symm]
  refine Finset.sum_congr rfl fun p _ => ?_
  have hk := contrEquiv1_symm_val (dotCols A B C wf) A rfl rfl p
  have el : (dotCols A B C wf).lhsIdx (ix2 j k) ((contrEquiv1 (dotCols A B C wf) A rfl rfl).symm p) = ix2 p j :=
    funext fun a => Fin.ext (by
      match a with
      | ⟨0, _⟩ => exact (lhs_cols_0 _ _ _).trans hk
      | ⟨1, _⟩ => exact lhs_cols_1 _ _ _)
  have er : (dotCols A B C wf).rhsIdx (ix2 j k) ((contrEquiv1 (dotCols A B C wf) A rfl rfl).symm p) = ix2 p k :=
    funext fun a => Fin.ext (by
      match a with
      | ⟨0, _⟩ => exact (rhs_cols_0 _ _ _).trans hk
      | ⟨1, _⟩ => exact rhs_cols_1 _ _ _)
  rw [el, er]

end Dots

end Cert.KernelIdeal.Hand
-- ==== Proof.LibTileSum.lean ====
import Mathlib.Algebra.BigOperators.Group.Finset.Basic
import Mathlib.Algebra.BigOperators.Group.Finset.Piecewise
import Mathlib.Algebra.BigOperators.Fin

namespace Cert.TileSum

open Finset

variable {M : Type*} [AddCommMonoid M]

theorem acc_eq_add_sum_of_lt (T : ℕ) (z : M) (acc term : ℕ → M) (h0 : acc 0 = z + term 0)
    (hs : ∀ t, t + 1 < T → acc (t + 1) = acc t + term (t + 1)) (t : ℕ) (ht : t < T) :
    acc t = z + ∑ s ∈ Finset.range (t + 1), term s := by
  induction t with
  | zero => rw [h0, Finset.sum_range_one]
  | succ t ih =>
    rw [hs t ht, ih (Nat.lt_of_succ_lt ht), Finset.sum_range_succ _ (t + 1), add_assoc]

theorem sum_tiles (T B : ℕ) (g : ℕ → M) :
    ∑ t ∈ Finset.range T, ∑ r ∈ Finset.range B, g (t * B + r) = ∑ i ∈ Finset.range (T * B), g i := by
  induction T with
  | zero => simp
  | succ T ih => rw [Finset.sum_range_succ, ih, Nat.add_one_mul, Finset.sum_range_add]

theorem sum_tiles_fin' (T B N : ℕ) (hN : N = T * B) (f : Fin N → M) (idx : Fin T → Fin B → Fin N)
    (hidx : ∀ t r, (idx t r).val = t.val * B + r.val) :
    ∑ t : Fin T, ∑ r : Fin B, f (idx t r) = ∑ i : Fin N, f i := by
  subst hN

  obtain ⟨g, hg⟩ : ∃ g : ℕ → M, ∀ i : Fin (T * B), g i.val = f i :=
    ⟨fun k => if h : k < T * B then f ⟨k, h⟩ else 0, fun i => dif_pos i.2⟩
  calc ∑ t : Fin T, ∑ r : Fin B, f (idx t r)
      = ∑ t : Fin T, ∑ r : Fin B, g (t.val * B + r.val) := by
        refine Finset.sum_congr rfl fun t _ => Finset.sum_congr rfl fun r _ => ?_
        rw [← hidx t r, hg]
    _ = ∑ t ∈ Finset.range T, ∑ r ∈ Finset.range B, g (t * B + r) := by
        rw [Finset.sum_range]
        refine Finset.sum_congr rfl fun t _ => ?_
        rw [Finset.sum_range]
    _ = ∑ i ∈ Finset.range (T * B), g i := sum_tiles T B g
    _ = ∑ i : Fin (T * B), f i := by
        rw [Finset.sum_range]
        exact Finset.sum_congr rfl fun i _ => hg i

theorem sum_tiles_50_200 (f : Fin 10000 → M) :
    ∑ t : Fin 50, ∑ r : Fin 200, f ⟨200 * t.val + r.val, by omega⟩ = ∑ i : Fin 10000, f i :=
  sum_tiles_fin' 50 200 10000 rfl f (fun t r => ⟨200 * t.val + r.val, by omega⟩)
    (fun t r => congrArg (· + r.val) (Nat.mul_comm 200 t.val))

theorem tile_iff {B : ℕ} (hB : 0 < B) (t j : ℕ) : (t * B ≤ j ∧ j < t * B + B) ↔ t = j / B := by
  rw [← Nat.le_div_iff_mul_le hB, ← Nat.add_one_mul, ← Nat.div_lt_iff_lt_mul hB]
  omega

theorem sum_tile_indicator (T B : ℕ) (u : M) (j : ℕ) (hj : j < T * B) :
    ∑ t ∈ Finset.range T, (if t * B ≤ j ∧ j < t * B + B then u else 0) = u := by
  have hB : 0 < B := Nat.pos_of_ne_zero fun h => by subst h; simp at hj
  have hmem : j / B ∈ Finset.range T := Finset.mem_range.2 ((Nat.div_lt_iff_lt_mul hB).2 hj)

  refine (Finset.sum_eq_single_of_mem (j / B) hmem ?_).trans ?_
  · intro t _ hne
    exact if_neg fun h => hne ((tile_iff hB t j).1 h)
  · exact if_pos ((tile_iff hB (j / B) j).2 rfl)

theorem sum_tile_indicator_fin (T B : ℕ) (u : M) (j : ℕ) (hj : j < T * B) :
    ∑ t : Fin T, (if t.val * B ≤ j ∧ j < t.val * B + B then u else 0) = u :=
  (Finset.sum_range fun t => if t * B ≤ j ∧ j < t * B + B then u else 0).symm.trans
    (sum_tile_indicator T B u j hj)

theorem sum_tile_indicator_50_200 (u : M) (j : Fin 10000) :
    ∑ t : Fin 50, (if 200 * t.val ≤ j.val ∧ j.val < 200 * t.val + 200 then u else 0) = u := by
  have h := sum_tile_indicator_fin 50 200 u j.val (by have := j.isLt; omega)
  refine Eq.trans (Finset.sum_congr rfl fun t _ => ?_) h
  exact if_congr (by omega) rfl rfl

theorem sum_tiles_add_self_50_200 (w v : Fin 10000 → M) (j : Fin 10000) :
    ∑ t : Fin 50, ((∑ r : Fin 200, w ⟨200 * t.val + r.val, by omega⟩)
        + (if 200 * t.val ≤ j.val ∧ j.val < 200 * t.val + 200 then v j else 0))
      = (∑ i : Fin 10000, w i) + v j := by
  rw [Finset.sum_add_distrib, sum_tiles_50_200 w, sum_tile_indicator_50_200 (v j) j]

end Cert.TileSum
-- ==== Proof.Value0.lean ====
import proofs.«109387_g55946243997874_fold_wed_m_672_4_alg».proof.Proof.Dat0
import proofs.«109387_g55946243997874_fold_wed_m_672_4_alg».proof.Proof.KSpec
import proofs.«109387_g55946243997874_fold_wed_m_672_4_alg».proof.Proof.KOpsIdx
import proofs.«109387_g55946243997874_fold_wed_m_672_4_alg».proof.Proof.LibTileSum
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
open Idealize.ShloMosaic.ValueIdx

variable (V : (c : Dev nD) → (b : Ref sig .tc) → Buf (Elt Ideal) ((c : Thread nD τ).loc b))

abbrev adj0 (c : Dev nD) : Cert.Gcn.SA.Idx → EReal := V c main_arg1

abbrev t49_0 : Fin cfg0.N := ⟨49, lt_of_lt_of_eq (by norm_num : 49 < 50) (N_0.symm : 50 = cfg0.N)⟩

theorem k0_pay1_apply0 (i : S1x10000.Idx) : k0_pay1 (F := Ideal) i = 0 := by
  unfold k0_pay1
  exact broadcast_zero_apply i

theorem k0_pay2_apply0 (y : Vec Ideal S1x10000 .f32) (x : Vec Ideal S200x10000 .f32) (u : Fin 1) (j : Fin 10000) :
    k0_pay2 y x (ix2 u j) = y (ix2 u j) + ∑ r : Fin 200, x (ix2 r j) := by
  unfold k0_pay2
  dsimp only
  rw [addf_apply, shapeCast_id_apply, colsum_row_apply]

theorem rsqrt_apply0 {S : Shape} (v : FVec Ideal S .f32) (i : S.Idx) : rsqrt v i = Ideal.rsqrt (v i) := rfl

theorem k0_pay3_apply0 (y : Vec Ideal S1x10000 .f32) (i : S1x10000.Idx) :
    k0_pay3 y i = Ideal.rsqrt (y i + 1) := by
  unfold k0_pay3
  rw [rsqrt_apply0, addf_apply, shapeCast_id_apply, broadcast_one_apply]

def row0 (s r : ℕ) : Fin 10000 := ⟨(200 * s + r) % 10000, Nat.mod_lt _ (by norm_num)⟩

theorem index0_0 : ∀ t : Fin cfg0.N, win0_0.index t 0 = t.val ∧ win0_0.index t 1 = 0 :=
  (by decide +kernel : ∀ t : Fin grid0.N, win0_0.index t 0 = t.val ∧ win0_0.index t 1 = 0)

theorem index0_1 : ∀ t : Fin cfg0.N, win0_1.index t 0 = 0 ∧ win0_1.index t 1 = 0 :=
  (by decide +kernel : ∀ t : Fin grid0.N, win0_1.index t 0 = 0 ∧ win0_1.index t 1 = 0)

theorem iblk0_apply (c : Dev nD) (t : Fin cfg0.N) (r : Fin 200) (j : Fin 10000) :
    iblk0 V c 0 t (ix2 r j) = adj0 V c (ix2 (row0 t.val r.val) j) := by
  have hN : t.val < 50 := lt_of_lt_of_eq t.isLt (show cfg0.N = 50 from N_0)
  unfold iblk0
  rw [View.read_apply]
  show V c main_arg1 _ = V c main_arg1 _
  congr 1
  funext a
  apply Fin.ext
  match a with
  | ⟨0, _⟩ =>
    show win0_0.index t 0 * 200 + 1 * r.val = (200 * t.val + r.val) % 10000
    rw [(index0_0 t).1, Nat.mod_eq_of_lt (by omega)]; omega
  | ⟨1, _⟩ =>
    show win0_0.index t 1 * 10000 + 1 * j.val = j.val
    rw [(index0_0 t).2]; omega

theorem sum0_apply (c : Dev nD) (u : Fin 1) (j : Fin 10000) : ∀ (n : ℕ) (hn : n < cfg0.N),
    sum0 V c n hn (ix2 u j)
      = 0 + ∑ s : Fin (n + 1), ∑ r : Fin 200, adj0 V c (ix2 (row0 s.val r.val) j)
  | 0, hn => by
    rw [sum0_zero, k0_pay2_apply0, k0_pay1_apply0, Fin.sum_univ_castSucc (n := 0)]
    simp only [Fin.sum_univ_zero, zero_add, iblk0_apply, Fin.val_last]
  | n + 1, hn => by
    rw [sum0_succ, k0_pay2_apply0, sum0_apply c u j n, Fin.sum_univ_castSucc (n := n + 1), add_assoc]
    simp only [iblk0_apply, Fin.val_castSucc, Fin.val_last]

theorem sum0_last_apply (c : Dev nD) (u : Fin 1) (j : Fin 10000) (hn : 49 < cfg0.N) :
    sum0 V c 49 hn (ix2 u j) = ∑ i : Fin 10000, adj0 V c (ix2 i j) := by
  rw [sum0_apply, zero_add]
  exact Cert.TileSum.sum_tiles_fin' 50 200 10000 (by norm_num) (fun i => adj0 V c (ix2 i j))
    (fun t r => row0 t.val r.val) (fun t r => by
      have ht := t.isLt; have hr := r.isLt
      show (200 * t.val + r.val) % 10000 = t.val * 200 + r.val
      rw [Nat.mod_eq_of_lt (by omega)]; omega)

theorem out0_last_apply (c : Dev nD) (t : Fin cfg0.N) (h49 : t.val = 49) (u : Fin 1) (j : Fin 10000) :
    out0 V c t (ix2 u j) = Cert.Gcn.dinv (V c main_arg1) j := by
  have key : ∀ (n : ℕ) (hn : n < cfg0.N), n = 49 →
      sum0 V c n hn (ix2 u j) = ∑ i : Fin 10000, adj0 V c (ix2 i j) := by
    intro n hn h; subst h; exact sum0_last_apply V c u j hn
  rw [out0_last V c t h49, k0_pay3_apply0, key t.val t.isLt h49]
  rfl

theorem flushed_eq0 (c : Dev nD) (t : Fin cfg0.N) (hf : (cfg0.win 1).flush t = true) :
    (dat0 V c).flushed 1 t
      = ((cfg0.win 1).blk t).view.read (Elt Ideal) (fun i => Cert.Gcn.dinv (V c main_arg1) (i 1)) := by
  have hN : cfg0.N = 50 := N_0
  have h49 : t.val = 49 := by have := (flush0_1 t).mp hf; have := t.isLt; omega
  funext y
  obtain ⟨u, j, rfl⟩ : ∃ (u : Fin 1) (j : Fin 10000), y = ix2 u j := ⟨y 0, y 1, eq_ix2 y⟩
  show (dat0 V c).after 1 t (ix2 u j) = _
  rw [after0_1, out0_last_apply V c t h49, View.read_apply]
  show Cert.Gcn.dinv (V c main_arg1) j = Cert.Gcn.dinv (V c main_arg1) _
  congr 1
  apply Fin.ext
  show j.val = win0_1.index t 1 * 10000 + 1 * j.val
  rw [(index0_1 t).2]; omega

theorem value0 (V : (c : Dev nD) → (b : Ref sig .tc) → Buf (Elt Ideal) ((c : Thread nD τ).loc b)) (c : Dev nD) :
    (dat0 V c).arrAt 1 cfg0.N = fun i => Cert.Gcn.dinv (V c main_arg1) (i 1) := by
  have hN : cfg0.N = 50 := N_0
  refine (dat0 V c).arrAt_eq_of_cover 1 _ (flushed_eq0 V c) fun i => ?_
  refine ⟨t49_0, (flush0_1 t49_0).mpr rfl, ?_⟩
  show i ∈ ((View.whole main_v0).slice (win0_1.rect t49_0)).set
  rw [View.set_slice_whole, Rect.mem_set_unit]
  intro a
  have h0 : (i 0 : Nat) < 1 := (i 0).isLt
  have h1 : (i 1 : Nat) < 10000 := (i 1).isLt
  match a with
  | ⟨0, _⟩ =>
    show win0_1.index t49_0 0 * 1 ≤ (i 0 : Nat) ∧ (i 0 : Nat) < win0_1.index t49_0 0 * 1 + 1
    rw [(index0_1 _).1]; omega
  | ⟨1, _⟩ =>
    show win0_1.index t49_0 1 * 10000 ≤ (i 1 : Nat) ∧ (i 1 : Nat) < win0_1.index t49_0 1 * 10000 + 10000
    rw [(index0_1 _).2]; omega

end Cert.KernelIdeal.Hand

end
-- ==== Proof.Value1.lean ====
import proofs.«109387_g55946243997874_fold_wed_m_672_4_alg».proof.Proof.Dat1
import proofs.«109387_g55946243997874_fold_wed_m_672_4_alg».proof.Proof.KSpec
import proofs.«109387_g55946243997874_fold_wed_m_672_4_alg».proof.Proof.KOpsIdx
import proofs.«109387_g55946243997874_fold_wed_m_672_4_alg».proof.Proof.LibTileSum
import Idealize.ShloMosaic.Lib.Pipeline.Value
import Mathlib.Algebra.BigOperators.Fin

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal
open Idealize.ShloMosaic.ValueIdx

namespace Pass1

open Cert.KernelIdeal.Gen

theorem pay1_apply (j : Fin 10000) (k : Fin 16) : k1_pay1 (F := Ideal) (ix2 j k) = 0 := by
  unfold k1_pay1
  refine (shapeCast_id_apply _ _ _).trans ?_
  exact broadcast_zero_apply _

theorem pay2_apply (x2 : Vec Ideal S200x128 .f32) (x3 : Vec Ideal S128x16 .f32) (x6 : Vec Ideal S200x1 .f32) (r : Fin 200) (k : Fin 16) :
    k1_pay2 x2 x3 x6 (ix2 r k) = (∑ e : Fin 128, x2 (ix2 r e) * x3 (ix2 e k)) * x6 (ix2 r 0) := by
  unfold k1_pay2
  refine (mulf_apply _ _ _).trans ?_
  refine congrArg₂ (· * ·) (matmul_rows_apply _ x2 x3 r k) ?_
  refine (bcast_S200x1_S200x16_apply _ r k).trans ?_
  exact shapeCast_id_apply _ _ _

theorem pay3_apply (x2 : Vec Ideal S200x128 .f32) (x3 : Vec Ideal S128x16 .f32) (x6 : Vec Ideal S200x1 .f32)
    (s : Vec Ideal S10000x16 .f32) (x1 : Vec Ideal S200x10000 .f32) (j : Fin 10000) (k : Fin 16) :
    k1_pay3 x2 x3 x6 s x1 (ix2 j k) = s (ix2 j k) + ∑ r : Fin 200, x1 (ix2 r j) * k1_pay2 x2 x3 x6 (ix2 r k) := by
  unfold k1_pay3
  refine (shapeCast_id_apply _ _ _).trans ?_
  refine (addf_apply _ _ _).trans ?_
  exact congrArg (s (ix2 j k) + ·) (matmul_cols_apply _ x1 (k1_pay2 x2 x3 x6) j k)

theorem pay4_apply (x2 : Vec Ideal S200x128 .f32) (x3 : Vec Ideal S128x16 .f32) (x6 : Vec Ideal S200x1 .f32)
    (v : Vec Ideal S200x16 .f32) (r : Fin 200) (k : Fin 16) :
    k1_pay4 x2 x3 x6 v (ix2 r k) = v (ix2 r k) + k1_pay2 x2 x3 x6 (ix2 r k) := by
  unfold k1_pay4
  refine (shapeCast_id_apply _ _ _).trans ?_
  exact addf_apply _ _ _

theorem pay5_apply (a : Vec Ideal S10000x16 .f32) (x7 : Vec Ideal S10000x1 .f32) (x4 : Vec Ideal S1x16 .f32) (x5 : Vec Ideal S16x40 .f32)
    (x7' : Vec Ideal S10000x1 .f32) (j : Fin 10000) (c : Fin 40) :
    k1_pay5 a x7 x4 x5 x7' (ix2 j c)
      = (∑ k : Fin 16, max (a (ix2 j k) * x7 (ix2 j 0) + x4 (ix2 0 k)) 0 * x5 (ix2 k c)) * x7' (ix2 j 0) := by
  unfold k1_pay5
  refine (mulf_apply _ _ _).trans ?_
  refine congrArg₂ (· * ·) ?_ ((bcast_S10000x1_S10000x40_apply _ j c).trans (shapeCast_id_apply _ _ _))
  refine (matmul_rows_apply _ _ x5 j c).trans ?_
  refine Finset.sum_congr rfl fun k _ => congrArg (· * x5 (ix2 k c)) ?_
  refine (maximumf_apply _ _ _).trans ?_
  refine congrArg₂ max ?_ (broadcast_zero_apply _)
  refine (addf_apply _ _ _).trans ?_
  refine congrArg₂ (· + ·) ?_ ((bcast_S1x16_S10000x16_apply _ j k).trans (shapeCast_id_apply _ _ _))
  refine (mulf_apply _ _ _).trans ?_
  exact congrArg (a (ix2 j k) * ·) ((bcast_S10000x1_S10000x16_apply _ j k).trans (shapeCast_id_apply _ _ _))

theorem zeroOff2 : (![0, 0] : Fin 2 → ℕ) = fun _ => 0 := funext fun a => by fin_cases a <;> rfl

theorem canon_cons_off {S : Shape} {e : EltTy} (r : Rect S) (w : r.shape.Idx → Elt Ideal e) (L : List (View.Piece (Elt Ideal) S e)) (y : S.Idx)
    (h : y ∉ r.set) : View.canon ((⟨r, w⟩ : View.Piece (Elt Ideal) S e) :: L) y = View.canon L y :=
  View.canon_cons_of_not_mem ⟨r, w⟩ L h

theorem accNext1_apply (i : grid1.Coords) (ti : ℕ) (hti : (i 0).val = ti) (x1 : Vec Ideal S200x10000 .f32) (x2 : Vec Ideal S200x128 .f32)
    (x3 : Vec Ideal S128x16 .f32) (x6 : Vec Ideal S200x1 .f32) (s : Vec Ideal S10000x16 .f32) (j : Fin 10000) (k : Fin 16) :
    accNext1 i x1 x2 x3 x6 s (ix2 j k)
      = if h : 200 * ti ≤ j.val ∧ j.val < 200 * ti + 200 then
          k1_pay3 x2 x3 x6 s x1 (ix2 j k) + k1_pay2 x2 x3 x6 (ix2 (⟨j.val - 200 * ti, by omega⟩ : Fin 200) k)
        else k1_pay3 x2 x3 x6 s x1 (ix2 j k) := by
  unfold accNext1
  have hoff : k1_off1 i = ![200 * ti, 0] := hti ▸ k1_off1_eq i
  have hoff0 : k1_off1 i 0 = 200 * ti := congrFun hoff 0
  have hoff1 : k1_off1 i 1 = 0 := congrFun hoff 1
  by_cases h : 200 * ti ≤ j.val ∧ j.val < 200 * ti + 200
  · rw [dif_pos h]

    have hy : (rI1 i).emb (ix2 (⟨j.val - 200 * ti, by omega⟩ : Fin 200) k) = ix2 j k := by
      funext a; apply Fin.ext
      match a with
      | ⟨0, _⟩ => show k1_off1 i 0 + 1 * (j.val - 200 * ti) = j.val; omega
      | ⟨1, _⟩ => show k1_off1 i 1 + 1 * k.val = k.val; omega
    refine (congrArg _ hy.symm).trans ?_
    refine (View.canon_cons_emb (rI1 i) _ _ _).trans ?_
    refine (pay4_apply x2 x3 x6 _ _ k).trans ?_
    exact congrArg (· + k1_pay2 x2 x3 x6 (ix2 (⟨j.val - 200 * ti, by omega⟩ : Fin 200) k)) (congrArg (k1_pay3 x2 x3 x6 s x1) hy)
  · rw [dif_neg h]

    have hn : ix2 j k ∉ (rI1 i).set := by
      rw [Rect.mem_set_unit]
      intro hm
      have h0 := hm 0
      have e0 : ((ix2 j k : S10000x16.Idx) 0).val = j.val := rfl
      have e1 : S200x16.size 0 = 200 := rfl
      omega
    refine (canon_cons_off (rI1 i) _ _ (ix2 j k) hn).trans ?_
    exact congrFun (View.canon_unit_zero zeroOff2 _ _) (ix2 j k)

theorem N1_eq : cfg1.N = 50 := by decide

theorem coords1 : ∀ t : Fin cfg1.N, (grid1.coords t 0).val = t.val := (by decide +kernel : ∀ t : Fin grid1.N, _)

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

section Blocks

variable (V : (c : Dev nD) → (b : Ref sig .tc) → Buf (Elt Ideal) ((c : Thread nD τ).loc b)) (c : Dev nD)

theorem iblk1_0_apply (t : Fin cfg1.N) (n : ℕ) (hn : t.val = n) (r : Fin 200) (j : Fin 10000) (hlt : 200 * n + r.val < 10000) :
    (iblk1 V c 0 t : Vec Ideal S200x10000 .f32) (ix2 r j) = V c main_arg1 (ix2 (⟨200 * n + r.val, hlt⟩ : Fin 10000) j) := by
  show V c main_arg1 (((cfg1.win 0).blk t).view.emb (ix2 r j)) = _
  obtain ⟨e0, e1, -⟩ := idx_facts1 t
  refine congrArg _ (funext fun a => Fin.ext ?_)
  match a with
  | ⟨0, _⟩ => show win1_0.index t (0 : Fin 2) * 200 + 1 * r.val = 200 * n + r.val; omega
  | ⟨1, _⟩ => show win1_0.index t (1 : Fin 2) * 10000 + 1 * j.val = j.val; omega

theorem iblk1_1_apply (t : Fin cfg1.N) (n : ℕ) (hn : t.val = n) (r : Fin 200) (e : Fin 128) (hlt : 200 * n + r.val < 10000) :
    (iblk1 V c 1 t : Vec Ideal S200x128 .f32) (ix2 r e) = V c main_arg0 (ix2 (⟨200 * n + r.val, hlt⟩ : Fin 10000) e) := by
  show V c main_arg0 (((cfg1.win 1).blk t).view.emb (ix2 r e)) = _
  obtain ⟨-, -, e0, e1, -⟩ := idx_facts1 t
  refine congrArg _ (funext fun a => Fin.ext ?_)
  match a with
  | ⟨0, _⟩ => show win1_1.index t (0 : Fin 2) * 200 + 1 * r.val = 200 * n + r.val; omega
  | ⟨1, _⟩ => show win1_1.index t (1 : Fin 2) * 128 + 1 * e.val = e.val; omega

theorem iblk1_2_apply (t : Fin cfg1.N) (e : Fin 128) (k : Fin 16) :
    (iblk1 V c 2 t : Vec Ideal S128x16 .f32) (ix2 e k) = V c main_arg2 (ix2 e k) := by
  show V c main_arg2 (((cfg1.win 2).blk t).view.emb (ix2 e k)) = _
  obtain ⟨-, -, -, -, e0, e1, -⟩ := idx_facts1 t
  refine congrArg _ (funext fun a => Fin.ext ?_)
  match a with
  | ⟨0, _⟩ => show win1_2.index t (0 : Fin 2) * 128 + 1 * e.val = e.val; omega
  | ⟨1, _⟩ => show win1_2.index t (1 : Fin 2) * 16 + 1 * k.val = k.val; omega

theorem iblk1_3_apply (t : Fin cfg1.N) (z : Fin 1) (k : Fin 16) :
    (iblk1 V c 3 t : Vec Ideal S1x16 .f32) (ix2 z k) = V c main_v2 (ix2 z k) := by
  show V c main_v2 (((cfg1.win 3).blk t).view.emb (ix2 z k)) = _
  obtain ⟨-, -, -, -, -, -, e0, e1, -⟩ := idx_facts1 t
  refine congrArg _ (funext fun a => Fin.ext ?_)
  match a with
  | ⟨0, _⟩ => show win1_3.index t (0 : Fin 2) * 1 + 1 * z.val = z.val; omega
  | ⟨1, _⟩ => show win1_3.index t (1 : Fin 2) * 16 + 1 * k.val = k.val; omega

theorem iblk1_4_apply (t : Fin cfg1.N) (k : Fin 16) (cc : Fin 40) :
    (iblk1 V c 4 t : Vec Ideal S16x40 .f32) (ix2 k cc) = V c main_arg4 (ix2 k cc) := by
  show V c main_arg4 (((cfg1.win 4).blk t).view.emb (ix2 k cc)) = _
  obtain ⟨-, -, -, -, -, -, -, -, e0, e1, -⟩ := idx_facts1 t
  refine congrArg _ (funext fun a => Fin.ext ?_)
  match a with
  | ⟨0, _⟩ => show win1_4.index t (0 : Fin 2) * 16 + 1 * k.val = k.val; omega
  | ⟨1, _⟩ => show win1_4.index t (1 : Fin 2) * 40 + 1 * cc.val = cc.val; omega

theorem iblk1_5_apply (t : Fin cfg1.N) (n : ℕ) (hn : t.val = n) (r : Fin 200) (z : Fin 1) (hlt : 200 * n + r.val < 10000) :
    (iblk1 V c 5 t : Vec Ideal S200x1 .f32) (ix2 r z) = V c main_v1 (ix2 (⟨200 * n + r.val, hlt⟩ : Fin 10000) z) := by
  show V c main_v1 (((cfg1.win 5).blk t).view.emb (ix2 r z)) = _
  obtain ⟨-, -, -, -, -, -, -, -, -, -, e0, e1, -⟩ := idx_facts1 t
  refine congrArg _ (funext fun a => Fin.ext ?_)
  match a with
  | ⟨0, _⟩ => show win1_5.index t (0 : Fin 2) * 200 + 1 * r.val = 200 * n + r.val; omega
  | ⟨1, _⟩ => show win1_5.index t (1 : Fin 2) * 1 + 1 * z.val = z.val; omega

theorem iblk1_6_apply (t : Fin cfg1.N) (j : Fin 10000) (z : Fin 1) :
    (iblk1 V c 6 t : Vec Ideal S10000x1 .f32) (ix2 j z) = V c main_v1 (ix2 j z) := by
  show V c main_v1 (((cfg1.win 6).blk t).view.emb (ix2 j z)) = _
  obtain ⟨-, -, -, -, -, -, -, -, -, -, -, -, e0, e1, -⟩ := idx_facts1 t
  refine congrArg _ (funext fun a => Fin.ext ?_)
  match a with
  | ⟨0, _⟩ => show win1_6.index t (0 : Fin 2) * 10000 + 1 * j.val = j.val; omega
  | ⟨1, _⟩ => show win1_6.index t (1 : Fin 2) * 1 + 1 * z.val = z.val; omega

end Blocks

theorem emul_congr {a a' b b' : EReal} (ha : a = a') (hb : b = b') : a * b = a' * b' := by rw [ha, hb]

section Points

variable (V : (c : Dev nD) → (b : Ref sig .tc) → Buf (Elt Ideal) ((c : Thread nD τ).loc b)) (c : Dev nD)

abbrev xAt : Cert.Gcn.SX.Idx → EReal := V c main_arg0
abbrev aAt : Cert.Gcn.SA.Idx → EReal := V c main_arg1
abbrev w1At : Cert.Gcn.SW1.Idx → EReal := V c main_arg2
abbrev w2At : Cert.Gcn.SW2.Idx → EReal := V c main_arg4
abbrev dAt : Fin 10000 → EReal := fun j => V c main_v1 (ix2 j 0)
abbrev b1At : Fin 16 → EReal := fun k => V c main_v2 (ix2 0 k)

abbrev u1At : Fin 10000 → Fin 16 → EReal := Cert.Gcn.u1g (xAt V c) (w1At V c) (dAt V c)

theorem pay2_blocks (t : Fin cfg1.N) (n : ℕ) (hn : t.val = n) (r : Fin 200) (k : Fin 16) (hlt : 200 * n + r.val < 10000) :
    k1_pay2 (iblk1 V c 1 t) (iblk1 V c 2 t) (iblk1 V c 5 t) (ix2 r k) = u1At V c ⟨200 * n + r.val, hlt⟩ k := by
  refine (pay2_apply (iblk1 V c 1 t) (iblk1 V c 2 t) (iblk1 V c 5 t) r k).trans ?_
  show _ = (∑ e : Fin 128, xAt V c (ix2 (⟨200 * n + r.val, hlt⟩ : Fin 10000) e) * w1At V c (ix2 e k))
    * dAt V c (⟨200 * n + r.val, hlt⟩ : Fin 10000)
  exact emul_congr
    (Finset.sum_congr rfl fun e _ => emul_congr (iblk1_1_apply V c t n hn r e hlt) (iblk1_2_apply V c t e k))
    (iblk1_5_apply V c t n hn r 0 hlt)

def tileTerm (j : Fin 10000) (k : Fin 16) (n : ℕ) (hn : n < 50) : EReal :=
  (∑ r : Fin 200, aAt V c (ix2 (⟨200 * n + r.val, by omega⟩ : Fin 10000) j) * u1At V c ⟨200 * n + r.val, by omega⟩ k)
    + (if 200 * n ≤ j.val ∧ j.val < 200 * n + 200 then u1At V c j k else 0)

theorem accNext1_blocks (t : Fin cfg1.N) (n : ℕ) (hn : t.val = n) (hn50 : n < 50) (s : Vec Ideal S10000x16 .f32) (j : Fin 10000) (k : Fin 16) :
    accNext1 (grid1.coords t) (iblk1 V c 0 t) (iblk1 V c 1 t) (iblk1 V c 2 t) (iblk1 V c 5 t) s (ix2 j k)
      = s (ix2 j k) + tileTerm V c j k n hn50 := by
  have hp3 : k1_pay3 (iblk1 V c 1 t) (iblk1 V c 2 t) (iblk1 V c 5 t) s (iblk1 V c 0 t) (ix2 j k)
      = s (ix2 j k) + ∑ r : Fin 200, aAt V c (ix2 (⟨200 * n + r.val, by omega⟩ : Fin 10000) j) * u1At V c ⟨200 * n + r.val, by omega⟩ k := by
    refine (pay3_apply (iblk1 V c 1 t) (iblk1 V c 2 t) (iblk1 V c 5 t) s (iblk1 V c 0 t) j k).trans ?_
    refine congrArg (s (ix2 j k) + ·) (Finset.sum_congr rfl fun r _ => ?_)
    exact emul_congr (iblk1_0_apply V c t n hn r j (by omega)) (pay2_blocks V c t n hn r k (by omega))
  refine (accNext1_apply (grid1.coords t) n ((coords1 t).trans hn) (iblk1 V c 0 t) (iblk1 V c 1 t) (iblk1 V c 2 t) (iblk1 V c 5 t) s j k).trans ?_
  unfold tileTerm
  by_cases h : 200 * n ≤ j.val ∧ j.val < 200 * n + 200
  · rw [dif_pos h, if_pos h, hp3, add_assoc]
    refine congrArg (s (ix2 j k) + ·) (congrArg (_ + ·) ?_)

    refine (pay2_blocks V c t n hn ⟨j.val - 200 * n, by omega⟩ k (by show 200 * n + (j.val - 200 * n) < 10000; omega)).trans ?_
    exact congrArg (fun i => u1At V c i k) (Fin.ext (by show 200 * n + (j.val - 200 * n) = j.val; omega))
  · rw [dif_neg h, if_neg h, hp3, add_zero]

def stepTerm (j : Fin 10000) (k : Fin 16) (n : ℕ) : EReal := if h : n < 50 then tileTerm V c j k n h else 0

theorem ptOf1_val_of_lt (n : ℕ) (hn : n < 50) : (ptOf1 n).val = n := by
  show n % cfg1.N = n
  rw [N1_eq]; exact Nat.mod_eq_of_lt hn

theorem accAt1_zero (j : Fin 10000) (k : Fin 16) : accAt1 V c 0 (ix2 j k) = 0 + stepTerm V c j k 0 := by
  rw [accAt1]
  refine (accNext1_blocks V c (ptOf1 0) 0 (ptOf1_val_of_lt 0 (by omega)) (by omega) (k1_pay1 (F := Ideal)) j k).trans ?_
  refine congrArg₂ (· + ·) (pay1_apply j k) ?_
  unfold stepTerm
  rw [dif_pos (by omega : 0 < 50)]

theorem accAt1_succ (j : Fin 10000) (k : Fin 16) (n : ℕ) (hn : n + 1 < 50) :
    accAt1 V c (n + 1) (ix2 j k) = accAt1 V c n (ix2 j k) + stepTerm V c j k (n + 1) := by
  rw [accAt1]
  refine (accNext1_blocks V c (ptOf1 (n + 1)) (n + 1) (ptOf1_val_of_lt _ hn) hn (accAt1 V c n) j k).trans ?_
  unfold stepTerm
  rw [dif_pos hn]

theorem accAt1_last (j : Fin 10000) (k : Fin 16) :
    accAt1 V c 49 (ix2 j k) = Cert.Gcn.agg (aAt V c) (u1At V c) j k := by
  have h := Cert.TileSum.acc_eq_add_sum_of_lt 50 0 (fun n => accAt1 V c n (ix2 j k)) (stepTerm V c j k) (accAt1_zero V c j k)
    (fun n hn => accAt1_succ V c j k n hn) 49 (by omega)
  refine h.trans ?_
  rw [zero_add, show (49 + 1 : ℕ) = 50 from rfl, Finset.sum_range]
  unfold Cert.Gcn.agg
  refine Eq.trans (Finset.sum_congr rfl fun t _ => ?_)
    (Cert.TileSum.sum_tiles_add_self_50_200 (fun i => aAt V c (ix2 i j) * u1At V c i k) (fun i => u1At V c i k) j)
  unfold stepTerm
  rw [dif_pos t.isLt]
  rfl

end Points

section Output

variable (V : (c : Dev nD) → (b : Ref sig .tc) → Buf (Elt Ideal) ((c : Thread nD τ).loc b)) (c : Dev nD)

abbrev u2At : Fin 10000 → Fin 40 → EReal :=
  Cert.Gcn.u2g (xAt V c) (aAt V c) (w1At V c) (b1At V c) (w2At V c) (dAt V c)

theorem eadd_congr {a a' b b' : EReal} (ha : a = a') (hb : b = b') : a + b = a' + b' := by rw [ha, hb]

theorem out1_last (t : Fin cfg1.N) (ht : t.val = 49) (j : Fin 10000) (cc : Fin 40) : out1 V c t (ix2 j cc) = u2At V c j cc := by
  have e : out1 V c t = k1_pay5 (accAt1 V c 49) (iblk1 V c 6 t) (iblk1 V c 3 t) (iblk1 V c 4 t) (iblk1 V c 6 t) := by
    unfold out1; rw [ht]
  refine (congrFun e (ix2 j cc)).trans ?_
  refine (pay5_apply (accAt1 V c 49) (iblk1 V c 6 t) (iblk1 V c 3 t) (iblk1 V c 4 t) (iblk1 V c 6 t) j cc).trans ?_
  show _ = (∑ k : Fin 16, max (Cert.Gcn.agg (aAt V c) (u1At V c) j k * dAt V c j + b1At V c k) 0 * w2At V c (ix2 k cc)) * dAt V c j
  refine emul_congr (Finset.sum_congr rfl fun k _ => emul_congr ?_ (iblk1_4_apply V c t k cc)) (iblk1_6_apply V c t j 0)
  refine congrArg (max · (0 : EReal)) ?_
  exact eadd_congr (emul_congr (accAt1_last V c j k) (iblk1_6_apply V c t j 0)) (iblk1_3_apply V c t 0 k)

end Output

theorem mem_blk1_7 (t : Fin cfg1.N) (i : S10000x40.Idx) :
    i ∈ ((cfg1.win 7).blk t).view.set
      ↔ ∀ a : Fin 2, win1_7.index t a * S10000x40.size a ≤ (i a).val ∧ (i a).val < win1_7.index t a * S10000x40.size a + S10000x40.size a := by
  show i ∈ ((View.whole main_v3).slice (win1_7.rect t)).set ↔ _
  rw [View.set_slice_whole, Rect.mem_set_unit]
  exact Iff.rfl

theorem arrAt_last (V : (c : Dev nD) → (b : Ref sig .tc) → Buf (Elt Ideal) ((c : Thread nD τ).loc b)) (c : Dev nD) :
    (dat1 V c).arrAt 7 cfg1.N = fun idx => Cert.Gcn.u2g (V c main_arg0) (V c main_arg1) (V c main_arg2) (fun k => V c main_v2 (ix2 0 k))
      (V c main_arg4) (fun j => V c main_v1 (ix2 j 0)) (idx 0) (idx 1) := by
  refine (dat1 V c).arrAt_eq_of_cover 7 _ (fun t ht => ?_) (fun i => ?_)
  ·
    have ht49 : t.val = 49 := by
      have h1 := (flush1_7 t).mp ht
      have h2 : t.val < 50 := N1_eq ▸ t.isLt
      omega
    obtain ⟨-, -, -, -, -, -, -, -, -, -, -, -, -, -, e0, e1⟩ := idx_facts1 t
    show (cfg1.win 7).cut (grid1.coords t) ((dat1 V c).after 7 t) = _
    rw [after1_7]
    funext y
    obtain ⟨j, cc, rfl⟩ : ∃ (j : Fin 10000) (cc : Fin 40), y = ix2 j cc := ⟨y 0, y 1, eq_ix2 y⟩
    have hemb : ((cfg1.win 7).blk t).view.emb (ix2 j cc) = ix2 j cc := by
      funext a; apply Fin.ext
      match a with
      | ⟨0, _⟩ => show win1_7.index t (0 : Fin 2) * 10000 + 1 * j.val = j.val; omega
      | ⟨1, _⟩ => show win1_7.index t (1 : Fin 2) * 40 + 1 * cc.val = cc.val; omega
    show out1 V c t (ix2 j cc) = (fun idx : S10000x40.Idx => u2At V c (idx 0) (idx 1)) (((cfg1.win 7).blk t).view.emb (ix2 j cc))
    rw [hemb]
    exact out1_last V c t ht49 j cc
  ·
    refine ⟨⟨49, by decide⟩, (flush1_7 _).mpr rfl, ?_⟩
    obtain ⟨-, -, -, -, -, -, -, -, -, -, -, -, -, -, e0, e1⟩ := idx_facts1 ⟨49, by decide⟩
    rw [mem_blk1_7]
    intro a
    match a with
    | ⟨0, _⟩ =>
      show win1_7.index ⟨49, _⟩ (0 : Fin 2) * 10000 ≤ (i 0).val ∧ (i 0).val < win1_7.index ⟨49, _⟩ (0 : Fin 2) * 10000 + 10000
      have hi : (i 0).val < 10000 := (i 0).isLt
      omega
    | ⟨1, _⟩ =>
      show win1_7.index ⟨49, _⟩ (1 : Fin 2) * 40 ≤ (i 1).val ∧ (i 1).val < win1_7.index ⟨49, _⟩ (1 : Fin 2) * 40 + 40
      have hi : (i 1).val < 40 := (i 1).isLt
      omega

end Pass1

theorem value1 (V : (c : Dev nD) → (b : Ref sig .tc) → Buf (Elt Ideal) ((c : Thread nD τ).loc b)) (c : Dev nD) :
    (dat1 V c).arrAt 7 cfg1.N = fun idx => Cert.Gcn.u2g (V c main_arg0) (V c main_arg1) (V c main_arg2) (fun k => V c main_v2 (ix2 0 k))
      (V c main_arg4) (fun j => V c main_v1 (ix2 j 0)) (idx 0) (idx 1) :=
  Pass1.arrAt_last V c

end Cert.KernelIdeal.Hand

end
-- ==== Proof.LibRowReduce.lean ====
import Idealize.ShloMosaic.PureOps.Ideal.Laws
import Idealize.ShloMosaic.Lib.ValueIdx
import Idealize.ShloMosaic.Lib.Pipeline.Value
import proofs.«109387_g55946243997874_fold_wed_m_672_4_alg».proof.Proof.Spec

noncomputable section

namespace Cert.RowReduce

open Idealize.ShloMosaic Idealize.ShloMosaic.ValueIdx

abbrev SL : Shape := ⟨2, ![10000, 40]⟩

abbrev SR : Shape := ⟨1, ![10000]⟩

abbrev SC : Shape := ⟨2, ![10000, 1]⟩

abbrev S0 : Shape := ⟨0, ![]⟩

section Pointwise
variable {s : Shape} (x y : s.Idx → EReal) (i : s.Idx)
theorem subf_apply : subf (F := Ideal) (φ := .f32) x y i = x i - y i := rfl
theorem maximumf_apply : maximumf (F := Ideal) (φ := .f32) x y i = max (x i) (y i) := rfl
theorem exp_apply : exp (F := Ideal) (φ := .f32) x i = Ideal.exp (x i) := rfl
theorem log_apply : log (F := Ideal) (φ := .f32) x i = Ideal.log (x i) := rfl
theorem hostExp_apply : Host.exp (F := Ideal) (φ := .f32) x i = Ideal.exp (x i) := rfl
theorem hostLog_apply : Host.log (F := Ideal) (φ := .f32) x i = Ideal.log (x i) := rfl
end Pointwise

theorem ofBits_neg_inf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

theorem fold_max_init {ι : Type*} (s : Finset ι) (f : ι → EReal) (b : EReal) : s.fold max b f = max b (s.sup f) := by
  induction s using Finset.cons_induction with
  | empty => rw [Finset.fold_empty, Finset.sup_empty, max_eq_left bot_le]
  | cons a s ha ih => rw [Finset.fold_cons, Finset.sup_cons, ih, max_left_comm]

theorem max_neg_inf (m : EReal) : max (Ideal.ofBits .f32 0xFF800000#32) m = m := by
  rw [ofBits_neg_inf]; exact max_eq_right bot_le

theorem fold_max_bot {ι : Type*} (s : Finset ι) (f : ι → EReal) : s.fold max ⊥ f = s.sup f := by
  rw [fold_max_init]; exact max_eq_right bot_le

theorem reduces_row : SL.Reduces [1] SR := by decide

theorem lift_row (h : SL.Reduces [1] SR) (j : Fin 10000) (c : Fin 40) : h.lift (ix1 j) c = ix2 j c := by
  funext b
  match b with
  | ⟨0, _⟩ => exact Fin.ext rfl
  | ⟨1, _⟩ => exact Fin.ext rfl

theorem kernel_rowMax (v : SL.Idx → EReal) (h : SL.Reduces [1] SR) (hφ : FKind.Formats .f32)
    (hacc : (0xFF800000#32 : BitVec FTy.f32.bits) = FKind.maximumf.neutral .f32 hφ) (j : Fin 10000) :
    multiReduction (F := Ideal) (φ := .f32) .maximumf [1] SR v 0xFF800000#32 h hφ hacc (ix1 j)
      = Finset.univ.sup (fun c : Fin 40 => v (ix2 j c)) := by
  rw [Ideal.multiReduction_maximumf_single, Ideal.ofBits_def, ofBits_neg_inf, fold_max_bot]
  exact congrArg (Finset.sup Finset.univ) (funext fun c => congrArg v (lift_row h j c))

theorem kernel_rowSum (v : SL.Idx → EReal) (h : SL.Reduces [1] SR) (hφ : FKind.Formats .f32)
    (hacc : (0x00000000#32 : BitVec FTy.f32.bits) = FKind.add.neutral .f32 hφ) (j : Fin 10000) :
    multiReduction (F := Ideal) (φ := .f32) .add [1] SR v 0x00000000#32 h hφ hacc (ix1 j)
      = ∑ c : Fin 40, v (ix2 j c) := by
  rw [Ideal.multiReduction_add_single]
  exact Finset.sum_congr rfl fun c _ => congrArg v (lift_row h j c)

theorem host_rowMax_init (v : SL.Idx → EReal) (init : S0.Idx → EReal) (h' : SL.ReducesTo [1] SR)
    (hu : 0 < S0.numel) (j : Fin 10000) :
    Host.reduce (FloatOps.maximumf (F := Ideal) (φ := .f32)) v init h' hu (ix1 j)
      = max (init ix0) (Finset.univ.sup (fun c : Fin 40 => v (ix2 j c))) := by
  have h : SL.Reduces [1] SR := reduces_row
  rw [Host.reduce_eq_fold_single _ v init h' h hu]
  refine (fold_max_init (Finset.univ : Finset (Fin (SL.size 1))) (v ∘ h.lift (ix1 j)) (init (Shape.Idx.first hu))).trans ?_
  rw [ValueIdx.eq_ix0 (Shape.Idx.first hu)]
  exact congrArg (fun f => max (init ix0) (Finset.sup Finset.univ f)) (funext fun c => congrArg v (lift_row h j c))

theorem host_rowMax (v : SL.Idx → EReal) (h' : SL.ReducesTo [1] SR) (hu : 0 < S0.numel) (j : Fin 10000) :
    Host.reduce (FloatOps.maximumf (F := Ideal) (φ := .f32)) v (constant (F := Ideal) S0 .f32 0xFF800000#32) h' hu (ix1 j)
      = Finset.univ.sup (fun c : Fin 40 => v (ix2 j c)) := by
  rw [host_rowMax_init]
  exact max_neg_inf _

theorem host_rowSum_init (v : SL.Idx → EReal) (init : S0.Idx → EReal) (h' : SL.ReducesTo [1] SR)
    (hu : 0 < S0.numel) (j : Fin 10000) :
    Host.reduceAdd (F := Ideal) (φ := .f32) v init h' hu (ix1 j) = init ix0 + ∑ c : Fin 40, v (ix2 j c) := by
  have h : SL.Reduces [1] SR := reduces_row
  show Ideal.hostReduceAdd h' v (init (Shape.Idx.first hu)) (ix1 j) = _
  rw [Ideal.hostReduceAdd_single h' h, ValueIdx.eq_ix0 (Shape.Idx.first hu)]
  exact congrArg (fun t => init ix0 + t) (Finset.sum_congr rfl fun c _ => congrArg v (lift_row h j c))

theorem host_rowSum (v : SL.Idx → EReal) (h' : SL.ReducesTo [1] SR) (hu : 0 < S0.numel) (j : Fin 10000) :
    Host.reduceAdd (F := Ideal) (φ := .f32) v (constant (F := Ideal) S0 .f32 0x00000000#32) h' hu (ix1 j)
      = ∑ c : Fin 40, v (ix2 j c) := by
  rw [host_rowSum_init]
  show Ideal.ofBits .f32 0x00000000#32 + _ = _
  rw [ofBits_zero, zero_add]

theorem broadcastTo_col_apply {α : Type} (w : SC.Idx → α) (hbc : SC.Broadcasts SL) (j : Fin 10000) (c : Fin 40) :
    broadcastTo SL w hbc (ix2 j c) = w (ix2 j 0) := by
  refine broadcastTo_apply w hbc (ix2 j c) (ix2 j 0) fun a => ?_
  match a with
  | ⟨0, _⟩ => rfl
  | ⟨1, _⟩ => rfl

theorem shapeCast_col_apply {α : Type} (w : SR.Idx → α) (hsc : SR.ShapeCasts SC) (j : Fin 10000) :
    shapeCast SC w hsc (ix2 j 0) = w (ix1 j) := by
  refine shapeCast_apply w hsc (ix2 j 0) (ix1 j) ?_
  rw [Shape.rowMajor_val_one, Shape.rowMajor_val_two]
  show j.val = j.val * 1 + 0
  omega

theorem kernel_col_apply {α : Type} (w : SR.Idx → α) (hsc : SR.ShapeCasts SC) (hbc : SC.Broadcasts SL)
    (j : Fin 10000) (c : Fin 40) :
    broadcastTo SL (shapeCast SC w hsc) hbc (ix2 j c) = w (ix1 j) := by
  rw [broadcastTo_col_apply, shapeCast_col_apply]

theorem host_bcast1_apply {α : Type} (w : SR.Idx → α) (h1 : SR.BroadcastsInDim SC ![0]) (j : Fin 10000) :
    broadcastInDim SC ![0] h1 w (ix2 j 0) = w (ix1 j) := by
  refine broadcastInDim_apply ![0] h1 w (ix2 j 0) (ix1 j) fun a => ?_
  match a with
  | ⟨0, _⟩ => rfl

theorem host_bcast2_apply {α : Type} (w : SC.Idx → α) (h2 : SC.BroadcastsInDim SL ![0, 1]) (j : Fin 10000) (c : Fin 40) :
    broadcastInDim SL ![0, 1] h2 w (ix2 j c) = w (ix2 j 0) := by
  refine broadcastInDim_apply ![0, 1] h2 w (ix2 j c) (ix2 j 0) fun a => ?_
  match a with
  | ⟨0, _⟩ => rfl
  | ⟨1, _⟩ => rfl

theorem host_col_apply {α : Type} (w : SR.Idx → α) (h1 : SR.BroadcastsInDim SC ![0])
    (h2 : SC.BroadcastsInDim SL ![0, 1]) (j : Fin 10000) (c : Fin 40) :
    broadcastInDim SL ![0, 1] h2 (broadcastInDim SC ![0] h1 w) (ix2 j c) = w (ix1 j) := by
  rw [host_bcast2_apply, host_bcast1_apply]

theorem kernel_tail (L : SL.Idx → EReal) (hred : SL.Reduces [1] SR) (hφ : FKind.Formats .f32)
    (hmax : (0xFF800000#32 : BitVec FTy.f32.bits) = FKind.maximumf.neutral .f32 hφ)
    (hadd : (0x00000000#32 : BitVec FTy.f32.bits) = FKind.add.neutral .f32 hφ)
    (hsc : SR.ShapeCasts SC) (hbc : SC.Broadcasts SL) (j : Fin 10000) (c : Fin 40) :
    subf (F := Ideal) (φ := .f32)
        (subf (F := Ideal) (φ := .f32) L
          (broadcastTo SL (shapeCast SC (multiReduction (F := Ideal) (φ := .f32) .maximumf [1] SR L 0xFF800000#32 hred hφ hmax) hsc) hbc))
        (broadcastTo SL
          (log (F := Ideal) (φ := .f32)
            (shapeCast SC
              (multiReduction (F := Ideal) (φ := .f32) .add [1] SR
                (exp (F := Ideal) (φ := .f32)
                  (subf (F := Ideal) (φ := .f32) L
                    (broadcastTo SL (shapeCast SC (multiReduction (F := Ideal) (φ := .f32) .maximumf [1] SR L 0xFF800000#32 hred hφ hmax) hsc) hbc)))
                0x00000000#32 hred hφ hadd) hsc)) hbc)
        (ix2 j c)
      = Cert.Gcn.logSoftmaxRow (fun c' => L (ix2 j c')) c := by
  have hB : ∀ c' : Fin 40,
      broadcastTo SL (shapeCast SC (multiReduction (F := Ideal) (φ := .f32) .maximumf [1] SR L 0xFF800000#32 hred hφ hmax) hsc) hbc (ix2 j c')
        = Cert.Gcn.rowMax (fun c'' => L (ix2 j c'')) := by
    intro c'
    rw [kernel_col_apply, kernel_rowMax]
    rfl
  rw [subf_apply, subf_apply, hB, broadcastTo_col_apply, log_apply, shapeCast_col_apply, kernel_rowSum]
  unfold Cert.Gcn.logSoftmaxRow
  refine congrArg _ (congrArg _ (Finset.sum_congr rfl fun c' _ => ?_))
  rw [exp_apply, subf_apply, hB]

theorem host_max_col (L : SL.Idx → EReal) (hred : SL.ReducesTo [1] SR) (hu : 0 < S0.numel)
    (hb0 : S0.BroadcastsInDim SR (![] : Fin 0 → Fin SR.rank))
    (h1 : SR.BroadcastsInDim SC ![0]) (h2 : SC.BroadcastsInDim SL ![0, 1]) (j : Fin 10000) (c : Fin 40) :
    broadcastInDim SL ![0, 1] h2 (broadcastInDim SC ![0] h1
        (maximumf (F := Ideal) (φ := .f32) (broadcastInDim SR ![] hb0 (constant (F := Ideal) S0 .f32 0xFF800000#32))
          (Host.reduce (FloatOps.maximumf (F := Ideal) (φ := .f32)) L (constant (F := Ideal) S0 .f32 0xFF800000#32) hred hu))) (ix2 j c)
      = Cert.Gcn.rowMax (fun c' => L (ix2 j c')) := by
  rw [host_col_apply, maximumf_apply, host_rowMax]
  exact max_neg_inf _

theorem host_tail (L : SL.Idx → EReal) (hred : SL.ReducesTo [1] SR) (hu : 0 < S0.numel)
    (hb0 : S0.BroadcastsInDim SR (![] : Fin 0 → Fin SR.rank))
    (h1 : SR.BroadcastsInDim SC ![0]) (h2 : SC.BroadcastsInDim SL ![0, 1]) (j : Fin 10000) (c : Fin 40) :
    subf (F := Ideal) (φ := .f32)
        (subf (F := Ideal) (φ := .f32) L
          (broadcastInDim SL ![0, 1] h2 (broadcastInDim SC ![0] h1
            (maximumf (F := Ideal) (φ := .f32) (broadcastInDim SR ![] hb0 (constant (F := Ideal) S0 .f32 0xFF800000#32))
              (Host.reduce (FloatOps.maximumf (F := Ideal) (φ := .f32)) L (constant (F := Ideal) S0 .f32 0xFF800000#32) hred hu)))))
        (broadcastInDim SL ![0, 1] h2
          (Host.log (F := Ideal) (φ := .f32)
            (broadcastInDim SC ![0] h1
              (Host.reduceAdd (F := Ideal) (φ := .f32)
                (Host.exp (F := Ideal) (φ := .f32)
                  (subf (F := Ideal) (φ := .f32) L
                    (broadcastInDim SL ![0, 1] h2 (broadcastInDim SC ![0] h1
                      (maximumf (F := Ideal) (φ := .f32) (broadcastInDim SR ![] hb0 (constant (F := Ideal) S0 .f32 0xFF800000#32))
                        (Host.reduce (FloatOps.maximumf (F := Ideal) (φ := .f32)) L (constant (F := Ideal) S0 .f32 0xFF800000#32) hred hu))))))
                (constant (F := Ideal) S0 .f32 0x00000000#32) hred hu))))
        (ix2 j c)
      = Cert.Gcn.logSoftmaxRow (fun c' => L (ix2 j c')) c := by
  rw [subf_apply, subf_apply, host_max_col, host_bcast2_apply, hostLog_apply, host_bcast1_apply, host_rowSum]
  unfold Cert.Gcn.logSoftmaxRow
  refine congrArg _ (congrArg _ (Finset.sum_congr rfl fun c' _ => ?_))
  rw [hostExp_apply, subf_apply, host_max_col]

end Cert.RowReduce

end
-- ==== Proof.Value2.lean ====
import proofs.«109387_g55946243997874_fold_wed_m_672_4_alg».proof.Proof.Dat2
import proofs.«109387_g55946243997874_fold_wed_m_672_4_alg».proof.Proof.KSpec
import proofs.«109387_g55946243997874_fold_wed_m_672_4_alg».proof.Proof.KOpsIdx
import proofs.«109387_g55946243997874_fold_wed_m_672_4_alg».proof.Proof.LibTileSum
import proofs.«109387_g55946243997874_fold_wed_m_672_4_alg».proof.Proof.LibRowReduce
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
open Idealize.ShloMosaic.ValueIdx

variable (V : (c : Dev nD) → (b : Ref sig .tc) → Buf (Elt Ideal) ((c : Thread nD τ).loc b))

theorem k2_pay1_apply0 (i : S10000x40.Idx) : k2_pay1 (F := Ideal) i = 0 := by
  unfold k2_pay1
  rw [shapeCast_id_apply]
  exact broadcast_zero_apply i

theorem k2_pay2_apply0 (x1 : Vec Ideal S200x40 .f32) (i : S200x40.Idx) : k2_pay2 x1 i = x1 i := by
  unfold k2_pay2
  exact shapeCast_id_apply _ _ i

theorem k2_pay3_apply0 (x1 : Vec Ideal S200x40 .f32) (xs : Vec Ideal S10000x40 .f32) (x0 : Vec Ideal S200x10000 .f32)
    (j : Fin 10000) (c : Fin 40) :
    k2_pay3 x1 xs x0 (ix2 j c) = xs (ix2 j c) + ∑ p : Fin 200, x0 (ix2 p j) * x1 (ix2 p c) := by
  unfold k2_pay3
  rw [shapeCast_id_apply, addf_apply]
  refine congrArg (xs (ix2 j c) + ·) ((matmul_cols_apply _ x0 _ j c).trans ?_)
  simp only [k2_pay2_apply0]

theorem k2_pay4_apply0 (x1 : Vec Ideal S200x40 .f32) (v : Vec Ideal S200x40 .f32) (i : S200x40.Idx) :
    k2_pay4 x1 v i = v i + x1 i := by
  unfold k2_pay4
  rw [shapeCast_id_apply, addf_apply, k2_pay2_apply0]

theorem k2_pay5_apply0 (acc : Vec Ideal S10000x40 .f32) (dcol : Vec Ideal S10000x1 .f32) (brow : Vec Ideal S1x40 .f32)
    (j : Fin 10000) (c : Fin 40) :
    k2_pay5 acc dcol brow (ix2 j c)
      = Cert.Gcn.logSoftmaxRow (fun c' => acc (ix2 j c') * dcol (ix2 j 0) + brow (ix2 0 c')) c := by
  unfold k2_pay5
  refine (Cert.RowReduce.kernel_tail _ _ _ _ _ _ _ j c).trans ?_
  congr 1
  funext c'
  rw [addf_apply, mulf_apply, bcast_S10000x1_S10000x40_apply, bcast_S1x40_S10000x40_apply, shapeCast_id_apply,
    shapeCast_id_apply]

def row2 (s r : ℕ) : Fin 10000 := ⟨(200 * s + r) % 10000, Nat.mod_lt _ (by norm_num)⟩

theorem row2_val (s r : ℕ) (h : 200 * s + r < 10000) : (row2 s r).val = 200 * s + r := Nat.mod_eq_of_lt h

theorem coords2 : ∀ t : Fin cfg2.N, (grid2.coords t 0).val = t.val :=
  (by decide +kernel : ∀ t : Fin grid2.N, (grid2.coords t 0).val = t.val)

theorem blockIndex2_0 : ∀ t : Fin cfg2.N, win2_0.index t 0 = t.val ∧ win2_0.index t 1 = 0 :=
  (by decide +kernel : ∀ t : Fin grid2.N, win2_0.index t 0 = t.val ∧ win2_0.index t 1 = 0)

theorem blockIndex2_1 : ∀ t : Fin cfg2.N, win2_1.index t 0 = t.val ∧ win2_1.index t 1 = 0 :=
  (by decide +kernel : ∀ t : Fin grid2.N, win2_1.index t 0 = t.val ∧ win2_1.index t 1 = 0)

theorem blockIndex2_2 : ∀ t : Fin cfg2.N, win2_2.index t 0 = 0 ∧ win2_2.index t 1 = 0 :=
  (by decide +kernel : ∀ t : Fin grid2.N, win2_2.index t 0 = 0 ∧ win2_2.index t 1 = 0)
theorem blockIndex2_3 : ∀ t : Fin cfg2.N, win2_3.index t 0 = 0 ∧ win2_3.index t 1 = 0 :=
  (by decide +kernel : ∀ t : Fin grid2.N, win2_3.index t 0 = 0 ∧ win2_3.index t 1 = 0)
theorem blockIndex2_4 : ∀ t : Fin cfg2.N, win2_4.index t 0 = 0 ∧ win2_4.index t 1 = 0 :=
  (by decide +kernel : ∀ t : Fin grid2.N, win2_4.index t 0 = 0 ∧ win2_4.index t 1 = 0)

theorem iblk2_0_apply (c : Dev nD) (t : Fin cfg2.N) (r : Fin 200) (j : Fin 10000) :
    iblk2 V c 0 t (ix2 r j) = V c main_arg1 (ix2 (row2 t.val r.val) j) := by
  have hN : t.val < 50 := lt_of_lt_of_eq t.isLt (show cfg2.N = 50 from N_2)
  unfold iblk2
  rw [View.read_apply]
  show V c main_arg1 _ = V c main_arg1 _
  congr 1
  funext a
  apply Fin.ext
  match a with
  | ⟨0, _⟩ =>
    show win2_0.index t 0 * 200 + 1 * r.val = (200 * t.val + r.val) % 10000
    rw [(blockIndex2_0 t).1, Nat.mod_eq_of_lt (by omega)]; omega
  | ⟨1, _⟩ =>
    show win2_0.index t 1 * 10000 + 1 * j.val = j.val
    rw [(blockIndex2_0 t).2]; omega

theorem iblk2_1_apply (c : Dev nD) (t : Fin cfg2.N) (r : Fin 200) (k : Fin 40) :
    iblk2 V c 1 t (ix2 r k) = V c main_v3 (ix2 (row2 t.val r.val) k) := by
  have hN : t.val < 50 := lt_of_lt_of_eq t.isLt (show cfg2.N = 50 from N_2)
  unfold iblk2
  rw [View.read_apply]
  show V c main_v3 _ = V c main_v3 _
  congr 1
  funext a
  apply Fin.ext
  match a with
  | ⟨0, _⟩ =>
    show win2_1.index t 0 * 200 + 1 * r.val = (200 * t.val + r.val) % 10000
    rw [(blockIndex2_1 t).1, Nat.mod_eq_of_lt (by omega)]; omega
  | ⟨1, _⟩ =>
    show win2_1.index t 1 * 40 + 1 * k.val = k.val
    rw [(blockIndex2_1 t).2]; omega

theorem iblk2_2_apply (c : Dev nD) (t : Fin cfg2.N) (u : Fin 1) (k : Fin 40) :
    iblk2 V c 2 t (ix2 u k) = V c main_v4 (ix2 0 k) := by
  unfold iblk2
  rw [View.read_apply]
  show V c main_v4 _ = V c main_v4 _
  congr 1
  funext a
  apply Fin.ext
  match a with
  | ⟨0, _⟩ =>
    show win2_2.index t 0 * 1 + 1 * u.val = 0
    rw [(blockIndex2_2 t).1]; omega
  | ⟨1, _⟩ =>
    show win2_2.index t 1 * 40 + 1 * k.val = k.val
    rw [(blockIndex2_2 t).2]; omega

theorem iblk2_3_apply (c : Dev nD) (t : Fin cfg2.N) (j : Fin 10000) (u : Fin 1) :
    iblk2 V c 3 t (ix2 j u) = V c main_v1 (ix2 j 0) := by
  unfold iblk2
  rw [View.read_apply]
  show V c main_v1 _ = V c main_v1 _
  congr 1
  funext a
  apply Fin.ext
  match a with
  | ⟨0, _⟩ =>
    show win2_3.index t 0 * 10000 + 1 * j.val = j.val
    rw [(blockIndex2_3 t).1]; omega
  | ⟨1, _⟩ =>
    show win2_3.index t 1 * 1 + 1 * u.val = 0
    rw [(blockIndex2_3 t).2]; omega

theorem zeroOff2_2 : (![0, 0] : Fin S10000x40.rank → Nat) = fun _ => 0 := by
  funext a
  match a with
  | ⟨0, _⟩ => rfl
  | ⟨1, _⟩ => rfl

theorem canon_whole2 (w : Vec Ideal S10000x40 .f32) :
    View.canon [(⟨wholeRect2, w⟩ : View.Piece (Elt Ideal) S10000x40 .f32)] = w :=
  View.canon_unit_zero zeroOff2_2 inb_S10000x40_S10000x40_0_0 w

def loc2 (s j : ℕ) : Fin 200 := ⟨(j - 200 * s) % 200, Nat.mod_lt _ (by norm_num)⟩

theorem loc2_val (s j : ℕ) (h : 200 * s ≤ j ∧ j < 200 * s + 200) : (loc2 s j).val = j - 200 * s :=
  Nat.mod_eq_of_lt (by omega)

theorem step2_apply (i : grid2.Coords) (xs : Vec Ideal S10000x40 .f32) (x0 : Vec Ideal S200x10000 .f32)
    (x1 : Vec Ideal S200x40 .f32) (j : Fin 10000) (c : Fin 40) :
    step2 i xs x0 x1 (ix2 j c)
      = (xs (ix2 j c) + ∑ p : Fin 200, x0 (ix2 p j) * x1 (ix2 p c))
        + (if 200 * (i 0).val ≤ j.val ∧ j.val < 200 * (i 0).val + 200
            then x1 (ix2 (loc2 (i 0).val j.val) c) else 0) := by
  have e0 : k2_off1 i 0 = 200 * (i 0).val := by rw [k2_off1_eq]; rfl
  have e1 : k2_off1 i 1 = 0 := by rw [k2_off1_eq]; rfl
  unfold step2

  generalize hP3 : k2_pay3 x1 xs x0 = P3
  generalize hP4 : k2_pay4 x1 (View.ld P3 (rowRect2 i)) = P4
  by_cases h : 200 * (i 0).val ≤ j.val ∧ j.val < 200 * (i 0).val + 200
  · rw [if_pos h]

    have hx : (rowRect2 i).emb (ix2 (loc2 (i 0).val j.val) c) = ix2 j c := by
      funext a
      apply Fin.ext
      match a with
      | ⟨0, _⟩ =>
        show k2_off1 i 0 + 1 * (loc2 (i 0).val j.val).val = j.val
        rw [e0, loc2_val _ _ h]; omega
      | ⟨1, _⟩ =>
        show k2_off1 i 1 + 1 * c.val = c.val
        rw [e1]; omega
    rw [← hx, View.canon_cons_emb, ← hP4, k2_pay4_apply0]
    show P3 ((rowRect2 i).emb _) + _ = _
    rw [hx, ← hP3, k2_pay3_apply0]
  · rw [if_neg h, add_zero]
    have hnm : ix2 j c ∉ (rowRect2 i).set := by
      rw [Rect.mem_set_unit]
      intro hall
      have h0 := hall 0
      apply h
      change k2_off1 i 0 ≤ j.val ∧ j.val < k2_off1 i 0 + 200 at h0
      omega
    rw [View.canon_cons_of_not_mem (⟨rowRect2 i, P4⟩ : View.Piece (Elt Ideal) S10000x40 .f32) [⟨wholeRect2, P3⟩] hnm,
      canon_whole2, ← hP3, k2_pay3_apply0]

abbrev adj2 (c : Dev nD) : Cert.Gcn.SA.Idx → EReal := V c main_arg1
abbrev feat2 (c : Dev nD) : Fin 10000 → Fin 40 → EReal := fun i k => V c main_v3 (ix2 i k)
abbrev dcol2 (c : Dev nD) : Fin 10000 → EReal := fun j => V c main_v1 (ix2 j 0)
abbrev brow2 (c : Dev nD) : Fin 40 → EReal := fun k => V c main_v4 (ix2 0 k)

def term2 (c : Dev nD) (s : ℕ) (j : Fin 10000) (k : Fin 40) : EReal :=
  (∑ r : Fin 200, adj2 V c (ix2 (row2 s r.val) j) * feat2 V c (row2 s r.val) k)
    + (if 200 * s ≤ j.val ∧ j.val < 200 * s + 200 then feat2 V c j k else 0)

theorem step2_blocks_apply (c : Dev nD) (t : Fin cfg2.N) (xs : Vec Ideal S10000x40 .f32) (j : Fin 10000) (k : Fin 40) :
    step2 (grid2.coords t) xs (iblk2 V c 0 t) (iblk2 V c 1 t) (ix2 j k) = xs (ix2 j k) + term2 V c t.val j k := by
  have hN : t.val < 50 := lt_of_lt_of_eq t.isLt (show cfg2.N = 50 from N_2)
  rw [step2_apply, add_assoc, coords2 t]
  unfold term2
  congr 2
  · exact Finset.sum_congr rfl fun r _ => by rw [iblk2_0_apply, iblk2_1_apply]
  · by_cases h : 200 * t.val ≤ j.val ∧ j.val < 200 * t.val + 200
    · rw [if_pos h, if_pos h, iblk2_1_apply]
      show V c main_v3 (ix2 (row2 t.val (loc2 t.val j.val).val) k) = V c main_v3 (ix2 j k)
      congr 2
      apply Fin.ext
      rw [loc2_val _ _ h, row2_val _ _ (by have := j.isLt; omega)]
      omega
    · rw [if_neg h, if_neg h]

theorem acc2_apply (c : Dev nD) (j : Fin 10000) (k : Fin 40) : ∀ (n : ℕ) (hn : n < cfg2.N),
    acc2 V c n hn (ix2 j k) = 0 + ∑ s : Fin (n + 1), term2 V c s.val j k
  | 0, hn => by
    rw [acc2_zero, step2_blocks_apply, k2_pay1_apply0, Fin.sum_univ_castSucc, Fin.sum_univ_zero]
    simp only [zero_add, Fin.val_last]
  | n + 1, hn => by
    rw [acc2_succ, step2_blocks_apply, acc2_apply c j k n, Fin.sum_univ_castSucc (n := n + 1), add_assoc]
    simp only [Fin.coe_castSucc, Fin.val_last]

theorem acc2_last_apply (c : Dev nD) (j : Fin 10000) (k : Fin 40) (hn : 49 < cfg2.N) :
    acc2 V c 49 hn (ix2 j k) = Cert.Gcn.agg (adj2 V c) (feat2 V c) j k := by
  rw [acc2_apply, zero_add]
  unfold Cert.Gcn.agg
  rw [← Cert.TileSum.sum_tiles_add_self_50_200 (fun i => adj2 V c (ix2 i j) * feat2 V c i k)
    (fun j' => feat2 V c j' k) j]
  refine Finset.sum_congr rfl fun s _ => ?_
  unfold term2
  congr 1
  refine Finset.sum_congr rfl fun r _ => ?_
  have hs := s.isLt
  have hr := r.isLt
  have e : row2 s.val r.val = ⟨200 * s.val + r.val, by omega⟩ := Fin.ext (row2_val _ _ (by omega))
  rw [e]

theorem out2_last_apply (c : Dev nD) (t : Fin cfg2.N) (h49 : t.val = 49) (y : S10000x40.Idx) :
    out2 V c t y = Cert.Gcn.outg (adj2 V c) (feat2 V c) (dcol2 V c) (brow2 V c) y := by
  obtain ⟨j, k, rfl⟩ : ∃ j k, y = ix2 j k := ⟨y 0, y 1, eq_ix2 y⟩
  unfold out2
  rw [k2_pay5_apply0]
  show _ = Cert.Gcn.logSoftmaxRow (Cert.Gcn.logitsg (adj2 V c) (feat2 V c) (dcol2 V c) (brow2 V c) j) k
  congr 1
  funext c'
  obtain ⟨n, hn⟩ := t
  dsimp only at h49
  subst h49
  rw [acc2_last_apply, iblk2_3_apply, iblk2_2_apply]
  rfl

theorem flushed_eq2 (c : Dev nD) (t : Fin cfg2.N) (hf : (cfg2.win 4).flush t = true) :
    (dat2 V c).flushed 4 t
      = ((cfg2.win 4).blk t).view.read (Elt Ideal) (Cert.Gcn.outg (adj2 V c) (feat2 V c) (dcol2 V c) (brow2 V c)) := by
  have hN : cfg2.N = 50 := N_2
  have h49 : t.val = 49 := by have := (flush2_4 t).mp hf; have := t.isLt; omega
  funext y
  show (dat2 V c).after 4 t y = _
  rw [after2_4, out2_last_apply V c t h49, View.read_apply]
  congr 1
  funext a
  apply Fin.ext
  match a with
  | ⟨0, _⟩ =>
    show (y 0).val = win2_4.index t 0 * 10000 + 1 * (y 0).val
    rw [(blockIndex2_4 t).1]; omega
  | ⟨1, _⟩ =>
    show (y 1).val = win2_4.index t 1 * 40 + 1 * (y 1).val
    rw [(blockIndex2_4 t).2]; omega

theorem value2 (V : (c : Dev nD) → (b : Ref sig .tc) → Buf (Elt Ideal) ((c : Thread nD τ).loc b)) (c : Dev nD) :
    (dat2 V c).arrAt 4 cfg2.N = Cert.Gcn.outg (V c main_arg1) (fun i k => V c main_v3 (ix2 i k)) (fun j => V c main_v1 (ix2 j 0))
      (fun k => V c main_v4 (ix2 0 k)) := by
  have hN : cfg2.N = 50 := N_2
  have hN' : grid2.N = 50 := N_2
  refine (dat2 V c).arrAt_eq_of_cover 4 _ (flushed_eq2 V c) fun i => ?_
  have h49 : 49 < grid2.N := by omega
  refine ⟨⟨49, h49⟩, (flush2_4 _).mpr rfl, ?_⟩
  show i ∈ ((View.whole main_v5).slice (win2_4.rect ⟨49, h49⟩)).set
  rw [View.set_slice_whole, Rect.mem_set_unit]
  intro a
  have h0 : (i 0 : Nat) < 10000 := (i 0).isLt
  have h1 : (i 1 : Nat) < 40 := (i 1).isLt
  match a with
  | ⟨0, _⟩ =>
    show win2_4.index ⟨49, h49⟩ 0 * 10000 ≤ (i 0 : Nat) ∧ (i 0 : Nat) < win2_4.index ⟨49, h49⟩ 0 * 10000 + 10000
    rw [(blockIndex2_4 _).1]; omega
  | ⟨1, _⟩ =>
    show win2_4.index ⟨49, h49⟩ 1 * 40 ≤ (i 1 : Nat) ∧ (i 1 : Nat) < win2_4.index ⟨49, h49⟩ 1 * 40 + 40
    rw [(blockIndex2_4 _).2]; omega

end Cert.KernelIdeal.Hand

end
-- ==== Proof.KFinal.lean ====
import proofs.«109387_g55946243997874_fold_wed_m_672_4_alg».proof.Proof.KAssemble
import proofs.«109387_g55946243997874_fold_wed_m_672_4_alg».proof.Proof.KFrameVal
import proofs.«109387_g55946243997874_fold_wed_m_672_4_alg».proof.Proof.Value0
import proofs.«109387_g55946243997874_fold_wed_m_672_4_alg».proof.Proof.Value1
import proofs.«109387_g55946243997874_fold_wed_m_672_4_alg».proof.Proof.Value2
import Idealize.ShloMosaic.Lib.ValueLayout
import Idealize.ShloMosaic.Lib.Pipeline.Value

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal
open Idealize.ShloMosaic.ValueIdx

section Reshapes

variable {F : FTy → Type} [FloatOps F]
variable (m : (ℓ : Loc nD τ sig) → Buf (Elt F) ℓ) (o : Gen.Outs (F := F))

theorem shapeCast_row_col {α : Type} {n : ℕ} (x : (⟨2, ![1, n]⟩ : Shape).Idx → α) (h : (⟨2, ![1, n]⟩ : Shape).ShapeCasts ⟨2, ![n, 1]⟩)
    (j : Fin n) (u : Fin 1) : shapeCast ⟨2, ![n, 1]⟩ x h (ix2 j u) = x (ix2 (0 : Fin 1) j) :=
  shapeCast_apply x h _ _ (by
    have hu : u.val = 0 := by omega
    rw [Shape.rowMajor_val_two, Shape.rowMajor_val_two]
    show 0 * n + j.val = j.val * 1 + u.val
    rw [hu, Nat.zero_mul, Nat.zero_add, Nat.mul_one, Nat.add_zero])

theorem V2_v1 (c : Dev nD) (j : Fin 10000) :
    Gen.V2 m o c main_v1 (ix2 j 0) = Gen.V1 m o c main_v0 (ix2 0 j) := by
  simp only [Gen.V2, Gen.hostOps1, StableHlo.after_cons, StableHlo.after_nil]
  rw [StableHlo.reshape_result_ne' _ _ _ _ _ (show main_v1 ≠ main_v2 from by decide), StableHlo.reshape_result']
  exact shapeCast_row_col _ _ j 0

theorem V2_v2 (c : Dev nD) (k : Fin 16) :
    Gen.V2 m o c main_v2 (ix2 0 k) = Gen.V1 m o c main_arg3 (ix1 k) := by
  simp only [Gen.V2, Gen.hostOps1, StableHlo.after_cons, StableHlo.after_nil]
  rw [StableHlo.reshape_result', StableHlo.reshape_result_ne' _ _ _ _ _ (show main_arg3 ≠ main_v1 from by decide)]
  exact shapeCast_a_1a_apply _ _ 0 k

theorem V4_v4 (c : Dev nD) (k : Fin 40) :
    Gen.V4 m o c main_v4 (ix2 0 k) = Gen.V3 m o c main_arg5 (ix1 k) := by
  simp only [Gen.V4, Gen.hostOps2, StableHlo.after_cons, StableHlo.after_nil]
  rw [StableHlo.reshape_result']
  exact shapeCast_a_1a_apply _ _ 0 k

theorem V2_launch (c : Dev nD) (r : Ref sig .tc) (h0 : r ∉ ([main_v0] : List (Ref sig .tc))) (h1 : r ∉ Gen.hostOps1_W) :
    Gen.V2 m o c r = m ((c : Thread nD τ).loc r) :=
  (Gen.V2_of m o c r h1).trans ((Gen.V1_of m o c r h0).trans rfl)

theorem V4_launch (c : Dev nD) (r : Ref sig .tc) (h0 : r ∉ ([main_v0] : List (Ref sig .tc))) (h1 : r ∉ Gen.hostOps1_W)
    (h3 : r ∉ ([main_v3] : List (Ref sig .tc))) (h4 : r ∉ Gen.hostOps2_W) :
    Gen.V4 m o c r = m ((c : Thread nD τ).loc r) :=
  (Gen.V4_of m o c r h4).trans ((Gen.V3_of m o c r h3).trans (V2_launch m o c r h0 h1))

end Reshapes

variable (m : (ℓ : Loc nD τ sig) → Buf (Elt Ideal) ℓ)

theorem V1_v0 (c : Dev nD) :
    Gen.V1 m (outsC m) c main_v0 = fun i => Cert.Gcn.dinv (m ((c : Thread nD τ).loc main_arg1)) (i 1) := by
  simp only [Gen.V1, Function.update_self]
  exact (outsC_ok0 m c).trans (value0 (entry0 m) c)

theorem V2_dinv (c : Dev nD) (j : Fin 10000) :
    Gen.V2 m (outsC m) c main_v1 (ix2 j 0) = Cert.Gcn.dinv (m ((c : Thread nD τ).loc main_arg1)) j := by
  rw [V2_v1, V1_v0]; rfl

theorem V2_b1 (c : Dev nD) (k : Fin 16) :
    Gen.V2 m (outsC m) c main_v2 (ix2 0 k) = m ((c : Thread nD τ).loc main_arg3) (ix1 k) := by
  rw [V2_v2]; exact congrFun ((Gen.V1_of m (outsC m) c main_arg3 (by decide)).trans rfl) _

theorem V3_v3 (c : Dev nD) :
    Gen.V3 m (outsC m) c main_v3 = fun idx => Cert.Gcn.u2g (m ((c : Thread nD τ).loc main_arg0)) (m ((c : Thread nD τ).loc main_arg1))
      (m ((c : Thread nD τ).loc main_arg2)) (fun k => m ((c : Thread nD τ).loc main_arg3) (ix1 k)) (m ((c : Thread nD τ).loc main_arg4))
      (Cert.Gcn.dinv (m ((c : Thread nD τ).loc main_arg1))) (idx 0) (idx 1) := by
  simp only [Gen.V3, Function.update_self]
  rw [outsC_ok1 m c, value1 (entry1 m (outsC m)) c]
  have e0 : entry1 m (outsC m) c main_arg0 = m ((c : Thread nD τ).loc main_arg0) := V2_launch m _ c main_arg0 (by decide) (by decide)
  have e1 : entry1 m (outsC m) c main_arg1 = m ((c : Thread nD τ).loc main_arg1) := V2_launch m _ c main_arg1 (by decide) (by decide)
  have e2 : entry1 m (outsC m) c main_arg2 = m ((c : Thread nD τ).loc main_arg2) := V2_launch m _ c main_arg2 (by decide) (by decide)
  have e4 : entry1 m (outsC m) c main_arg4 = m ((c : Thread nD τ).loc main_arg4) := V2_launch m _ c main_arg4 (by decide) (by decide)
  have eb : (fun k : Fin 16 => entry1 m (outsC m) c main_v2 (ix2 0 k)) = fun k => m ((c : Thread nD τ).loc main_arg3) (ix1 k) :=
    funext fun k => V2_b1 m c k
  have ed : (fun j : Fin 10000 => entry1 m (outsC m) c main_v1 (ix2 j 0)) = Cert.Gcn.dinv (m ((c : Thread nD τ).loc main_arg1)) :=
    funext fun j => V2_dinv m c j
  rw [e0, e1, e2, e4, eb, ed]

theorem final_value (c : Dev nD) :
    outsC m 5 main_v5 c = Cert.Gcn.out (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  rw [outsC_ok2 m c, value2 (entry2 m (outsC m)) c, Cert.Gcn.out_eq_outg]
  have e1 : entry2 m (outsC m) c main_arg1 = m ((c : Thread nD τ).loc main_arg1) :=
    V4_launch m _ c main_arg1 (by decide) (by decide) (by decide) (by decide)
  have e3 : (fun (i : Fin 10000) (k : Fin 40) => entry2 m (outsC m) c main_v3 (ix2 i k))
      = Cert.Gcn.u2g (m ((c : Thread nD τ).loc main_arg0)) (m ((c : Thread nD τ).loc main_arg1)) (m ((c : Thread nD τ).loc main_arg2))
          (fun k => m ((c : Thread nD τ).loc main_arg3) (ix1 k)) (m ((c : Thread nD τ).loc main_arg4))
          (Cert.Gcn.dinv (m ((c : Thread nD τ).loc main_arg1))) := by
    funext i k
    exact (congrFun (Gen.V4_of m (outsC m) c main_v3 (by decide)) _).trans (congrFun (V3_v3 m c) _)
  have ed : (fun j : Fin 10000 => entry2 m (outsC m) c main_v1 (ix2 j 0)) = Cert.Gcn.dinv (m ((c : Thread nD τ).loc main_arg1)) :=
    funext fun j => (congrFun ((Gen.V4_of m (outsC m) c main_v1 (by decide)).trans (Gen.V3_of m (outsC m) c main_v1 (by decide))) _).trans
      (V2_dinv m c j)
  have eb : (fun k : Fin 40 => entry2 m (outsC m) c main_v4 (ix2 0 k)) = fun k => m ((c : Thread nD τ).loc main_arg5) (ix1 k) :=
    funext fun k => (V4_v4 m (outsC m) c k).trans (congrFun ((Gen.V3_of m (outsC m) c main_arg5 (by decide)).trans
      (V2_launch m (outsC m) c main_arg5 (by decide) (by decide))) _)
  rw [e1, e3, ed, eb]

/-- The same run with the result array named: the specification of the launched arguments. -/
theorem run_val (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond_val m (emb₁ (A := UR sig nD τ)) () 𝒱₀ L lv (fun _ _ => rfl) ρ (outsC m) (pdats m (outsC m))
    (O₀ := 0) (G := fun _ => iprop(emp))
    (u₀ := initOf (Pipeline.cells cfgs Gen.cellOf_inj) (Pipeline.launchToks cfgs Gen.cellOf_inj))
    (hu₀ := hu₀) (E := E) (hE0 := hE0 ρ) (hE3 := hE3)
    (R0 m (outsC m) (outsC_ok0 m)) (fun _ => .rfl) (fun _ => .rfl)
    (R1 m (outsC m) (outsC_ok1 m)) (fun _ => .rfl) (fun _ => .rfl)
    (R2 m (outsC m) (outsC_ok2 m)) (fun _ => .rfl) (fun _ => .rfl)
    (X := fun c => Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
    (hX := final_value m)

end Cert.KernelIdeal.Hand

end
-- ==== Proof.EdgeIface.lean ====
import Idealize.ShloMosaic.PureOps.Ideal
import Idealize.ShloMosaic.Lib.ValueIdx
import proofs.«109387_g55946243997874_fold_wed_m_672_4_alg».proof.Proof.Spec

noncomputable section

open scoped Classical

namespace Cert.Gcn

open Idealize.ShloMosaic Idealize.ShloMosaic.ValueIdx

abbrev SE : Shape := ⟨1, ![330000]⟩

def clampNode (w : BitVec 32) : Fin 10000 := ⟨min w.toInt.toNat 9999, by omega⟩

/-- The slots list each nonzero position of the adjacency once and each self loop once: summed over the slots aimed at `j`, a term of the source is its sum over `j`'s sources plus `j`'s own. -/
def IsEdgeList (a : SA.Idx → EReal) (rows cols : SE.Idx → BitVec 32) : Prop :=
  ∀ (j : Fin 10000) (g : Fin 10000 → EReal),
    (∑ e : Fin 330000, if (cols (ix1 e)).toInt = (j.val : Int) then g (clampNode (rows (ix1 e))) else 0)
      = (∑ i : Fin 10000, if a (ix2 i j) ≠ 0 then g i else 0) + g j

end Cert.Gcn

end
-- ==== Proof.RStages.lean ====
import proofs.«109387_g55946243997874_fold_wed_m_672_4_alg».proof.ReferenceIdeal
import proofs.«109387_g55946243997874_fold_wed_m_672_4_alg».proof.Proof.EdgeIface

noncomputable section

namespace Cert.ReferenceIdeal.Hand

open Idealize.ShloMosaic Idealize.SL.Sem Cert.ReferenceIdeal
open Cert.ReferenceIdeal.Facts₀ Cert.ReferenceIdeal.Facts

variable [Cert.ReferenceIdeal.Facts]

def res_cst : FVec Ideal S_ .f32 :=
  (constant S_ .f32 0x00000000#32)

def res_v0 : FVec Ideal S10000x10000 .f32 :=
  (broadcastInDim S10000x10000 ![] bcast_S_S10000x10000) res_cst

def res_v1 (a : Cert.Gcn.SA.Idx → EReal) : Vec Ideal S10000x10000 .i1 :=
  (cmpf .une) a res_v0

def res_call0_v0 (a : Cert.Gcn.SA.Idx → EReal) : Vec Ideal S100000000 .i1 :=
  fun i => shapeCast S100000000 (res_v1 a) shapeCasts_S10000x10000_S100000000 i

def res_call0_v1 (a : Cert.Gcn.SA.Idx → EReal) : Vec Ideal S100000000 .i32 :=
  (extui 32 · natLt_1_32) (res_call0_v0 a)

def res_call0_call0_c : Vec Ideal S_ .i32 :=
  (constantI S_ 32 0#32)

def res_call0_call0_v0 : Vec Ideal S_ .i32 :=
  (broadcastInDim S_ ![] bcast_S_S_) res_call0_call0_c

def res_v2 (a : Cert.Gcn.SA.Idx → EReal) : Vec Ideal S100000000 .i32 :=
  (fun x v => Host.reduceWindow IntOp.addi ![100000000] ![1] ![99999999] ![0] x v reduceWindows_S100000000_S100000000_w100000000s1p99999999_0 h_S_) (res_call0_v1 a) res_call0_call0_v0

def res_c : Vec Ideal S_ .i32 :=
  (constantI S_ 32 0#32)

def res_v3 : Vec Ideal S320000 .i32 :=
  (broadcastInDim S320000 ![] bcast_S_S320000) res_c

def res_c_0 : Vec Ideal S_ .i32 :=
  (constantI S_ 32 0#32)

def res_call1_v0 : Vec Ideal S_ .i32 :=
  id res_c_0

def res_call1_v1 : Vec Ideal S100000000 .i32 :=
  (broadcastInDim S100000000 ![] bcast_S_S100000000) res_call1_v0

def res_v4 (a : Cert.Gcn.SA.Idx → EReal) : Vec Ideal S100000000 .i32 :=
  maxsi res_call1_v1 (res_v2 a)

def res_c_1 : Vec Ideal S_ .i32 :=
  (constantI S_ 32 0#32)

def res_v5 : Vec Ideal S100000000 .i32 :=
  (broadcastInDim S100000000 ![] bcast_S_S100000000) res_c_1

def res_v6 (a : Cert.Gcn.SA.Idx → EReal) : Vec Ideal S100000000 .i1 :=
  (cmpi .slt) (res_v4 a) res_v5

def res_c_2 : Vec Ideal S_ .i32 :=
  (constantI S_ 32 320000#32)

def res_v7 : Vec Ideal S100000000 .i32 :=
  (broadcastInDim S100000000 ![] bcast_S_S100000000) res_c_2

def res_v8 (a : Cert.Gcn.SA.Idx → EReal) : Vec Ideal S100000000 .i32 :=
  addi (res_v4 a) res_v7

def res_v9 (a : Cert.Gcn.SA.Idx → EReal) : Vec Ideal S100000000 .i32 :=
  select (res_v6 a) (res_v8 a) (res_v4 a)

def res_v10 (a : Cert.Gcn.SA.Idx → EReal) : Vec Ideal S100000000x1 .i32 :=
  (broadcastInDim S100000000x1 ![0] bcast_S100000000_S100000000x1_0) (res_v9 a)

def res_c_3 : Vec Ideal S_ .i32 :=
  (constantI S_ 32 1#32)

def res_v11 : Vec Ideal S100000000 .i32 :=
  (broadcastInDim S100000000 ![] bcast_S_S100000000) res_c_3

def res_v12 (a : Cert.Gcn.SA.Idx → EReal) : Vec Ideal S320000 .i32 :=
  (fun x i u => Host.scatter scatter_S320000_S100000000x1_S100000000_n_0_0_1 IntOp.addi x i u) res_v3 (res_v10 a) res_v11

def res_call2_call0_c : Vec Ideal S_ .i32 :=
  (constantI S_ 32 0#32)

def res_call2_call0_v0 : Vec Ideal S_ .i32 :=
  (broadcastInDim S_ ![] bcast_S_S_) res_call2_call0_c

def res_v13 (a : Cert.Gcn.SA.Idx → EReal) : Vec Ideal S320000 .i32 :=
  (fun x v => Host.reduceWindow IntOp.addi ![320000] ![1] ![319999] ![0] x v reduceWindows_S320000_S320000_w320000s1p319999_0 h_S_) (res_v12 a) res_call2_call0_v0

def res_c_4 : Vec Ideal S_ .i32 :=
  (constantI S_ 32 10000#32)

def res_call3_v0 : Vec Ideal S320000 .i32 :=
  (broadcastInDim S320000 ![] bcast_S_S320000) res_c_4

def res_call3_v1 (a : Cert.Gcn.SA.Idx → EReal) : Vec Ideal S320000 .i32 :=
  Host.divsi (res_v13 a) res_call3_v0

def res_call3_v2 (a : Cert.Gcn.SA.Idx → EReal) : Vec Ideal S320000 .i32 :=
  signi (res_v13 a)

def res_call3_v3 : Vec Ideal S_ .i32 :=
  signi res_c_4

def res_call3_v4 : Vec Ideal S320000 .i32 :=
  (broadcastInDim S320000 ![] bcast_S_S320000) res_call3_v3

def res_call3_v5 (a : Cert.Gcn.SA.Idx → EReal) : Vec Ideal S320000 .i1 :=
  (cmpi .ne) (res_call3_v2 a) res_call3_v4

def res_call3_v6 : Vec Ideal S320000 .i32 :=
  (broadcastInDim S320000 ![] bcast_S_S320000) res_c_4

def res_call3_v7 (a : Cert.Gcn.SA.Idx → EReal) : Vec Ideal S320000 .i32 :=
  Host.remsi (res_v13 a) res_call3_v6

def res_call3_c : Vec Ideal S_ .i32 :=
  (constantI S_ 32 0#32)

def res_call3_v8 : Vec Ideal S320000 .i32 :=
  (broadcastInDim S320000 ![] bcast_S_S320000) res_call3_c

def res_call3_v9 (a : Cert.Gcn.SA.Idx → EReal) : Vec Ideal S320000 .i1 :=
  (cmpi .ne) (res_call3_v7 a) res_call3_v8

def res_call3_v10 (a : Cert.Gcn.SA.Idx → EReal) : Vec Ideal S320000 .i1 :=
  andi (res_call3_v5 a) (res_call3_v9 a)

def res_call3_c_0 : Vec Ideal S_ .i32 :=
  (constantI S_ 32 1#32)

def res_call3_v11 : Vec Ideal S320000 .i32 :=
  (broadcastInDim S320000 ![] bcast_S_S320000) res_call3_c_0

def res_call3_v12 (a : Cert.Gcn.SA.Idx → EReal) : Vec Ideal S320000 .i32 :=
  subi (res_call3_v1 a) res_call3_v11

def res_v14 (a : Cert.Gcn.SA.Idx → EReal) : Vec Ideal S320000 .i32 :=
  select (res_call3_v10 a) (res_call3_v12 a) (res_call3_v1 a)

def res_c_5 : Vec Ideal S_ .i32 :=
  (constantI S_ 32 10000#32)

def res_call4_v0 : Vec Ideal S_ .i32 :=
  id res_c_5

def res_call4_c : Vec Ideal S_ .i32 :=
  (constantI S_ 32 0#32)

def res_call4_v1 : Vec Ideal S_ .i1 :=
  (cmpi .eq) res_call4_v0 res_call4_c

def res_call4_c_0 : Vec Ideal S_ .i32 :=
  (constantI S_ 32 1#32)

def res_call4_v2 : Vec Ideal S_ .i32 :=
  select res_call4_v1 res_call4_c_0 res_call4_v0

def res_call4_v3 : Vec Ideal S320000 .i32 :=
  (broadcastInDim S320000 ![] bcast_S_S320000) res_call4_v2

def res_call4_v4 (a : Cert.Gcn.SA.Idx → EReal) : Vec Ideal S320000 .i32 :=
  Host.remsi (res_v14 a) res_call4_v3

def res_call4_c_1 : Vec Ideal S_ .i32 :=
  (constantI S_ 32 0#32)

def res_call4_v5 : Vec Ideal S320000 .i32 :=
  (broadcastInDim S320000 ![] bcast_S_S320000) res_call4_c_1

def res_call4_v6 (a : Cert.Gcn.SA.Idx → EReal) : Vec Ideal S320000 .i1 :=
  (cmpi .ne) (res_call4_v4 a) res_call4_v5

def res_call4_c_2 : Vec Ideal S_ .i32 :=
  (constantI S_ 32 0#32)

def res_call4_v7 : Vec Ideal S320000 .i32 :=
  (broadcastInDim S320000 ![] bcast_S_S320000) res_call4_c_2

def res_call4_v8 (a : Cert.Gcn.SA.Idx → EReal) : Vec Ideal S320000 .i1 :=
  (cmpi .slt) (res_call4_v4 a) res_call4_v7

def res_call4_c_3 : Vec Ideal S_ .i32 :=
  (constantI S_ 32 0#32)

def res_call4_v9 : Vec Ideal S_ .i1 :=
  (cmpi .slt) res_call4_v2 res_call4_c_3

def res_call4_v10 : Vec Ideal S320000 .i1 :=
  (broadcastInDim S320000 ![] bcast_S_S320000) res_call4_v9

def res_call4_v11 (a : Cert.Gcn.SA.Idx → EReal) : Vec Ideal S320000 .i1 :=
  (cmpi .ne) (res_call4_v8 a) res_call4_v10

def res_call4_v12 (a : Cert.Gcn.SA.Idx → EReal) : Vec Ideal S320000 .i1 :=
  andi (res_call4_v11 a) (res_call4_v6 a)

def res_call4_v13 : Vec Ideal S320000 .i32 :=
  (broadcastInDim S320000 ![] bcast_S_S320000) res_call4_v2

def res_call4_v14 (a : Cert.Gcn.SA.Idx → EReal) : Vec Ideal S320000 .i32 :=
  addi (res_call4_v4 a) res_call4_v13

def res_v15 (a : Cert.Gcn.SA.Idx → EReal) : Vec Ideal S320000 .i32 :=
  select (res_call4_v12 a) (res_call4_v14 a) (res_call4_v4 a)

def res_c_6 : Vec Ideal S_ .i32 :=
  (constantI S_ 32 1#32)

def res_call5_v0 : Vec Ideal S320000 .i32 :=
  (broadcastInDim S320000 ![] bcast_S_S320000) res_c_6

def res_call5_v1 (a : Cert.Gcn.SA.Idx → EReal) : Vec Ideal S320000 .i32 :=
  Host.divsi (res_v13 a) res_call5_v0

def res_call5_v2 (a : Cert.Gcn.SA.Idx → EReal) : Vec Ideal S320000 .i32 :=
  signi (res_v13 a)

def res_call5_v3 : Vec Ideal S_ .i32 :=
  signi res_c_6

def res_call5_v4 : Vec Ideal S320000 .i32 :=
  (broadcastInDim S320000 ![] bcast_S_S320000) res_call5_v3

def res_call5_v5 (a : Cert.Gcn.SA.Idx → EReal) : Vec Ideal S320000 .i1 :=
  (cmpi .ne) (res_call5_v2 a) res_call5_v4

def res_call5_v6 : Vec Ideal S320000 .i32 :=
  (broadcastInDim S320000 ![] bcast_S_S320000) res_c_6

def res_call5_v7 (a : Cert.Gcn.SA.Idx → EReal) : Vec Ideal S320000 .i32 :=
  Host.remsi (res_v13 a) res_call5_v6

def res_call5_c : Vec Ideal S_ .i32 :=
  (constantI S_ 32 0#32)

def res_call5_v8 : Vec Ideal S320000 .i32 :=
  (broadcastInDim S320000 ![] bcast_S_S320000) res_call5_c

def res_call5_v9 (a : Cert.Gcn.SA.Idx → EReal) : Vec Ideal S320000 .i1 :=
  (cmpi .ne) (res_call5_v7 a) res_call5_v8

def res_call5_v10 (a : Cert.Gcn.SA.Idx → EReal) : Vec Ideal S320000 .i1 :=
  andi (res_call5_v5 a) (res_call5_v9 a)

def res_call5_c_0 : Vec Ideal S_ .i32 :=
  (constantI S_ 32 1#32)

def res_call5_v11 : Vec Ideal S320000 .i32 :=
  (broadcastInDim S320000 ![] bcast_S_S320000) res_call5_c_0

def res_call5_v12 (a : Cert.Gcn.SA.Idx → EReal) : Vec Ideal S320000 .i32 :=
  subi (res_call5_v1 a) res_call5_v11

def res_v16 (a : Cert.Gcn.SA.Idx → EReal) : Vec Ideal S320000 .i32 :=
  select (res_call5_v10 a) (res_call5_v12 a) (res_call5_v1 a)

def res_c_7 : Vec Ideal S_ .i32 :=
  (constantI S_ 32 10000#32)

def res_call6_v0 : Vec Ideal S_ .i32 :=
  id res_c_7

def res_call6_c : Vec Ideal S_ .i32 :=
  (constantI S_ 32 0#32)

def res_call6_v1 : Vec Ideal S_ .i1 :=
  (cmpi .eq) res_call6_v0 res_call6_c

def res_call6_c_0 : Vec Ideal S_ .i32 :=
  (constantI S_ 32 1#32)

def res_call6_v2 : Vec Ideal S_ .i32 :=
  select res_call6_v1 res_call6_c_0 res_call6_v0

def res_call6_v3 : Vec Ideal S320000 .i32 :=
  (broadcastInDim S320000 ![] bcast_S_S320000) res_call6_v2

def res_call6_v4 (a : Cert.Gcn.SA.Idx → EReal) : Vec Ideal S320000 .i32 :=
  Host.remsi (res_v16 a) res_call6_v3

def res_call6_c_1 : Vec Ideal S_ .i32 :=
  (constantI S_ 32 0#32)

def res_call6_v5 : Vec Ideal S320000 .i32 :=
  (broadcastInDim S320000 ![] bcast_S_S320000) res_call6_c_1

def res_call6_v6 (a : Cert.Gcn.SA.Idx → EReal) : Vec Ideal S320000 .i1 :=
  (cmpi .ne) (res_call6_v4 a) res_call6_v5

def res_call6_c_2 : Vec Ideal S_ .i32 :=
  (constantI S_ 32 0#32)

def res_call6_v7 : Vec Ideal S320000 .i32 :=
  (broadcastInDim S320000 ![] bcast_S_S320000) res_call6_c_2

def res_call6_v8 (a : Cert.Gcn.SA.Idx → EReal) : Vec Ideal S320000 .i1 :=
  (cmpi .slt) (res_call6_v4 a) res_call6_v7

def res_call6_c_3 : Vec Ideal S_ .i32 :=
  (constantI S_ 32 0#32)

def res_call6_v9 : Vec Ideal S_ .i1 :=
  (cmpi .slt) res_call6_v2 res_call6_c_3

def res_call6_v10 : Vec Ideal S320000 .i1 :=
  (broadcastInDim S320000 ![] bcast_S_S320000) res_call6_v9

def res_call6_v11 (a : Cert.Gcn.SA.Idx → EReal) : Vec Ideal S320000 .i1 :=
  (cmpi .ne) (res_call6_v8 a) res_call6_v10

def res_call6_v12 (a : Cert.Gcn.SA.Idx → EReal) : Vec Ideal S320000 .i1 :=
  andi (res_call6_v11 a) (res_call6_v6 a)

def res_call6_v13 : Vec Ideal S320000 .i32 :=
  (broadcastInDim S320000 ![] bcast_S_S320000) res_call6_v2

def res_call6_v14 (a : Cert.Gcn.SA.Idx → EReal) : Vec Ideal S320000 .i32 :=
  addi (res_call6_v4 a) res_call6_v13

def res_v17 (a : Cert.Gcn.SA.Idx → EReal) : Vec Ideal S320000 .i32 :=
  select (res_call6_v12 a) (res_call6_v14 a) (res_call6_v4 a)

def res_v18 : Vec Ideal S320000 .i32 :=
  (iotaInDim S320000 32 0)

def res_v19 (a : Cert.Gcn.SA.Idx → EReal) : Vec Ideal S10000x10000 .i32 :=
  (extui 32 · natLt_1_32) (res_v1 a)

def res_c_8 : Vec Ideal S_ .i32 :=
  (constantI S_ 32 0#32)

def res_v20 (a : Cert.Gcn.SA.Idx → EReal) : Vec Ideal S_ .i32 :=
  (fun x v => Host.reduce IntOp.addi x v reducesTo_S10000x10000_S_d0_1 h_S_) (res_v19 a) res_c_8

def res_v21 (a : Cert.Gcn.SA.Idx → EReal) : Vec Ideal S320000 .i32 :=
  (broadcastInDim S320000 ![] bcast_S_S320000) (res_v20 a)

def res_v22 (a : Cert.Gcn.SA.Idx → EReal) : Vec Ideal S320000 .i1 :=
  (cmpi .sge) res_v18 (res_v21 a)

def res_c_9 : Vec Ideal S_ .i32 :=
  (constantI S_ 32 10000#32)

def res_call7_v0 : Vec Ideal S_ .i32 :=
  id res_c_9

def res_call7_v1 : Vec Ideal S320000 .i32 :=
  (broadcastInDim S320000 ![] bcast_S_S320000) res_call7_v0

def res_v23 (a : Cert.Gcn.SA.Idx → EReal) : Vec Ideal S320000 .i32 :=
  select (res_v22 a) res_call7_v1 (res_v15 a)

def res_c_10 : Vec Ideal S_ .i32 :=
  (constantI S_ 32 10000#32)

def res_call8_v0 : Vec Ideal S_ .i32 :=
  id res_c_10

def res_call8_v1 : Vec Ideal S320000 .i32 :=
  (broadcastInDim S320000 ![] bcast_S_S320000) res_call8_v0

def res_v24 (a : Cert.Gcn.SA.Idx → EReal) : Vec Ideal S320000 .i32 :=
  select (res_v22 a) res_call8_v1 (res_v17 a)

def res_v25 : Vec Ideal S10000 .i32 :=
  (iotaInDim S10000 32 0)

def res_v26 (a : Cert.Gcn.SA.Idx → EReal) : Vec Ideal S330000 .i32 :=
  (fun a b => concatenate S330000 0 [⟨S320000, a⟩, ⟨S10000, b⟩] concatenates_S320000_S10000_S330000_d0) (res_v23 a) res_v25

def res_v27 (a : Cert.Gcn.SA.Idx → EReal) : Vec Ideal S330000 .i32 :=
  (fun a b => concatenate S330000 0 [⟨S320000, a⟩, ⟨S10000, b⟩] concatenates_S320000_S10000_S330000_d0) (res_v24 a) res_v25

def res_v28 (x : Cert.Gcn.SX.Idx → EReal) (W1 : Cert.Gcn.SW1.Idx → EReal) : FVec Ideal S10000x16 .f32 :=
  Host.dotGeneral (φ₁ := .f32) (φ₂ := .f32) dot_S10000x128_S128x16_S10000x16_1_0_0_1_n_n none x W1

def res_cst_11 : FVec Ideal S_ .f32 :=
  (constant S_ .f32 0x3F800000#32)

def res_v29 : FVec Ideal S330000 .f32 :=
  (broadcastInDim S330000 ![] bcast_S_S330000) res_cst_11

def res_cst_12 : FVec Ideal S_ .f32 :=
  (constant S_ .f32 0x00000000#32)

def res_v30 : FVec Ideal S10000 .f32 :=
  (broadcastInDim S10000 ![] bcast_S_S10000) res_cst_12

def res_v31 (cols : Cert.Gcn.SE.Idx → BitVec 32) : Vec Ideal S330000x1 .i32 :=
  (broadcastInDim S330000x1 ![0] bcast_S330000_S330000x1_0) cols

def res_v32 (cols : Cert.Gcn.SE.Idx → BitVec 32) : FVec Ideal S10000 .f32 :=
  (fun x i u => Host.scatterAdd scatter_S10000_S330000x1_S330000_n_0_0_1 x i u) res_v30 (res_v31 cols) res_v29

def res_cst_13 : FVec Ideal S_ .f32 :=
  (constant S_ .f32 0x00000000#32)

def res_v33 : FVec Ideal S10000 .f32 :=
  (broadcastInDim S10000 ![] bcast_S_S10000) res_cst_13

def res_v34 (cols : Cert.Gcn.SE.Idx → BitVec 32) : Vec Ideal S10000 .i1 :=
  (cmpf .ogt) (res_v32 cols) res_v33

def res_v35 (cols : Cert.Gcn.SE.Idx → BitVec 32) : FVec Ideal S10000 .f32 :=
  Host.sqrt (res_v32 cols)

def res_cst_14 : FVec Ideal S_ .f32 :=
  (constant S_ .f32 0x3F800000#32)

def res_v36 : FVec Ideal S10000 .f32 :=
  (broadcastInDim S10000 ![] bcast_S_S10000) res_cst_14

def res_v37 (cols : Cert.Gcn.SE.Idx → BitVec 32) : FVec Ideal S10000 .f32 :=
  Host.divf res_v36 (res_v35 cols)

def res_cst_15 : FVec Ideal S_ .f32 :=
  (constant S_ .f32 0x00000000#32)

def res_call9_v0 : FVec Ideal S_ .f32 :=
  id res_cst_15

def res_call9_v1 : FVec Ideal S10000 .f32 :=
  (broadcastInDim S10000 ![] bcast_S_S10000) res_call9_v0

def res_v38 (cols : Cert.Gcn.SE.Idx → BitVec 32) : FVec Ideal S10000 .f32 :=
  select (res_v34 cols) (res_v37 cols) res_call9_v1

def res_c_16 : Vec Ideal S_ .i32 :=
  (constantI S_ 32 0#32)

def res_v39 : Vec Ideal S330000 .i32 :=
  (broadcastInDim S330000 ![] bcast_S_S330000) res_c_16

def res_v40 (rows : Cert.Gcn.SE.Idx → BitVec 32) : Vec Ideal S330000 .i1 :=
  (cmpi .slt) rows res_v39

def res_c_17 : Vec Ideal S_ .i32 :=
  (constantI S_ 32 10000#32)

def res_v41 : Vec Ideal S330000 .i32 :=
  (broadcastInDim S330000 ![] bcast_S_S330000) res_c_17

def res_v42 (rows : Cert.Gcn.SE.Idx → BitVec 32) : Vec Ideal S330000 .i32 :=
  addi rows res_v41

def res_v43 (rows : Cert.Gcn.SE.Idx → BitVec 32) : Vec Ideal S330000 .i32 :=
  select (res_v40 rows) (res_v42 rows) rows

def res_v44 (rows : Cert.Gcn.SE.Idx → BitVec 32) : Vec Ideal S330000x1 .i32 :=
  (broadcastInDim S330000x1 ![0] bcast_S330000_S330000x1_0) (res_v43 rows)

def res_v45 (rows : Cert.Gcn.SE.Idx → BitVec 32) (cols : Cert.Gcn.SE.Idx → BitVec 32) : FVec Ideal S330000 .f32 :=
  (fun x i => Host.gather gather_S10000_S330000x1_S330000_n_0_n_n_0_1_1 x i) (res_v38 cols) (res_v44 rows)

def res_c_18 : Vec Ideal S_ .i32 :=
  (constantI S_ 32 0#32)

def res_v46 : Vec Ideal S330000 .i32 :=
  (broadcastInDim S330000 ![] bcast_S_S330000) res_c_18

def res_v47 (cols : Cert.Gcn.SE.Idx → BitVec 32) : Vec Ideal S330000 .i1 :=
  (cmpi .slt) cols res_v46

def res_c_19 : Vec Ideal S_ .i32 :=
  (constantI S_ 32 10000#32)

def res_v48 : Vec Ideal S330000 .i32 :=
  (broadcastInDim S330000 ![] bcast_S_S330000) res_c_19

def res_v49 (cols : Cert.Gcn.SE.Idx → BitVec 32) : Vec Ideal S330000 .i32 :=
  addi cols res_v48

def res_v50 (cols : Cert.Gcn.SE.Idx → BitVec 32) : Vec Ideal S330000 .i32 :=
  select (res_v47 cols) (res_v49 cols) cols

def res_v51 (cols : Cert.Gcn.SE.Idx → BitVec 32) : Vec Ideal S330000x1 .i32 :=
  (broadcastInDim S330000x1 ![0] bcast_S330000_S330000x1_0) (res_v50 cols)

def res_v52 (cols : Cert.Gcn.SE.Idx → BitVec 32) : FVec Ideal S330000 .f32 :=
  (fun x i => Host.gather gather_S10000_S330000x1_S330000_n_0_n_n_0_1_1 x i) (res_v38 cols) (res_v51 cols)

def res_v53 (rows : Cert.Gcn.SE.Idx → BitVec 32) (cols : Cert.Gcn.SE.Idx → BitVec 32) : FVec Ideal S330000 .f32 :=
  mulf (res_v45 rows cols) (res_v52 cols)

def res_c_20 : Vec Ideal S_ .i32 :=
  (constantI S_ 32 0#32)

def res_v54 : Vec Ideal S330000 .i32 :=
  (broadcastInDim S330000 ![] bcast_S_S330000) res_c_20

def res_v55 (rows : Cert.Gcn.SE.Idx → BitVec 32) : Vec Ideal S330000 .i1 :=
  (cmpi .slt) rows res_v54

def res_c_21 : Vec Ideal S_ .i32 :=
  (constantI S_ 32 10000#32)

def res_v56 : Vec Ideal S330000 .i32 :=
  (broadcastInDim S330000 ![] bcast_S_S330000) res_c_21

def res_v57 (rows : Cert.Gcn.SE.Idx → BitVec 32) : Vec Ideal S330000 .i32 :=
  addi rows res_v56

def res_v58 (rows : Cert.Gcn.SE.Idx → BitVec 32) : Vec Ideal S330000 .i32 :=
  select (res_v55 rows) (res_v57 rows) rows

def res_v59 (rows : Cert.Gcn.SE.Idx → BitVec 32) : Vec Ideal S330000x1 .i32 :=
  (broadcastInDim S330000x1 ![0] bcast_S330000_S330000x1_0) (res_v58 rows)

def res_v60 (x : Cert.Gcn.SX.Idx → EReal) (W1 : Cert.Gcn.SW1.Idx → EReal) (rows : Cert.Gcn.SE.Idx → BitVec 32) : FVec Ideal S330000x16 .f32 :=
  (fun x i => Host.gather gather_S10000x16_S330000x1_S330000x16_1_0_n_n_0_1_116 x i) (res_v28 x W1) (res_v59 rows)

def res_v61 (rows : Cert.Gcn.SE.Idx → BitVec 32) (cols : Cert.Gcn.SE.Idx → BitVec 32) : FVec Ideal S330000x1 .f32 :=
  (broadcastInDim S330000x1 ![0] bcast_S330000_S330000x1_0) (res_v53 rows cols)

def res_v62 (rows : Cert.Gcn.SE.Idx → BitVec 32) (cols : Cert.Gcn.SE.Idx → BitVec 32) : FVec Ideal S330000x16 .f32 :=
  (broadcastInDim S330000x16 ![0, 1] bcast_S330000x1_S330000x16_0_1) (res_v61 rows cols)

def res_v63 (x : Cert.Gcn.SX.Idx → EReal) (W1 : Cert.Gcn.SW1.Idx → EReal) (rows : Cert.Gcn.SE.Idx → BitVec 32) (cols : Cert.Gcn.SE.Idx → BitVec 32) : FVec Ideal S330000x16 .f32 :=
  mulf (res_v60 x W1 rows) (res_v62 rows cols)

def res_cst_22 : FVec Ideal S_ .f32 :=
  (constant S_ .f32 0x00000000#32)

def res_v64 : FVec Ideal S10000x16 .f32 :=
  (broadcastInDim S10000x16 ![] bcast_S_S10000x16) res_cst_22

def res_v65 (cols : Cert.Gcn.SE.Idx → BitVec 32) : Vec Ideal S330000x1 .i32 :=
  (broadcastInDim S330000x1 ![0] bcast_S330000_S330000x1_0) cols

def res_v66 (x : Cert.Gcn.SX.Idx → EReal) (W1 : Cert.Gcn.SW1.Idx → EReal) (rows : Cert.Gcn.SE.Idx → BitVec 32) (cols : Cert.Gcn.SE.Idx → BitVec 32) : FVec Ideal S10000x16 .f32 :=
  (fun x i u => Host.scatterAdd scatter_S10000x16_S330000x1_S330000x16_1_0_0_1 x i u) res_v64 (res_v65 cols) (res_v63 x W1 rows cols)

def res_v67 (b1 : Cert.Gcn.SB1.Idx → EReal) : FVec Ideal S1x16 .f32 :=
  (broadcastInDim S1x16 ![1] bcast_S16_S1x16_1) b1

def res_v68 (b1 : Cert.Gcn.SB1.Idx → EReal) : FVec Ideal S10000x16 .f32 :=
  (broadcastInDim S10000x16 ![0, 1] bcast_S1x16_S10000x16_0_1) (res_v67 b1)

def res_v69 (x : Cert.Gcn.SX.Idx → EReal) (W1 : Cert.Gcn.SW1.Idx → EReal) (b1 : Cert.Gcn.SB1.Idx → EReal) (rows : Cert.Gcn.SE.Idx → BitVec 32) (cols : Cert.Gcn.SE.Idx → BitVec 32) : FVec Ideal S10000x16 .f32 :=
  addf (res_v66 x W1 rows cols) (res_v68 b1)

def res_call10_cst : FVec Ideal S_ .f32 :=
  (constant S_ .f32 0x00000000#32)

def res_call10_v0 : FVec Ideal S10000x16 .f32 :=
  (broadcastInDim S10000x16 ![] bcast_S_S10000x16) res_call10_cst

def res_v70 (x : Cert.Gcn.SX.Idx → EReal) (W1 : Cert.Gcn.SW1.Idx → EReal) (b1 : Cert.Gcn.SB1.Idx → EReal) (rows : Cert.Gcn.SE.Idx → BitVec 32) (cols : Cert.Gcn.SE.Idx → BitVec 32) : FVec Ideal S10000x16 .f32 :=
  maximumf (res_v69 x W1 b1 rows cols) res_call10_v0

def res_v71 (x : Cert.Gcn.SX.Idx → EReal) (W1 : Cert.Gcn.SW1.Idx → EReal) (b1 : Cert.Gcn.SB1.Idx → EReal) (W2 : Cert.Gcn.SW2.Idx → EReal) (rows : Cert.Gcn.SE.Idx → BitVec 32) (cols : Cert.Gcn.SE.Idx → BitVec 32) : FVec Ideal S10000x40 .f32 :=
  Host.dotGeneral (φ₂ := .f32) dot_S10000x16_S16x40_S10000x40_1_0_0_1_n_n none (res_v70 x W1 b1 rows cols) W2

def res_cst_23 : FVec Ideal S_ .f32 :=
  (constant S_ .f32 0x3F800000#32)

def res_v72 : FVec Ideal S330000 .f32 :=
  (broadcastInDim S330000 ![] bcast_S_S330000) res_cst_23

def res_cst_24 : FVec Ideal S_ .f32 :=
  (constant S_ .f32 0x00000000#32)

def res_v73 : FVec Ideal S10000 .f32 :=
  (broadcastInDim S10000 ![] bcast_S_S10000) res_cst_24

def res_v74 (cols : Cert.Gcn.SE.Idx → BitVec 32) : Vec Ideal S330000x1 .i32 :=
  (broadcastInDim S330000x1 ![0] bcast_S330000_S330000x1_0) cols

def res_v75 (cols : Cert.Gcn.SE.Idx → BitVec 32) : FVec Ideal S10000 .f32 :=
  (fun x i u => Host.scatterAdd scatter_S10000_S330000x1_S330000_n_0_0_1 x i u) res_v73 (res_v74 cols) res_v72

def res_cst_25 : FVec Ideal S_ .f32 :=
  (constant S_ .f32 0x00000000#32)

def res_v76 : FVec Ideal S10000 .f32 :=
  (broadcastInDim S10000 ![] bcast_S_S10000) res_cst_25

def res_v77 (cols : Cert.Gcn.SE.Idx → BitVec 32) : Vec Ideal S10000 .i1 :=
  (cmpf .ogt) (res_v75 cols) res_v76

def res_v78 (cols : Cert.Gcn.SE.Idx → BitVec 32) : FVec Ideal S10000 .f32 :=
  Host.sqrt (res_v75 cols)

def res_cst_26 : FVec Ideal S_ .f32 :=
  (constant S_ .f32 0x3F800000#32)

def res_v79 : FVec Ideal S10000 .f32 :=
  (broadcastInDim S10000 ![] bcast_S_S10000) res_cst_26

def res_v80 (cols : Cert.Gcn.SE.Idx → BitVec 32) : FVec Ideal S10000 .f32 :=
  Host.divf res_v79 (res_v78 cols)

def res_cst_27 : FVec Ideal S_ .f32 :=
  (constant S_ .f32 0x00000000#32)

def res_call11_v0 : FVec Ideal S_ .f32 :=
  id res_cst_27

def res_call11_v1 : FVec Ideal S10000 .f32 :=
  (broadcastInDim S10000 ![] bcast_S_S10000) res_call11_v0

def res_v81 (cols : Cert.Gcn.SE.Idx → BitVec 32) : FVec Ideal S10000 .f32 :=
  select (res_v77 cols) (res_v80 cols) res_call11_v1

def res_c_28 : Vec Ideal S_ .i32 :=
  (constantI S_ 32 0#32)

def res_v82 : Vec Ideal S330000 .i32 :=
  (broadcastInDim S330000 ![] bcast_S_S330000) res_c_28

def res_v83 (rows : Cert.Gcn.SE.Idx → BitVec 32) : Vec Ideal S330000 .i1 :=
  (cmpi .slt) rows res_v82

def res_c_29 : Vec Ideal S_ .i32 :=
  (constantI S_ 32 10000#32)

def res_v84 : Vec Ideal S330000 .i32 :=
  (broadcastInDim S330000 ![] bcast_S_S330000) res_c_29

def res_v85 (rows : Cert.Gcn.SE.Idx → BitVec 32) : Vec Ideal S330000 .i32 :=
  addi rows res_v84

def res_v86 (rows : Cert.Gcn.SE.Idx → BitVec 32) : Vec Ideal S330000 .i32 :=
  select (res_v83 rows) (res_v85 rows) rows

def res_v87 (rows : Cert.Gcn.SE.Idx → BitVec 32) : Vec Ideal S330000x1 .i32 :=
  (broadcastInDim S330000x1 ![0] bcast_S330000_S330000x1_0) (res_v86 rows)

def res_v88 (rows : Cert.Gcn.SE.Idx → BitVec 32) (cols : Cert.Gcn.SE.Idx → BitVec 32) : FVec Ideal S330000 .f32 :=
  (fun x i => Host.gather gather_S10000_S330000x1_S330000_n_0_n_n_0_1_1 x i) (res_v81 cols) (res_v87 rows)

def res_c_30 : Vec Ideal S_ .i32 :=
  (constantI S_ 32 0#32)

def res_v89 : Vec Ideal S330000 .i32 :=
  (broadcastInDim S330000 ![] bcast_S_S330000) res_c_30

def res_v90 (cols : Cert.Gcn.SE.Idx → BitVec 32) : Vec Ideal S330000 .i1 :=
  (cmpi .slt) cols res_v89

def res_c_31 : Vec Ideal S_ .i32 :=
  (constantI S_ 32 10000#32)

def res_v91 : Vec Ideal S330000 .i32 :=
  (broadcastInDim S330000 ![] bcast_S_S330000) res_c_31

def res_v92 (cols : Cert.Gcn.SE.Idx → BitVec 32) : Vec Ideal S330000 .i32 :=
  addi cols res_v91

def res_v93 (cols : Cert.Gcn.SE.Idx → BitVec 32) : Vec Ideal S330000 .i32 :=
  select (res_v90 cols) (res_v92 cols) cols

def res_v94 (cols : Cert.Gcn.SE.Idx → BitVec 32) : Vec Ideal S330000x1 .i32 :=
  (broadcastInDim S330000x1 ![0] bcast_S330000_S330000x1_0) (res_v93 cols)

def res_v95 (cols : Cert.Gcn.SE.Idx → BitVec 32) : FVec Ideal S330000 .f32 :=
  (fun x i => Host.gather gather_S10000_S330000x1_S330000_n_0_n_n_0_1_1 x i) (res_v81 cols) (res_v94 cols)

def res_v96 (rows : Cert.Gcn.SE.Idx → BitVec 32) (cols : Cert.Gcn.SE.Idx → BitVec 32) : FVec Ideal S330000 .f32 :=
  mulf (res_v88 rows cols) (res_v95 cols)

def res_c_32 : Vec Ideal S_ .i32 :=
  (constantI S_ 32 0#32)

def res_v97 : Vec Ideal S330000 .i32 :=
  (broadcastInDim S330000 ![] bcast_S_S330000) res_c_32

def res_v98 (rows : Cert.Gcn.SE.Idx → BitVec 32) : Vec Ideal S330000 .i1 :=
  (cmpi .slt) rows res_v97

def res_c_33 : Vec Ideal S_ .i32 :=
  (constantI S_ 32 10000#32)

def res_v99 : Vec Ideal S330000 .i32 :=
  (broadcastInDim S330000 ![] bcast_S_S330000) res_c_33

def res_v100 (rows : Cert.Gcn.SE.Idx → BitVec 32) : Vec Ideal S330000 .i32 :=
  addi rows res_v99

def res_v101 (rows : Cert.Gcn.SE.Idx → BitVec 32) : Vec Ideal S330000 .i32 :=
  select (res_v98 rows) (res_v100 rows) rows

def res_v102 (rows : Cert.Gcn.SE.Idx → BitVec 32) : Vec Ideal S330000x1 .i32 :=
  (broadcastInDim S330000x1 ![0] bcast_S330000_S330000x1_0) (res_v101 rows)

def res_v103 (x : Cert.Gcn.SX.Idx → EReal) (W1 : Cert.Gcn.SW1.Idx → EReal) (b1 : Cert.Gcn.SB1.Idx → EReal) (W2 : Cert.Gcn.SW2.Idx → EReal) (rows : Cert.Gcn.SE.Idx → BitVec 32) (cols : Cert.Gcn.SE.Idx → BitVec 32) : FVec Ideal S330000x40 .f32 :=
  (fun x i => Host.gather gather_S10000x40_S330000x1_S330000x40_1_0_n_n_0_1_140 x i) (res_v71 x W1 b1 W2 rows cols) (res_v102 rows)

def res_v104 (rows : Cert.Gcn.SE.Idx → BitVec 32) (cols : Cert.Gcn.SE.Idx → BitVec 32) : FVec Ideal S330000x1 .f32 :=
  (broadcastInDim S330000x1 ![0] bcast_S330000_S330000x1_0) (res_v96 rows cols)

def res_v105 (rows : Cert.Gcn.SE.Idx → BitVec 32) (cols : Cert.Gcn.SE.Idx → BitVec 32) : FVec Ideal S330000x40 .f32 :=
  (broadcastInDim S330000x40 ![0, 1] bcast_S330000x1_S330000x40_0_1) (res_v104 rows cols)

def res_v106 (x : Cert.Gcn.SX.Idx → EReal) (W1 : Cert.Gcn.SW1.Idx → EReal) (b1 : Cert.Gcn.SB1.Idx → EReal) (W2 : Cert.Gcn.SW2.Idx → EReal) (rows : Cert.Gcn.SE.Idx → BitVec 32) (cols : Cert.Gcn.SE.Idx → BitVec 32) : FVec Ideal S330000x40 .f32 :=
  mulf (res_v103 x W1 b1 W2 rows cols) (res_v105 rows cols)

def res_cst_34 : FVec Ideal S_ .f32 :=
  (constant S_ .f32 0x00000000#32)

def res_v107 : FVec Ideal S10000x40 .f32 :=
  (broadcastInDim S10000x40 ![] bcast_S_S10000x40) res_cst_34

def res_v108 (cols : Cert.Gcn.SE.Idx → BitVec 32) : Vec Ideal S330000x1 .i32 :=
  (broadcastInDim S330000x1 ![0] bcast_S330000_S330000x1_0) cols

def res_v109 (x : Cert.Gcn.SX.Idx → EReal) (W1 : Cert.Gcn.SW1.Idx → EReal) (b1 : Cert.Gcn.SB1.Idx → EReal) (W2 : Cert.Gcn.SW2.Idx → EReal) (rows : Cert.Gcn.SE.Idx → BitVec 32) (cols : Cert.Gcn.SE.Idx → BitVec 32) : FVec Ideal S10000x40 .f32 :=
  (fun x i u => Host.scatterAdd scatter_S10000x40_S330000x1_S330000x40_1_0_0_1 x i u) res_v107 (res_v108 cols) (res_v106 x W1 b1 W2 rows cols)

def res_v110 (b2 : Cert.Gcn.SB2.Idx → EReal) : FVec Ideal S1x40 .f32 :=
  (broadcastInDim S1x40 ![1] bcast_S40_S1x40_1) b2

def res_v111 (b2 : Cert.Gcn.SB2.Idx → EReal) : FVec Ideal S10000x40 .f32 :=
  (broadcastInDim S10000x40 ![0, 1] bcast_S1x40_S10000x40_0_1) (res_v110 b2)

def res_v112 (x : Cert.Gcn.SX.Idx → EReal) (W1 : Cert.Gcn.SW1.Idx → EReal) (b1 : Cert.Gcn.SB1.Idx → EReal) (W2 : Cert.Gcn.SW2.Idx → EReal) (b2 : Cert.Gcn.SB2.Idx → EReal) (rows : Cert.Gcn.SE.Idx → BitVec 32) (cols : Cert.Gcn.SE.Idx → BitVec 32) : FVec Ideal S10000x40 .f32 :=
  addf (res_v109 x W1 b1 W2 rows cols) (res_v111 b2)

def res_call12_cst : FVec Ideal S_ .f32 :=
  (constant S_ .f32 0xFF800000#32)

def res_call12_v0 (x : Cert.Gcn.SX.Idx → EReal) (W1 : Cert.Gcn.SW1.Idx → EReal) (b1 : Cert.Gcn.SB1.Idx → EReal) (W2 : Cert.Gcn.SW2.Idx → EReal) (b2 : Cert.Gcn.SB2.Idx → EReal) (rows : Cert.Gcn.SE.Idx → BitVec 32) (cols : Cert.Gcn.SE.Idx → BitVec 32) : FVec Ideal S10000 .f32 :=
  (fun x v => Host.reduce FloatOps.maximumf x v reducesTo_S10000x40_S10000_d1 h_S_) (res_v112 x W1 b1 W2 b2 rows cols) res_call12_cst

def res_call12_cst_0 : FVec Ideal S_ .f32 :=
  (constant S_ .f32 0xFF800000#32)

def res_call12_v1 : FVec Ideal S10000 .f32 :=
  (broadcastInDim S10000 ![] bcast_S_S10000) res_call12_cst_0

def res_call12_v2 (x : Cert.Gcn.SX.Idx → EReal) (W1 : Cert.Gcn.SW1.Idx → EReal) (b1 : Cert.Gcn.SB1.Idx → EReal) (W2 : Cert.Gcn.SW2.Idx → EReal) (b2 : Cert.Gcn.SB2.Idx → EReal) (rows : Cert.Gcn.SE.Idx → BitVec 32) (cols : Cert.Gcn.SE.Idx → BitVec 32) : FVec Ideal S10000 .f32 :=
  maximumf res_call12_v1 (res_call12_v0 x W1 b1 W2 b2 rows cols)

def res_call12_v3 (x : Cert.Gcn.SX.Idx → EReal) (W1 : Cert.Gcn.SW1.Idx → EReal) (b1 : Cert.Gcn.SB1.Idx → EReal) (W2 : Cert.Gcn.SW2.Idx → EReal) (b2 : Cert.Gcn.SB2.Idx → EReal) (rows : Cert.Gcn.SE.Idx → BitVec 32) (cols : Cert.Gcn.SE.Idx → BitVec 32) : FVec Ideal S10000x1 .f32 :=
  (broadcastInDim S10000x1 ![0] bcast_S10000_S10000x1_0) (res_call12_v2 x W1 b1 W2 b2 rows cols)

def res_call12_v4 (x : Cert.Gcn.SX.Idx → EReal) (W1 : Cert.Gcn.SW1.Idx → EReal) (b1 : Cert.Gcn.SB1.Idx → EReal) (W2 : Cert.Gcn.SW2.Idx → EReal) (b2 : Cert.Gcn.SB2.Idx → EReal) (rows : Cert.Gcn.SE.Idx → BitVec 32) (cols : Cert.Gcn.SE.Idx → BitVec 32) : FVec Ideal S10000x40 .f32 :=
  (broadcastInDim S10000x40 ![0, 1] bcast_S10000x1_S10000x40_0_1) (res_call12_v3 x W1 b1 W2 b2 rows cols)

def res_call12_v5 (x : Cert.Gcn.SX.Idx → EReal) (W1 : Cert.Gcn.SW1.Idx → EReal) (b1 : Cert.Gcn.SB1.Idx → EReal) (W2 : Cert.Gcn.SW2.Idx → EReal) (b2 : Cert.Gcn.SB2.Idx → EReal) (rows : Cert.Gcn.SE.Idx → BitVec 32) (cols : Cert.Gcn.SE.Idx → BitVec 32) : FVec Ideal S10000x40 .f32 :=
  subf (res_v112 x W1 b1 W2 b2 rows cols) (res_call12_v4 x W1 b1 W2 b2 rows cols)

def res_call12_v6 (x : Cert.Gcn.SX.Idx → EReal) (W1 : Cert.Gcn.SW1.Idx → EReal) (b1 : Cert.Gcn.SB1.Idx → EReal) (W2 : Cert.Gcn.SW2.Idx → EReal) (b2 : Cert.Gcn.SB2.Idx → EReal) (rows : Cert.Gcn.SE.Idx → BitVec 32) (cols : Cert.Gcn.SE.Idx → BitVec 32) : FVec Ideal S10000x40 .f32 :=
  Host.exp (res_call12_v5 x W1 b1 W2 b2 rows cols)

def res_call12_cst_1 : FVec Ideal S_ .f32 :=
  (constant S_ .f32 0x00000000#32)

def res_call12_v7 (x : Cert.Gcn.SX.Idx → EReal) (W1 : Cert.Gcn.SW1.Idx → EReal) (b1 : Cert.Gcn.SB1.Idx → EReal) (W2 : Cert.Gcn.SW2.Idx → EReal) (b2 : Cert.Gcn.SB2.Idx → EReal) (rows : Cert.Gcn.SE.Idx → BitVec 32) (cols : Cert.Gcn.SE.Idx → BitVec 32) : FVec Ideal S10000 .f32 :=
  (fun x v => Host.reduceAdd x v reducesTo_S10000x40_S10000_d1 h_S_) (res_call12_v6 x W1 b1 W2 b2 rows cols) res_call12_cst_1

def res_call12_v8 (x : Cert.Gcn.SX.Idx → EReal) (W1 : Cert.Gcn.SW1.Idx → EReal) (b1 : Cert.Gcn.SB1.Idx → EReal) (W2 : Cert.Gcn.SW2.Idx → EReal) (b2 : Cert.Gcn.SB2.Idx → EReal) (rows : Cert.Gcn.SE.Idx → BitVec 32) (cols : Cert.Gcn.SE.Idx → BitVec 32) : FVec Ideal S10000x1 .f32 :=
  (broadcastInDim S10000x1 ![0] bcast_S10000_S10000x1_0) (res_call12_v7 x W1 b1 W2 b2 rows cols)

def res_call12_v9 (x : Cert.Gcn.SX.Idx → EReal) (W1 : Cert.Gcn.SW1.Idx → EReal) (b1 : Cert.Gcn.SB1.Idx → EReal) (W2 : Cert.Gcn.SW2.Idx → EReal) (b2 : Cert.Gcn.SB2.Idx → EReal) (rows : Cert.Gcn.SE.Idx → BitVec 32) (cols : Cert.Gcn.SE.Idx → BitVec 32) : FVec Ideal S10000x1 .f32 :=
  Host.log (res_call12_v8 x W1 b1 W2 b2 rows cols)

def res_call12_v10 (x : Cert.Gcn.SX.Idx → EReal) (W1 : Cert.Gcn.SW1.Idx → EReal) (b1 : Cert.Gcn.SB1.Idx → EReal) (W2 : Cert.Gcn.SW2.Idx → EReal) (b2 : Cert.Gcn.SB2.Idx → EReal) (rows : Cert.Gcn.SE.Idx → BitVec 32) (cols : Cert.Gcn.SE.Idx → BitVec 32) : FVec Ideal S10000x40 .f32 :=
  (broadcastInDim S10000x40 ![0, 1] bcast_S10000x1_S10000x40_0_1) (res_call12_v9 x W1 b1 W2 b2 rows cols)

def res_v113 (x : Cert.Gcn.SX.Idx → EReal) (W1 : Cert.Gcn.SW1.Idx → EReal) (b1 : Cert.Gcn.SB1.Idx → EReal) (W2 : Cert.Gcn.SW2.Idx → EReal) (b2 : Cert.Gcn.SB2.Idx → EReal) (rows : Cert.Gcn.SE.Idx → BitVec 32) (cols : Cert.Gcn.SE.Idx → BitVec 32) : FVec Ideal S10000x40 .f32 :=
  subf (res_call12_v5 x W1 b1 W2 b2 rows cols) (res_call12_v10 x W1 b1 W2 b2 rows cols)

def rowsT (a : Cert.Gcn.SA.Idx → EReal) : Cert.Gcn.SE.Idx → BitVec 32 := res_v26 a

def colsT (a : Cert.Gcn.SA.Idx → EReal) : Cert.Gcn.SE.Idx → BitVec 32 := res_v27 a

def netT (x : Cert.Gcn.SX.Idx → EReal) (W1 : Cert.Gcn.SW1.Idx → EReal) (b1 : Cert.Gcn.SB1.Idx → EReal) (W2 : Cert.Gcn.SW2.Idx → EReal) (b2 : Cert.Gcn.SB2.Idx → EReal) (rows cols : Cert.Gcn.SE.Idx → BitVec 32) : Cert.Gcn.SO.Idx → EReal :=
  res_v113 x W1 b1 W2 b2 rows cols

def refOut (x : Cert.Gcn.SX.Idx → EReal) (a : Cert.Gcn.SA.Idx → EReal) (W1 : Cert.Gcn.SW1.Idx → EReal) (b1 : Cert.Gcn.SB1.Idx → EReal)
    (W2 : Cert.Gcn.SW2.Idx → EReal) (b2 : Cert.Gcn.SB2.Idx → EReal) : Cert.Gcn.SO.Idx → EReal :=
  netT x W1 b1 W2 b2 (rowsT a) (colsT a)

end Cert.ReferenceIdeal.Hand

end
-- ==== Proof.ROps.lean ====
import proofs.«109387_g55946243997874_fold_wed_m_672_4_alg».proof.ReferenceIdeal
import Idealize.ShloMosaic.Lib.StableHlo.Run

noncomputable section

namespace Cert.ReferenceIdeal.Hand

open Idealize.ShloMosaic Idealize.ShloMosaic.TcCoe Idealize.SL.Sem Idealize.ShloMosaic.StableHlo Cert.ReferenceIdeal
open Cert.ReferenceIdeal.Facts₀ Cert.ReferenceIdeal.Facts

variable [Cert.ReferenceIdeal.Facts] {F : FTy → Type} [FloatOps F]

abbrev ops0 : List (HloOp τ sig (Elt F)) :=
  [ nullary main_cst (constant S_ .f32 0x00000000#32),
    unary main_cst main_v0 (broadcastInDim S10000x10000 ![] bcast_S_S10000x10000),
    binary main_arg1 main_v0 main_v1 (cmpf .une),
    reshape main_v1 main_call0_v0 rfl shapeCasts_S10000x10000_S100000000,
    unary main_call0_v0 main_call0_v1 (extui 32 · natLt_1_32),
    nullary main_call0_call0_c (constantI S_ 32 0#32),
    unary main_call0_call0_c main_call0_call0_v0 (broadcastInDim S_ ![] bcast_S_S_),
    binary main_call0_v1 main_call0_call0_v0 main_v2 (fun x v => Host.reduceWindow IntOp.addi ![100000000] ![1] ![99999999] ![0] x v reduceWindows_S100000000_S100000000_w100000000s1p99999999_0 h_S_) ]

abbrev ops0_W : List (Ref sig .tc) := [main_cst, main_v0, main_v1, main_call0_v0, main_call0_v1, main_call0_call0_c, main_call0_call0_v0, main_v2]

abbrev ops1 : List (HloOp τ sig (Elt F)) :=
  [ nullary main_c (constantI S_ 32 0#32),
    unary main_c main_v3 (broadcastInDim S320000 ![] bcast_S_S320000),
    nullary main_c_0 (constantI S_ 32 0#32),
    unary main_c_0 main_call1_v0 (id),
    unary main_call1_v0 main_call1_v1 (broadcastInDim S100000000 ![] bcast_S_S100000000),
    binary main_call1_v1 main_v2 main_v4 (maxsi),
    nullary main_c_1 (constantI S_ 32 0#32),
    unary main_c_1 main_v5 (broadcastInDim S100000000 ![] bcast_S_S100000000),
    binary main_v4 main_v5 main_v6 (cmpi .slt),
    nullary main_c_2 (constantI S_ 32 320000#32),
    unary main_c_2 main_v7 (broadcastInDim S100000000 ![] bcast_S_S100000000),
    binary main_v4 main_v7 main_v8 (addi),
    ternary main_v6 main_v8 main_v4 main_v9 (select),
    unary main_v9 main_v10 (broadcastInDim S100000000x1 ![0] bcast_S100000000_S100000000x1_0),
    nullary main_c_3 (constantI S_ 32 1#32),
    unary main_c_3 main_v11 (broadcastInDim S100000000 ![] bcast_S_S100000000),
    ternary main_v3 main_v10 main_v11 main_v12 (fun x i u => Host.scatter scatter_S320000_S100000000x1_S100000000_n_0_0_1 IntOp.addi x i u),
    nullary main_call2_call0_c (constantI S_ 32 0#32),
    unary main_call2_call0_c main_call2_call0_v0 (broadcastInDim S_ ![] bcast_S_S_),
    binary main_v12 main_call2_call0_v0 main_v13 (fun x v => Host.reduceWindow IntOp.addi ![320000] ![1] ![319999] ![0] x v reduceWindows_S320000_S320000_w320000s1p319999_0 h_S_) ]

abbrev ops1_W : List (Ref sig .tc) := [main_c, main_v3, main_c_0, main_call1_v0, main_call1_v1, main_v4, main_c_1, main_v5, main_v6, main_c_2, main_v7, main_v8, main_v9, main_v10, main_c_3, main_v11, main_v12, main_call2_call0_c, main_call2_call0_v0, main_v13]

abbrev ops2 : List (HloOp τ sig (Elt F)) :=
  [ nullary main_c_4 (constantI S_ 32 10000#32),
    unary main_c_4 main_call3_v0 (broadcastInDim S320000 ![] bcast_S_S320000),
    binary main_v13 main_call3_v0 main_call3_v1 (Host.divsi),
    unary main_v13 main_call3_v2 (signi),
    unary main_c_4 main_call3_v3 (signi),
    unary main_call3_v3 main_call3_v4 (broadcastInDim S320000 ![] bcast_S_S320000),
    binary main_call3_v2 main_call3_v4 main_call3_v5 (cmpi .ne),
    unary main_c_4 main_call3_v6 (broadcastInDim S320000 ![] bcast_S_S320000),
    binary main_v13 main_call3_v6 main_call3_v7 (Host.remsi),
    nullary main_call3_c (constantI S_ 32 0#32),
    unary main_call3_c main_call3_v8 (broadcastInDim S320000 ![] bcast_S_S320000),
    binary main_call3_v7 main_call3_v8 main_call3_v9 (cmpi .ne),
    binary main_call3_v5 main_call3_v9 main_call3_v10 (andi),
    nullary main_call3_c_0 (constantI S_ 32 1#32),
    unary main_call3_c_0 main_call3_v11 (broadcastInDim S320000 ![] bcast_S_S320000),
    binary main_call3_v1 main_call3_v11 main_call3_v12 (subi),
    ternary main_call3_v10 main_call3_v12 main_call3_v1 main_v14 (select) ]

abbrev ops2_W : List (Ref sig .tc) := [main_c_4, main_call3_v0, main_call3_v1, main_call3_v2, main_call3_v3, main_call3_v4, main_call3_v5, main_call3_v6, main_call3_v7, main_call3_c, main_call3_v8, main_call3_v9, main_call3_v10, main_call3_c_0, main_call3_v11, main_call3_v12, main_v14]

abbrev ops3 : List (HloOp τ sig (Elt F)) :=
  [ nullary main_c_5 (constantI S_ 32 10000#32),
    unary main_c_5 main_call4_v0 (id),
    nullary main_call4_c (constantI S_ 32 0#32),
    binary main_call4_v0 main_call4_c main_call4_v1 (cmpi .eq),
    nullary main_call4_c_0 (constantI S_ 32 1#32),
    ternary main_call4_v1 main_call4_c_0 main_call4_v0 main_call4_v2 (select),
    unary main_call4_v2 main_call4_v3 (broadcastInDim S320000 ![] bcast_S_S320000),
    binary main_v14 main_call4_v3 main_call4_v4 (Host.remsi),
    nullary main_call4_c_1 (constantI S_ 32 0#32),
    unary main_call4_c_1 main_call4_v5 (broadcastInDim S320000 ![] bcast_S_S320000),
    binary main_call4_v4 main_call4_v5 main_call4_v6 (cmpi .ne),
    nullary main_call4_c_2 (constantI S_ 32 0#32),
    unary main_call4_c_2 main_call4_v7 (broadcastInDim S320000 ![] bcast_S_S320000),
    binary main_call4_v4 main_call4_v7 main_call4_v8 (cmpi .slt),
    nullary main_call4_c_3 (constantI S_ 32 0#32),
    binary main_call4_v2 main_call4_c_3 main_call4_v9 (cmpi .slt),
    unary main_call4_v9 main_call4_v10 (broadcastInDim S320000 ![] bcast_S_S320000),
    binary main_call4_v8 main_call4_v10 main_call4_v11 (cmpi .ne),
    binary main_call4_v11 main_call4_v6 main_call4_v12 (andi),
    unary main_call4_v2 main_call4_v13 (broadcastInDim S320000 ![] bcast_S_S320000),
    binary main_call4_v4 main_call4_v13 main_call4_v14 (addi),
    ternary main_call4_v12 main_call4_v14 main_call4_v4 main_v15 (select) ]

abbrev ops3_W : List (Ref sig .tc) := [main_c_5, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v15]

abbrev ops4 : List (HloOp τ sig (Elt F)) :=
  [ nullary main_c_6 (constantI S_ 32 1#32),
    unary main_c_6 main_call5_v0 (broadcastInDim S320000 ![] bcast_S_S320000),
    binary main_v13 main_call5_v0 main_call5_v1 (Host.divsi),
    unary main_v13 main_call5_v2 (signi),
    unary main_c_6 main_call5_v3 (signi),
    unary main_call5_v3 main_call5_v4 (broadcastInDim S320000 ![] bcast_S_S320000),
    binary main_call5_v2 main_call5_v4 main_call5_v5 (cmpi .ne),
    unary main_c_6 main_call5_v6 (broadcastInDim S320000 ![] bcast_S_S320000),
    binary main_v13 main_call5_v6 main_call5_v7 (Host.remsi),
    nullary main_call5_c (constantI S_ 32 0#32),
    unary main_call5_c main_call5_v8 (broadcastInDim S320000 ![] bcast_S_S320000),
    binary main_call5_v7 main_call5_v8 main_call5_v9 (cmpi .ne),
    binary main_call5_v5 main_call5_v9 main_call5_v10 (andi),
    nullary main_call5_c_0 (constantI S_ 32 1#32),
    unary main_call5_c_0 main_call5_v11 (broadcastInDim S320000 ![] bcast_S_S320000),
    binary main_call5_v1 main_call5_v11 main_call5_v12 (subi),
    ternary main_call5_v10 main_call5_v12 main_call5_v1 main_v16 (select) ]

abbrev ops4_W : List (Ref sig .tc) := [main_c_6, main_call5_v0, main_call5_v1, main_call5_v2, main_call5_v3, main_call5_v4, main_call5_v5, main_call5_v6, main_call5_v7, main_call5_c, main_call5_v8, main_call5_v9, main_call5_v10, main_call5_c_0, main_call5_v11, main_call5_v12, main_v16]

abbrev ops5 : List (HloOp τ sig (Elt F)) :=
  [ nullary main_c_7 (constantI S_ 32 10000#32),
    unary main_c_7 main_call6_v0 (id),
    nullary main_call6_c (constantI S_ 32 0#32),
    binary main_call6_v0 main_call6_c main_call6_v1 (cmpi .eq),
    nullary main_call6_c_0 (constantI S_ 32 1#32),
    ternary main_call6_v1 main_call6_c_0 main_call6_v0 main_call6_v2 (select),
    unary main_call6_v2 main_call6_v3 (broadcastInDim S320000 ![] bcast_S_S320000),
    binary main_v16 main_call6_v3 main_call6_v4 (Host.remsi),
    nullary main_call6_c_1 (constantI S_ 32 0#32),
    unary main_call6_c_1 main_call6_v5 (broadcastInDim S320000 ![] bcast_S_S320000),
    binary main_call6_v4 main_call6_v5 main_call6_v6 (cmpi .ne),
    nullary main_call6_c_2 (constantI S_ 32 0#32),
    unary main_call6_c_2 main_call6_v7 (broadcastInDim S320000 ![] bcast_S_S320000),
    binary main_call6_v4 main_call6_v7 main_call6_v8 (cmpi .slt),
    nullary main_call6_c_3 (constantI S_ 32 0#32),
    binary main_call6_v2 main_call6_c_3 main_call6_v9 (cmpi .slt),
    unary main_call6_v9 main_call6_v10 (broadcastInDim S320000 ![] bcast_S_S320000),
    binary main_call6_v8 main_call6_v10 main_call6_v11 (cmpi .ne),
    binary main_call6_v11 main_call6_v6 main_call6_v12 (andi),
    unary main_call6_v2 main_call6_v13 (broadcastInDim S320000 ![] bcast_S_S320000),
    binary main_call6_v4 main_call6_v13 main_call6_v14 (addi),
    ternary main_call6_v12 main_call6_v14 main_call6_v4 main_v17 (select) ]

abbrev ops5_W : List (Ref sig .tc) := [main_c_7, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v17]

abbrev ops6 : List (HloOp τ sig (Elt F)) :=
  [ nullary main_v18 (iotaInDim S320000 32 0),
    unary main_v1 main_v19 (extui 32 · natLt_1_32),
    nullary main_c_8 (constantI S_ 32 0#32),
    binary main_v19 main_c_8 main_v20 (fun x v => Host.reduce IntOp.addi x v reducesTo_S10000x10000_S_d0_1 h_S_),
    unary main_v20 main_v21 (broadcastInDim S320000 ![] bcast_S_S320000),
    binary main_v18 main_v21 main_v22 (cmpi .sge),
    nullary main_c_9 (constantI S_ 32 10000#32),
    unary main_c_9 main_call7_v0 (id),
    unary main_call7_v0 main_call7_v1 (broadcastInDim S320000 ![] bcast_S_S320000),
    ternary main_v22 main_call7_v1 main_v15 main_v23 (select),
    nullary main_c_10 (constantI S_ 32 10000#32),
    unary main_c_10 main_call8_v0 (id),
    unary main_call8_v0 main_call8_v1 (broadcastInDim S320000 ![] bcast_S_S320000),
    ternary main_v22 main_call8_v1 main_v17 main_v24 (select),
    nullary main_v25 (iotaInDim S10000 32 0),
    binary main_v23 main_v25 main_v26 (fun a b => concatenate S330000 0 [⟨S320000, a⟩, ⟨S10000, b⟩] concatenates_S320000_S10000_S330000_d0),
    binary main_v24 main_v25 main_v27 (fun a b => concatenate S330000 0 [⟨S320000, a⟩, ⟨S10000, b⟩] concatenates_S320000_S10000_S330000_d0) ]

abbrev ops6_W : List (Ref sig .tc) := [main_v18, main_v19, main_c_8, main_v20, main_v21, main_v22, main_c_9, main_call7_v0, main_call7_v1, main_v23, main_c_10, main_call8_v0, main_call8_v1, main_v24, main_v25, main_v26, main_v27]

abbrev ops7 : List (HloOp τ sig (Elt F)) :=
  [ binary main_arg0 main_arg2 main_v28 (fun l r => Host.dotGeneral dot_S10000x128_S128x16_S10000x16_1_0_0_1_n_n none l r),
    nullary main_cst_11 (constant S_ .f32 0x3F800000#32),
    unary main_cst_11 main_v29 (broadcastInDim S330000 ![] bcast_S_S330000),
    nullary main_cst_12 (constant S_ .f32 0x00000000#32),
    unary main_cst_12 main_v30 (broadcastInDim S10000 ![] bcast_S_S10000),
    unary main_v27 main_v31 (broadcastInDim S330000x1 ![0] bcast_S330000_S330000x1_0),
    ternary main_v30 main_v31 main_v29 main_v32 (fun x i u => Host.scatterAdd scatter_S10000_S330000x1_S330000_n_0_0_1 x i u),
    nullary main_cst_13 (constant S_ .f32 0x00000000#32),
    unary main_cst_13 main_v33 (broadcastInDim S10000 ![] bcast_S_S10000),
    binary main_v32 main_v33 main_v34 (cmpf .ogt),
    unary main_v32 main_v35 (Host.sqrt),
    nullary main_cst_14 (constant S_ .f32 0x3F800000#32),
    unary main_cst_14 main_v36 (broadcastInDim S10000 ![] bcast_S_S10000),
    binary main_v36 main_v35 main_v37 (Host.divf),
    nullary main_cst_15 (constant S_ .f32 0x00000000#32),
    unary main_cst_15 main_call9_v0 (id),
    unary main_call9_v0 main_call9_v1 (broadcastInDim S10000 ![] bcast_S_S10000),
    ternary main_v34 main_v37 main_call9_v1 main_v38 (select) ]

abbrev ops7_W : List (Ref sig .tc) := [main_v28, main_cst_11, main_v29, main_cst_12, main_v30, main_v31, main_v32, main_cst_13, main_v33, main_v34, main_v35, main_cst_14, main_v36, main_v37, main_cst_15, main_call9_v0, main_call9_v1, main_v38]

abbrev ops8 : List (HloOp τ sig (Elt F)) :=
  [ nullary main_c_16 (constantI S_ 32 0#32),
    unary main_c_16 main_v39 (broadcastInDim S330000 ![] bcast_S_S330000),
    binary main_v26 main_v39 main_v40 (cmpi .slt) ]

abbrev ops8_W : List (Ref sig .tc) := [main_c_16, main_v39, main_v40]

abbrev ops9 : List (HloOp τ sig (Elt F)) :=
  [ nullary main_c_17 (constantI S_ 32 10000#32),
    unary main_c_17 main_v41 (broadcastInDim S330000 ![] bcast_S_S330000),
    binary main_v26 main_v41 main_v42 (addi),
    ternary main_v40 main_v42 main_v26 main_v43 (select),
    unary main_v43 main_v44 (broadcastInDim S330000x1 ![0] bcast_S330000_S330000x1_0),
    binary main_v38 main_v44 main_v45 (fun x i => Host.gather gather_S10000_S330000x1_S330000_n_0_n_n_0_1_1 x i),
    nullary main_c_18 (constantI S_ 32 0#32),
    unary main_c_18 main_v46 (broadcastInDim S330000 ![] bcast_S_S330000),
    binary main_v27 main_v46 main_v47 (cmpi .slt),
    nullary main_c_19 (constantI S_ 32 10000#32),
    unary main_c_19 main_v48 (broadcastInDim S330000 ![] bcast_S_S330000),
    binary main_v27 main_v48 main_v49 (addi),
    ternary main_v47 main_v49 main_v27 main_v50 (select),
    unary main_v50 main_v51 (broadcastInDim S330000x1 ![0] bcast_S330000_S330000x1_0),
    binary main_v38 main_v51 main_v52 (fun x i => Host.gather gather_S10000_S330000x1_S330000_n_0_n_n_0_1_1 x i),
    binary main_v45 main_v52 main_v53 (mulf) ]

abbrev ops9_W : List (Ref sig .tc) := [main_c_17, main_v41, main_v42, main_v43, main_v44, main_v45, main_c_18, main_v46, main_v47, main_c_19, main_v48, main_v49, main_v50, main_v51, main_v52, main_v53]

abbrev ops10 : List (HloOp τ sig (Elt F)) :=
  [ nullary main_c_20 (constantI S_ 32 0#32),
    unary main_c_20 main_v54 (broadcastInDim S330000 ![] bcast_S_S330000),
    binary main_v26 main_v54 main_v55 (cmpi .slt),
    nullary main_c_21 (constantI S_ 32 10000#32),
    unary main_c_21 main_v56 (broadcastInDim S330000 ![] bcast_S_S330000),
    binary main_v26 main_v56 main_v57 (addi),
    ternary main_v55 main_v57 main_v26 main_v58 (select),
    unary main_v58 main_v59 (broadcastInDim S330000x1 ![0] bcast_S330000_S330000x1_0),
    binary main_v28 main_v59 main_v60 (fun x i => Host.gather gather_S10000x16_S330000x1_S330000x16_1_0_n_n_0_1_116 x i),
    unary main_v53 main_v61 (broadcastInDim S330000x1 ![0] bcast_S330000_S330000x1_0),
    unary main_v61 main_v62 (broadcastInDim S330000x16 ![0, 1] bcast_S330000x1_S330000x16_0_1),
    binary main_v60 main_v62 main_v63 (mulf),
    nullary main_cst_22 (constant S_ .f32 0x00000000#32),
    unary main_cst_22 main_v64 (broadcastInDim S10000x16 ![] bcast_S_S10000x16),
    unary main_v27 main_v65 (broadcastInDim S330000x1 ![0] bcast_S330000_S330000x1_0),
    ternary main_v64 main_v65 main_v63 main_v66 (fun x i u => Host.scatterAdd scatter_S10000x16_S330000x1_S330000x16_1_0_0_1 x i u) ]

abbrev ops10_W : List (Ref sig .tc) := [main_c_20, main_v54, main_v55, main_c_21, main_v56, main_v57, main_v58, main_v59, main_v60, main_v61, main_v62, main_v63, main_cst_22, main_v64, main_v65, main_v66]

abbrev ops11 : List (HloOp τ sig (Elt F)) :=
  [ unary main_arg3 main_v67 (broadcastInDim S1x16 ![1] bcast_S16_S1x16_1),
    unary main_v67 main_v68 (broadcastInDim S10000x16 ![0, 1] bcast_S1x16_S10000x16_0_1),
    binary main_v66 main_v68 main_v69 (addf),
    nullary main_call10_cst (constant S_ .f32 0x00000000#32),
    unary main_call10_cst main_call10_v0 (broadcastInDim S10000x16 ![] bcast_S_S10000x16),
    binary main_v69 main_call10_v0 main_v70 (maximumf),
    binary main_v70 main_arg4 main_v71 (fun l r => Host.dotGeneral dot_S10000x16_S16x40_S10000x40_1_0_0_1_n_n none l r) ]

abbrev ops11_W : List (Ref sig .tc) := [main_v67, main_v68, main_v69, main_call10_cst, main_call10_v0, main_v70, main_v71]

abbrev ops12 : List (HloOp τ sig (Elt F)) :=
  [ nullary main_cst_23 (constant S_ .f32 0x3F800000#32),
    unary main_cst_23 main_v72 (broadcastInDim S330000 ![] bcast_S_S330000),
    nullary main_cst_24 (constant S_ .f32 0x00000000#32),
    unary main_cst_24 main_v73 (broadcastInDim S10000 ![] bcast_S_S10000),
    unary main_v27 main_v74 (broadcastInDim S330000x1 ![0] bcast_S330000_S330000x1_0),
    ternary main_v73 main_v74 main_v72 main_v75 (fun x i u => Host.scatterAdd scatter_S10000_S330000x1_S330000_n_0_0_1 x i u),
    nullary main_cst_25 (constant S_ .f32 0x00000000#32),
    unary main_cst_25 main_v76 (broadcastInDim S10000 ![] bcast_S_S10000),
    binary main_v75 main_v76 main_v77 (cmpf .ogt),
    unary main_v75 main_v78 (Host.sqrt),
    nullary main_cst_26 (constant S_ .f32 0x3F800000#32),
    unary main_cst_26 main_v79 (broadcastInDim S10000 ![] bcast_S_S10000),
    binary main_v79 main_v78 main_v80 (Host.divf),
    nullary main_cst_27 (constant S_ .f32 0x00000000#32),
    unary main_cst_27 main_call11_v0 (id),
    unary main_call11_v0 main_call11_v1 (broadcastInDim S10000 ![] bcast_S_S10000),
    ternary main_v77 main_v80 main_call11_v1 main_v81 (select) ]

abbrev ops12_W : List (Ref sig .tc) := [main_cst_23, main_v72, main_cst_24, main_v73, main_v74, main_v75, main_cst_25, main_v76, main_v77, main_v78, main_cst_26, main_v79, main_v80, main_cst_27, main_call11_v0, main_call11_v1, main_v81]

abbrev ops13 : List (HloOp τ sig (Elt F)) :=
  [ nullary main_c_28 (constantI S_ 32 0#32),
    unary main_c_28 main_v82 (broadcastInDim S330000 ![] bcast_S_S330000),
    binary main_v26 main_v82 main_v83 (cmpi .slt),
    nullary main_c_29 (constantI S_ 32 10000#32),
    unary main_c_29 main_v84 (broadcastInDim S330000 ![] bcast_S_S330000),
    binary main_v26 main_v84 main_v85 (addi),
    ternary main_v83 main_v85 main_v26 main_v86 (select),
    unary main_v86 main_v87 (broadcastInDim S330000x1 ![0] bcast_S330000_S330000x1_0) ]

abbrev ops13_W : List (Ref sig .tc) := [main_c_28, main_v82, main_v83, main_c_29, main_v84, main_v85, main_v86, main_v87]

abbrev ops14 : List (HloOp τ sig (Elt F)) :=
  [ binary main_v81 main_v87 main_v88 (fun x i => Host.gather gather_S10000_S330000x1_S330000_n_0_n_n_0_1_1 x i),
    nullary main_c_30 (constantI S_ 32 0#32),
    unary main_c_30 main_v89 (broadcastInDim S330000 ![] bcast_S_S330000),
    binary main_v27 main_v89 main_v90 (cmpi .slt),
    nullary main_c_31 (constantI S_ 32 10000#32),
    unary main_c_31 main_v91 (broadcastInDim S330000 ![] bcast_S_S330000),
    binary main_v27 main_v91 main_v92 (addi),
    ternary main_v90 main_v92 main_v27 main_v93 (select),
    unary main_v93 main_v94 (broadcastInDim S330000x1 ![0] bcast_S330000_S330000x1_0),
    binary main_v81 main_v94 main_v95 (fun x i => Host.gather gather_S10000_S330000x1_S330000_n_0_n_n_0_1_1 x i),
    binary main_v88 main_v95 main_v96 (mulf) ]

abbrev ops14_W : List (Ref sig .tc) := [main_v88, main_c_30, main_v89, main_v90, main_c_31, main_v91, main_v92, main_v93, main_v94, main_v95, main_v96]

abbrev ops15 : List (HloOp τ sig (Elt F)) :=
  [ nullary main_c_32 (constantI S_ 32 0#32),
    unary main_c_32 main_v97 (broadcastInDim S330000 ![] bcast_S_S330000),
    binary main_v26 main_v97 main_v98 (cmpi .slt),
    nullary main_c_33 (constantI S_ 32 10000#32),
    unary main_c_33 main_v99 (broadcastInDim S330000 ![] bcast_S_S330000),
    binary main_v26 main_v99 main_v100 (addi),
    ternary main_v98 main_v100 main_v26 main_v101 (select),
    unary main_v101 main_v102 (broadcastInDim S330000x1 ![0] bcast_S330000_S330000x1_0),
    binary main_v71 main_v102 main_v103 (fun x i => Host.gather gather_S10000x40_S330000x1_S330000x40_1_0_n_n_0_1_140 x i),
    unary main_v96 main_v104 (broadcastInDim S330000x1 ![0] bcast_S330000_S330000x1_0),
    unary main_v104 main_v105 (broadcastInDim S330000x40 ![0, 1] bcast_S330000x1_S330000x40_0_1),
    binary main_v103 main_v105 main_v106 (mulf),
    nullary main_cst_34 (constant S_ .f32 0x00000000#32),
    unary main_cst_34 main_v107 (broadcastInDim S10000x40 ![] bcast_S_S10000x40),
    unary main_v27 main_v108 (broadcastInDim S330000x1 ![0] bcast_S330000_S330000x1_0),
    ternary main_v107 main_v108 main_v106 main_v109 (fun x i u => Host.scatterAdd scatter_S10000x40_S330000x1_S330000x40_1_0_0_1 x i u) ]

abbrev ops15_W : List (Ref sig .tc) := [main_c_32, main_v97, main_v98, main_c_33, main_v99, main_v100, main_v101, main_v102, main_v103, main_v104, main_v105, main_v106, main_cst_34, main_v107, main_v108, main_v109]

abbrev ops16 : List (HloOp τ sig (Elt F)) :=
  [ unary main_arg5 main_v110 (broadcastInDim S1x40 ![1] bcast_S40_S1x40_1),
    unary main_v110 main_v111 (broadcastInDim S10000x40 ![0, 1] bcast_S1x40_S10000x40_0_1),
    binary main_v109 main_v111 main_v112 (addf),
    nullary main_call12_cst (constant S_ .f32 0xFF800000#32),
    binary main_v112 main_call12_cst main_call12_v0 (fun x v => Host.reduce FloatOps.maximumf x v reducesTo_S10000x40_S10000_d1 h_S_),
    nullary main_call12_cst_0 (constant S_ .f32 0xFF800000#32),
    unary main_call12_cst_0 main_call12_v1 (broadcastInDim S10000 ![] bcast_S_S10000),
    binary main_call12_v1 main_call12_v0 main_call12_v2 (maximumf),
    unary main_call12_v2 main_call12_v3 (broadcastInDim S10000x1 ![0] bcast_S10000_S10000x1_0),
    unary main_call12_v3 main_call12_v4 (broadcastInDim S10000x40 ![0, 1] bcast_S10000x1_S10000x40_0_1),
    binary main_v112 main_call12_v4 main_call12_v5 (subf),
    unary main_call12_v5 main_call12_v6 (Host.exp),
    nullary main_call12_cst_1 (constant S_ .f32 0x00000000#32),
    binary main_call12_v6 main_call12_cst_1 main_call12_v7 (fun x v => Host.reduceAdd x v reducesTo_S10000x40_S10000_d1 h_S_),
    unary main_call12_v7 main_call12_v8 (broadcastInDim S10000x1 ![0] bcast_S10000_S10000x1_0),
    unary main_call12_v8 main_call12_v9 (Host.log),
    unary main_call12_v9 main_call12_v10 (broadcastInDim S10000x40 ![0, 1] bcast_S10000x1_S10000x40_0_1),
    binary main_call12_v5 main_call12_v10 main_v113 (subf) ]

abbrev ops16_W : List (Ref sig .tc) := [main_v110, main_v111, main_v112, main_call12_cst, main_call12_v0, main_call12_cst_0, main_call12_v1, main_call12_v2, main_call12_v3, main_call12_v4, main_call12_v5, main_call12_v6, main_call12_cst_1, main_call12_v7, main_call12_v8, main_call12_v9, main_call12_v10, main_v113]

end Cert.ReferenceIdeal.Hand

end
-- ==== Proof.RMain.lean ====
import proofs.«109387_g55946243997874_fold_wed_m_672_4_alg».proof.Defs
import proofs.«109387_g55946243997874_fold_wed_m_672_4_alg».proof.Proof.Gen.ReferenceIdeal
import proofs.«109387_g55946243997874_fold_wed_m_672_4_alg».proof.Proof.ROps
import Idealize.ShloMosaic.Lib.StableHlo.Run

noncomputable section

namespace Cert.ReferenceIdeal.Hand

open Idealize.ShloMosaic Idealize.ShloMosaic.TcCoe Idealize.SL.Sem Idealize.ShloMosaic.StableHlo Cert.ReferenceIdeal

abbrev Vl : Type := Valuation τ sig (Elt Ideal)

abbrev opsP0 : List (HloOp τ sig (Elt Ideal)) := ops0 ++ ops1 ++ ops2 ++ ops3 ++ ops4 ++ ops5 ++ ops6 ++ ops7 ++ ops8

abbrev opsP1 : List (HloOp τ sig (Elt Ideal)) := ops9 ++ ops10 ++ ops11 ++ ops12 ++ ops13

abbrev opsP2 : List (HloOp τ sig (Elt Ideal)) := ops14 ++ ops15 ++ ops16

abbrev ops : List (HloOp τ sig (Elt Ideal)) := opsP0 ++ opsP1 ++ opsP2

theorem after_append (l₁ l₂ : List (HloOp τ sig (Elt Ideal))) (V : Vl) : after (l₁ ++ l₂) V = after l₂ (after l₁ V) := by
  induction l₁ generalizing V with
  | nil => rfl
  | cons op l ih => simp only [List.cons_append, after_cons, ih]

theorem forall_append {α : Type} {p : α → Prop} {l₁ l₂ : List α} (h₁ : l₁.Forall p) (h₂ : l₂.Forall p) : (l₁ ++ l₂).Forall p := by
  rw [List.forall_iff_forall_mem] at *
  intro x hx
  rcases List.mem_append.mp hx with h | h
  · exact h₁ x h
  · exact h₂ x h

attribute [local irreducible] Host.reduceWindow Host.reduce Host.reduceAdd Host.scatter Host.scatterAdd Host.gather
  concatenate broadcastInDim shapeCast iotaInDim constant constantI addf subf mulf maximumf cmpf addi subi
  andi maxsi cmpi Host.divsi Host.remsi Host.divf Host.sqrt Host.exp Host.log signi extui select

set_option maxRecDepth 8192 in
set_option maxHeartbeats 4000000 in

theorem main_part0_eq (c : Dev nD) : main_part0 (F := Ideal) c = seq opsP0 := by
  simp only [main_part0, fn_cumsum.body, fn_cumsum_0.body, fn_clip.body, fn_cumsum_1.body, fn_cumsum_2.body,
    fn_floor_divide.body, fn_where.body, fn_remainder.body, fn_where_3.body, fn_where_4.body, fn_where_5.body,
    opsP0, ops0, ops1, ops2, ops3, ops4, ops5, ops6, ops7, ops8, List.cons_append, List.nil_append, seq, bind_assoc, pure_bind]
  rfl

set_option maxRecDepth 8192 in
set_option maxHeartbeats 4000000 in

theorem main_part1_eq (c : Dev nD) : main_part1 (F := Ideal) c = seq opsP1 := by
  simp only [main_part1, fn_relu.body, fn_where_5.body,
    opsP1, ops9, ops10, ops11, ops12, ops13, List.cons_append, List.nil_append, seq, bind_assoc, pure_bind]
  rfl

set_option maxRecDepth 8192 in
set_option maxHeartbeats 4000000 in

theorem main_part2_eq (c : Dev nD) : main_part2 (F := Ideal) c = seq opsP2 := by
  simp only [main_part2, fn_log_softmax.body,
    opsP2, ops14, ops15, ops16, List.cons_append, List.nil_append, seq, bind_assoc, pure_bind]
  rfl

theorem main_eq (c : Dev nD) : main (F := Ideal) c = seq ops := by
  simp only [ops, seq_append, ← main_part0_eq c, ← main_part1_eq c, ← main_part2_eq c, main, bind_assoc]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RRun.lean ====
import proofs.«109387_g55946243997874_fold_wed_m_672_4_alg».proof.Defs
import proofs.«109387_g55946243997874_fold_wed_m_672_4_alg».proof.Proof.Gen.ReferenceIdeal
import proofs.«109387_g55946243997874_fold_wed_m_672_4_alg».proof.Proof.Spec
import proofs.«109387_g55946243997874_fold_wed_m_672_4_alg».proof.Proof.RStages
import proofs.«109387_g55946243997874_fold_wed_m_672_4_alg».proof.Proof.RMain
import Idealize.ShloMosaic.Lib.StableHlo.Run

noncomputable section

namespace Cert.ReferenceIdeal.Hand

open Idealize.ShloMosaic Idealize.ShloMosaic.TcCoe Idealize.SL.Sem Idealize.ShloMosaic.StableHlo Cert.ReferenceIdeal

macro "writes_listed" : tactic =>
  `(tactic| (simp only [List.Forall, nullary_writes, unary_writes, binary_writes, ternary_writes, reshape_writes,
               Finset.singleton_subset_iff, List.mem_toFinset]
             repeat' apply And.intro
             all_goals exact List.mem_map_of_mem (by decide)))

macro "bufs_listed" : tactic =>
  `(tactic| simp only [List.Forall, nullary_bufs_sub, unary_bufs_sub, binary_bufs_sub, ternary_bufs_sub, reshape_bufs_sub, and_self])

macro "fresh_listed" : tactic =>
  `(tactic| (simp only [List.Forall]
             repeat' apply And.intro
             all_goals rfl))

structure Listed (l : List (HloOp τ sig (Elt Ideal))) (W : List (Ref sig .tc)) : Prop where
  writes : l.Forall fun op => op.writes ⊆ (W.map (Proc.devRef (τ := τ) .tc)).toFinset
  bufs : l.Forall fun op => op.bufs ⊆ tcRefs τ sig
  fresh : l.Forall fun op => op.fresh = ∅

theorem Listed.keep {l : List (HloOp τ sig (Elt Ideal))} {W : List (Ref sig .tc)} (hl : Listed l W) (V : Vl)
    (r : Ref sig .tc) (h : r ∉ W) : after l V (Proc.devRef .tc r) = V (Proc.devRef .tc r) :=
  after_of_writes_sub l V hl.writes h

theorem listed0 : Listed ops0 ops0_W := ⟨by writes_listed, by bufs_listed, by fresh_listed⟩
theorem listed1 : Listed ops1 ops1_W := ⟨by writes_listed, by bufs_listed, by fresh_listed⟩
theorem listed2 : Listed ops2 ops2_W := ⟨by writes_listed, by bufs_listed, by fresh_listed⟩
theorem listed3 : Listed ops3 ops3_W := ⟨by writes_listed, by bufs_listed, by fresh_listed⟩
theorem listed4 : Listed ops4 ops4_W := ⟨by writes_listed, by bufs_listed, by fresh_listed⟩
theorem listed5 : Listed ops5 ops5_W := ⟨by writes_listed, by bufs_listed, by fresh_listed⟩
theorem listed6 : Listed ops6 ops6_W := ⟨by writes_listed, by bufs_listed, by fresh_listed⟩
theorem listed7 : Listed ops7 ops7_W := ⟨by writes_listed, by bufs_listed, by fresh_listed⟩
theorem listed8 : Listed ops8 ops8_W := ⟨by writes_listed, by bufs_listed, by fresh_listed⟩
theorem listed9 : Listed ops9 ops9_W := ⟨by writes_listed, by bufs_listed, by fresh_listed⟩
theorem listed10 : Listed ops10 ops10_W := ⟨by writes_listed, by bufs_listed, by fresh_listed⟩
theorem listed11 : Listed ops11 ops11_W := ⟨by writes_listed, by bufs_listed, by fresh_listed⟩
theorem listed12 : Listed ops12 ops12_W := ⟨by writes_listed, by bufs_listed, by fresh_listed⟩
theorem listed13 : Listed ops13 ops13_W := ⟨by writes_listed, by bufs_listed, by fresh_listed⟩
theorem listed14 : Listed ops14 ops14_W := ⟨by writes_listed, by bufs_listed, by fresh_listed⟩
theorem listed15 : Listed ops15 ops15_W := ⟨by writes_listed, by bufs_listed, by fresh_listed⟩
theorem listed16 : Listed ops16 ops16_W := ⟨by writes_listed, by bufs_listed, by fresh_listed⟩

abbrev argRefs : List (Ref sig .tc) := [main_arg0, main_arg1, main_arg2, main_arg3, main_arg4, main_arg5]

abbrev aX (V0 : Vl) : Cert.Gcn.SX.Idx → EReal := V0 (Proc.devRef .tc main_arg0)
abbrev aA (V0 : Vl) : Cert.Gcn.SA.Idx → EReal := V0 (Proc.devRef .tc main_arg1)
abbrev aW1 (V0 : Vl) : Cert.Gcn.SW1.Idx → EReal := V0 (Proc.devRef .tc main_arg2)
abbrev aB1 (V0 : Vl) : Cert.Gcn.SB1.Idx → EReal := V0 (Proc.devRef .tc main_arg3)
abbrev aW2 (V0 : Vl) : Cert.Gcn.SW2.Idx → EReal := V0 (Proc.devRef .tc main_arg4)
abbrev aB2 (V0 : Vl) : Cert.Gcn.SB2.Idx → EReal := V0 (Proc.devRef .tc main_arg5)
abbrev aRows (V0 : Vl) : Cert.Gcn.SE.Idx → BitVec 32 := rowsT (aA V0)
abbrev aCols (V0 : Vl) : Cert.Gcn.SE.Idx → BitVec 32 := colsT (aA V0)

def val1 (V0 : Vl) : Vl := after ops0 V0
def val2 (V0 : Vl) : Vl := after ops1 (val1 V0)
def val3 (V0 : Vl) : Vl := after ops2 (val2 V0)
def val4 (V0 : Vl) : Vl := after ops3 (val3 V0)
def val5 (V0 : Vl) : Vl := after ops4 (val4 V0)
def val6 (V0 : Vl) : Vl := after ops5 (val5 V0)
def val7 (V0 : Vl) : Vl := after ops6 (val6 V0)
def val8 (V0 : Vl) : Vl := after ops7 (val7 V0)
def val9 (V0 : Vl) : Vl := after ops8 (val8 V0)
def val10 (V0 : Vl) : Vl := after ops9 (val9 V0)
def val11 (V0 : Vl) : Vl := after ops10 (val10 V0)
def val12 (V0 : Vl) : Vl := after ops11 (val11 V0)
def val13 (V0 : Vl) : Vl := after ops12 (val12 V0)
def val14 (V0 : Vl) : Vl := after ops13 (val13 V0)
def val15 (V0 : Vl) : Vl := after ops14 (val14 V0)
def val16 (V0 : Vl) : Vl := after ops15 (val15 V0)
def val17 (V0 : Vl) : Vl := after ops16 (val16 V0)

theorem val1_args (V0 : Vl) : ∀ r ∈ argRefs, val1 V0 (Proc.devRef .tc r) = V0 (Proc.devRef .tc r) :=
  fun r hr => listed0.keep V0 r ((by decide : ∀ r ∈ argRefs, r ∉ ops0_W) r hr)
theorem val2_args (V0 : Vl) : ∀ r ∈ argRefs, val2 V0 (Proc.devRef .tc r) = V0 (Proc.devRef .tc r) :=
  fun r hr => (listed1.keep (val1 V0) r ((by decide : ∀ r ∈ argRefs, r ∉ ops1_W) r hr)).trans (val1_args V0 r hr)
theorem val3_args (V0 : Vl) : ∀ r ∈ argRefs, val3 V0 (Proc.devRef .tc r) = V0 (Proc.devRef .tc r) :=
  fun r hr => (listed2.keep (val2 V0) r ((by decide : ∀ r ∈ argRefs, r ∉ ops2_W) r hr)).trans (val2_args V0 r hr)
theorem val4_args (V0 : Vl) : ∀ r ∈ argRefs, val4 V0 (Proc.devRef .tc r) = V0 (Proc.devRef .tc r) :=
  fun r hr => (listed3.keep (val3 V0) r ((by decide : ∀ r ∈ argRefs, r ∉ ops3_W) r hr)).trans (val3_args V0 r hr)
theorem val5_args (V0 : Vl) : ∀ r ∈ argRefs, val5 V0 (Proc.devRef .tc r) = V0 (Proc.devRef .tc r) :=
  fun r hr => (listed4.keep (val4 V0) r ((by decide : ∀ r ∈ argRefs, r ∉ ops4_W) r hr)).trans (val4_args V0 r hr)
theorem val6_args (V0 : Vl) : ∀ r ∈ argRefs, val6 V0 (Proc.devRef .tc r) = V0 (Proc.devRef .tc r) :=
  fun r hr => (listed5.keep (val5 V0) r ((by decide : ∀ r ∈ argRefs, r ∉ ops5_W) r hr)).trans (val5_args V0 r hr)
theorem val7_args (V0 : Vl) : ∀ r ∈ argRefs, val7 V0 (Proc.devRef .tc r) = V0 (Proc.devRef .tc r) :=
  fun r hr => (listed6.keep (val6 V0) r ((by decide : ∀ r ∈ argRefs, r ∉ ops6_W) r hr)).trans (val6_args V0 r hr)
theorem val8_args (V0 : Vl) : ∀ r ∈ argRefs, val8 V0 (Proc.devRef .tc r) = V0 (Proc.devRef .tc r) :=
  fun r hr => (listed7.keep (val7 V0) r ((by decide : ∀ r ∈ argRefs, r ∉ ops7_W) r hr)).trans (val7_args V0 r hr)
theorem val9_args (V0 : Vl) : ∀ r ∈ argRefs, val9 V0 (Proc.devRef .tc r) = V0 (Proc.devRef .tc r) :=
  fun r hr => (listed8.keep (val8 V0) r ((by decide : ∀ r ∈ argRefs, r ∉ ops8_W) r hr)).trans (val8_args V0 r hr)
theorem val10_args (V0 : Vl) : ∀ r ∈ argRefs, val10 V0 (Proc.devRef .tc r) = V0 (Proc.devRef .tc r) :=
  fun r hr => (listed9.keep (val9 V0) r ((by decide : ∀ r ∈ argRefs, r ∉ ops9_W) r hr)).trans (val9_args V0 r hr)
theorem val11_args (V0 : Vl) : ∀ r ∈ argRefs, val11 V0 (Proc.devRef .tc r) = V0 (Proc.devRef .tc r) :=
  fun r hr => (listed10.keep (val10 V0) r ((by decide : ∀ r ∈ argRefs, r ∉ ops10_W) r hr)).trans (val10_args V0 r hr)
theorem val12_args (V0 : Vl) : ∀ r ∈ argRefs, val12 V0 (Proc.devRef .tc r) = V0 (Proc.devRef .tc r) :=
  fun r hr => (listed11.keep (val11 V0) r ((by decide : ∀ r ∈ argRefs, r ∉ ops11_W) r hr)).trans (val11_args V0 r hr)
theorem val13_args (V0 : Vl) : ∀ r ∈ argRefs, val13 V0 (Proc.devRef .tc r) = V0 (Proc.devRef .tc r) :=
  fun r hr => (listed12.keep (val12 V0) r ((by decide : ∀ r ∈ argRefs, r ∉ ops12_W) r hr)).trans (val12_args V0 r hr)
theorem val14_args (V0 : Vl) : ∀ r ∈ argRefs, val14 V0 (Proc.devRef .tc r) = V0 (Proc.devRef .tc r) :=
  fun r hr => (listed13.keep (val13 V0) r ((by decide : ∀ r ∈ argRefs, r ∉ ops13_W) r hr)).trans (val13_args V0 r hr)
theorem val15_args (V0 : Vl) : ∀ r ∈ argRefs, val15 V0 (Proc.devRef .tc r) = V0 (Proc.devRef .tc r) :=
  fun r hr => (listed14.keep (val14 V0) r ((by decide : ∀ r ∈ argRefs, r ∉ ops14_W) r hr)).trans (val14_args V0 r hr)
theorem val16_args (V0 : Vl) : ∀ r ∈ argRefs, val16 V0 (Proc.devRef .tc r) = V0 (Proc.devRef .tc r) :=
  fun r hr => (listed15.keep (val15 V0) r ((by decide : ∀ r ∈ argRefs, r ∉ ops15_W) r hr)).trans (val15_args V0 r hr)
theorem val17_args (V0 : Vl) : ∀ r ∈ argRefs, val17 V0 (Proc.devRef .tc r) = V0 (Proc.devRef .tc r) :=
  fun r hr => (listed16.keep (val16 V0) r ((by decide : ∀ r ∈ argRefs, r ∉ ops16_W) r hr)).trans (val16_args V0 r hr)

attribute [local irreducible] Host.reduceWindow Host.reduce Host.reduceAdd Host.scatter Host.scatterAdd Host.gather concatenate
  broadcastInDim shapeCast iotaInDim constant constantI addf subf mulf maximumf cmpf addi subi andi maxsi cmpi
  Host.divsi Host.remsi Host.divf Host.sqrt Host.exp Host.log signi extui select

theorem val1_v1 (V0 : Vl) : val1 V0 (no_index (Proc.devRef .tc main_v1)) = res_v1 (aA V0) := by
  unfold val1
  simp only [ops0]
  after_results_simp
  rfl
theorem val1_v2 (V0 : Vl) : val1 V0 (no_index (Proc.devRef .tc main_v2)) = res_v2 (aA V0) := by
  unfold val1
  simp only [ops0]
  after_results_simp
  rfl

theorem val2_v1 (V0 : Vl) : val2 V0 (no_index (Proc.devRef .tc main_v1)) = res_v1 (aA V0) :=
  (listed1.keep (val1 V0) main_v1 (by decide)).trans (val1_v1 V0)
theorem val2_v13 (V0 : Vl) : val2 V0 (no_index (Proc.devRef .tc main_v13)) = res_v13 (aA V0) := by
  unfold val2
  simp only [ops1]
  after_results_simp
  simp only [val1_v2 V0]
  rfl

theorem val3_v1 (V0 : Vl) : val3 V0 (no_index (Proc.devRef .tc main_v1)) = res_v1 (aA V0) :=
  (listed2.keep (val2 V0) main_v1 (by decide)).trans (val2_v1 V0)
theorem val3_v13 (V0 : Vl) : val3 V0 (no_index (Proc.devRef .tc main_v13)) = res_v13 (aA V0) :=
  (listed2.keep (val2 V0) main_v13 (by decide)).trans (val2_v13 V0)
theorem val3_v14 (V0 : Vl) : val3 V0 (no_index (Proc.devRef .tc main_v14)) = res_v14 (aA V0) := by
  unfold val3
  simp only [ops2]
  after_results_simp
  simp only [val2_v13 V0]
  rfl

theorem val4_v1 (V0 : Vl) : val4 V0 (no_index (Proc.devRef .tc main_v1)) = res_v1 (aA V0) :=
  (listed3.keep (val3 V0) main_v1 (by decide)).trans (val3_v1 V0)
theorem val4_v13 (V0 : Vl) : val4 V0 (no_index (Proc.devRef .tc main_v13)) = res_v13 (aA V0) :=
  (listed3.keep (val3 V0) main_v13 (by decide)).trans (val3_v13 V0)
theorem val4_v15 (V0 : Vl) : val4 V0 (no_index (Proc.devRef .tc main_v15)) = res_v15 (aA V0) := by
  unfold val4
  simp only [ops3]
  after_results_simp
  simp only [val3_v14 V0]
  rfl

theorem val5_v1 (V0 : Vl) : val5 V0 (no_index (Proc.devRef .tc main_v1)) = res_v1 (aA V0) :=
  (listed4.keep (val4 V0) main_v1 (by decide)).trans (val4_v1 V0)
theorem val5_v15 (V0 : Vl) : val5 V0 (no_index (Proc.devRef .tc main_v15)) = res_v15 (aA V0) :=
  (listed4.keep (val4 V0) main_v15 (by decide)).trans (val4_v15 V0)
theorem val5_v16 (V0 : Vl) : val5 V0 (no_index (Proc.devRef .tc main_v16)) = res_v16 (aA V0) := by
  unfold val5
  simp only [ops4]
  after_results_simp
  simp only [val4_v13 V0]
  rfl

theorem val6_v1 (V0 : Vl) : val6 V0 (no_index (Proc.devRef .tc main_v1)) = res_v1 (aA V0) :=
  (listed5.keep (val5 V0) main_v1 (by decide)).trans (val5_v1 V0)
theorem val6_v15 (V0 : Vl) : val6 V0 (no_index (Proc.devRef .tc main_v15)) = res_v15 (aA V0) :=
  (listed5.keep (val5 V0) main_v15 (by decide)).trans (val5_v15 V0)
theorem val6_v17 (V0 : Vl) : val6 V0 (no_index (Proc.devRef .tc main_v17)) = res_v17 (aA V0) := by
  unfold val6
  simp only [ops5]
  after_results_simp
  simp only [val5_v16 V0]
  rfl

theorem val7_v26 (V0 : Vl) : val7 V0 (no_index (Proc.devRef .tc main_v26)) = aRows V0 := by
  unfold val7
  simp only [ops6]
  after_results
  rw [val6_v1 V0, val6_v15 V0]
  rfl
theorem val7_v27 (V0 : Vl) : val7 V0 (no_index (Proc.devRef .tc main_v27)) = aCols V0 := by
  unfold val7
  simp only [ops6]
  after_results
  rw [val6_v1 V0, val6_v17 V0]
  rfl

theorem val8_v26 (V0 : Vl) : val8 V0 (no_index (Proc.devRef .tc main_v26)) = aRows V0 :=
  (listed7.keep (val7 V0) main_v26 (by decide)).trans (val7_v26 V0)
theorem val8_v27 (V0 : Vl) : val8 V0 (no_index (Proc.devRef .tc main_v27)) = aCols V0 :=
  (listed7.keep (val7 V0) main_v27 (by decide)).trans (val7_v27 V0)
theorem val8_v28 (V0 : Vl) : val8 V0 (no_index (Proc.devRef .tc main_v28)) = res_v28 (aX V0) (aW1 V0) := by
  unfold val8
  simp only [ops7]
  after_results_simp
  simp only [val7_args V0 main_arg0 (by decide), val7_args V0 main_arg2 (by decide)]
  rfl
theorem val8_v38 (V0 : Vl) : val8 V0 (no_index (Proc.devRef .tc main_v38)) = res_v38 (aCols V0) := by
  unfold val8
  simp only [ops7]
  after_results_simp
  simp only [val7_v27 V0]
  rfl

theorem val9_v26 (V0 : Vl) : val9 V0 (no_index (Proc.devRef .tc main_v26)) = aRows V0 :=
  (listed8.keep (val8 V0) main_v26 (by decide)).trans (val8_v26 V0)
theorem val9_v27 (V0 : Vl) : val9 V0 (no_index (Proc.devRef .tc main_v27)) = aCols V0 :=
  (listed8.keep (val8 V0) main_v27 (by decide)).trans (val8_v27 V0)
theorem val9_v28 (V0 : Vl) : val9 V0 (no_index (Proc.devRef .tc main_v28)) = res_v28 (aX V0) (aW1 V0) :=
  (listed8.keep (val8 V0) main_v28 (by decide)).trans (val8_v28 V0)
theorem val9_v38 (V0 : Vl) : val9 V0 (no_index (Proc.devRef .tc main_v38)) = res_v38 (aCols V0) :=
  (listed8.keep (val8 V0) main_v38 (by decide)).trans (val8_v38 V0)
theorem val9_v40 (V0 : Vl) : val9 V0 (no_index (Proc.devRef .tc main_v40)) = res_v40 (aRows V0) := by
  unfold val9
  simp only [ops8]
  after_results_simp
  simp only [val8_v26 V0]
  rfl

theorem val10_v26 (V0 : Vl) : val10 V0 (no_index (Proc.devRef .tc main_v26)) = aRows V0 :=
  (listed9.keep (val9 V0) main_v26 (by decide)).trans (val9_v26 V0)
theorem val10_v27 (V0 : Vl) : val10 V0 (no_index (Proc.devRef .tc main_v27)) = aCols V0 :=
  (listed9.keep (val9 V0) main_v27 (by decide)).trans (val9_v27 V0)
theorem val10_v28 (V0 : Vl) : val10 V0 (no_index (Proc.devRef .tc main_v28)) = res_v28 (aX V0) (aW1 V0) :=
  (listed9.keep (val9 V0) main_v28 (by decide)).trans (val9_v28 V0)
theorem val10_v53 (V0 : Vl) : val10 V0 (no_index (Proc.devRef .tc main_v53)) = res_v53 (aRows V0) (aCols V0) := by
  unfold val10
  simp only [ops9]
  after_results_simp
  simp only [val9_v26 V0, val9_v27 V0, val9_v38 V0, val9_v40 V0]
  rfl

theorem val11_v26 (V0 : Vl) : val11 V0 (no_index (Proc.devRef .tc main_v26)) = aRows V0 :=
  (listed10.keep (val10 V0) main_v26 (by decide)).trans (val10_v26 V0)
theorem val11_v27 (V0 : Vl) : val11 V0 (no_index (Proc.devRef .tc main_v27)) = aCols V0 :=
  (listed10.keep (val10 V0) main_v27 (by decide)).trans (val10_v27 V0)
theorem val11_v66 (V0 : Vl) : val11 V0 (no_index (Proc.devRef .tc main_v66)) = res_v66 (aX V0) (aW1 V0) (aRows V0) (aCols V0) := by
  unfold val11
  simp only [ops10]
  after_results_simp
  simp only [val10_v26 V0, val10_v27 V0, val10_v28 V0, val10_v53 V0]
  rfl

theorem val12_v26 (V0 : Vl) : val12 V0 (no_index (Proc.devRef .tc main_v26)) = aRows V0 :=
  (listed11.keep (val11 V0) main_v26 (by decide)).trans (val11_v26 V0)
theorem val12_v27 (V0 : Vl) : val12 V0 (no_index (Proc.devRef .tc main_v27)) = aCols V0 :=
  (listed11.keep (val11 V0) main_v27 (by decide)).trans (val11_v27 V0)
theorem val12_v71 (V0 : Vl) : val12 V0 (no_index (Proc.devRef .tc main_v71)) = res_v71 (aX V0) (aW1 V0) (aB1 V0) (aW2 V0) (aRows V0) (aCols V0) := by
  unfold val12
  simp only [ops11]
  after_results_simp
  simp only [val11_v66 V0, val11_args V0 main_arg3 (by decide), val11_args V0 main_arg4 (by decide)]
  rfl

theorem val13_v26 (V0 : Vl) : val13 V0 (no_index (Proc.devRef .tc main_v26)) = aRows V0 :=
  (listed12.keep (val12 V0) main_v26 (by decide)).trans (val12_v26 V0)
theorem val13_v27 (V0 : Vl) : val13 V0 (no_index (Proc.devRef .tc main_v27)) = aCols V0 :=
  (listed12.keep (val12 V0) main_v27 (by decide)).trans (val12_v27 V0)
theorem val13_v71 (V0 : Vl) : val13 V0 (no_index (Proc.devRef .tc main_v71)) = res_v71 (aX V0) (aW1 V0) (aB1 V0) (aW2 V0) (aRows V0) (aCols V0) :=
  (listed12.keep (val12 V0) main_v71 (by decide)).trans (val12_v71 V0)
theorem val13_v81 (V0 : Vl) : val13 V0 (no_index (Proc.devRef .tc main_v81)) = res_v81 (aCols V0) := by
  unfold val13
  simp only [ops12]
  after_results_simp
  simp only [val12_v27 V0]
  rfl

theorem val14_v26 (V0 : Vl) : val14 V0 (no_index (Proc.devRef .tc main_v26)) = aRows V0 :=
  (listed13.keep (val13 V0) main_v26 (by decide)).trans (val13_v26 V0)
theorem val14_v27 (V0 : Vl) : val14 V0 (no_index (Proc.devRef .tc main_v27)) = aCols V0 :=
  (listed13.keep (val13 V0) main_v27 (by decide)).trans (val13_v27 V0)
theorem val14_v71 (V0 : Vl) : val14 V0 (no_index (Proc.devRef .tc main_v71)) = res_v71 (aX V0) (aW1 V0) (aB1 V0) (aW2 V0) (aRows V0) (aCols V0) :=
  (listed13.keep (val13 V0) main_v71 (by decide)).trans (val13_v71 V0)
theorem val14_v81 (V0 : Vl) : val14 V0 (no_index (Proc.devRef .tc main_v81)) = res_v81 (aCols V0) :=
  (listed13.keep (val13 V0) main_v81 (by decide)).trans (val13_v81 V0)
theorem val14_v87 (V0 : Vl) : val14 V0 (no_index (Proc.devRef .tc main_v87)) = res_v87 (aRows V0) := by
  unfold val14
  simp only [ops13]
  after_results_simp
  simp only [val13_v26 V0]
  rfl

theorem val15_v26 (V0 : Vl) : val15 V0 (no_index (Proc.devRef .tc main_v26)) = aRows V0 :=
  (listed14.keep (val14 V0) main_v26 (by decide)).trans (val14_v26 V0)
theorem val15_v27 (V0 : Vl) : val15 V0 (no_index (Proc.devRef .tc main_v27)) = aCols V0 :=
  (listed14.keep (val14 V0) main_v27 (by decide)).trans (val14_v27 V0)
theorem val15_v71 (V0 : Vl) : val15 V0 (no_index (Proc.devRef .tc main_v71)) = res_v71 (aX V0) (aW1 V0) (aB1 V0) (aW2 V0) (aRows V0) (aCols V0) :=
  (listed14.keep (val14 V0) main_v71 (by decide)).trans (val14_v71 V0)
theorem val15_v96 (V0 : Vl) : val15 V0 (no_index (Proc.devRef .tc main_v96)) = res_v96 (aRows V0) (aCols V0) := by
  unfold val15
  simp only [ops14]
  after_results_simp
  simp only [val14_v27 V0, val14_v81 V0, val14_v87 V0]
  rfl

theorem val16_v109 (V0 : Vl) : val16 V0 (no_index (Proc.devRef .tc main_v109)) = res_v109 (aX V0) (aW1 V0) (aB1 V0) (aW2 V0) (aRows V0) (aCols V0) := by
  unfold val16
  simp only [ops15]
  after_results_simp
  simp only [val15_v26 V0, val15_v27 V0, val15_v71 V0, val15_v96 V0]
  rfl

theorem val17_v113 (V0 : Vl) : val17 V0 (no_index (Proc.devRef .tc main_v113)) = refOut (aX V0) (aA V0) (aW1 V0) (aB1 V0) (aW2 V0) (aB2 V0) := by
  unfold val17
  simp only [ops16]
  after_results_simp
  simp only [val16_v109 V0, val16_args V0 main_arg5 (by decide)]
  rfl

theorem after_ops (V0 : Vl) : after ops V0 = val17 V0 := by
  simp only [ops, opsP0, opsP1, opsP2, after_append]
  rfl

theorem opsP0_sub : (opsP0 : List (HloOp τ sig (Elt Ideal))).Forall fun op => op.bufs ⊆ tcRefs τ sig :=
  forall_append (forall_append (forall_append (forall_append (forall_append (forall_append (forall_append (forall_append
    listed0.bufs listed1.bufs) listed2.bufs) listed3.bufs) listed4.bufs) listed5.bufs) listed6.bufs) listed7.bufs) listed8.bufs
theorem opsP1_sub : (opsP1 : List (HloOp τ sig (Elt Ideal))).Forall fun op => op.bufs ⊆ tcRefs τ sig :=
  forall_append (forall_append (forall_append (forall_append listed9.bufs listed10.bufs) listed11.bufs) listed12.bufs) listed13.bufs
theorem opsP2_sub : (opsP2 : List (HloOp τ sig (Elt Ideal))).Forall fun op => op.bufs ⊆ tcRefs τ sig :=
  forall_append (forall_append listed14.bufs listed15.bufs) listed16.bufs
theorem ops_sub : (ops : List (HloOp τ sig (Elt Ideal))).Forall fun op => op.bufs ⊆ tcRefs τ sig :=
  forall_append (forall_append opsP0_sub opsP1_sub) opsP2_sub

theorem opsP0_fresh : (opsP0 : List (HloOp τ sig (Elt Ideal))).Forall fun op => op.fresh = ∅ :=
  forall_append (forall_append (forall_append (forall_append (forall_append (forall_append (forall_append (forall_append
    listed0.fresh listed1.fresh) listed2.fresh) listed3.fresh) listed4.fresh) listed5.fresh) listed6.fresh) listed7.fresh) listed8.fresh
theorem opsP1_fresh : (opsP1 : List (HloOp τ sig (Elt Ideal))).Forall fun op => op.fresh = ∅ :=
  forall_append (forall_append (forall_append (forall_append listed9.fresh listed10.fresh) listed11.fresh) listed12.fresh) listed13.fresh
theorem opsP2_fresh : (opsP2 : List (HloOp τ sig (Elt Ideal))).Forall fun op => op.fresh = ∅ :=
  forall_append (forall_append listed14.fresh listed15.fresh) listed16.fresh
theorem ops_fresh : ∀ op ∈ (ops : List (HloOp τ sig (Elt Ideal))), op.fresh = ∅ :=
  List.forall_iff_forall_mem.mp (forall_append (forall_append opsP0_fresh opsP1_fresh) opsP2_fresh)

/-- The reference's operations in order leave in its result array the stage functions' composite of the arguments, which stay as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v113) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c =>
      ⟨(h c main_v113).trans ((congrFun (after_ops _) _).trans (val17_v113 _)),
       (h c main_arg0).trans ((congrFun (after_ops _) _).trans (val17_args _ main_arg0 (by decide))),
       (h c main_arg1).trans ((congrFun (after_ops _) _).trans (val17_args _ main_arg1 (by decide))),
       (h c main_arg2).trans ((congrFun (after_ops _) _).trans (val17_args _ main_arg2 (by decide))),
       (h c main_arg3).trans ((congrFun (after_ops _) _).trans (val17_args _ main_arg3 (by decide))),
       (h c main_arg4).trans ((congrFun (after_ops _) _).trans (val17_args _ main_arg4 (by decide))),
       (h c main_arg5).trans ((congrFun (after_ops _) _).trans (val17_args _ main_arg5 (by decide)))⟩)
    (run_seq scopedRefs_eq scopedSems_eq (defs (F := Ideal)) (main (F := Ideal)) (fun _ => ops) main_eq (fun _ => ops_sub) m ρ
      (fun _ => ops_fresh))

end Cert.ReferenceIdeal.Hand

end
-- ==== Proof.LibNthTrue.lean ====
import Mathlib.Data.Nat.Nth
import Mathlib.Algebra.BigOperators.Group.Finset.Basic
import Mathlib.Algebra.BigOperators.Fin

namespace Cert.NthTrue

open Finset

section Line

variable (p : ℕ → Prop) [DecidablePred p] (N s : ℕ)

theorem lt_card_of_lt_count {p : ℕ → Prop} [DecidablePred p] {N s : ℕ} (hs : s < Nat.count p N) :
    ∀ hf : (Set.ofPred p).Finite, s < #hf.toFinset :=
  fun hf => hs.trans_le (Nat.count_le_card hf N)

theorem nth_lt_of_lt_count (hs : s < Nat.count p N) : Nat.nth p s < N ∧ p (Nat.nth p s) :=
  ⟨Nat.nth_lt_of_lt_count hs, Nat.nth_mem s (lt_card_of_lt_count hs)⟩

theorem count_succ_le_iff_lt_nth (hs : s < Nat.count p N) (k : ℕ) :
    Nat.count p (k + 1) ≤ s ↔ k < Nat.nth p s := by
  have h := lt_card_of_lt_count hs
  constructor
  ·
    intro hle
    by_contra hk
    have hk' : Nat.nth p s + 1 ≤ k + 1 := by omega
    have hmono := Nat.count_monotone p hk'
    rw [Nat.count_nth_succ h] at hmono
    omega
  ·
    intro hk
    exact Nat.le_nth_of_count_le (Nat.succ_le_of_lt hk)

theorem card_prefix_le_of_lt (hs : s < Nat.count p N) :
    ((Finset.range N).filter fun k => Nat.count p (k + 1) ≤ s).card = Nat.nth p s := by
  have hN := (nth_lt_of_lt_count p N s hs).1
  have hset : ((Finset.range N).filter fun k => Nat.count p (k + 1) ≤ s) = Finset.range (Nat.nth p s) := by
    ext k
    simp only [Finset.mem_filter, Finset.mem_range, count_succ_le_iff_lt_nth p N s hs k]
    omega
  rw [hset, Finset.card_range]

theorem sum_card_prefix_eq :
    ∑ t ∈ Finset.range (s + 1), ((Finset.range N).filter fun k => Nat.count p (k + 1) = t).card
      = ((Finset.range N).filter fun k => Nat.count p (k + 1) ≤ s).card := by
  symm

  refine (Finset.card_eq_sum_card_fiberwise (f := fun k => Nat.count p (k + 1))
    (t := Finset.range (s + 1)) ?_).trans ?_
  · intro k hk
    simp only [Finset.mem_coe, Finset.mem_filter, Finset.mem_range] at hk ⊢
    omega
  · refine Finset.sum_congr rfl fun t ht => ?_
    congr 1
    ext k
    simp only [Finset.mem_filter, Finset.mem_range] at ht ⊢
    constructor
    · rintro ⟨⟨hk, _⟩, he⟩
      exact ⟨hk, he⟩
    · rintro ⟨hk, he⟩
      exact ⟨⟨hk, by omega⟩, he⟩

theorem sum_nth_eq_sum_filter {M : Type*} [AddCommMonoid M] (f : ℕ → M) :
    ∑ s ∈ Finset.range (Nat.count p N), f (Nat.nth p s) = ∑ k ∈ (Finset.range N).filter p, f k := by

  refine Finset.sum_nbij' (fun s => Nat.nth p s) (fun k => Nat.count p k) ?_ ?_ ?_ ?_ ?_
  · intro s hs
    have hs' := Finset.mem_range.1 hs
    exact Finset.mem_filter.2
      ⟨Finset.mem_range.2 (Nat.nth_lt_of_lt_count hs'), Nat.nth_mem s (lt_card_of_lt_count hs')⟩
  · intro k hk
    obtain ⟨hk, hpk⟩ := Finset.mem_filter.1 hk
    exact Finset.mem_range.2 (Nat.count_strict_mono hpk (Finset.mem_range.1 hk))
  · intro s hs
    exact Nat.count_nth (lt_card_of_lt_count (Finset.mem_range.1 hs))
  · intro k hk
    exact Nat.nth_count (Finset.mem_filter.1 hk).2
  · intro s _
    rfl

end Line

section Table

theorem sum_range_mul {M : Type*} [AddCommMonoid M] (R C : ℕ) (g : ℕ → M) :
    ∑ k ∈ Finset.range (R * C), g k = ∑ i ∈ Finset.range R, ∑ j ∈ Finset.range C, g (i * C + j) := by
  induction R with
  | zero => simp
  | succ R ih => rw [Nat.add_one_mul, Finset.sum_range_add, ih, Finset.sum_range_succ]

theorem div_mod_mulAdd {R C : ℕ} (i : Fin R) (j : Fin C) :
    ((i : ℕ) * C + j) / C = i ∧ ((i : ℕ) * C + j) % C = j := by
  have hC : 0 < C := Nat.pos_of_ne_zero fun h => by have := j.2; omega
  constructor
  · rw [Nat.add_comm, Nat.add_mul_div_right _ _ hC, Nat.div_eq_of_lt j.2, Nat.zero_add]
  · rw [Nat.add_comm, Nat.add_mul_mod_self_right, Nat.mod_eq_of_lt j.2]

theorem sum_nth_mulAdd {M : Type*} [AddCommMonoid M] (R C : ℕ) (p : ℕ → Prop) [DecidablePred p] (F : ℕ → M)
    (q : Fin R → Fin C → Prop) [∀ i j, Decidable (q i j)] (f : Fin R → Fin C → M)
    (hp : ∀ (i : Fin R) (j : Fin C), p ((i : ℕ) * C + j) ↔ q i j)
    (hF : ∀ (i : Fin R) (j : Fin C), q i j → F ((i : ℕ) * C + j) = f i j) :
    ∑ s ∈ Finset.range (Nat.count p (R * C)), F (Nat.nth p s) = ∑ i, ∑ j, if q i j then f i j else 0 := by
  rw [sum_nth_eq_sum_filter p (R * C) F, Finset.sum_filter, sum_range_mul, Finset.sum_range]
  refine Finset.sum_congr rfl fun i _ => ?_
  rw [Finset.sum_range]
  refine Finset.sum_congr rfl fun j _ => ?_
  by_cases h : q i j
  · rw [if_pos h, if_pos ((hp i j).2 h), hF i j h]
  · rw [if_neg h, if_neg (mt (hp i j).1 h)]

theorem sum_nth_divmod {M : Type*} [AddCommMonoid M] (R C : ℕ) (p : ℕ → Prop) [DecidablePred p] (F : ℕ → M)
    (q : Fin R → Fin C → Prop) [∀ i j, Decidable (q i j)] (f : Fin R → Fin C → M)
    (hp : ∀ (k : ℕ) (hr : k / C < R) (hc : k % C < C), p k ↔ q ⟨k / C, hr⟩ ⟨k % C, hc⟩)
    (hF : ∀ (k : ℕ) (hr : k / C < R) (hc : k % C < C), q ⟨k / C, hr⟩ ⟨k % C, hc⟩ → F k = f ⟨k / C, hr⟩ ⟨k % C, hc⟩) :
    ∑ s ∈ Finset.range (Nat.count p (R * C)), F (Nat.nth p s) = ∑ i, ∑ j, if q i j then f i j else 0 := by
  refine sum_nth_mulAdd R C p F q f (fun i j => ?_) (fun i j hq => ?_)
  · obtain ⟨hd, hm⟩ := div_mod_mulAdd i j
    have hr : ((i : ℕ) * C + j) / C < R := by rw [hd]; exact i.2
    have hc : ((i : ℕ) * C + j) % C < C := by rw [hm]; exact j.2
    have e1 : (⟨((i : ℕ) * C + j) / C, hr⟩ : Fin R) = i := Fin.ext hd
    have e2 : (⟨((i : ℕ) * C + j) % C, hc⟩ : Fin C) = j := Fin.ext hm
    have h := hp _ hr hc
    rw [e1, e2] at h
    exact h
  · obtain ⟨hd, hm⟩ := div_mod_mulAdd i j
    have hr : ((i : ℕ) * C + j) / C < R := by rw [hd]; exact i.2
    have hc : ((i : ℕ) * C + j) % C < C := by rw [hm]; exact j.2
    have e1 : (⟨((i : ℕ) * C + j) / C, hr⟩ : Fin R) = i := Fin.ext hd
    have e2 : (⟨((i : ℕ) * C + j) % C, hc⟩ : Fin C) = j := Fin.ext hm
    have h := hF _ hr hc
    rw [e1, e2] at h
    exact h hq

end Table

end Cert.NthTrue
-- ==== Proof.LibCumsum.lean ====
import Idealize.ShloMosaic.PureOps.Ideal
import Idealize.ShloMosaic.Lib.ValueIdx
import Mathlib.Data.BitVec
import Mathlib.Data.Nat.Count
import Mathlib.Algebra.BigOperators.Fin
import Mathlib.Algebra.BigOperators.Intervals

namespace Cert.LibCumsum

open Idealize.ShloMosaic Idealize.ShloMosaic.ValueIdx

theorem foldl_add_eq_sum {M ι : Type*} [AddCommMonoid M] (g : ι → M) (l : List ι) (v : M) :
    l.foldl (fun r n => r + g n) v = v + (l.map g).sum := by
  induction l generalizing v with
  | nil => simp
  | cons a l ih => simp [List.foldl_cons, ih, add_assoc]

theorem sum_range_shift {M : Type*} [AddCommMonoid M] (c d : ℕ) (g : ℕ → M) :
    ∑ n ∈ Finset.range (c + d), (if c ≤ n then g (n - c) else 0) = ∑ i ∈ Finset.range d, g i := by
  rw [Finset.sum_range_add]
  rw [Finset.sum_eq_zero (fun n hn => by rw [if_neg (by have := Finset.mem_range.1 hn; omega)]), zero_add]
  refine Finset.sum_congr rfl (fun i _ => ?_)
  rw [if_pos (by omega), Nat.add_sub_cancel_left]

theorem sum_range_initial {M : Type*} [AddCommMonoid M] (c d : ℕ) (g : ℕ → M) :
    ∑ n ∈ Finset.range (d + c), (if n < d then g n else 0) = ∑ i ∈ Finset.range d, g i := by
  rw [Finset.sum_range_add]
  rw [Finset.sum_eq_zero (s := Finset.range c) (fun n _ => by rw [if_neg (by omega)]), add_zero]
  refine Finset.sum_congr rfl (fun i hi => ?_)
  rw [if_pos (Finset.mem_range.1 hi)]

theorem reduceWindow_cumsum (N : ℕ) (x : (⟨1, ![N]⟩ : Shape).Idx → BitVec 32)
    (init : (⟨0, ![]⟩ : Shape).Idx → BitVec 32) (hinit : ∀ i, init i = 0)
    (h : (⟨1, ![N]⟩ : Shape).ReduceWindows (![N] : Fin 1 → Nat) ![1] ![N - 1] ![0] (⟨1, ![N]⟩ : Shape))
    (hu : 0 < (⟨0, ![]⟩ : Shape).numel) (j : Fin N) :
    Host.reduceWindow IntOp.addi ![N] ![1] ![N - 1] ![0] x init h hu (ix1 j)
      = ∑ k : Fin N, if k.val ≤ j.val then x (ix1 k) else 0 := by
  unfold Host.reduceWindow
  simp only [IntOp.addi]
  rw [foldl_add_eq_sum, hinit, zero_add, ← Fin.sum_univ_def]
  have hsym : ∀ i : Fin (Shape.numel ⟨1, ![N]⟩), (((Shape.rowMajor ⟨1, ![N]⟩).symm i) 0).val = i.val := by
    intro i
    have := Shape.rowMajor_val_one ((Shape.rowMajor ⟨1, ![N]⟩).symm i)
    rw [Equiv.apply_symm_apply] at this
    exact this.symm
  have hnumel : Shape.numel ⟨1, ![N]⟩ = N := by simp [Shape.numel]
  have hj0 : (ix1 j (0 : Fin 1)).val = j.val := rfl
  let xs : ℕ → BitVec 32 := fun k => if hk : k < N then x (ix1 ⟨k, hk⟩) else 0
  trans (∑ i : Fin (Shape.numel ⟨1, ![N]⟩), if N - 1 ≤ j.val + i.val then xs (j.val + i.val - (N - 1)) else 0)
  · refine Finset.sum_congr rfl (fun i _ => ?_)
    have h0 := hsym i
    have hi := i.isLt
    by_cases hc : N - 1 ≤ j.val + i.val
    · have hlt : j.val + i.val - (N - 1) < N := by omega
      rw [if_pos hc, dif_pos]
      · simp only [xs]
        rw [dif_pos hlt]
        congr 1
        funext a
        obtain rfl : a = 0 := Subsingleton.elim _ _
        apply Fin.ext
        simp [h0, hj0]
      · intro a
        obtain rfl : a = 0 := Subsingleton.elim _ _
        simp [h0, hj0]
        omega
    · rw [if_neg hc, dif_neg]
      intro hall
      apply hc
      have := (hall 0).1
      simp [h0, hj0] at this
      omega
  · have hjlt := j.isLt
    have hN1 : N = (N - 1 - j.val) + (j.val + 1) := by omega
    have hN2 : N = (j.val + 1) + (N - 1 - j.val) := by omega
    rw [Fin.sum_univ_eq_sum_range (fun n => if N - 1 ≤ j.val + n then xs (j.val + n - (N - 1)) else 0), hnumel]
    have e1 : ∑ n ∈ Finset.range N, (if N - 1 ≤ j.val + n then xs (j.val + n - (N - 1)) else 0)
        = ∑ n ∈ Finset.range ((N - 1 - j.val) + (j.val + 1)),
            (if N - 1 - j.val ≤ n then xs (n - (N - 1 - j.val)) else 0) := by
      rw [← hN1]
      refine Finset.sum_congr rfl (fun n _ => ?_)
      by_cases hc : N - 1 ≤ j.val + n
      · rw [if_pos hc, if_pos (by omega)]
        congr 1
        omega
      · rw [if_neg hc, if_neg (by omega)]
    have e2 : (∑ k : Fin N, if k.val ≤ j.val then x (ix1 k) else 0)
        = ∑ n ∈ Finset.range ((j.val + 1) + (N - 1 - j.val)), (if n < j.val + 1 then xs n else 0) := by
      rw [← hN2, ← Fin.sum_univ_eq_sum_range (fun n => if n < j.val + 1 then xs n else 0)]
      refine Finset.sum_congr rfl (fun k _ => ?_)
      by_cases hc : k.val ≤ j.val
      · rw [if_pos hc, if_pos (by omega)]
        simp only [xs]
        rw [dif_pos k.isLt]
      · rw [if_neg hc, if_neg (by omega)]
    rw [e1, e2, sum_range_shift, sum_range_initial]

theorem sum_le_eq_card (N : ℕ) (x : (⟨1, ![N]⟩ : Shape).Idx → BitVec 32)
    (hx : ∀ i, x i = 0#32 ∨ x i = 1#32) (j : Fin N) :
    (∑ k : Fin N, if k.val ≤ j.val then x (ix1 k) else 0)
      = ((Finset.univ.filter fun k : Fin N => k.val ≤ j.val ∧ x (ix1 k) = 1#32).card : BitVec 32) := by
  rw [← Finset.sum_boole]
  refine Finset.sum_congr rfl (fun k _ => ?_)
  rcases hx (ix1 k) with h0 | h1
  · rw [h0]; simp
  · rw [h1]; simp

theorem card_filter_lt (N : ℕ) (hN : N < 2 ^ 31) (p : Fin N → Prop) [DecidablePred p] :
    (Finset.univ.filter p).card < 2 ^ 31 :=
  lt_of_le_of_lt (le_trans (Finset.card_filter_le _ _) (by simp)) hN

theorem toNat_natCast_of_lt (c : ℕ) (hc : c < 2 ^ 31) : ((c : BitVec 32)).toNat = c := by
  rw [BitVec.natCast_eq_ofNat, BitVec.toNat_ofNat]
  exact Nat.mod_eq_of_lt (by omega)

theorem toInt_natCast_of_lt (c : ℕ) (hc : c < 2 ^ 31) : ((c : BitVec 32)).toInt = (c : ℤ) := by
  rw [BitVec.toInt_eq_toNat_of_lt (by rw [toNat_natCast_of_lt c hc]; omega), toNat_natCast_of_lt c hc]

theorem card_eq_count (N : ℕ) (x : (⟨1, ![N]⟩ : Shape).Idx → BitVec 32) (j : Fin N)
    [DecidablePred fun k : ℕ => ∃ hk : k < N, x (ix1 ⟨k, hk⟩) = 1#32] :
    (Finset.univ.filter fun k : Fin N => k.val ≤ j.val ∧ x (ix1 k) = 1#32).card
      = Nat.count (fun k : ℕ => ∃ hk : k < N, x (ix1 ⟨k, hk⟩) = 1#32) (j.val + 1) := by
  rw [Nat.count_eq_card_filter_range, ← Finset.card_map Fin.valEmbedding]
  congr 1
  ext k
  simp only [Finset.mem_map, Finset.mem_filter, Finset.mem_univ, true_and, Fin.valEmbedding_apply, Finset.mem_range]
  constructor
  · rintro ⟨a, ⟨hle, h1⟩, rfl⟩
    exact ⟨by omega, a.isLt, h1⟩
  · rintro ⟨hlt, hk, h1⟩
    exact ⟨⟨k, hk⟩, ⟨by simp; omega, h1⟩, rfl⟩

theorem reduceWindow_cumsum_toNat_card (N : ℕ) (hN : N < 2 ^ 31) (x : (⟨1, ![N]⟩ : Shape).Idx → BitVec 32)
    (hx : ∀ i, x i = 0#32 ∨ x i = 1#32)
    (init : (⟨0, ![]⟩ : Shape).Idx → BitVec 32) (hinit : ∀ i, init i = 0)
    (h : (⟨1, ![N]⟩ : Shape).ReduceWindows (![N] : Fin 1 → Nat) ![1] ![N - 1] ![0] (⟨1, ![N]⟩ : Shape))
    (hu : 0 < (⟨0, ![]⟩ : Shape).numel) (j : Fin N) :
    (Host.reduceWindow IntOp.addi ![N] ![1] ![N - 1] ![0] x init h hu (ix1 j)).toNat
      = (Finset.univ.filter fun k : Fin N => k.val ≤ j.val ∧ x (ix1 k) = 1#32).card := by
  rw [reduceWindow_cumsum N x init hinit h hu j, sum_le_eq_card N x hx j]
  exact toNat_natCast_of_lt _ (card_filter_lt N hN _)

theorem reduceWindow_cumsum_toNat_count (N : ℕ) (hN : N < 2 ^ 31) (x : (⟨1, ![N]⟩ : Shape).Idx → BitVec 32)
    (hx : ∀ i, x i = 0#32 ∨ x i = 1#32)
    (init : (⟨0, ![]⟩ : Shape).Idx → BitVec 32) (hinit : ∀ i, init i = 0)
    (h : (⟨1, ![N]⟩ : Shape).ReduceWindows (![N] : Fin 1 → Nat) ![1] ![N - 1] ![0] (⟨1, ![N]⟩ : Shape))
    (hu : 0 < (⟨0, ![]⟩ : Shape).numel) (j : Fin N)
    [DecidablePred fun k : ℕ => ∃ hk : k < N, x (ix1 ⟨k, hk⟩) = 1#32] :
    (Host.reduceWindow IntOp.addi ![N] ![1] ![N - 1] ![0] x init h hu (ix1 j)).toNat
      = Nat.count (fun k : ℕ => ∃ hk : k < N, x (ix1 ⟨k, hk⟩) = 1#32) (j.val + 1) := by
  rw [reduceWindow_cumsum_toNat_card N hN x hx init hinit h hu j, card_eq_count N x j]

end Cert.LibCumsum
-- ==== Proof.LibBincount.lean ====
import Idealize.ShloMosaic.PureOps.Ideal
import Idealize.ShloMosaic.Lib.ValueIdx
import Mathlib.Data.BitVec
import Mathlib.Algebra.BigOperators.Fin

namespace Cert.LibBincount

open Idealize.ShloMosaic Idealize.ShloMosaic.ValueIdx

theorem foldl_step_apply {ι κ A : Type*} [AddMonoid A] (step : (κ → A) → ι → κ → A)
    (g : ι → Option κ) (u : ι → A) [DecidableEq κ]
    (hstep : ∀ r n i', step r n i' = if g n = some i' then r i' + u n else r i')
    (l : List ι) (x : κ → A) (i0 : κ) :
    (l.foldl step x) i0 = x i0 + (l.map fun n => if g n = some i0 then u n else 0).sum := by
  induction l generalizing x with
  | nil => simp
  | cons a l ih =>
    rw [List.foldl_cons, ih, hstep, List.map_cons, List.sum_cons]
    by_cases hg : g a = some i0
    · rw [if_pos hg, if_pos hg, add_assoc]
    · rw [if_neg hg, if_neg hg, zero_add]

def idxEquiv1 {n : ℕ} : (⟨1, ![n]⟩ : Shape).Idx ≃ Fin n where
  toFun i := i 0
  invFun a := ix1 a
  left_inv i := (eq_ix1 i).symm
  right_inv _ := rfl

theorem resultIdx?_eq_some_iff {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1) (idx : IVec ⟨2, ![N, 1]⟩ w) (n : Fin N) (s : Fin M) :
    d.resultIdx? (ix1 n) idx = some (ix1 s) ↔ (idx (ix2 n 0)).toInt = (s.val : ℤ) := by
  obtain ⟨uw, iw, sd, iv, wf⟩ := d
  simp only at h1 h2 h3 h4
  subst h1 h2 h3 h4
  have hstart : (ScatterDims.mk [] [0] [0] 1 wf).start (ix1 n) idx 0 = (idx (ix2 n 0)).toInt := by
    unfold ScatterDims.start
    rw [dif_pos (show (0 : Fin 1) ∈ (ScatterDims.mk [] [0] [0] 1 wf).scatterDimsToOperandDims from
      List.mem_singleton.mpr rfl)]
    congr 2
    funext b
    refine Fin.ext ?_
    match b with
    | ⟨0, _⟩ => rfl
    | ⟨1, _⟩ => rfl
  have hwin : (ScatterDims.mk [] [0] [0] 1 wf).window (ix1 n) 0 = 0 := by
    unfold ScatterDims.window
    rw [dif_neg]
    intro hmem
    have hk : (ScatterDims.mk [] [0] [0] 1 wf).sKept = [] :=
      (by decide : (List.finRange 1).filter (fun a : Fin 1 => decide (a ∉ ([0] : List (Fin 1)))) = [])
    rw [hk] at hmem
    exact List.not_mem_nil hmem
  unfold ScatterDims.resultIdx?
  by_cases hin : 0 ≤ (idx (ix2 n 0)).toInt ∧ (idx (ix2 n 0)).toInt < (M : ℤ)
  · rw [dif_pos (by
      intro a
      obtain rfl : a = 0 := Subsingleton.elim _ _
      rw [hstart, hwin]
      simpa using hin)]
    rw [Option.some_inj]
    constructor
    · intro hf
      have h0 := congrArg (fun f => (f 0).val) hf
      simp only [hstart, hwin] at h0
      have h0' : ((idx (ix2 n 0)).toInt + ((0 : ℕ) : ℤ)).toNat = s.val := h0
      omega
    · intro ht
      funext a
      obtain rfl : a = 0 := Subsingleton.elim _ _
      apply Fin.ext
      show ((ScatterDims.mk [] [0] [0] 1 wf).start (ix1 n) idx 0
        + (((ScatterDims.mk [] [0] [0] 1 wf).window (ix1 n) 0 : ℕ) : ℤ)).toNat = s.val
      rw [hstart, hwin, ht]
      simp
  · rw [dif_neg (by
      intro hall
      apply hin
      have := hall 0
      rw [hstart, hwin] at this
      simpa using this)]
    constructor
    · intro hf
      cases hf
    · intro ht
      exfalso
      apply hin
      rw [ht]
      exact ⟨by omega, by exact_mod_cast s.isLt⟩

theorem scatter_add_apply {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (idx : IVec ⟨2, ![N, 1]⟩ w) (upd : (⟨1, ![N]⟩ : Shape).Idx → BitVec 32)
    (s : Fin M) :
    Host.scatter d IntOp.addi x idx upd (ix1 s)
      = x (ix1 s) + ∑ n : Fin N, if (idx (ix2 n 0)).toInt = (s.val : ℤ) then upd (ix1 n) else 0 := by
  unfold Host.scatter
  rw [foldl_step_apply _ (fun n => d.resultIdx? ((Shape.rowMajor ⟨1, ![N]⟩).symm n) idx)
    (fun n => upd ((Shape.rowMajor ⟨1, ![N]⟩).symm n)) ?hstep]
  case hstep =>
    intro r n i'
    generalize d.resultIdx? ((Shape.rowMajor ⟨1, ![N]⟩).symm n) idx = o
    cases o with
    | none => simp
    | some i =>
      by_cases hi : i' = i
      · subst hi; simp [IntOp.addi]
      · simp [hi, Ne.symm hi]
  rw [← Fin.sum_univ_def]
  congr 1
  rw [Equiv.sum_comp (Shape.rowMajor ⟨1, ![N]⟩).symm
    (fun i => if d.resultIdx? i idx = some (ix1 s) then upd i else 0)]
  rw [← Equiv.sum_comp (idxEquiv1 (n := N)).symm]
  refine Finset.sum_congr rfl (fun n _ => ?_)
  show (if d.resultIdx? (ix1 n) idx = some (ix1 s) then upd (ix1 n) else 0) = _
  simp only [resultIdx?_eq_some_iff M N d h1 h2 h3 h4 idx n s]

theorem card_filter_lt (N : ℕ) (hN : N < 2 ^ 31) (p : Fin N → Prop) [DecidablePred p] :
    (Finset.univ.filter p).card < 2 ^ 31 :=
  lt_of_le_of_lt (le_trans (Finset.card_filter_le _ _) (by simp)) hN

theorem toNat_natCast_of_lt (c : ℕ) (hc : c < 2 ^ 31) : ((c : BitVec 32)).toNat = c := by
  rw [BitVec.natCast_eq_ofNat, BitVec.toNat_ofNat]
  exact Nat.mod_eq_of_lt (by omega)

theorem toInt_natCast_of_lt (c : ℕ) (hc : c < 2 ^ 31) : ((c : BitVec 32)).toInt = (c : ℤ) := by
  rw [BitVec.toInt_eq_toNat_of_lt (by rw [toNat_natCast_of_lt c hc]; omega), toNat_natCast_of_lt c hc]

theorem scatter_ones_eq_card {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    Host.scatter d IntOp.addi x idx upd (ix1 s)
      = ((Finset.univ.filter fun n : Fin N => (idx (ix2 n 0)).toInt = (s.val : ℤ)).card : BitVec 32) := by
  rw [scatter_add_apply M N d h1 h2 h3 h4 x idx upd s, hx, ← Finset.sum_boole]
  have h0 : ∀ a : BitVec 32, 0#32 + a = a := fun a => by simp
  rw [h0]
  refine Finset.sum_congr rfl (fun n _ => ?_)
  rw [hupd]
  simp

theorem scatter_ones_toNat {w : ℕ} (M N : ℕ) (hN : N < 2 ^ 31) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    (Host.scatter d IntOp.addi x idx upd (ix1 s)).toNat
      = (Finset.univ.filter fun n : Fin N => (idx (ix2 n 0)).toInt = (s.val : ℤ)).card := by
  rw [scatter_ones_eq_card M N d h1 h2 h3 h4 x hx idx upd hupd s]
  exact toNat_natCast_of_lt _ (card_filter_lt N hN _)

end Cert.LibBincount
-- ==== Proof.RefEdges.lean ====
import Mathlib.Data.Nat.Nth
import Mathlib.Data.Nat.Count
import Mathlib.Algebra.BigOperators.Fin
import Mathlib.Algebra.BigOperators.Intervals
import Idealize.ShloMosaic.Lib.StableHlo.Predicate
import Idealize.ShloMosaic.Lib.WordArith
import Idealize.ShloMosaic.Lib.WordSum
import Idealize.ShloMosaic.Lib.Pipeline.Value
import proofs.«109387_g55946243997874_fold_wed_m_672_4_alg».proof.Proof.EdgeIface
import proofs.«109387_g55946243997874_fold_wed_m_672_4_alg».proof.Proof.LibNthTrue
import proofs.«109387_g55946243997874_fold_wed_m_672_4_alg».proof.Proof.LibCumsum
import proofs.«109387_g55946243997874_fold_wed_m_672_4_alg».proof.Proof.LibBincount
import proofs.«109387_g55946243997874_fold_wed_m_672_4_alg».proof.Proof.RStages

noncomputable section

open scoped Classical

namespace Cert.ReferenceIdeal.Hand

open Idealize.ShloMosaic Idealize.ShloMosaic.ValueIdx Cert.ReferenceIdeal
open Cert.ReferenceIdeal.Facts₀ Cert.ReferenceIdeal.Facts

def nzAt (a : Cert.Gcn.SA.Idx → EReal) (k : ℕ) : Prop :=
  ∃ h : k < 10000 * 10000, a (ix2 ⟨k / 10000, by omega⟩ ⟨k % 10000, by omega⟩) ≠ 0

def nnz (a : Cert.Gcn.SA.Idx → EReal) : ℕ := Nat.count (nzAt a) (10000 * 10000)

def slotTerm (rows cols : Cert.Gcn.SE.Idx → BitVec 32) (j : Fin 10000) (g : Fin 10000 → EReal) (n : ℕ) : EReal :=
  if h : n < 330000 then
    (if (cols (ix1 ⟨n, h⟩)).toInt = (j.val : Int) then g (Cert.Gcn.clampNode (rows (ix1 ⟨n, h⟩))) else 0)
  else 0

theorem clampNode_of_toInt (w : BitVec 32) (i : Fin 10000) (h : w.toInt = (i.val : Int)) : Cert.Gcn.clampNode w = i := by
  apply Fin.ext
  simp only [Cert.Gcn.clampNode, h, Int.toNat_natCast]
  have := i.isLt
  omega

theorem isEdgeList_of_slots (a : Cert.Gcn.SA.Idx → EReal) (rows cols : Cert.Gcn.SE.Idx → BitVec 32)
    (hcnt : nnz a ≤ 320000)
    (hlo : ∀ (s : ℕ) (hs : s < 330000), s < nnz a →
      (rows (ix1 ⟨s, hs⟩)).toInt = ((Nat.nth (nzAt a) s / 10000 : ℕ) : Int)
        ∧ (cols (ix1 ⟨s, hs⟩)).toInt = ((Nat.nth (nzAt a) s % 10000 : ℕ) : Int))
    (hfill : ∀ (s : ℕ) (hs : s < 330000), nnz a ≤ s → s < 320000 → (cols (ix1 ⟨s, hs⟩)).toInt = 10000)
    (hloop : ∀ (e : ℕ) (he : 320000 + e < 330000),
      (rows (ix1 ⟨320000 + e, he⟩)).toInt = (e : Int) ∧ (cols (ix1 ⟨320000 + e, he⟩)).toInt = (e : Int)) :
    Cert.Gcn.IsEdgeList a rows cols := by
  intro j g
  have hj := j.isLt

  have hF : (∑ e : Fin 330000, if (cols (ix1 e)).toInt = (j.val : Int) then g (Cert.Gcn.clampNode (rows (ix1 e))) else 0)
      = ∑ n ∈ Finset.range (320000 + 10000), slotTerm rows cols j g n := by
    rw [show (320000 + 10000 : ℕ) = 330000 from rfl, ← Fin.sum_univ_eq_sum_range]
    refine Finset.sum_congr rfl fun e _ => ?_
    simp only [slotTerm, dif_pos e.isLt]
  rw [hF, Finset.sum_range_add]

  have hL : ∑ x ∈ Finset.range 10000, slotTerm rows cols j g (320000 + x) = g j := by
    rw [Finset.sum_eq_single j.val]
    · obtain ⟨hr, hc⟩ := hloop j.val (by omega)
      simp only [slotTerm, dif_pos (show 320000 + j.val < 330000 by omega), if_pos hc]
      rw [clampNode_of_toInt _ j hr]
    · intro b hb hne
      have hb' := Finset.mem_range.1 hb
      obtain ⟨_, hc⟩ := hloop b (by omega)
      simp only [slotTerm, dif_pos (show 320000 + b < 330000 by omega)]
      rw [if_neg]
      rw [hc]; intro h; exact hne (by exact_mod_cast h)
    · intro h; exact absurd (Finset.mem_range.2 hj) h
  rw [hL]
  refine congrArg (· + g j) ?_

  obtain ⟨r, hr⟩ : ∃ r, 320000 = nnz a + r := ⟨320000 - nnz a, by omega⟩
  rw [hr, Finset.sum_range_add]
  have hZ : ∑ x ∈ Finset.range r, slotTerm rows cols j g (nnz a + x) = 0 := by
    refine Finset.sum_eq_zero fun x hx => ?_
    have hx' := Finset.mem_range.1 hx
    have hlt : nnz a + x < 330000 := by omega
    simp only [slotTerm, dif_pos hlt]
    rw [if_neg]
    rw [hfill (nnz a + x) hlt (by omega) (by omega)]
    intro h; omega
  rw [hZ, add_zero]

  have hM : ∑ s ∈ Finset.range (nnz a), slotTerm rows cols j g s
      = ∑ s ∈ Finset.range (Nat.count (nzAt a) (10000 * 10000)),
          (fun k : ℕ => if k % 10000 = j.val then g ⟨min (k / 10000) 9999, by omega⟩ else 0) (Nat.nth (nzAt a) s) := by
    refine Finset.sum_congr rfl fun s hs => ?_
    have hs' : s < nnz a := Finset.mem_range.1 hs
    have hlt : s < 330000 := by omega
    obtain ⟨h1, h2⟩ := hlo s hlt hs'
    simp only [slotTerm, dif_pos hlt, h2]
    by_cases hc : Nat.nth (nzAt a) s % 10000 = j.val
    · rw [if_pos (by exact_mod_cast hc), if_pos hc]
      refine congrArg g (Fin.ext ?_)
      simp only [Cert.Gcn.clampNode, h1, Int.toNat_natCast]
    · rw [if_neg (by intro h; exact hc (by exact_mod_cast h)), if_neg hc]
  rw [hM]
  refine (Cert.NthTrue.sum_nth_divmod 10000 10000 (nzAt a)
    (fun k : ℕ => if k % 10000 = j.val then g ⟨min (k / 10000) 9999, by omega⟩ else 0) (fun i j' => a (ix2 i j') ≠ 0)
    (fun i j' => if j' = j then g i else 0) ?_ ?_).trans ?_
  rotate_left 2
  · refine Finset.sum_congr rfl fun i _ => ?_
    rw [Finset.sum_eq_single j]
    · by_cases h : a (ix2 i j) ≠ 0
      · simp only [if_pos h, if_true]
      · simp only [if_neg h]
    · intro b _ hb
      simp only [if_neg hb, ite_self]
    · intro h; exact absurd (Finset.mem_univ j) h
  · intro k hr hc
    constructor
    · rintro ⟨_, h⟩; exact h
    · intro h; exact ⟨by omega, h⟩
  · intro k hr hc _
    by_cases hkj : k % 10000 = j.val
    · rw [if_pos hkj, if_pos (Fin.ext hkj)]
      refine congrArg g (Fin.ext ?_)
      simp only
      omega
    · rw [if_neg hkj, if_neg (fun h => hkj (by rw [← h]))]

variable [Cert.ReferenceIdeal.Facts]

theorem msb_false_of_lt {x : BitVec 32} (hx : x.toNat < 2 ^ 31) : x.msb = false :=
  BitVec.msb_eq_false_iff_two_mul_lt.mpr (by omega)

theorem res_v1_eq_one_iff (a : Cert.Gcn.SA.Idx → EReal) (i : Cert.Gcn.SA.Idx) : res_v1 a i = 1#1 ↔ a i ≠ 0 := by
  have h0 : Ideal.ofBits .f32 0x00000000#32 = 0 := by simp [Ideal.ofBits, Ideal.ieee]
  show BitVec.ofBool (decide (a i ≠ Ideal.ofBits .f32 0x00000000#32)) = 1#1 ↔ a i ≠ 0
  rw [h0, StableHlo.Predicate.ofBool_eq_one_iff, decide_eq_true_eq]

theorem res_call0_v0_apply (a : Cert.Gcn.SA.Idx → EReal) (k : ℕ) (hk : k < 100000000) :
    res_call0_v0 a (ix1 ⟨k, hk⟩) = res_v1 a (ix2 ⟨k / 10000, by omega⟩ ⟨k % 10000, by omega⟩) := by
  show res_v1 a (Shape.reshapeEquiv _ (ix1 ⟨k, hk⟩)) = _
  refine congrArg (res_v1 a) ?_
  apply Shape.reshapeEquiv_eq_of_rowMajor
  rw [Shape.rowMajor_val_two, Shape.rowMajor_val_one]
  show k / 10000 * 10000 + k % 10000 = k
  omega

theorem res_call0_v1_eq_one_iff (a : Cert.Gcn.SA.Idx → EReal) (k : ℕ) (hk : k < 100000000) :
    res_call0_v1 a (ix1 ⟨k, hk⟩) = 1#32 ↔ a (ix2 ⟨k / 10000, by omega⟩ ⟨k % 10000, by omega⟩) ≠ 0 := by
  rw [← res_v1_eq_one_iff, ← res_call0_v0_apply a k hk]
  show (res_call0_v0 a (ix1 ⟨k, hk⟩)).setWidth 32 = 1#32 ↔ _
  rcases BitVec.eq_zero_or_eq_one (res_call0_v0 a (ix1 ⟨k, hk⟩)) with h | h <;> rw [h] <;> decide

theorem res_call0_v1_bit (a : Cert.Gcn.SA.Idx → EReal) (i : S100000000.Idx) :
    res_call0_v1 a i = 0#32 ∨ res_call0_v1 a i = 1#32 := by
  show (res_call0_v0 a i).setWidth 32 = 0#32 ∨ (res_call0_v0 a i).setWidth 32 = 1#32
  rcases BitVec.eq_zero_or_eq_one (res_call0_v0 a i) with h | h <;> rw [h] <;> decide

theorem pred_eq_nzAt (a : Cert.Gcn.SA.Idx → EReal) :
    (fun k : ℕ => ∃ hk : k < 100000000, res_call0_v1 a (ix1 ⟨k, hk⟩) = 1#32) = nzAt a := by
  funext k
  apply propext
  constructor
  · rintro ⟨hk, h⟩; exact ⟨hk, (res_call0_v1_eq_one_iff a k hk).1 h⟩
  · rintro ⟨hk, h⟩; exact ⟨hk, (res_call0_v1_eq_one_iff a k hk).2 h⟩

theorem res_v2_toNat (a : Cert.Gcn.SA.Idx → EReal) (k : ℕ) (hk : k < 100000000) :
    (res_v2 a (ix1 ⟨k, hk⟩)).toNat = Nat.count (nzAt a) (k + 1) := by
  have h := Cert.LibCumsum.reduceWindow_cumsum_toNat_count 100000000 (by norm_num) (res_call0_v1 a) (res_call0_v1_bit a)
    res_call0_call0_v0 (fun _ => rfl) reduceWindows_S100000000_S100000000_w100000000s1p99999999_0 h_S_ ⟨k, hk⟩
  simp only [pred_eq_nzAt] at h
  exact h

theorem toNat_ofNat_lt (n : ℕ) (h : n < 2 ^ 32) : (BitVec.ofNat 32 n).toNat = n := by
  rw [BitVec.toNat_ofNat]; exact Nat.mod_eq_of_lt h

theorem andi_zero_left (c : BitVec 1) : IntOp.andi (0#1) c = 0#1 := by
  unfold IntOp.andi; exact BitVec.zero_and
theorem andi_zero_right (c : BitVec 1) : IntOp.andi c (0#1) = 0#1 := by
  unfold IntOp.andi; exact BitVec.and_zero
theorem cmpi_ne_self {w : ℕ} (x : BitVec w) : IntOp.cmpi .ne x x = 0#1 := by
  simp [IntOp.cmpi]
theorem select_zero {α : Type} (x y : α) : Scalar.select (0#1) x y = y := by
  unfold Scalar.select; rw [if_neg (by decide)]
theorem select_one {α : Type} (x y : α) : Scalar.select (1#1) x y = x := by
  unfold Scalar.select; exact if_pos (by decide)

theorem slt_zero_small (x : BitVec 32) (hx : x.toNat < 2 ^ 31) : IntOp.cmpi .slt x 0#32 = 0#1 := by
  have h := (StableHlo.Predicate.slt_iff_toNat (a := x) (b := 0#32) hx (by decide))
  rcases BitVec.eq_zero_or_eq_one (IntOp.cmpi .slt x 0#32) with h' | h'
  · exact h'
  · exact absurd (h.1 h') (by simp)

theorem maxsi_zero_small (x : BitVec 32) (hx : x.toNat < 2 ^ 31) : IntOp.maxsi 0#32 x = x := by
  unfold IntOp.maxsi
  rw [if_neg]
  simp only [BitVec.slt, StableHlo.Predicate.toInt_eq_toNat_of_lt hx, BitVec.toInt_zero, decide_eq_true_eq]
  omega

theorem res_v2_lt (a : Cert.Gcn.SA.Idx → EReal) (k : ℕ) (hk : k < 100000000) :
    (res_v2 a (ix1 ⟨k, hk⟩)).toNat < 2 ^ 31 := by
  rw [res_v2_toNat]
  have := Nat.count_le (p := nzAt a) (n := k + 1)
  omega

theorem res_v9_eq (a : Cert.Gcn.SA.Idx → EReal) (k : ℕ) (hk : k < 100000000) :
    res_v9 a (ix1 ⟨k, hk⟩) = res_v2 a (ix1 ⟨k, hk⟩) := by
  have hc := res_v2_lt a k hk
  have h4 : res_v4 a (ix1 ⟨k, hk⟩) = res_v2 a (ix1 ⟨k, hk⟩) := by
    show IntOp.maxsi 0#32 (res_v2 a (ix1 ⟨k, hk⟩)) = _
    exact maxsi_zero_small _ hc
  show Scalar.select (IntOp.cmpi .slt (res_v4 a (ix1 ⟨k, hk⟩)) 0#32) (res_v8 a (ix1 ⟨k, hk⟩)) (res_v4 a (ix1 ⟨k, hk⟩)) = _
  rw [h4, slt_zero_small _ hc, select_zero]

theorem ix2_zero_eq_ixP {n : ℕ} (p : Fin n) : (ix2 p (0 : Fin 1) : (⟨2, ![n, 1]⟩ : Shape).Idx) = StableHlo.Predicate.ixP p := by
  funext d
  match d with
  | ⟨0, _⟩ => rfl
  | ⟨1, _⟩ => rfl

theorem ofFin_eq_ix1 {n : ℕ} (p : Fin n) : (Shape.Idx.ofFin p : (⟨1, ![n]⟩ : Shape).Idx) = ix1 p := by
  funext d
  match d with
  | ⟨0, _⟩ => rfl

theorem res_v10_toInt (a : Cert.Gcn.SA.Idx → EReal) (n : Fin 100000000) :
    (res_v10 a (ix2 n 0)).toInt = (Nat.count (nzAt a) (n.val + 1) : ℤ) := by
  have h : res_v10 a (ix2 n 0) = res_v9 a (ix1 n) := by
    rw [ix2_zero_eq_ixP, ← ofFin_eq_ix1]
    exact StableHlo.Predicate.bcast_col1 bcast_S100000000_S100000000x1_0 (res_v9 a) n
  rw [h, res_v9_eq a n.val n.isLt, StableHlo.Predicate.toInt_eq_toNat_of_lt (res_v2_lt a n.val n.isLt), res_v2_toNat]

theorem card_fin_filter_eq_range (N : ℕ) (P : ℕ → Prop) [DecidablePred P] :
    (Finset.univ.filter fun n : Fin N => P n.val).card = ((Finset.range N).filter P).card := by
  rw [Finset.card_filter, Finset.card_filter, Fin.sum_univ_eq_sum_range (fun n => if P n then 1 else 0) N]

theorem res_v12_toNat (a : Cert.Gcn.SA.Idx → EReal) (t : ℕ) (ht : t < 320000) :
    (res_v12 a (ix1 ⟨t, ht⟩)).toNat
      = ((Finset.range 100000000).filter fun k => Nat.count (nzAt a) (k + 1) = t).card := by
  have h := Cert.LibBincount.scatter_ones_toNat (w := 32) 320000 100000000 (by norm_num)
    scatter_S320000_S100000000x1_S100000000_n_0_0_1 rfl rfl rfl rfl res_v3 (fun _ => rfl) (res_v10 a) res_v11 (fun _ => rfl) ⟨t, ht⟩
  rw [← card_fin_filter_eq_range]
  refine h.trans ?_
  refine congrArg Finset.card (Finset.filter_congr fun n _ => ?_)
  rw [res_v10_toInt]
  exact Nat.cast_inj

def posOf (a : Cert.Gcn.SA.Idx → EReal) (s : ℕ) : ℕ :=
  ((Finset.range 100000000).filter fun k => Nat.count (nzAt a) (k + 1) ≤ s).card

theorem posOf_le (a : Cert.Gcn.SA.Idx → EReal) (s : ℕ) : posOf a s ≤ 100000000 :=
  (Finset.card_filter_le _ _).trans (by simp)

theorem posOf_of_lt (a : Cert.Gcn.SA.Idx → EReal) (s : ℕ) (hs : s < nnz a) : posOf a s = Nat.nth (nzAt a) s :=
  Cert.NthTrue.card_prefix_le_of_lt (nzAt a) 100000000 s hs

theorem res_v13_toNat (a : Cert.Gcn.SA.Idx → EReal) (s : ℕ) (hs : s < 320000) :
    (res_v13 a (ix1 ⟨s, hs⟩)).toNat = posOf a s := by
  have h := Cert.LibCumsum.reduceWindow_cumsum 320000 (res_v12 a) res_call2_call0_v0 (fun _ => rfl)
    reduceWindows_S320000_S320000_w320000s1p319999_0 h_S_ ⟨s, hs⟩
  have hval : ∀ t : Fin 320000, (if t.val ≤ s then res_v12 a (ix1 t) else 0).toNat
      = if t.val ≤ s then ((Finset.range 100000000).filter fun k => Nat.count (nzAt a) (k + 1) = t.val).card else 0 := by
    intro t
    by_cases ht : t.val ≤ s
    · simp only [if_pos ht]; exact res_v12_toNat a t.val t.isLt
    · simp only [if_neg ht]; rfl
  have hsum : ∑ t : Fin 320000, (if t.val ≤ s then res_v12 a (ix1 t) else 0).toNat = posOf a s := by
    rw [Finset.sum_congr rfl fun t _ => hval t,
      Fin.sum_univ_eq_sum_range (fun t : ℕ => if t ≤ s then ((Finset.range 100000000).filter fun k => Nat.count (nzAt a) (k + 1) = t).card else 0) 320000,
      ← Finset.sum_filter]
    have hr : (Finset.range 320000).filter (fun t => t ≤ s) = Finset.range (s + 1) := by
      ext t; simp only [Finset.mem_filter, Finset.mem_range]; omega
    rw [hr]
    exact Cert.NthTrue.sum_card_prefix_eq (nzAt a) 100000000 s
  rw [show res_v13 a (ix1 ⟨s, hs⟩) = _ from h,
    WordSum.toNat_sum _ _ (by rw [hsum]; have := posOf_le a s; omega), hsum]

theorem res_v13_lt (a : Cert.Gcn.SA.Idx → EReal) (s : ℕ) (hs : s < 320000) : (res_v13 a (ix1 ⟨s, hs⟩)).toNat < 2 ^ 31 := by
  rw [res_v13_toNat]; have := posOf_le a s; omega

theorem not_corner_small {x d : BitVec 32} (hd : d.toNat < 2 ^ 31) (hd0 : 0 < d.toNat) : ¬ IntOp.SDivCorner x d := by
  rintro (h | ⟨_, h⟩)
  · subst h; simp at hd0
  · subst h; revert hd; decide

theorem divsi_small (u : ArithUnit) (x d : BitVec 32) (hx : x.toNat < 2 ^ 31) (hd : d.toNat < 2 ^ 31) (hd0 : 0 < d.toNat) :
    IntOp.divsi u x d = BitVec.ofNat 32 (x.toNat / d.toNat) := by
  apply BitVec.eq_of_toNat_eq
  have hle : x.toNat / d.toNat ≤ x.toNat := Nat.div_le_self _ _
  simp only [IntOp.divsi, if_neg (not_corner_small hd hd0), BitVec.sdiv_eq, msb_false_of_lt hx, msb_false_of_lt hd,
    BitVec.udiv_eq, BitVec.toNat_udiv, BitVec.toNat_ofNat]
  exact (Nat.mod_eq_of_lt (lt_of_le_of_lt hle (by omega))).symm

theorem remsi_small (u : ArithUnit) (x d : BitVec 32) (hx : x.toNat < 2 ^ 31) (hd : d.toNat < 2 ^ 31) (hd0 : 0 < d.toNat) :
    IntOp.remsi u x d = BitVec.ofNat 32 (x.toNat % d.toNat) := by
  apply BitVec.eq_of_toNat_eq
  have hle : x.toNat % d.toNat ≤ x.toNat := Nat.mod_le _ _
  simp only [IntOp.remsi, if_neg (not_corner_small hd hd0), BitVec.srem_eq, msb_false_of_lt hx, msb_false_of_lt hd,
    BitVec.umod_eq, BitVec.toNat_umod, BitVec.toNat_ofNat]
  exact (Nat.mod_eq_of_lt (lt_of_le_of_lt hle (by omega))).symm

theorem sgn_pos (x : BitVec 32) (hx : x.toNat < 2 ^ 31) (h0 : 0 < x.toNat) :
    (if x = 0 then (0 : BitVec 32) else if x.msb then -1 else 1) = 1 := by
  rw [if_neg (by rintro rfl; simp at h0), msb_false_of_lt hx]; rfl

theorem floorDiv_small (x d : BitVec 32) (hx : x.toNat < 2 ^ 31) (hd : d.toNat < 2 ^ 31) (hd0 : 0 < d.toNat) :
    Scalar.select (IntOp.andi
        (IntOp.cmpi .ne (if x = 0 then (0 : BitVec 32) else if x.msb then -1 else 1) (if d = 0 then (0 : BitVec 32) else if d.msb then -1 else 1))
        (IntOp.cmpi .ne (IntOp.remsi .host x d) 0#32))
      (IntOp.subi (IntOp.divsi .host x d) 1#32) (IntOp.divsi .host x d) = BitVec.ofNat 32 (x.toNat / d.toNat) := by
  rw [divsi_small _ x d hx hd hd0, remsi_small _ x d hx hd hd0, sgn_pos d hd hd0]
  by_cases h0 : x = 0
  · subst h0
    have e : (0 : BitVec 32).toNat = 0 := rfl
    rw [e, Nat.zero_mod, Nat.zero_div, show BitVec.ofNat 32 0 = 0#32 from rfl, cmpi_ne_self (0#32), andi_zero_right, select_zero]
  · have hpos : 0 < x.toNat := by
      rcases Nat.eq_zero_or_pos x.toNat with h | h
      · exact absurd (BitVec.eq_of_toNat_eq (by simpa using h)) h0
      · exact h
    rw [sgn_pos x hx hpos, cmpi_ne_self, andi_zero_left, select_zero]

theorem remainder_small (x d : BitVec 32) (hx : x.toNat < 2 ^ 31) (hd : d.toNat < 2 ^ 31) (hd0 : 0 < d.toNat) :
    Scalar.select (IntOp.andi
        (IntOp.cmpi .ne (IntOp.cmpi .slt (IntOp.remsi .host x d) 0#32) (IntOp.cmpi .slt d 0#32))
        (IntOp.cmpi .ne (IntOp.remsi .host x d) 0#32))
      (IntOp.addi (IntOp.remsi .host x d) d) (IntOp.remsi .host x d) = BitVec.ofNat 32 (x.toNat % d.toNat) := by
  rw [remsi_small _ x d hx hd hd0]
  have hr : (BitVec.ofNat 32 (x.toNat % d.toNat)).toNat < 2 ^ 31 := by
    rw [toNat_ofNat_lt _ (lt_of_le_of_lt (Nat.mod_le _ _) (by omega))]
    exact lt_of_le_of_lt (Nat.mod_le _ _) hx
  rw [slt_zero_small _ hr, slt_zero_small _ hd, cmpi_ne_self, andi_zero_left, select_zero]

theorem res_call4_v3_eq (i : S320000.Idx) : res_call4_v3 i = 10000#32 := by rfl
theorem res_call6_v3_eq (i : S320000.Idx) : res_call6_v3 i = 10000#32 := by rfl

theorem res_v14_eq (a : Cert.Gcn.SA.Idx → EReal) (s : ℕ) (hs : s < 320000) :
    res_v14 a (ix1 ⟨s, hs⟩) = BitVec.ofNat 32 (posOf a s / 10000) := by
  have hx := res_v13_lt a s hs
  rw [← res_v13_toNat a s hs]
  exact floorDiv_small (res_v13 a (ix1 ⟨s, hs⟩)) 10000#32 hx (by decide) (by decide)

theorem res_v16_eq (a : Cert.Gcn.SA.Idx → EReal) (s : ℕ) (hs : s < 320000) :
    res_v16 a (ix1 ⟨s, hs⟩) = BitVec.ofNat 32 (posOf a s) := by
  have hx := res_v13_lt a s hs
  rw [← res_v13_toNat a s hs]
  have h := floorDiv_small (res_v13 a (ix1 ⟨s, hs⟩)) 1#32 hx (by decide) (by decide)
  rw [show (1#32 : BitVec 32).toNat = 1 from rfl, Nat.div_one] at h
  exact h

theorem res_v15_eq (a : Cert.Gcn.SA.Idx → EReal) (s : ℕ) (hs : s < 320000) :
    res_v15 a (ix1 ⟨s, hs⟩) = BitVec.ofNat 32 (posOf a s / 10000 % 10000) := by
  have hp := posOf_le a s
  have hx : (res_v14 a (ix1 ⟨s, hs⟩)).toNat < 2 ^ 31 := by
    rw [res_v14_eq, toNat_ofNat_lt _ (by omega)]; omega
  have h := remainder_small (res_v14 a (ix1 ⟨s, hs⟩)) (res_call4_v3 (ix1 ⟨s, hs⟩)) hx (by rw [res_call4_v3_eq]; decide) (by rw [res_call4_v3_eq]; decide)
  rw [res_call4_v3_eq, show (10000#32 : BitVec 32).toNat = 10000 from rfl] at h
  rw [res_v14_eq, toNat_ofNat_lt _ (by omega)] at h
  rw [← h, ← res_v14_eq a s hs]
  rfl

theorem res_v17_eq (a : Cert.Gcn.SA.Idx → EReal) (s : ℕ) (hs : s < 320000) :
    res_v17 a (ix1 ⟨s, hs⟩) = BitVec.ofNat 32 (posOf a s % 10000) := by
  have hp := posOf_le a s
  have hx : (res_v16 a (ix1 ⟨s, hs⟩)).toNat < 2 ^ 31 := by
    rw [res_v16_eq, toNat_ofNat_lt _ (by omega)]; omega
  have h := remainder_small (res_v16 a (ix1 ⟨s, hs⟩)) (res_call6_v3 (ix1 ⟨s, hs⟩)) hx (by rw [res_call6_v3_eq]; decide) (by rw [res_call6_v3_eq]; decide)
  rw [res_call6_v3_eq, show (10000#32 : BitVec 32).toNat = 10000 from rfl] at h
  rw [res_v16_eq, toNat_ofNat_lt _ (by omega)] at h
  rw [← h, ← res_v16_eq a s hs]
  rfl

theorem nnz_eq_card (a : Cert.Gcn.SA.Idx → EReal) : nnz a = (Finset.univ.filter fun i : Cert.Gcn.SA.Idx => a i ≠ 0).card := by
  rw [nnz, Nat.count_eq_card_filter_range, Finset.card_filter, Finset.card_filter, Cert.NthTrue.sum_range_mul,
    sum_idx2, Finset.sum_range]
  refine Finset.sum_congr rfl fun i _ => ?_
  rw [Finset.sum_range]
  refine Finset.sum_congr rfl fun j _ => ?_
  obtain ⟨hd, hm⟩ := Cert.NthTrue.div_mod_mulAdd i j
  have hiff : nzAt a ((i : ℕ) * 10000 + j) ↔ a (ix2 i j) ≠ 0 := by
    have e : (ix2 ⟨((i : ℕ) * 10000 + j) / 10000, by omega⟩ ⟨((i : ℕ) * 10000 + j) % 10000, by omega⟩ : Cert.Gcn.SA.Idx) = ix2 i j := by
      rw [show (⟨((i : ℕ) * 10000 + j) / 10000, by omega⟩ : Fin 10000) = i from Fin.ext hd,
        show (⟨((i : ℕ) * 10000 + j) % 10000, by omega⟩ : Fin 10000) = j from Fin.ext hm]
    constructor
    · rintro ⟨_, h⟩; rw [e] at h; exact h
    · intro h; refine ⟨by have := i.isLt; have := j.isLt; omega, ?_⟩; rw [e]; exact h
  by_cases h : a (ix2 i j) ≠ 0
  · rw [if_pos h, if_pos (hiff.2 h)]
  · rw [if_neg h, if_neg (mt hiff.1 h)]

theorem res_v20_toNat (a : Cert.Gcn.SA.Idx → EReal) (j : S_.Idx) : (res_v20 a j).toNat = nnz a := by
  have hval : ∀ i, (res_v19 a i).toNat = if a i ≠ 0 then 1 else 0 := by
    intro i
    show ((res_v1 a i).setWidth 32).toNat = _
    rw [StableHlo.Predicate.toNat_setWidth_bit]
    by_cases h : a i ≠ 0
    · rw [if_pos ((res_v1_eq_one_iff a i).2 h), if_pos h]
    · rw [if_neg (mt (res_v1_eq_one_iff a i).1 h), if_neg h]
  have hall : (Finset.univ.filter fun i : S10000x10000.Idx => reducesTo_S10000x10000_S_d0_1.drop i = j) = Finset.univ := by
    apply Finset.filter_true_of_mem
    intro i _
    funext b
    exact Fin.elim0 b
  have hsum : ∑ i ∈ (Finset.univ : Finset S10000x10000.Idx), (res_v19 a i).toNat = nnz a := by
    rw [nnz_eq_card, Finset.card_filter]
    exact Finset.sum_congr rfl fun i _ => hval i
  have hlt : nnz a < 2 ^ 32 := by
    have := Nat.count_le (p := nzAt a) (n := 10000 * 10000)
    unfold nnz; omega
  show (Host.reduce IntOp.addi (res_v19 a) res_c_8 reducesTo_S10000x10000_S_d0_1 h_S_ j).toNat = _
  rw [Host.reduce_eq_fold, hall]
  show (Finset.fold IntOp.addi 0#32 (res_v19 a) Finset.univ).toNat = _
  rw [StableHlo.Predicate.toNat_fold_addi _ _ (by rw [hsum]; exact hlt), hsum]

theorem res_v22_eq_one_iff (a : Cert.Gcn.SA.Idx → EReal) (s : ℕ) (hs : s < 320000) :
    res_v22 a (ix1 ⟨s, hs⟩) = 1#1 ↔ nnz a ≤ s := by
  have h21 : res_v21 a (ix1 ⟨s, hs⟩) = res_v20 a (Shape.Idx.first h_S_) :=
    StableHlo.Predicate.bcast_scalar bcast_S_S320000 h_S_ (res_v20 a) _
  have hn : nnz a ≤ 100000000 := by
    have := Nat.count_le (p := nzAt a) (n := 10000 * 10000)
    unfold nnz; omega
  show IntOp.cmpi .sge (BitVec.ofNat 32 s) (res_v21 a (ix1 ⟨s, hs⟩)) = 1#1 ↔ _
  rw [h21, StableHlo.Predicate.sge_iff_toNat (by rw [toNat_ofNat_lt _ (by omega)]; omega) (by rw [res_v20_toNat]; omega),
    res_v20_toNat, toNat_ofNat_lt _ (by omega)]

theorem res_v24_fill (a : Cert.Gcn.SA.Idx → EReal) (s : ℕ) (hs : s < 320000) (h : nnz a ≤ s) :
    res_v24 a (ix1 ⟨s, hs⟩) = 10000#32 := by
  show Scalar.select (res_v22 a (ix1 ⟨s, hs⟩)) 10000#32 (res_v17 a (ix1 ⟨s, hs⟩)) = _
  rw [(res_v22_eq_one_iff a s hs).2 h, select_one]

theorem res_v22_zero (a : Cert.Gcn.SA.Idx → EReal) (s : ℕ) (hs : s < 320000) (h : s < nnz a) :
    res_v22 a (ix1 ⟨s, hs⟩) = 0#1 := by
  rcases BitVec.eq_zero_or_eq_one (res_v22 a (ix1 ⟨s, hs⟩)) with h' | h'
  · exact h'
  · exact absurd ((res_v22_eq_one_iff a s hs).1 h') (by omega)

theorem res_v23_lo (a : Cert.Gcn.SA.Idx → EReal) (s : ℕ) (hs : s < 320000) (h : s < nnz a) :
    res_v23 a (ix1 ⟨s, hs⟩) = BitVec.ofNat 32 (Nat.nth (nzAt a) s / 10000 % 10000) := by
  show Scalar.select (res_v22 a (ix1 ⟨s, hs⟩)) 10000#32 (res_v15 a (ix1 ⟨s, hs⟩)) = _
  rw [res_v22_zero a s hs h, select_zero, res_v15_eq, posOf_of_lt a s h]

theorem res_v24_lo (a : Cert.Gcn.SA.Idx → EReal) (s : ℕ) (hs : s < 320000) (h : s < nnz a) :
    res_v24 a (ix1 ⟨s, hs⟩) = BitVec.ofNat 32 (Nat.nth (nzAt a) s % 10000) := by
  show Scalar.select (res_v22 a (ix1 ⟨s, hs⟩)) 10000#32 (res_v17 a (ix1 ⟨s, hs⟩)) = _
  rw [res_v22_zero a s hs h, select_zero, res_v17_eq, posOf_of_lt a s h]

theorem res_v23_lt (a : Cert.Gcn.SA.Idx → EReal) (s : ℕ) (hs : s < 320000) : (res_v23 a (ix1 ⟨s, hs⟩)).toNat ≤ 10000 := by
  show (Scalar.select (res_v22 a (ix1 ⟨s, hs⟩)) 10000#32 (res_v15 a (ix1 ⟨s, hs⟩))).toNat ≤ 10000
  rcases BitVec.eq_zero_or_eq_one (res_v22 a (ix1 ⟨s, hs⟩)) with h' | h'
  · rw [h', select_zero, res_v15_eq]
    have : posOf a s / 10000 % 10000 < 10000 := Nat.mod_lt _ (by norm_num)
    rw [toNat_ofNat_lt _ (by omega)]; omega
  · rw [h', select_one]; decide

theorem concat_left (x : S320000.Idx → BitVec 32) (y : S10000.Idx → BitVec 32) (e : ℕ) (he : e < 330000) (h : e < 320000) :
    concatenate S330000 0 [⟨S320000, x⟩, ⟨S10000, y⟩] concatenates_S320000_S10000_S330000_d0 (ix1 ⟨e, he⟩) = x (ix1 ⟨e, h⟩) := by
  refine concatenate_pair_apply_left (0 : Fin S330000.rank) x y concatenates_S320000_S10000_S330000_d0 (ix1 ⟨e, he⟩) rfl (ix1 ⟨e, h⟩) ?_
  intro b
  match b with
  | ⟨0, _⟩ => rfl

theorem concat_right (x : S320000.Idx → BitVec 32) (y : S10000.Idx → BitVec 32) (e : ℕ) (he : 320000 + e < 330000) :
    concatenate S330000 0 [⟨S320000, x⟩, ⟨S10000, y⟩] concatenates_S320000_S10000_S330000_d0 (ix1 ⟨320000 + e, he⟩)
      = y (ix1 ⟨e, by omega⟩) := by
  refine concatenate_pair_apply_right (0 : Fin S330000.rank) x y concatenates_S320000_S10000_S330000_d0 (ix1 ⟨320000 + e, he⟩) rfl rfl
    (ix1 ⟨e, by omega⟩) ?_ ?_
  · intro b hb
    match b with
    | ⟨0, _⟩ => exact absurd rfl hb
  · show e + 320000 = 320000 + e
    omega

/-- With at most 320000 nonzero entries, the enumerated nonzero positions followed by the self loops are such a list. -/
theorem isEdgeList (a : Cert.Gcn.SA.Idx → EReal)
    (hcnt : (Finset.univ.filter fun i : Cert.Gcn.SA.Idx => a i ≠ 0).card ≤ 320000) :
    Cert.Gcn.IsEdgeList a (rowsT a) (colsT a) := by
  have hn : nnz a ≤ 320000 := by rw [nnz_eq_card]; exact hcnt
  refine isEdgeList_of_slots a (rowsT a) (colsT a) hn ?_ ?_ ?_
  · intro s hs hlt
    have hs' : s < 320000 := by omega
    have hN : Nat.nth (nzAt a) s < 100000000 := (Cert.NthTrue.nth_lt_of_lt_count (nzAt a) 100000000 s hlt).1
    constructor
    · show (res_v26 a (ix1 ⟨s, hs⟩)).toInt = _
      rw [show res_v26 a (ix1 ⟨s, hs⟩) = res_v23 a (ix1 ⟨s, hs'⟩) from concat_left _ _ s hs hs', res_v23_lo a s hs' hlt,
        Nat.mod_eq_of_lt (by omega : Nat.nth (nzAt a) s / 10000 < 10000),
        StableHlo.Predicate.toInt_ofNat_small _ (by omega)]
    · show (res_v27 a (ix1 ⟨s, hs⟩)).toInt = _
      rw [show res_v27 a (ix1 ⟨s, hs⟩) = res_v24 a (ix1 ⟨s, hs'⟩) from concat_left _ _ s hs hs', res_v24_lo a s hs' hlt,
        StableHlo.Predicate.toInt_ofNat_small _ (by omega)]
  · intro s hs hge hlt
    show (res_v27 a (ix1 ⟨s, hs⟩)).toInt = 10000
    rw [show res_v27 a (ix1 ⟨s, hs⟩) = res_v24 a (ix1 ⟨s, hlt⟩) from concat_left _ _ s hs hlt, res_v24_fill a s hlt hge]
    decide
  · intro e he
    constructor
    · show (res_v26 a (ix1 ⟨320000 + e, he⟩)).toInt = _
      rw [show res_v26 a (ix1 ⟨320000 + e, he⟩) = res_v25 (ix1 ⟨e, by omega⟩) from concat_right _ _ e he]
      show (BitVec.ofNat 32 e).toInt = _
      exact StableHlo.Predicate.toInt_ofNat_small e (by omega)
    · show (res_v27 a (ix1 ⟨320000 + e, he⟩)).toInt = _
      rw [show res_v27 a (ix1 ⟨320000 + e, he⟩) = res_v25 (ix1 ⟨e, by omega⟩) from concat_right _ _ e he]
      show (BitVec.ofNat 32 e).toInt = _
      exact StableHlo.Predicate.toInt_ofNat_small e (by omega)

theorem rowsT_nonneg (a : Cert.Gcn.SA.Idx → EReal) (e : Cert.Gcn.SE.Idx) : 0 ≤ (rowsT a e).toInt := by
  obtain ⟨n, rfl⟩ : ∃ n : Fin 330000, e = ix1 n := ⟨e 0, eq_ix1 e⟩
  by_cases h : n.val < 320000
  · show 0 ≤ (res_v26 a (ix1 ⟨n.val, n.isLt⟩)).toInt
    have hb := res_v23_lt a n.val h
    rw [show res_v26 a (ix1 ⟨n.val, n.isLt⟩) = res_v23 a (ix1 ⟨n.val, h⟩) from concat_left _ _ n.val n.isLt h,
      StableHlo.Predicate.toInt_eq_toNat_of_lt (by omega)]
    exact Int.natCast_nonneg _
  · obtain ⟨e', he'⟩ : ∃ e', n.val = 320000 + e' := ⟨n.val - 320000, by omega⟩
    have hlt : 320000 + e' < 330000 := by have := n.isLt; omega
    have hn : n = ⟨320000 + e', hlt⟩ := Fin.ext he'
    rw [hn]
    show 0 ≤ (res_v26 a (ix1 ⟨320000 + e', hlt⟩)).toInt
    rw [show res_v26 a (ix1 ⟨320000 + e', hlt⟩) = res_v25 (ix1 ⟨e', by omega⟩) from concat_right _ _ e' hlt]
    show 0 ≤ (BitVec.ofNat 32 e').toInt
    rw [StableHlo.Predicate.toInt_ofNat_small e' (by omega)]
    exact Int.natCast_nonneg _

end Cert.ReferenceIdeal.Hand

end
-- ==== Proof.RefNetOps.lean ====
import Idealize.ShloMosaic.Lib.ValueIdx
import Idealize.ShloMosaic.Lib.ValueIdxRank1
import Idealize.ShloMosaic.Lib.IdealHost
import proofs.«109387_g55946243997874_fold_wed_m_672_4_alg».proof.ReferenceIdeal
import proofs.«109387_g55946243997874_fold_wed_m_672_4_alg».proof.Proof.EdgeIface

noncomputable section

open scoped BigOperators

namespace Cert.ReferenceIdeal.Hand

open Idealize.ShloMosaic Idealize.ShloMosaic.ValueIdx Cert.ReferenceIdeal Cert.Gcn

variable [Cert.ReferenceIdeal.Facts]

theorem gather1_apply {α : Type} (x : S10000.Idx → α) (idx : IVec S330000x1 32) (e : Fin 330000) :
    Host.gather gather_S10000_S330000x1_S330000_n_0_n_n_0_1_1 x idx (ix1 e)
      = x (ix1 (clampNode (idx (ix2 e (0 : Fin 1))))) := by
  unfold Host.gather
  congr 1
  funext a
  obtain rfl : a = 0 := Subsingleton.elim _ _
  refine Fin.ext ?_
  show gather_S10000_S330000x1_S330000_n_0_n_n_0_1_1.start (ix1 e) idx 0
      + gather_S10000_S330000x1_S330000_n_0_n_n_0_1_1.batchCoord (ix1 e) 0
      + gather_S10000_S330000x1_S330000_n_0_n_n_0_1_1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S10000_S330000x1_S330000_n_0_n_n_0_1_1.startIndexMap from List.mem_singleton.mpr rfl)]
  have hsi : gather_S10000_S330000x1_S330000_n_0_n_n_0_1_1.siIdx (ix1 e)
      ⟨List.idxOf (0 : Fin 1) gather_S10000_S330000x1_S330000_n_0_n_n_0_1_1.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

section Rows

variable (K : ℕ)

abbrev gatherRows (wf : GatherDims.WF ⟨2, ![10000, K]⟩ S330000x1 ⟨2, ![330000, K]⟩ [1] [0] [] [0] [] 1 ![1, K]) :
    GatherDims ⟨2, ![10000, K]⟩ S330000x1 ⟨2, ![330000, K]⟩ :=
  { offsetDims := [1], collapsedSliceDims := [0], operandBatchingDims := [], startIndicesBatchingDims := [],
    startIndexMap := [0], indexVectorDim := 1, sliceSizes := ![1, K], wf := wf }

abbrev scatterRows (wf : ScatterDims.WF ⟨2, ![10000, K]⟩ S330000x1 ⟨2, ![330000, K]⟩ [1] [0] [0] 1) :
    ScatterDims ⟨2, ![10000, K]⟩ S330000x1 ⟨2, ![330000, K]⟩ :=
  { updateWindowDims := [1], insertedWindowDims := [0], scatterDimsToOperandDims := [0], indexVectorDim := 1, wf := wf }

/-- Gathering whole rows of a table of any width: slot `e`, column `k` reads the row its index names, clamped. -/
theorem gatherRows_apply {α : Type} (wf) (x : (⟨2, ![10000, K]⟩ : Shape).Idx → α) (idx : IVec S330000x1 32) (e : Fin 330000) (k : Fin K) :
    Host.gather (gatherRows K wf) x idx (ix2 e k) = x (ix2 (clampNode (idx (ix2 e (0 : Fin 1)))) k) := by
  unfold Host.gather
  congr 1
  funext a
  refine Fin.ext ?_
  match a with
  | ⟨0, _⟩ =>
    show (gatherRows K wf).start (ix2 e k) idx (0 : Fin 2) + (gatherRows K wf).batchCoord (ix2 e k) (0 : Fin 2)
        + (gatherRows K wf).offCoord (ix2 e k) (0 : Fin 2) = (clampNode (idx (ix2 e (0 : Fin 1)))).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows K wf).startIndexMap from List.mem_singleton.mpr rfl)]
    have hsi : (gatherRows K wf).siIdx (ix2 e k)
        ⟨List.idxOf (0 : Fin 2) (gatherRows K wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRows K wf).start (ix2 e k) idx (1 : Fin 2) + (gatherRows K wf).batchCoord (ix2 e k) (1 : Fin 2)
        + (gatherRows K wf).offCoord (ix2 e k) (1 : Fin 2) = k.val
    have hs : (gatherRows K wf).start (ix2 e k) idx (1 : Fin 2) = 0 := by
      unfold GatherDims.start
      rw [dif_neg (show (1 : Fin 2) ∉ (gatherRows K wf).startIndexMap from by
        intro h; exact Nat.one_ne_zero (congrArg Fin.val (List.mem_singleton.mp h)))]
    rw [hs, GatherDims.batchCoord_eq_zero _ _ _ List.not_mem_nil]
    simp only [Nat.zero_add]
    rfl

theorem scatterRows_resultIdx (wf) (idx : IVec S330000x1 32) (e : Fin 330000) (k' : Fin K) (j : Fin 10000) (k : Fin K) :
    (scatterRows K wf).resultIdx? (ix2 e k') idx = some (ix2 j k)
      ↔ (idx (ix2 e (0 : Fin 1))).toInt = (j.val : Int) ∧ k' = k := by
  have hst0 : (scatterRows K wf).start (ix2 e k') idx (0 : Fin 2) = (idx (ix2 e (0 : Fin 1))).toInt := by
    unfold ScatterDims.start
    rw [dif_pos (show (0 : Fin 2) ∈ (scatterRows K wf).scatterDimsToOperandDims from List.mem_singleton.mpr rfl)]
    congr 2
    funext b; refine Fin.ext ?_
    match b with
    | ⟨0, _⟩ => rfl
    | ⟨1, _⟩ => rfl
  have hst1 : (scatterRows K wf).start (ix2 e k') idx (1 : Fin 2) = 0 := by
    unfold ScatterDims.start
    rw [dif_neg (show (1 : Fin 2) ∉ (scatterRows K wf).scatterDimsToOperandDims from by
      intro h; exact Nat.one_ne_zero (congrArg Fin.val (List.mem_singleton.mp h)))]
  have hw0 : (scatterRows K wf).window (ix2 e k') (0 : Fin 2) = 0 := by
    unfold ScatterDims.window
    rw [dif_neg]
    simp [ScatterDims.sKept, Shape.kept, List.mem_filter, List.mem_finRange]
  have hw1 : (scatterRows K wf).window (ix2 e k') (1 : Fin 2) = k'.val := by
    unfold ScatterDims.window
    rw [dif_pos (by simp [ScatterDims.sKept, Shape.kept, List.mem_filter, List.mem_finRange])]
    rfl
  have hj := j.isLt
  have hk := k.isLt
  have hk' := k'.isLt
  unfold ScatterDims.resultIdx?
  constructor
  · intro h
    split at h
    · rename_i hin
      have h0 := congrArg Fin.val (congrFun (Option.some.inj h) (0 : Fin 2))
      have h1 := congrArg Fin.val (congrFun (Option.some.inj h) (1 : Fin 2))
      have hin0 := (hin (0 : Fin 2)).1
      simp only [hst0, hw0, hst1, hw1] at h0 h1 hin0
      have h0' : ((idx (ix2 e (0 : Fin 1))).toInt + ((0 : Nat) : Int)).toNat = j.val := h0
      have h1' : ((0 : Int) + (k'.val : Int)).toNat = k.val := h1
      refine ⟨by omega, Fin.ext (by omega)⟩
    · exact absurd h (by simp)
  · rintro ⟨h, rfl⟩
    rw [dif_pos (fun a => by
      match a with
      | ⟨0, _⟩ =>
        show 0 ≤ (scatterRows K wf).start (ix2 e k') idx (0 : Fin 2) + ((scatterRows K wf).window (ix2 e k') (0 : Fin 2) : Int)
          ∧ (scatterRows K wf).start (ix2 e k') idx (0 : Fin 2) + ((scatterRows K wf).window (ix2 e k') (0 : Fin 2) : Int) < ((10000 : Nat) : Int)
        rw [hst0, hw0, h]; omega
      | ⟨1, _⟩ =>
        show 0 ≤ (scatterRows K wf).start (ix2 e k') idx (1 : Fin 2) + ((scatterRows K wf).window (ix2 e k') (1 : Fin 2) : Int)
          ∧ (scatterRows K wf).start (ix2 e k') idx (1 : Fin 2) + ((scatterRows K wf).window (ix2 e k') (1 : Fin 2) : Int) < ((K : Nat) : Int)
        rw [hst1, hw1]; omega)]
    refine congrArg some (funext fun a => Fin.ext ?_)
    match a with
    | ⟨0, _⟩ =>
      show ((scatterRows K wf).start (ix2 e k') idx (0 : Fin 2) + ((scatterRows K wf).window (ix2 e k') (0 : Fin 2) : Int)).toNat = j.val
      rw [hst0, hw0, h]; omega
    | ⟨1, _⟩ =>
      show ((scatterRows K wf).start (ix2 e k') idx (1 : Fin 2) + ((scatterRows K wf).window (ix2 e k') (1 : Fin 2) : Int)).toNat = k'.val
      rw [hst1, hw1]; omega

/-- Scatter-adding rows of any width: entry `(j, k)` gains column `k` of every slot whose index names row `j`. -/
theorem scatterAddRows_apply (wf) (x : FVec Ideal ⟨2, ![10000, K]⟩ .f32) (idx : IVec S330000x1 32) (upd : FVec Ideal ⟨2, ![330000, K]⟩ .f32)
    (j : Fin 10000) (k : Fin K) :
    Host.scatterAdd (scatterRows K wf) x idx upd (ix2 j k)
      = x (ix2 j k) + ∑ e : Fin 330000, if (idx (ix2 e (0 : Fin 1))).toInt = (j.val : Int) then upd (ix2 e k) else 0 := by
  show Ideal.hostScatterAdd (scatterRows K wf) x idx upd (ix2 j k) = _
  unfold Ideal.hostScatterAdd
  refine congrArg (x (ix2 j k) + ·) ?_
  rw [Finset.sum_filter, sum_idx2]
  refine Finset.sum_congr rfl fun e _ => ?_
  simp only [scatterRows_resultIdx]
  by_cases h : (idx (ix2 e (0 : Fin 1))).toInt = (j.val : Int)
  · simp only [h, true_and, if_true]
    rw [Finset.sum_ite_eq' Finset.univ k (fun b => upd (ix2 e b))]
    simp
  · simp only [h, false_and, if_false]
    exact Finset.sum_const_zero

end Rows

theorem scatter1_resultIdx (idx : IVec S330000x1 32) (e : Fin 330000) (j : Fin 10000) :
    scatter_S10000_S330000x1_S330000_n_0_0_1.resultIdx? (ix1 e) idx = some (ix1 j) ↔ (idx (ix2 e (0 : Fin 1))).toInt = (j.val : Int) := by
  have hst : ∀ a : Fin 1, scatter_S10000_S330000x1_S330000_n_0_0_1.start (ix1 e) idx a = (idx (ix2 e (0 : Fin 1))).toInt := by
    intro a
    obtain rfl : a = 0 := Subsingleton.elim _ _
    unfold ScatterDims.start
    rw [dif_pos (show (0 : Fin 1) ∈ scatter_S10000_S330000x1_S330000_n_0_0_1.scatterDimsToOperandDims from List.mem_singleton.mpr rfl)]
    congr 2
    funext b; refine Fin.ext ?_
    match b with
    | ⟨0, _⟩ => rfl
    | ⟨1, _⟩ => rfl
  have hw : ∀ a : Fin 1, scatter_S10000_S330000x1_S330000_n_0_0_1.window (ix1 e) a = 0 := by
    intro a
    obtain rfl : a = 0 := Subsingleton.elim _ _
    unfold ScatterDims.window
    rw [dif_neg]
    simp [ScatterDims.sKept, Shape.kept, List.mem_filter, List.mem_finRange, scatter_S10000_S330000x1_S330000_n_0_0_1]
  unfold ScatterDims.resultIdx?
  simp only [hst, hw, Nat.cast_zero, add_zero]
  have hj := j.isLt
  constructor
  · intro h
    split at h
    · rename_i hin
      have h0 := congrFun (Option.some.inj h) (0 : Fin 1)
      have h1 : ((idx (ix2 e (0 : Fin 1))).toInt).toNat = j.val := congrArg Fin.val h0
      have := (hin (0 : Fin 1)).1
      omega
    · exact absurd h (by simp)
  · intro h
    rw [dif_pos (fun a => by
      obtain rfl : a = 0 := Subsingleton.elim _ _
      rw [h]; exact ⟨by omega, by show (j.val : Int) < ((10000 : Nat) : Int); omega⟩)]
    congr 1
    funext a
    obtain rfl : a = 0 := Subsingleton.elim _ _
    refine Fin.ext ?_
    show ((idx (ix2 e (0 : Fin 1))).toInt).toNat = j.val
    omega

theorem scatterAdd1_apply (x : FVec Ideal S10000 .f32) (idx : IVec S330000x1 32) (upd : FVec Ideal S330000 .f32)
    (j : Fin 10000) :
    Host.scatterAdd scatter_S10000_S330000x1_S330000_n_0_0_1 x idx upd (ix1 j)
      = x (ix1 j) + ∑ e : Fin 330000, if (idx (ix2 e (0 : Fin 1))).toInt = (j.val : Int) then upd (ix1 e) else 0 := by
  show Ideal.hostScatterAdd scatter_S10000_S330000x1_S330000_n_0_0_1 x idx upd (ix1 j) = _
  unfold Ideal.hostScatterAdd
  refine congrArg (x (ix1 j) + ·) ?_
  rw [Finset.sum_filter, ← Equiv.sum_comp (idxEquiv1 (n := 330000)).symm]
  refine Finset.sum_congr rfl fun e _ => ?_
  show (if scatter_S10000_S330000x1_S330000_n_0_0_1.resultIdx? (ix1 e) idx = some (ix1 j) then upd (ix1 e) else 0) = _
  simp only [scatter1_resultIdx]

end Cert.ReferenceIdeal.Hand

end
-- ==== Proof.LibAggAlgebra.lean ====
import Mathlib.Data.EReal.Inv
import Mathlib.Data.EReal.Operations
import Mathlib.Algebra.BigOperators.Group.Finset.Basic
import Mathlib.Algebra.BigOperators.Ring.Finset
import Mathlib.Analysis.SpecialFunctions.Sqrt
import Mathlib.Tactic.Ring
import Mathlib.Tactic.Linarith
import Mathlib.Tactic.NormNum
import Idealize.ShloMosaic.PureOps.Ideal

noncomputable section

namespace Cert.AggAlgebra

open Idealize.ShloMosaic

abbrev IsReal (x : EReal) : Prop := ∃ r : ℝ, x = (r : EReal)

variable {ι : Type*}

theorem isReal_zero : IsReal (0 : EReal) := ⟨0, rfl⟩

theorem isReal_one : IsReal (1 : EReal) := ⟨1, rfl⟩

theorem isReal_of_zero_or_one {x : EReal} (h : x = 0 ∨ x = 1) : IsReal x := by
  rcases h with rfl | rfl
  · exact isReal_zero
  · exact isReal_one

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_max {x y : EReal} (hx : IsReal x) (hy : IsReal y) : IsReal (max x y) := by
  obtain ⟨a, rfl⟩ := hx
  obtain ⟨b, rfl⟩ := hy
  exact ⟨max a b, (EReal.coe_strictMono.monotone.map_max).symm⟩

theorem coe_sum (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem isReal_sum (s : Finset ι) (f : ι → EReal) (hf : ∀ i ∈ s, IsReal (f i)) :
    IsReal (∑ i ∈ s, f i) := by
  classical
  induction s using Finset.induction_on with
  | empty => exact ⟨0, by simp⟩
  | insert i s hi ih =>
    rw [Finset.sum_insert hi]
    exact isReal_add (hf i (Finset.mem_insert_self i s))
      (ih fun j hj => hf j (Finset.mem_insert_of_mem hj))

theorem agg_factor [Fintype ι] (a h d : ι → EReal) (hj dj : EReal)
    [inst : ∀ i, Decidable (a i ≠ 0)]
    (ha : ∀ i, a i = 0 ∨ a i = 1) (hh : ∀ i, IsReal (h i)) (hd : ∀ i, IsReal (d i))
    (hhj : IsReal hj) (hdj : IsReal dj) :
    (∑ i, if a i ≠ 0 then h i * (d i * dj) else 0) + hj * (dj * dj)
      = ((∑ i, a i * (h i * d i)) + hj * dj) * dj := by
  choose hr hhr using hh
  choose dr hdr using hd
  obtain ⟨hjr, rfl⟩ := hhj
  obtain ⟨djr, rfl⟩ := hdj

  have hL : ∀ i, (if a i ≠ 0 then h i * (d i * (djr : EReal)) else 0)
      = ((if a i ≠ 0 then hr i * (dr i * djr) else 0 : ℝ) : EReal) := by
    intro i
    split_ifs
    · rw [hhr i, hdr i, ← EReal.coe_mul, ← EReal.coe_mul]
    · rfl
  have hR : ∀ i, a i * (h i * d i) = ((if a i ≠ 0 then hr i * dr i else 0 : ℝ) : EReal) := by
    intro i
    rcases ha i with h0 | h1
    · rw [if_neg (by simp [h0]), h0, zero_mul]; rfl
    · rw [if_pos (by simp [h1]), h1, one_mul, hhr i, hdr i, ← EReal.coe_mul]
  rw [Finset.sum_congr rfl (fun i _ => hL i), Finset.sum_congr rfl (fun i _ => hR i),
    ← coe_sum, ← coe_sum, ← EReal.coe_mul, ← EReal.coe_mul, ← EReal.coe_mul, ← EReal.coe_add,
    ← EReal.coe_add, ← EReal.coe_mul]
  congr 1

  rw [add_mul, Finset.sum_mul]
  congr 1
  · refine Finset.sum_congr rfl fun i _ => ?_
    split_ifs <;> ring
  · ring

theorem count_eq_sum [Fintype ι] (a : ι → EReal) [inst : ∀ i, Decidable (a i ≠ 0)]
    (ha : ∀ i, a i = 0 ∨ a i = 1) :
    (∑ i, if a i ≠ 0 then (1 : EReal) else 0) + 1 = (∑ i, a i) + 1 := by
  congr 1
  refine Finset.sum_congr rfl fun i _ => ?_
  rcases ha i with h0 | h1
  · rw [if_neg (by simp [h0]), h0]
  · rw [if_pos (by simp [h1]), h1]

theorem sum_add_one_real [Fintype ι] (a : ι → EReal) (ha : ∀ i, a i = 0 ∨ a i = 1) :
    ∃ r : ℝ, 1 ≤ r ∧ (∑ i, a i) + 1 = (r : EReal) := by
  classical

  have hcoe : ∀ i, a i = ((if a i ≠ 0 then 1 else 0 : ℝ) : EReal) := by
    intro i
    rcases ha i with h0 | h1
    · rw [if_neg (by simp [h0]), h0]; rfl
    · rw [if_pos (by simp [h1]), h1]; rfl
  refine ⟨(∑ i, (if a i ≠ 0 then 1 else 0 : ℝ)) + 1, ?_, ?_⟩
  · have h0 : 0 ≤ ∑ i, (if a i ≠ 0 then (1 : ℝ) else 0) :=
      Finset.sum_nonneg fun i _ => by split_ifs <;> norm_num
    linarith
  · rw [EReal.coe_add, coe_sum, EReal.coe_one]
    congr 1
    exact Finset.sum_congr rfl fun i _ => hcoe i

theorem div_one_sqrt (r : ℝ) (hr : 0 < r) :
    Ideal.div 1 (Ideal.sqrt (r : EReal)) = Ideal.rsqrt (r : EReal) := by
  have hs : 0 < Real.sqrt r := Real.sqrt_pos.mpr hr
  have hs0 : ((Real.sqrt r : ℝ) : EReal) ≠ 0 := by exact_mod_cast hs.ne'
  rw [Ideal.sqrt_coe, Ideal.rsqrt_coe, if_neg (not_lt.mpr hr.le), if_neg (not_lt.mpr hr.le),
    if_neg hr.ne', Ideal.div, if_neg hs0, one_mul, EReal.coe_inv]

theorem rsqrt_pos_real (r : ℝ) (hr : 0 < r) :
    ∃ s : ℝ, 0 < s ∧ Ideal.rsqrt (r : EReal) = (s : EReal) := by
  have hs : 0 < Real.sqrt r := Real.sqrt_pos.mpr hr
  refine ⟨(Real.sqrt r)⁻¹, inv_pos.mpr hs, ?_⟩
  rw [Ideal.rsqrt_coe, if_neg (not_lt.mpr hr.le), if_neg hr.ne']

theorem cmp_ogt_zero (r : ℝ) (hr : 0 < r) : Ideal.cmp .ogt (r : EReal) 0 = 1#1 := by
  have h : (0 : EReal) < (r : EReal) := EReal.coe_pos.mpr hr
  simp [Ideal.cmp, h]

end Cert.AggAlgebra

end
-- ==== Proof.SpecFinite.lean ====
import proofs.«109387_g55946243997874_fold_wed_m_672_4_alg».proof.Proof.Spec
import proofs.«109387_g55946243997874_fold_wed_m_672_4_alg».proof.Proof.LibAggAlgebra
import Mathlib.Tactic.Linarith

noncomputable section

namespace Cert.Gcn

open Idealize.ShloMosaic Idealize.ShloMosaic.ValueIdx Cert.AggAlgebra

variable (x : SX.Idx → EReal) (a : SA.Idx → EReal) (W1 : SW1.Idx → EReal) (b1 : SB1.Idx → EReal)
  (W2 : SW2.Idx → EReal) (b2 : SB2.Idx → EReal)

theorem deg_real (ha : ∀ i, a i = 0 ∨ a i = 1) (j : Fin 10000) : ∃ r : ℝ, 1 ≤ r ∧ deg a j = (r : EReal) :=
  sum_add_one_real (fun i : Fin 10000 => a (ix2 i j)) fun i => ha _

theorem dinv_pos_real (ha : ∀ i, a i = 0 ∨ a i = 1) (j : Fin 10000) :
    ∃ s : ℝ, 0 < s ∧ dinv a j = (s : EReal) := by
  obtain ⟨r, hr, e⟩ := deg_real a ha j
  unfold dinv
  rw [e]
  exact rsqrt_pos_real r (by linarith)

theorem dinv_real (ha : ∀ i, a i = 0 ∨ a i = 1) (j : Fin 10000) : IsReal (dinv a j) := by
  obtain ⟨s, _, e⟩ := dinv_pos_real a ha j
  exact ⟨s, e⟩

theorem u1_real (ha : ∀ i, a i = 0 ∨ a i = 1) (hx : ∀ i, IsReal (x i)) (hW1 : ∀ i, IsReal (W1 i))
    (i : Fin 10000) (k : Fin 16) : IsReal (u1 x a W1 i k) :=
  isReal_mul (isReal_sum _ _ fun d _ => isReal_mul (hx _) (hW1 _)) (dinv_real a ha i)

theorem agg1_real (ha : ∀ i, a i = 0 ∨ a i = 1) (hx : ∀ i, IsReal (x i)) (hW1 : ∀ i, IsReal (W1 i))
    (j : Fin 10000) (k : Fin 16) : IsReal (agg1 x a W1 j k) :=
  isReal_add (isReal_sum _ _ fun i _ => isReal_mul (isReal_of_zero_or_one (ha _)) (u1_real x a W1 ha hx hW1 i k))
    (u1_real x a W1 ha hx hW1 j k)

theorem o1_real (ha : ∀ i, a i = 0 ∨ a i = 1) (hx : ∀ i, IsReal (x i)) (hW1 : ∀ i, IsReal (W1 i))
    (hb1 : ∀ i, IsReal (b1 i)) (j : Fin 10000) (k : Fin 16) : IsReal (o1 x a W1 b1 j k) :=
  isReal_max (isReal_add (isReal_mul (agg1_real x a W1 ha hx hW1 j k) (dinv_real a ha j)) (hb1 _)) isReal_zero

end Cert.Gcn

end
-- ==== Proof.RefNetLayer.lean ====
import Mathlib.Tactic.Linarith
import Idealize.ShloMosaic.Lib.ValueIdx
import proofs.«109387_g55946243997874_fold_wed_m_672_4_alg».proof.Proof.EdgeIface
import proofs.«109387_g55946243997874_fold_wed_m_672_4_alg».proof.Proof.LibAggAlgebra
import proofs.«109387_g55946243997874_fold_wed_m_672_4_alg».proof.Proof.SpecFinite

noncomputable section

open scoped BigOperators

namespace Cert.ReferenceIdeal.Hand

open Idealize.ShloMosaic Idealize.ShloMosaic.ValueIdx Cert.Gcn Cert.AggAlgebra

def normW (w : BitVec 32) : BitVec 32 := Scalar.select (IntOp.cmpi .slt w 0#32) (IntOp.addi w 10000#32) w

theorem normW_of_nonneg {w : BitVec 32} (h : 0 ≤ w.toInt) : normW w = w := by
  have hs : w.slt 0#32 = false := by
    rw [BitVec.slt]
    simp only [BitVec.toInt_zero, decide_eq_false_iff_not, not_lt]
    exact h
  unfold normW Scalar.select IntOp.cmpi
  simp only [hs]
  rw [if_neg (by decide)]

theorem clampNode_eq_of_toInt {w : BitVec 32} {j : Fin 10000} (h : w.toInt = (j.val : Int)) : clampNode w = j := by
  have hj := j.isLt
  unfold clampNode
  refine Fin.ext ?_
  show min w.toInt.toNat 9999 = j.val
  omega

theorem deg_sum (a : SA.Idx → EReal) (rows cols : SE.Idx → BitVec 32) (hE : IsEdgeList a rows cols)
    (h01 : ∀ i, a i = 0 ∨ a i = 1) (j : Fin 10000) :
    (∑ e : Fin 330000, if (cols (ix1 e)).toInt = (j.val : Int) then (1 : EReal) else 0) = deg a j := by
  have h := hE j (fun _ => (1 : EReal))
  rw [h]
  exact count_eq_sum (fun i : Fin 10000 => a (ix2 i j)) (fun i => h01 _)

theorem dis_eq (a : SA.Idx → EReal) (h01 : ∀ i, a i = 0 ∨ a i = 1) (j : Fin 10000) :
    Scalar.select (Ideal.cmp .ogt (deg a j) 0) (Ideal.div 1 (Ideal.sqrt (deg a j))) (0 : EReal) = dinv a j := by
  obtain ⟨r, hr, e⟩ := deg_real a h01 j
  have hr0 : 0 < r := by linarith
  unfold dinv
  rw [e, cmp_ogt_zero r hr0, select_one, div_one_sqrt r hr0]

theorem layer_sum {C : Nat} (a : SA.Idx → EReal) (rows cols : SE.Idx → BitVec 32) (hE : IsEdgeList a rows cols)
    (hrow : ∀ e : SE.Idx, 0 ≤ (rows e).toInt) (h01 : ∀ i, a i = 0 ∨ a i = 1)
    (h : Fin 10000 → Fin C → EReal) (hh : ∀ i k, IsReal (h i k)) (j : Fin 10000) (k : Fin C) :
    (∑ e : Fin 330000, if (cols (ix1 e)).toInt = (j.val : Int)
        then h (clampNode (normW (rows (ix1 e)))) k
          * (dinv a (clampNode (normW (rows (ix1 e)))) * dinv a (clampNode (normW (cols (ix1 e)))))
        else 0)
      = ((∑ i : Fin 10000, a (ix2 i j) * (h i k * dinv a i)) + h j k * dinv a j) * dinv a j := by
  have hj := j.isLt
  have hstep : ∀ e : Fin 330000,
      (if (cols (ix1 e)).toInt = (j.val : Int)
        then h (clampNode (normW (rows (ix1 e)))) k
          * (dinv a (clampNode (normW (rows (ix1 e)))) * dinv a (clampNode (normW (cols (ix1 e)))))
        else 0)
      = (if (cols (ix1 e)).toInt = (j.val : Int)
          then (fun i : Fin 10000 => h i k * (dinv a i * dinv a j)) (clampNode (rows (ix1 e))) else 0) := by
    intro e
    by_cases hc : (cols (ix1 e)).toInt = (j.val : Int)
    · rw [if_pos hc, if_pos hc, normW_of_nonneg (hrow _), normW_of_nonneg (by rw [hc]; omega), clampNode_eq_of_toInt hc]
    · rw [if_neg hc, if_neg hc]
  rw [Finset.sum_congr rfl fun e _ => hstep e]
  refine (hE j (fun i : Fin 10000 => h i k * (dinv a i * dinv a j))).trans ?_
  exact agg_factor (fun i : Fin 10000 => a (ix2 i j)) (fun i => h i k) (dinv a) (h j k) (dinv a j)
    (fun i => h01 _) (fun i => hh i k) (fun i => dinv_real a h01 i) (hh j k) (dinv_real a h01 j)

end Cert.ReferenceIdeal.Hand

end
-- ==== Proof.RefNetStages.lean ====
import Idealize.ShloMosaic.Lib.IdealHost
import Idealize.ShloMosaic.Lib.StackMember
import proofs.«109387_g55946243997874_fold_wed_m_672_4_alg».proof.Proof.RStages
import proofs.«109387_g55946243997874_fold_wed_m_672_4_alg».proof.Proof.RefNetOps
import proofs.«109387_g55946243997874_fold_wed_m_672_4_alg».proof.Proof.RefNetLayer

noncomputable section

open scoped BigOperators

namespace Cert.ReferenceIdeal.Hand

open Idealize.ShloMosaic Idealize.ShloMosaic.ValueIdx Cert.ReferenceIdeal Cert.Gcn Cert.AggAlgebra
open Cert.ReferenceIdeal.Facts₀ Cert.ReferenceIdeal.Facts

variable [Cert.ReferenceIdeal.Facts]

theorem splat_zero {T : Shape} (h : S_.BroadcastsInDim T ![]) (i : T.Idx) :
    broadcastInDim T ![] h (constant (F := Ideal) S_ .f32 0x00000000#32) i = (0 : EReal) := by
  rw [broadcastInDim_scalar_apply]; exact Ideal.ofBits_zero_f32

theorem splat_one {T : Shape} (h : S_.BroadcastsInDim T ![]) (i : T.Idx) :
    broadcastInDim T ![] h (constant (F := Ideal) S_ .f32 0x3F800000#32) i = (1 : EReal) := by
  rw [broadcastInDim_scalar_apply]; exact Ideal.ofBits_one_f32

theorem bcastCol_apply {α : Type} (v : S330000.Idx → α) (e : Fin 330000) :
    broadcastInDim S330000x1 ![0] bcast_S330000_S330000x1_0 v (ix2 e (0 : Fin 1)) = v (ix1 e) := by
  refine broadcastInDim_apply _ _ v _ (ix1 e) fun a => ?_
  match a with
  | ⟨0, _⟩ =>
    show e.val = if (330000 : Nat) = 1 then 0 else e.val
    rw [if_neg (by decide)]

theorem bcastRow16_apply {α : Type} (v : S330000x1.Idx → α) (e : Fin 330000) (k : Fin 16) :
    broadcastInDim S330000x16 ![0, 1] bcast_S330000x1_S330000x16_0_1 v (ix2 e k) = v (ix2 e (0 : Fin 1)) := by
  refine broadcastInDim_apply _ _ v _ (ix2 e (0 : Fin 1)) fun a => ?_
  match a with
  | ⟨0, _⟩ =>
    show e.val = if (330000 : Nat) = 1 then 0 else e.val
    rw [if_neg (by decide)]
  | ⟨1, _⟩ =>
    show (0 : Nat) = if (1 : Nat) = 1 then 0 else k.val
    rw [if_pos rfl]

theorem bias16_apply {α : Type} (b : S16.Idx → α) (j : Fin 10000) (k : Fin 16) :
    broadcastInDim S10000x16 ![0, 1] bcast_S1x16_S10000x16_0_1 (broadcastInDim S1x16 ![1] bcast_S16_S1x16_1 b) (ix2 j k)
      = b (ix1 k) := by
  have h1 : broadcastInDim S10000x16 ![0, 1] bcast_S1x16_S10000x16_0_1 (broadcastInDim S1x16 ![1] bcast_S16_S1x16_1 b) (ix2 j k)
      = broadcastInDim S1x16 ![1] bcast_S16_S1x16_1 b (ix2 (0 : Fin 1) k) := by
    refine broadcastInDim_apply _ _ _ _ (ix2 (0 : Fin 1) k) fun a => ?_
    match a with
    | ⟨0, _⟩ =>
      show (0 : Nat) = if (1 : Nat) = 1 then 0 else j.val
      rw [if_pos rfl]
    | ⟨1, _⟩ =>
      show k.val = if (16 : Nat) = 1 then 0 else k.val
      rw [if_neg (by decide)]
  rw [h1]
  refine broadcastInDim_apply _ _ b _ (ix1 k) fun a => ?_
  match a with
  | ⟨0, _⟩ =>
    show k.val = if (16 : Nat) = 1 then 0 else k.val
    rw [if_neg (by decide)]

theorem bcastRow40_apply {α : Type} (v : S330000x1.Idx → α) (e : Fin 330000) (k : Fin 40) :
    broadcastInDim S330000x40 ![0, 1] bcast_S330000x1_S330000x40_0_1 v (ix2 e k) = v (ix2 e (0 : Fin 1)) := by
  refine broadcastInDim_apply _ _ v _ (ix2 e (0 : Fin 1)) fun a => ?_
  match a with
  | ⟨0, _⟩ =>
    show e.val = if (330000 : Nat) = 1 then 0 else e.val
    rw [if_neg (by decide)]
  | ⟨1, _⟩ =>
    show (0 : Nat) = if (1 : Nat) = 1 then 0 else k.val
    rw [if_pos rfl]

theorem bias40_apply {α : Type} (b : S40.Idx → α) (j : Fin 10000) (k : Fin 40) :
    broadcastInDim S10000x40 ![0, 1] bcast_S1x40_S10000x40_0_1 (broadcastInDim S1x40 ![1] bcast_S40_S1x40_1 b) (ix2 j k)
      = b (ix1 k) := by
  have h1 : broadcastInDim S10000x40 ![0, 1] bcast_S1x40_S10000x40_0_1 (broadcastInDim S1x40 ![1] bcast_S40_S1x40_1 b) (ix2 j k)
      = broadcastInDim S1x40 ![1] bcast_S40_S1x40_1 b (ix2 (0 : Fin 1) k) := by
    refine broadcastInDim_apply _ _ _ _ (ix2 (0 : Fin 1) k) fun a => ?_
    match a with
    | ⟨0, _⟩ =>
      show (0 : Nat) = if (1 : Nat) = 1 then 0 else j.val
      rw [if_pos rfl]
    | ⟨1, _⟩ =>
      show k.val = if (40 : Nat) = 1 then 0 else k.val
      rw [if_neg (by decide)]
  rw [h1]
  refine broadcastInDim_apply _ _ b _ (ix1 k) fun a => ?_
  match a with
  | ⟨0, _⟩ =>
    show k.val = if (40 : Nat) = 1 then 0 else k.val
    rw [if_neg (by decide)]

theorem res_v28_apply (x : SX.Idx → EReal) (W1 : SW1.Idx → EReal) (i : Fin 10000) (k : Fin 16) :
    res_v28 x W1 (ix2 i k) = ∑ d : Fin 128, x (ix2 i d) * W1 (ix2 d k) :=
  StackMember.dotGeneral_plain_apply (m := 10000) (n := 16) (k := 128) none x W1 i k

theorem res_v28_real (x : SX.Idx → EReal) (W1 : SW1.Idx → EReal) (hx : ∀ i, IsReal (x i)) (hW1 : ∀ i, IsReal (W1 i))
    (i : Fin 10000) (k : Fin 16) : IsReal (res_v28 x W1 (ix2 i k)) := by
  rw [res_v28_apply]
  exact isReal_sum _ _ fun d _ => isReal_mul (hx _) (hW1 _)

theorem res_v32_apply (cols : SE.Idx → BitVec 32) (j : Fin 10000) :
    res_v32 cols (ix1 j) = ∑ e : Fin 330000, if (cols (ix1 e)).toInt = (j.val : Int) then (1 : EReal) else 0 := by
  show Host.scatterAdd scatter_S10000_S330000x1_S330000_n_0_0_1 res_v30 (res_v31 cols) res_v29 (ix1 j) = _
  rw [scatterAdd1_apply]
  have h0 : res_v30 (ix1 j) = 0 := splat_zero _ _
  rw [h0, zero_add]
  refine Finset.sum_congr rfl fun e _ => ?_
  have hi : res_v31 cols (ix2 e (0 : Fin 1)) = cols (ix1 e) := bcastCol_apply cols e
  have h1 : res_v29 (ix1 e) = 1 := splat_one _ _
  rw [hi, h1]

section Layers

variable (x : SX.Idx → EReal) (a : SA.Idx → EReal) (W1 : SW1.Idx → EReal) (b1 : SB1.Idx → EReal)
  (W2 : SW2.Idx → EReal) (b2 : SB2.Idx → EReal) (rows cols : SE.Idx → BitVec 32)
  (hE : IsEdgeList a rows cols) (hrow : ∀ e : SE.Idx, 0 ≤ (rows e).toInt) (h01 : ∀ i, a i = 0 ∨ a i = 1)
  (hx : ∀ i, IsReal (x i)) (hW1 : ∀ i, IsReal (W1 i)) (hb1 : ∀ i, IsReal (b1 i)) (hW2 : ∀ i, IsReal (W2 i))
  (hb2 : ∀ i, IsReal (b2 i))

theorem dis_stage {s : Shape} (d z o zz : FVec Ideal s .f32) (i : s.Idx) :
    select (cmpf .ogt d z) (Host.divf o (Host.sqrt d)) zz i
      = Scalar.select (Ideal.cmp .ogt (d i) (z i)) (Ideal.div (o i) (Ideal.sqrt (d i))) (zz i) := rfl

include hE h01 in

theorem res_v38_apply (j : Fin 10000) : res_v38 cols (ix1 j) = dinv a j := by
  unfold res_v38 res_v34 res_v37 res_v35
  rw [dis_stage]
  have h33 : res_v33 (ix1 j) = 0 := splat_zero _ _
  have h36 : res_v36 (ix1 j) = 1 := splat_one _ _
  have h91 : res_call9_v1 (ix1 j) = 0 := splat_zero _ _
  rw [res_v32_apply, deg_sum a rows cols hE h01 j, h33, h36, h91]
  exact dis_eq a h01 j

theorem res_v44_apply (e : Fin 330000) : res_v44 rows (ix2 e (0 : Fin 1)) = normW (rows (ix1 e)) := by
  have h : res_v44 rows (ix2 e (0 : Fin 1)) = res_v43 rows (ix1 e) := bcastCol_apply (res_v43 rows) e
  rw [h]; rfl

theorem res_v51_apply (e : Fin 330000) : res_v51 cols (ix2 e (0 : Fin 1)) = normW (cols (ix1 e)) := by
  have h : res_v51 cols (ix2 e (0 : Fin 1)) = res_v50 cols (ix1 e) := bcastCol_apply (res_v50 cols) e
  rw [h]; rfl

theorem res_v59_apply (e : Fin 330000) : res_v59 rows (ix2 e (0 : Fin 1)) = normW (rows (ix1 e)) := by
  have h : res_v59 rows (ix2 e (0 : Fin 1)) = res_v58 rows (ix1 e) := bcastCol_apply (res_v58 rows) e
  rw [h]; rfl

include hE h01 in

theorem res_v53_apply (e : Fin 330000) :
    res_v53 rows cols (ix1 e)
      = dinv a (clampNode (normW (rows (ix1 e)))) * dinv a (clampNode (normW (cols (ix1 e)))) := by
  unfold res_v53
  rw [mulf_apply]
  have h45 : res_v45 rows cols (ix1 e) = res_v38 cols (ix1 (clampNode (res_v44 rows (ix2 e (0 : Fin 1))))) :=
    gather1_apply (res_v38 cols) (res_v44 rows) e
  have h52 : res_v52 cols (ix1 e) = res_v38 cols (ix1 (clampNode (res_v51 cols (ix2 e (0 : Fin 1))))) :=
    gather1_apply (res_v38 cols) (res_v51 cols) e
  rw [h45, h52, res_v44_apply, res_v51_apply, res_v38_apply a rows cols hE h01, res_v38_apply a rows cols hE h01]

include hE h01 in

theorem res_v63_apply (e : Fin 330000) (k : Fin 16) :
    res_v63 x W1 rows cols (ix2 e k)
      = res_v28 x W1 (ix2 (clampNode (normW (rows (ix1 e)))) k)
        * (dinv a (clampNode (normW (rows (ix1 e)))) * dinv a (clampNode (normW (cols (ix1 e))))) := by
  unfold res_v63
  rw [mulf_apply]
  have h60 : res_v60 x W1 rows (ix2 e k) = res_v28 x W1 (ix2 (clampNode (res_v59 rows (ix2 e (0 : Fin 1)))) k) :=
    gatherRows_apply 16 _ (res_v28 x W1) (res_v59 rows) e k
  have h62 : res_v62 rows cols (ix2 e k) = res_v53 rows cols (ix1 e) :=
    (bcastRow16_apply (res_v61 rows cols) e k).trans (bcastCol_apply (res_v53 rows cols) e)
  rw [h60, h62, res_v59_apply, res_v53_apply a rows cols hE h01]

include hE hrow h01 hx hW1 in

theorem res_v66_apply (j : Fin 10000) (k : Fin 16) :
    res_v66 x W1 rows cols (ix2 j k) = agg1 x a W1 j k * dinv a j := by
  refine (scatterAddRows_apply 16 _ res_v64 (res_v65 cols) (res_v63 x W1 rows cols) j k).trans ?_
  have h0 : res_v64 (ix2 j k) = 0 := splat_zero _ _
  rw [h0, zero_add]
  have hsum : (∑ e : Fin 330000, if (res_v65 cols (ix2 e (0 : Fin 1))).toInt = (j.val : Int)
        then res_v63 x W1 rows cols (ix2 e k) else 0)
      = ∑ e : Fin 330000, if (cols (ix1 e)).toInt = (j.val : Int)
        then (fun i k => res_v28 x W1 (ix2 i k)) (clampNode (normW (rows (ix1 e)))) k
          * (dinv a (clampNode (normW (rows (ix1 e)))) * dinv a (clampNode (normW (cols (ix1 e)))))
        else 0 := by
    refine Finset.sum_congr rfl fun e _ => ?_
    have hi : res_v65 cols (ix2 e (0 : Fin 1)) = cols (ix1 e) := bcastCol_apply cols e
    rw [hi, res_v63_apply x a W1 rows cols hE h01]
  rw [hsum, layer_sum a rows cols hE hrow h01 (fun i k => res_v28 x W1 (ix2 i k))
    (fun i k => res_v28_real x W1 hx hW1 i k) j k]
  unfold agg1 u1
  simp only [res_v28_apply]

include hE hrow h01 hx hW1 in

theorem res_v70_apply (j : Fin 10000) (k : Fin 16) :
    res_v70 x W1 b1 rows cols (ix2 j k) = o1 x a W1 b1 j k := by
  unfold res_v70 res_v69
  rw [maximumf_apply, addf_apply]
  have hb : res_v68 b1 (ix2 j k) = b1 (ix1 k) := bias16_apply b1 j k
  have hz : res_call10_v0 (ix2 j k) = 0 := splat_zero _ _
  rw [res_v66_apply x a W1 rows cols hE hrow h01 hx hW1, hb, hz]
  rfl

end Layers

end Cert.ReferenceIdeal.Hand

end
-- ==== Proof.RefNetStages2.lean ====
import Idealize.ShloMosaic.Lib.IdealHost
import Idealize.ShloMosaic.Lib.StackMember
import proofs.«109387_g55946243997874_fold_wed_m_672_4_alg».proof.Proof.RStages
import proofs.«109387_g55946243997874_fold_wed_m_672_4_alg».proof.Proof.RefNetOps
import proofs.«109387_g55946243997874_fold_wed_m_672_4_alg».proof.Proof.RefNetLayer
import proofs.«109387_g55946243997874_fold_wed_m_672_4_alg».proof.Proof.RefNetStages

noncomputable section

open scoped BigOperators

namespace Cert.ReferenceIdeal.Hand

open Idealize.ShloMosaic Idealize.ShloMosaic.ValueIdx Cert.ReferenceIdeal Cert.Gcn Cert.AggAlgebra
open Cert.ReferenceIdeal.Facts₀ Cert.ReferenceIdeal.Facts

variable [Cert.ReferenceIdeal.Facts]

section Layers2

variable (x : SX.Idx → EReal) (a : SA.Idx → EReal) (W1 : SW1.Idx → EReal) (b1 : SB1.Idx → EReal)
  (W2 : SW2.Idx → EReal) (b2 : SB2.Idx → EReal) (rows cols : SE.Idx → BitVec 32)
  (hE : IsEdgeList a rows cols) (hrow : ∀ e : SE.Idx, 0 ≤ (rows e).toInt) (h01 : ∀ i, a i = 0 ∨ a i = 1)
  (hx : ∀ i, IsReal (x i)) (hW1 : ∀ i, IsReal (W1 i)) (hb1 : ∀ i, IsReal (b1 i)) (hW2 : ∀ i, IsReal (W2 i))
  (hb2 : ∀ i, IsReal (b2 i))

include hE hrow h01 hx hW1 in

theorem res_v71_apply (i : Fin 10000) (c : Fin 40) :
    res_v71 x W1 b1 W2 rows cols (ix2 i c) = ∑ k : Fin 16, o1 x a W1 b1 i k * W2 (ix2 k c) := by
  have h : res_v71 x W1 b1 W2 rows cols (ix2 i c) = ∑ k : Fin 16, res_v70 x W1 b1 rows cols (ix2 i k) * W2 (ix2 k c) :=
    StackMember.dotGeneral_plain_apply (m := 10000) (n := 40) (k := 16) none (res_v70 x W1 b1 rows cols) W2 i c
  rw [h]
  exact Finset.sum_congr rfl fun k _ => by rw [res_v70_apply x a W1 b1 rows cols hE hrow h01 hx hW1]

include hE hrow h01 hx hW1 hb1 hW2 in
theorem res_v71_real (i : Fin 10000) (c : Fin 40) : IsReal (res_v71 x W1 b1 W2 rows cols (ix2 i c)) := by
  rw [res_v71_apply x a W1 b1 W2 rows cols hE hrow h01 hx hW1]
  exact isReal_sum _ _ fun k _ => isReal_mul (o1_real x a W1 b1 h01 hx hW1 hb1 i k) (hW2 _)

theorem res_v75_apply (j : Fin 10000) :
    res_v75 cols (ix1 j) = ∑ e : Fin 330000, if (cols (ix1 e)).toInt = (j.val : Int) then (1 : EReal) else 0 := by
  show Host.scatterAdd scatter_S10000_S330000x1_S330000_n_0_0_1 res_v73 (res_v74 cols) res_v72 (ix1 j) = _
  rw [scatterAdd1_apply]
  have h0 : res_v73 (ix1 j) = 0 := splat_zero _ _
  rw [h0, zero_add]
  refine Finset.sum_congr rfl fun e _ => ?_
  have hi : res_v74 cols (ix2 e (0 : Fin 1)) = cols (ix1 e) := bcastCol_apply cols e
  have h1 : res_v72 (ix1 e) = 1 := splat_one _ _
  rw [hi, h1]

include hE h01 in

theorem res_v81_apply (j : Fin 10000) : res_v81 cols (ix1 j) = dinv a j := by
  unfold res_v81 res_v77 res_v80 res_v78
  rw [dis_stage]
  have h76 : res_v76 (ix1 j) = 0 := splat_zero _ _
  have h79 : res_v79 (ix1 j) = 1 := splat_one _ _
  have h111 : res_call11_v1 (ix1 j) = 0 := splat_zero _ _
  rw [res_v75_apply, deg_sum a rows cols hE h01 j, h76, h79, h111]
  exact dis_eq a h01 j

theorem res_v87_apply (e : Fin 330000) : res_v87 rows (ix2 e (0 : Fin 1)) = normW (rows (ix1 e)) := by
  have h : res_v87 rows (ix2 e (0 : Fin 1)) = res_v86 rows (ix1 e) := bcastCol_apply (res_v86 rows) e
  rw [h]; rfl

theorem res_v94_apply (e : Fin 330000) : res_v94 cols (ix2 e (0 : Fin 1)) = normW (cols (ix1 e)) := by
  have h : res_v94 cols (ix2 e (0 : Fin 1)) = res_v93 cols (ix1 e) := bcastCol_apply (res_v93 cols) e
  rw [h]; rfl

theorem res_v102_apply (e : Fin 330000) : res_v102 rows (ix2 e (0 : Fin 1)) = normW (rows (ix1 e)) := by
  have h : res_v102 rows (ix2 e (0 : Fin 1)) = res_v101 rows (ix1 e) := bcastCol_apply (res_v101 rows) e
  rw [h]; rfl

include hE h01 in

theorem res_v96_apply (e : Fin 330000) :
    res_v96 rows cols (ix1 e)
      = dinv a (clampNode (normW (rows (ix1 e)))) * dinv a (clampNode (normW (cols (ix1 e)))) := by
  unfold res_v96
  rw [mulf_apply]
  have h88 : res_v88 rows cols (ix1 e) = res_v81 cols (ix1 (clampNode (res_v87 rows (ix2 e (0 : Fin 1))))) :=
    gather1_apply (res_v81 cols) (res_v87 rows) e
  have h95 : res_v95 cols (ix1 e) = res_v81 cols (ix1 (clampNode (res_v94 cols (ix2 e (0 : Fin 1))))) :=
    gather1_apply (res_v81 cols) (res_v94 cols) e
  rw [h88, h95, res_v87_apply, res_v94_apply, res_v81_apply a rows cols hE h01, res_v81_apply a rows cols hE h01]

include hE h01 in

theorem res_v106_apply (e : Fin 330000) (c : Fin 40) :
    res_v106 x W1 b1 W2 rows cols (ix2 e c)
      = res_v71 x W1 b1 W2 rows cols (ix2 (clampNode (normW (rows (ix1 e)))) c)
        * (dinv a (clampNode (normW (rows (ix1 e)))) * dinv a (clampNode (normW (cols (ix1 e))))) := by
  unfold res_v106
  rw [mulf_apply]
  have h103 : res_v103 x W1 b1 W2 rows cols (ix2 e c)
      = res_v71 x W1 b1 W2 rows cols (ix2 (clampNode (res_v102 rows (ix2 e (0 : Fin 1)))) c) :=
    gatherRows_apply 40 _ (res_v71 x W1 b1 W2 rows cols) (res_v102 rows) e c
  have h105 : res_v105 rows cols (ix2 e c) = res_v96 rows cols (ix1 e) :=
    (bcastRow40_apply (res_v104 rows cols) e c).trans (bcastCol_apply (res_v96 rows cols) e)
  rw [h103, h105, res_v102_apply, res_v96_apply a rows cols hE h01]

include hE hrow h01 hx hW1 hb1 hW2 in

theorem res_v109_apply (j : Fin 10000) (c : Fin 40) :
    res_v109 x W1 b1 W2 rows cols (ix2 j c) = agg2 x a W1 b1 W2 j c * dinv a j := by
  refine (scatterAddRows_apply 40 _ res_v107 (res_v108 cols) (res_v106 x W1 b1 W2 rows cols) j c).trans ?_
  have h0 : res_v107 (ix2 j c) = 0 := splat_zero _ _
  rw [h0, zero_add]
  have hsum : (∑ e : Fin 330000, if (res_v108 cols (ix2 e (0 : Fin 1))).toInt = (j.val : Int)
        then res_v106 x W1 b1 W2 rows cols (ix2 e c) else 0)
      = ∑ e : Fin 330000, if (cols (ix1 e)).toInt = (j.val : Int)
        then (fun i c => res_v71 x W1 b1 W2 rows cols (ix2 i c)) (clampNode (normW (rows (ix1 e)))) c
          * (dinv a (clampNode (normW (rows (ix1 e)))) * dinv a (clampNode (normW (cols (ix1 e)))))
        else 0 := by
    refine Finset.sum_congr rfl fun e _ => ?_
    have hi : res_v108 cols (ix2 e (0 : Fin 1)) = cols (ix1 e) := bcastCol_apply cols e
    rw [hi, res_v106_apply x a W1 b1 W2 rows cols hE h01]
  rw [hsum, layer_sum a rows cols hE hrow h01 (fun i c => res_v71 x W1 b1 W2 rows cols (ix2 i c))
    (fun i c => res_v71_real x a W1 b1 W2 rows cols hE hrow h01 hx hW1 hb1 hW2 i c) j c]
  unfold agg2 u2
  simp only [res_v71_apply x a W1 b1 W2 rows cols hE hrow h01 hx hW1]

include hE hrow h01 hx hW1 hb1 hW2 in

theorem res_v112_apply (j : Fin 10000) (c : Fin 40) :
    res_v112 x W1 b1 W2 b2 rows cols (ix2 j c) = logits x a W1 b1 W2 b2 j c := by
  unfold res_v112
  rw [addf_apply]
  have hb : res_v111 b2 (ix2 j c) = b2 (ix1 c) := bias40_apply b2 j c
  rw [res_v109_apply x a W1 b1 W2 rows cols hE hrow h01 hx hW1 hb1 hW2, hb]
  rfl

end Layers2

end Cert.ReferenceIdeal.Hand

end
-- ==== Proof.RefNetTail.lean ====
import proofs.«109387_g55946243997874_fold_wed_m_672_4_alg».proof.Proof.RStages
import proofs.«109387_g55946243997874_fold_wed_m_672_4_alg».proof.Proof.LibRowReduce

noncomputable section

namespace Cert.ReferenceIdeal.Hand

open Idealize.ShloMosaic Idealize.ShloMosaic.ValueIdx Cert.ReferenceIdeal Cert.Gcn
open Cert.ReferenceIdeal.Facts₀ Cert.ReferenceIdeal.Facts

variable [Cert.ReferenceIdeal.Facts]

theorem res_v113_tail (x : SX.Idx → EReal) (W1 : SW1.Idx → EReal) (b1 : SB1.Idx → EReal) (W2 : SW2.Idx → EReal)
    (b2 : SB2.Idx → EReal) (rows cols : SE.Idx → BitVec 32) (j : Fin 10000) (c : Fin 40) :
    res_v113 x W1 b1 W2 b2 rows cols (ix2 j c)
      = logSoftmaxRow (fun c' => res_v112 x W1 b1 W2 b2 rows cols (ix2 j c')) c := by
  unfold res_v113 res_call12_v10 res_call12_v9 res_call12_v8 res_call12_v7 res_call12_v6 res_call12_v5 res_call12_v4
    res_call12_v3 res_call12_v2 res_call12_v1 res_call12_v0 res_call12_cst res_call12_cst_0 res_call12_cst_1
  exact Cert.RowReduce.host_tail (res_v112 x W1 b1 W2 b2 rows cols) reducesTo_S10000x40_S10000_d1 h_S_
    bcast_S_S10000 bcast_S10000_S10000x1_0 bcast_S10000x1_S10000x40_0_1 j c

end Cert.ReferenceIdeal.Hand

end
-- ==== Proof.RefNet.lean ====
import proofs.«109387_g55946243997874_fold_wed_m_672_4_alg».proof.Proof.RStages
import proofs.«109387_g55946243997874_fold_wed_m_672_4_alg».proof.Proof.RefNetStages2
import proofs.«109387_g55946243997874_fold_wed_m_672_4_alg».proof.Proof.RefNetTail

noncomputable section

namespace Cert.ReferenceIdeal.Hand

open Idealize.ShloMosaic Idealize.ShloMosaic.ValueIdx Cert.ReferenceIdeal Cert.Gcn

variable [Cert.ReferenceIdeal.Facts]

/-- Over such a list and real entries the normalisation factors move across the slot sums, so the edge-list network is the dense one. -/
theorem netT_eq (x : SX.Idx → EReal) (a : SA.Idx → EReal) (W1 : SW1.Idx → EReal) (b1 : SB1.Idx → EReal)
    (W2 : SW2.Idx → EReal) (b2 : SB2.Idx → EReal) (rows cols : SE.Idx → BitVec 32)
    (hE : IsEdgeList a rows cols) (hrow : ∀ e : SE.Idx, 0 ≤ (rows e).toInt)
    (hx : ∀ i, ∃ r : ℝ, x i = (r : EReal)) (hW1 : ∀ i, ∃ r : ℝ, W1 i = (r : EReal))
    (hb1 : ∀ i, ∃ r : ℝ, b1 i = (r : EReal)) (hW2 : ∀ i, ∃ r : ℝ, W2 i = (r : EReal))
    (hb2 : ∀ i, ∃ r : ℝ, b2 i = (r : EReal)) (h01 : ∀ i, a i = 0 ∨ a i = 1) :
    netT x W1 b1 W2 b2 rows cols = Cert.Gcn.out x a W1 b1 W2 b2 := by
  funext idx
  obtain ⟨j, c, rfl⟩ : ∃ (j : Fin 10000) (c : Fin 40), idx = ix2 j c := ⟨idx 0, idx 1, eq_ix2 idx⟩
  have hrowL : (fun c' : Fin 40 => res_v112 x W1 b1 W2 b2 rows cols (ix2 j c')) = logits x a W1 b1 W2 b2 j :=
    funext fun c' => res_v112_apply x a W1 b1 W2 b2 rows cols hE hrow h01 hx hW1 hb1 hW2 j c'
  unfold netT Cert.Gcn.out
  rw [res_v113_tail, hrowL]

end Cert.ReferenceIdeal.Hand

end
-- ==== Proof.PreDecode.lean ====
import Idealize.ShloMosaic.Lib.ReduceAll
import Idealize.ShloMosaic.Lib.StableHlo.Predicate
import Idealize.ShloMosaic.PureOps.Ideal
import proofs.«109387_g55946243997874_fold_wed_m_672_4_alg».proof.Pre_finite_inputs
import proofs.«109387_g55946243997874_fold_wed_m_672_4_alg».proof.Proof.Spec

noncomputable section

open scoped Classical

namespace Cert.Pre_finite_inputs.Hand

open Idealize.ShloMosaic

variable [Cert.Pre_finite_inputs.Facts]

instance : Subsingleton S_.Idx := ⟨fun a b => funext fun d => d.elim0⟩

theorem ofBits_inf : Ideal.ofBits .f32 0x7F800000#32 = (⊤ : EReal) := by
  simp [Ideal.ofBits, Ideal.ieee]

theorem ofBits_zero : Ideal.ofBits .f32 0x00000000#32 = (0 : EReal) := by
  simp [Ideal.ofBits, Ideal.ieee]

theorem ofBits_one : Ideal.ofBits .f32 0x3F800000#32 = (1 : EReal) := by
  simp [Ideal.ofBits, Ideal.ieee]
  rw [← EReal.coe_mul, ← EReal.coe_one]
  congr 1
  norm_num

theorem real_of_abs_lt_top (v : EReal) (h : Ideal.cmp .olt (max v (-v)) (⊤ : EReal) = 1#1) :
    ∃ r : ℝ, v = (r : EReal) := by
  induction v using EReal.rec with
  | bot => simp [Ideal.cmp] at h
  | coe r => exact ⟨r, rfl⟩
  | top => simp [Ideal.cmp] at h

theorem cmp_oeq_eq_one (u v : EReal) : Ideal.cmp .oeq u v = 1#1 ↔ u = v := by
  simp [Ideal.cmp, StableHlo.Predicate.ofBool_eq_one_iff]

theorem cmp_une_eq_one (u v : EReal) : Ideal.cmp .une u v = 1#1 ↔ u ≠ v := by
  simp [Ideal.cmp, StableHlo.Predicate.ofBool_eq_one_iff]

theorem all_real {s : Shape} {axes : List (Fin s.rank)} (v : s.Idx → EReal)
    (bc : S_.BroadcastsInDim s (![] : Fin 0 → Fin s.rank)) (hr : s.ReducesTo axes S_) (hu : 0 < S_.numel)
    (h : Host.reduce IntOp.andi
        (cmpf .olt (Host.absf (F := Ideal) (φ := .f32) v) (broadcastInDim s ![] bc (constant S_ .f32 0x7F800000#32)))
        (constantI S_ 1 1#1) hr hu ValueIdx.ix0 = 1#1) (i : s.Idx) : ∃ r : ℝ, v i = (r : EReal) := by
  have hi := Host.reduce_andi_all _ _ hr hu _ h i
  have hi' : Ideal.cmp .olt (max (v i) (-(v i))) (Ideal.ofBits .f32 0x7F800000#32) = 1#1 := hi
  rw [ofBits_inf] at hi'
  exact real_of_abs_lt_top _ hi'

theorem all_zero_one {s : Shape} {axes : List (Fin s.rank)} (a : s.Idx → EReal)
    (bc : S_.BroadcastsInDim s (![] : Fin 0 → Fin s.rank)) (hr : s.ReducesTo axes S_) (hu : 0 < S_.numel)
    (h : Host.reduce IntOp.andi
        (ori (cmpf (F := Ideal) (φ := .f32) .oeq a (broadcastInDim s ![] bc (constant S_ .f32 0x00000000#32)))
          (cmpf (F := Ideal) (φ := .f32) .oeq a (broadcastInDim s ![] bc (constant S_ .f32 0x3F800000#32))))
        (constantI S_ 1 1#1) hr hu ValueIdx.ix0 = 1#1) (i : s.Idx) : a i = 0 ∨ a i = 1 := by
  have hi := Host.reduce_andi_all _ _ hr hu _ h i
  have hi' : IntOp.ori (Ideal.cmp .oeq (a i) (Ideal.ofBits .f32 0x00000000#32))
      (Ideal.cmp .oeq (a i) (Ideal.ofBits .f32 0x3F800000#32)) = 1#1 := hi
  rw [ofBits_zero, ofBits_one, IntOp.ori_eq_one, cmp_oeq_eq_one, cmp_oeq_eq_one] at hi'
  exact hi'

theorem toNat_reduce_count_all {s : Shape} {axes : List (Fin s.rank)} (hs : s.numel < 2 ^ 32) (mask : IVec s 1)
    (hw : 1 < 32) (h : s.ReducesTo axes S_) {u : Shape} (hu : 0 < u.numel) (j : S_.Idx) :
    (Host.reduce IntOp.addi (extui 32 mask hw) (constantI u 32 0#32) h hu j).toNat
      = (Finset.univ.filter (fun i : s.Idx => mask i = 1#1)).card := by
  rw [Host.reduce_eq_fold]
  have hval : ∀ i, (extui 32 mask hw i).toNat = if mask i = 1#1 then 1 else 0 :=
    fun i => StableHlo.Predicate.toNat_setWidth_bit (mask i)

  have hall : (Finset.univ.filter fun i : s.Idx => h.drop i = j) = Finset.univ :=
    Finset.filter_true_of_mem fun i _ => Subsingleton.elim _ _
  have hsum : ∑ i ∈ (Finset.univ : Finset s.Idx), (extui 32 mask hw i).toNat
      = (Finset.univ.filter (fun i : s.Idx => mask i = 1#1)).card := by
    rw [Finset.card_filter]
    exact Finset.sum_congr rfl fun i _ => hval i
  show (Finset.fold IntOp.addi 0#32 (extui 32 mask hw) (Finset.univ.filter fun i : s.Idx => h.drop i = j)).toNat = _
  rw [hall, StableHlo.Predicate.toNat_fold_addi _ _ (by
    rw [hsum]
    exact lt_of_le_of_lt (Finset.card_le_univ _) (by rw [Shape.card_idx]; exact hs)), hsum]

theorem numel_adj : S10000x10000.numel = 100000000 := by
  rw [Shape.numel, Fin.prod_univ_two]
  rfl

theorem count_le {axes : List (Fin S10000x10000.rank)} (a : S10000x10000.Idx → EReal)
    (bc : S_.BroadcastsInDim S10000x10000 (![] : Fin 0 → Fin S10000x10000.rank))
    (hr : S10000x10000.ReducesTo axes S_) (hu : 0 < S_.numel) (hw : 1 < 32)
    (h : cmpi .sle
        (Host.reduce IntOp.addi
          (extui 32 (cmpf (F := Ideal) (φ := .f32) .une a (broadcastInDim S10000x10000 ![] bc (constant S_ .f32 0x00000000#32))) hw)
          (constantI S_ 32 0#32) hr hu)
        (constantI S_ 32 320000#32) ValueIdx.ix0 = 1#1) :
    (Finset.univ.filter fun i : S10000x10000.Idx => a i ≠ 0).card ≤ 320000 := by
  have hcnt := toNat_reduce_count_all (by rw [numel_adj]; norm_num)
    (cmpf (F := Ideal) (φ := .f32) .une a (broadcastInDim S10000x10000 ![] bc (constant S_ .f32 0x00000000#32)))
    hw hr hu ValueIdx.ix0
  have hbound : (Finset.univ.filter (fun i : S10000x10000.Idx =>
      cmpf (F := Ideal) (φ := .f32) .une a (broadcastInDim S10000x10000 ![] bc (constant S_ .f32 0x00000000#32)) i = 1#1)).card
      ≤ 100000000 := by
    refine le_trans (Finset.card_le_univ _) ?_
    rw [Shape.card_idx, numel_adj]
  have h' : IntOp.cmpi .sle
      (Host.reduce IntOp.addi
        (extui 32 (cmpf (F := Ideal) (φ := .f32) .une a (broadcastInDim S10000x10000 ![] bc (constant S_ .f32 0x00000000#32))) hw)
        (constantI S_ 32 0#32) hr hu ValueIdx.ix0) 320000#32 = 1#1 := h
  rw [StableHlo.Predicate.sle_iff_toNat (by rw [hcnt]; omega) (by decide), hcnt] at h'
  have hf : (Finset.univ.filter (fun i : S10000x10000.Idx =>
      cmpf (F := Ideal) (φ := .f32) .une a (broadcastInDim S10000x10000 ![] bc (constant S_ .f32 0x00000000#32)) i = 1#1))
      = Finset.univ.filter fun i : S10000x10000.Idx => a i ≠ 0 := by
    refine Finset.filter_congr fun i _ => ?_
    show Ideal.cmp .une (a i) (Ideal.ofBits .f32 0x00000000#32) = 1#1 ↔ a i ≠ 0
    rw [ofBits_zero, cmp_une_eq_one]
  rw [hf] at h'
  exact h'

theorem decode (x : Cert.Gcn.SX.Idx → EReal) (a : Cert.Gcn.SA.Idx → EReal) (W1 : Cert.Gcn.SW1.Idx → EReal)
    (b1 : Cert.Gcn.SB1.Idx → EReal) (W2 : Cert.Gcn.SW2.Idx → EReal) (b2 : Cert.Gcn.SB2.Idx → EReal)
    (h : Cert.Pre_finite_inputs.fn (F := Ideal) x a W1 b1 W2 b2 = fun _ => 1#1) :
    (∀ i, ∃ r : ℝ, x i = (r : EReal)) ∧ (∀ i, ∃ r : ℝ, W1 i = r) ∧ (∀ i, ∃ r : ℝ, b1 i = r)
      ∧ (∀ i, ∃ r : ℝ, W2 i = r) ∧ (∀ i, ∃ r : ℝ, b2 i = r)
      ∧ (∀ i, a i = 0 ∨ a i = 1) ∧ (Finset.univ.filter fun i : Cert.Gcn.SA.Idx => a i ≠ 0).card ≤ 320000 := by
  have h0 := congrFun h ValueIdx.ix0
  dsimp only [fn, fn_part1, fn_part2] at h0
  obtain ⟨h0, hcount⟩ := IntOp.andi_eq_one.1 h0
  obtain ⟨h0, h01⟩ := IntOp.andi_eq_one.1 h0
  obtain ⟨h0, hb2⟩ := IntOp.andi_eq_one.1 h0
  obtain ⟨h0, hW2⟩ := IntOp.andi_eq_one.1 h0
  obtain ⟨h0, hb1⟩ := IntOp.andi_eq_one.1 h0
  obtain ⟨h0, hW1⟩ := IntOp.andi_eq_one.1 h0
  obtain ⟨hx, _⟩ := IntOp.andi_eq_one.1 h0
  exact ⟨all_real x _ _ _ hx, all_real W1 _ _ _ hW1, all_real b1 _ _ _ hb1, all_real W2 _ _ _ hW2,
    all_real b2 _ _ _ hb2, all_zero_one a _ _ _ h01, count_le a _ _ _ _ hcount⟩

end Cert.Pre_finite_inputs.Hand

end
-- ==== Proof.lean ====
import proofs.«109387_g55946243997874_fold_wed_m_672_4_alg».proof.Defs
import proofs.«109387_g55946243997874_fold_wed_m_672_4_alg».proof.Proof.Gen.Kernel
import proofs.«109387_g55946243997874_fold_wed_m_672_4_alg».proof.Proof.Gen.KernelIdeal
import proofs.«109387_g55946243997874_fold_wed_m_672_4_alg».proof.Proof.Gen.ReferenceIdeal
import proofs.«109387_g55946243997874_fold_wed_m_672_4_alg».proof.Proof.Gen.Pre_finite_inputs
import proofs.«109387_g55946243997874_fold_wed_m_672_4_alg».proof.Proof.KFinal
import proofs.«109387_g55946243997874_fold_wed_m_672_4_alg».proof.Proof.RRun
import proofs.«109387_g55946243997874_fold_wed_m_672_4_alg».proof.Proof.RefEdges
import proofs.«109387_g55946243997874_fold_wed_m_672_4_alg».proof.Proof.RefNet
import proofs.«109387_g55946243997874_fold_wed_m_672_4_alg».proof.Proof.PreDecode
import Idealize.ShloMosaic.Adequacy
import Idealize.ShloMosaic.Init

noncomputable section

namespace Cert.Proof

open Idealize.ShloMosaic Idealize.ShloMosaic.TcCoe Idealize.SL.Sem

/-- The ideal pass rewrote nothing, so the word-level program's body table is the idealized program's, label by label. -/
theorem defs₀_eq : Cert.Kernel.defs₀ (F := Bits) = Cert.KernelIdeal.defs₀ (F := Bits) := by
  unfold Cert.Kernel.defs₀ Cert.KernelIdeal.defs₀
  congr 1
  funext l a
  match l, a with
  | 0, (t, s) => rfl
  | 1, (t, s) => rfl
  | 2, (t, s) => rfl

theorem defs_eq : Cert.Kernel.defs (F := Bits) = Cert.KernelIdeal.defs (F := Bits) :=
  congrArg (Pipeline.defs Cert.KernelIdeal.pcfgs) defs₀_eq

/-- So the frame proved once, for every instance, is also the word-level program's. -/
theorem frame_kernel : Cert.frame_Kernel := fun m ρ _ => by
  rw [defs_eq]
  exact Cert.KernelIdeal.Hand.frame_all (F := Bits) m ρ

theorem frame_kernelIdeal : Cert.frame_KernelIdeal := fun m ρ _ =>
  (θ_run Cert.KernelIdeal.defs _ _).mono (fun _ h c => (h c).2) (Cert.KernelIdeal.Hand.run_val m ρ)

theorem frame_referenceIdeal : Cert.frame_ReferenceIdeal := fun m ρ _ =>
  (θ_run Cert.ReferenceIdeal.defs _ _).mono (fun _ h c => (h c).2) (Cert.ReferenceIdeal.Hand.run m ρ)

theorem algebraic : Cert.algebraic_KernelIdeal_ReferenceIdeal := by
  intro m ρ m' ρ' hpre hagree
  open Cert.KernelIdeal in
  refine ⟨fun c => Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    fun c => m ((c.tc : Thread nD τ).loc main_arg1), ?_, ?_⟩
  · refine (θ_run Cert.KernelIdeal.defs _ _).mono (fun r h c => ?_) (Cert.KernelIdeal.Hand.run_val m ρ)
    obtain ⟨hv, h0, h1, h2, h3, h4, h5⟩ := h c
    exact ⟨hv, h1, h0, h1, h2, h3, h4, h5⟩
  · refine (θ_run Cert.ReferenceIdeal.defs _ _).mono (fun r h c => ?_) (Cert.ReferenceIdeal.Hand.run m' ρ')
    obtain ⟨hv, h0, h1, h2, h3, h4, h5⟩ := h c
    obtain ⟨e0, e1, e2, e3, e4, e5⟩ := hagree c
    refine ⟨hv.trans ?_, h1.trans e1, h0, h1, h2, h3, h4, h5⟩
    rw [e0, e1, e2, e3, e4, e5]
    obtain ⟨hx, hW1, hb1, hW2, hb2, h01, hcnt⟩ := Cert.Pre_finite_inputs.Hand.decode _ _ _ _ _ _ (hpre c)
    exact Cert.ReferenceIdeal.Hand.netT_eq _ _ _ _ _ _ _ _ (Cert.ReferenceIdeal.Hand.isEdgeList _ hcnt)
      (Cert.ReferenceIdeal.Hand.rowsT_nonneg _) hx hW1 hb1 hW2 hb2 h01

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
